-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v301)) (v1 : (c : Dev Cert.KernelIdeal.nD) → Buf (Elt Ideal) ((c.tc : Thread Cert.KernelIdeal.nD Cert.KernelIdeal.τ).loc Cert.KernelIdeal.main_v154)) (v2 : (c : Dev Cert.KernelIdeal.nD) → Buf (Elt Ideal) ((c.tc : Thread Cert.KernelIdeal.nD Cert.KernelIdeal.τ).loc Cert.KernelIdeal.main_v211)) (v3 : (c : Dev Cert.KernelIdeal.nD) → Buf (Elt Ideal) ((c.tc : Thread Cert.KernelIdeal.nD Cert.KernelIdeal.τ).loc Cert.KernelIdeal.main_v313)) (v4 : (c : Dev Cert.KernelIdeal.nD) → Buf (Elt Ideal) ((c.tc : Thread Cert.KernelIdeal.nD Cert.KernelIdeal.τ).loc Cert.KernelIdeal.main_v213)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v301) = v0 c
          ∧ r.2.mem ((c.tc : Thread Cert.KernelIdeal.nD Cert.KernelIdeal.τ).loc Cert.KernelIdeal.main_v154) = v1 c
          ∧ r.2.mem ((c.tc : Thread Cert.KernelIdeal.nD Cert.KernelIdeal.τ).loc Cert.KernelIdeal.main_v211) = v2 c
          ∧ r.2.mem ((c.tc : Thread Cert.KernelIdeal.nD Cert.KernelIdeal.τ).loc Cert.KernelIdeal.main_v313) = v3 c
          ∧ r.2.mem ((c.tc : Thread Cert.KernelIdeal.nD Cert.KernelIdeal.τ).loc Cert.KernelIdeal.main_v213) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v307) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v218) = v2 c
          ∧ r.2.mem ((c.tc : Thread Cert.ReferenceIdeal.nD Cert.ReferenceIdeal.τ).loc Cert.ReferenceIdeal.main_v325) = v3 c
          ∧ r.2.mem ((c.tc : Thread Cert.ReferenceIdeal.nD Cert.ReferenceIdeal.τ).loc Cert.ReferenceIdeal.main_v219) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x14 : Shape := ⟨2, ![1, 14]⟩
abbrev S1x1000000 : Shape := ⟨2, ![1, 1000000]⟩
abbrev S1000000x20 : Shape := ⟨2, ![1000000, 20]⟩
abbrev S1x20 : Shape := ⟨2, ![1, 20]⟩
abbrev S48x14 : Shape := ⟨2, ![48, 14]⟩
abbrev S48 : Shape := ⟨1, ![48]⟩
abbrev S72x48 : Shape := ⟨2, ![72, 48]⟩
abbrev S72 : Shape := ⟨1, ![72]⟩
abbrev S92x72 : Shape := ⟨2, ![92, 72]⟩
abbrev S92 : Shape := ⟨1, ![92]⟩
abbrev S3x72 : Shape := ⟨2, ![3, 72]⟩
abbrev S3 : Shape := ⟨1, ![3]⟩
abbrev S20x325 : Shape := ⟨2, ![20, 325]⟩
abbrev S20 : Shape := ⟨1, ![20]⟩
abbrev S110x40 : Shape := ⟨2, ![110, 40]⟩
abbrev S110 : Shape := ⟨1, ![110]⟩
abbrev S190x110 : Shape := ⟨2, ![190, 110]⟩
abbrev S190 : Shape := ⟨1, ![190]⟩
abbrev S270x190 : Shape := ⟨2, ![270, 190]⟩
abbrev S270 : Shape := ⟨1, ![270]⟩
abbrev S325x270 : Shape := ⟨2, ![325, 270]⟩
abbrev S325 : Shape := ⟨1, ![325]⟩
abbrev S_ : Shape := ⟨0, ![]⟩

class Facts : Prop where
  bcast_S_S1x14 : S_.BroadcastsInDim S1x14 (![] : Fin 0 → Fin S1x14.rank)
  reducesTo_S1x14_S_d0_1 : S1x14.ReducesTo [0, 1] S_
  h_S_ : 0 < S_.numel
  bcast_S_S1x1000000 : S_.BroadcastsInDim S1x1000000 (![] : Fin 0 → Fin S1x1000000.rank)
  reducesTo_S1x1000000_S_d0_1 : S1x1000000.ReducesTo [0, 1] S_
  bcast_S_S1000000x20 : S_.BroadcastsInDim S1000000x20 (![] : Fin 0 → Fin S1000000x20.rank)
  reducesTo_S1000000x20_S_d0_1 : S1000000x20.ReducesTo [0, 1] S_
  bcast_S_S1x20 : S_.BroadcastsInDim S1x20 (![] : Fin 0 → Fin S1x20.rank)
  reducesTo_S1x20_S_d0_1 : S1x20.ReducesTo [0, 1] S_
  bcast_S_S48x14 : S_.BroadcastsInDim S48x14 (![] : Fin 0 → Fin S48x14.rank)
  reducesTo_S48x14_S_d0_1 : S48x14.ReducesTo [0, 1] S_
  bcast_S_S48 : S_.BroadcastsInDim S48 (![] : Fin 0 → Fin S48.rank)
  reducesTo_S48_S_d0 : S48.ReducesTo [0] S_
  bcast_S_S72x48 : S_.BroadcastsInDim S72x48 (![] : Fin 0 → Fin S72x48.rank)
  reducesTo_S72x48_S_d0_1 : S72x48.ReducesTo [0, 1] S_
  bcast_S_S72 : S_.BroadcastsInDim S72 (![] : Fin 0 → Fin S72.rank)
  reducesTo_S72_S_d0 : S72.ReducesTo [0] S_
  bcast_S_S92x72 : S_.BroadcastsInDim S92x72 (![] : Fin 0 → Fin S92x72.rank)
  reducesTo_S92x72_S_d0_1 : S92x72.ReducesTo [0, 1] S_
  bcast_S_S92 : S_.BroadcastsInDim S92 (![] : Fin 0 → Fin S92.rank)
  reducesTo_S92_S_d0 : S92.ReducesTo [0] S_
  bcast_S_S3x72 : S_.BroadcastsInDim S3x72 (![] : Fin 0 → Fin S3x72.rank)
  reducesTo_S3x72_S_d0_1 : S3x72.ReducesTo [0, 1] S_
  bcast_S_S3 : S_.BroadcastsInDim S3 (![] : Fin 0 → Fin S3.rank)
  reducesTo_S3_S_d0 : S3.ReducesTo [0] S_
  bcast_S_S20x325 : S_.BroadcastsInDim S20x325 (![] : Fin 0 → Fin S20x325.rank)
  reducesTo_S20x325_S_d0_1 : S20x325.ReducesTo [0, 1] S_
  bcast_S_S20 : S_.BroadcastsInDim S20 (![] : Fin 0 → Fin S20.rank)
  reducesTo_S20_S_d0 : S20.ReducesTo [0] S_
  bcast_S_S110x40 : S_.BroadcastsInDim S110x40 (![] : Fin 0 → Fin S110x40.rank)
  reducesTo_S110x40_S_d0_1 : S110x40.ReducesTo [0, 1] S_
  bcast_S_S110 : S_.BroadcastsInDim S110 (![] : Fin 0 → Fin S110.rank)
  reducesTo_S110_S_d0 : S110.ReducesTo [0] S_
  bcast_S_S190x110 : S_.BroadcastsInDim S190x110 (![] : Fin 0 → Fin S190x110.rank)
  reducesTo_S190x110_S_d0_1 : S190x110.ReducesTo [0, 1] S_
  bcast_S_S190 : S_.BroadcastsInDim S190 (![] : Fin 0 → Fin S190.rank)
  reducesTo_S190_S_d0 : S190.ReducesTo [0] S_
  bcast_S_S270x190 : S_.BroadcastsInDim S270x190 (![] : Fin 0 → Fin S270x190.rank)
  reducesTo_S270x190_S_d0_1 : S270x190.ReducesTo [0, 1] S_
  bcast_S_S270 : S_.BroadcastsInDim S270 (![] : Fin 0 → Fin S270.rank)
  reducesTo_S270_S_d0 : S270.ReducesTo [0] S_
  bcast_S_S325x270 : S_.BroadcastsInDim S325x270 (![] : Fin 0 → Fin S325x270.rank)
  reducesTo_S325x270_S_d0_1 : S325x270.ReducesTo [0, 1] S_
  bcast_S_S325 : S_.BroadcastsInDim S325 (![] : Fin 0 → Fin S325.rank)
  reducesTo_S325_S_d0 : S325.ReducesTo [0] S_

variable [Facts]

def fn_part8 {F : FTy → Type} [FloatOps F] (main_arg28 : FVec F S270 .f32) (main_arg29 : FVec F S325x270 .f32) (main_arg30 : FVec F S325 .f32) (main_v133 : IVec S_ 1) (main_v136 : IVec S270x190 1) : IVec S_ 1 :=
  let main_c_53 : IVec S_ 1 := constantI S_ 1 1#1
  let main_v137 : IVec S_ 1 := (fun x v => Host.reduce IntOp.andi x v reducesTo_S270x190_S_d0_1 h_S_) main_v136 main_c_53
  let main_v138 : IVec S_ 1 := andi main_v133 main_v137
  let main_v139 : FVec F S270 .f32 := Host.absf main_arg28
  let main_cst_54 : FVec F S_ .f32 := constant S_ .f32 0x7F800000#32
  let main_v140 : FVec F S270 .f32 := broadcastInDim S270 ![] bcast_S_S270 main_cst_54
  let main_v141 : IVec S270 1 := cmpf .olt main_v139 main_v140
  let main_c_55 : IVec S_ 1 := constantI S_ 1 1#1
  let main_v142 : IVec S_ 1 := (fun x v => Host.reduce IntOp.andi x v reducesTo_S270_S_d0 h_S_) main_v141 main_c_55
  let main_v143 : IVec S_ 1 := andi main_v138 main_v142
  let main_v144 : FVec F S325x270 .f32 := Host.absf main_arg29
  let main_cst_56 : FVec F S_ .f32 := constant S_ .f32 0x7F800000#32
  let main_v145 : FVec F S325x270 .f32 := broadcastInDim S325x270 ![] bcast_S_S325x270 main_cst_56
  let main_v146 : IVec S325x270 1 := cmpf .olt main_v144 main_v145
  let main_c_57 : IVec S_ 1 := constantI S_ 1 1#1
  let main_v147 : IVec S_ 1 := (fun x v => Host.reduce IntOp.andi x v reducesTo_S325x270_S_d0_1 h_S_) main_v146 main_c_57
  let main_v148 : IVec S_ 1 := andi main_v143 main_v147
  let main_v149 : FVec F S325 .f32 := Host.absf main_arg30
  let main_cst_58 : FVec F S_ .f32 := constant S_ .f32 0x7F800000#32
  let main_v150 : FVec F S325 .f32 := broadcastInDim S325 ![] bcast_S_S325 main_cst_58
  let main_v151 : IVec S325 1 := cmpf .olt main_v149 main_v150
  let main_c_59 : IVec S_ 1 := constantI S_ 1 1#1
  let main_v152 : IVec S_ 1 := (fun x v => Host.reduce IntOp.andi x v reducesTo_S325_S_d0 h_S_) main_v151 main_c_59
  let main_v153 : IVec S_ 1 := andi main_v148 main_v152
  main_v153

def fn_part7 {F : FTy → Type} [FloatOps F] (main_arg25 : FVec F S190x110 .f32) (main_arg26 : FVec F S190 .f32) (main_arg27 : FVec F S270x190 .f32) (main_arg28 : FVec F S270 .f32) (main_arg29 : FVec F S325x270 .f32) (main_arg30 : FVec F S325 .f32) (main_v118 : IVec S_ 1) (main_v119 : FVec F S110 .f32) : IVec S_ 1 :=
  let main_cst_46 : FVec F S_ .f32 := constant S_ .f32 0x7F800000#32
  let main_v120 : FVec F S110 .f32 := broadcastInDim S110 ![] bcast_S_S110 main_cst_46
  let main_v121 : IVec S110 1 := cmpf .olt main_v119 main_v120
  let main_c_47 : IVec S_ 1 := constantI S_ 1 1#1
  let main_v122 : IVec S_ 1 := (fun x v => Host.reduce IntOp.andi x v reducesTo_S110_S_d0 h_S_) main_v121 main_c_47
  let main_v123 : IVec S_ 1 := andi main_v118 main_v122
  let main_v124 : FVec F S190x110 .f32 := Host.absf main_arg25
  let main_cst_48 : FVec F S_ .f32 := constant S_ .f32 0x7F800000#32
  let main_v125 : FVec F S190x110 .f32 := broadcastInDim S190x110 ![] bcast_S_S190x110 main_cst_48
  let main_v126 : IVec S190x110 1 := cmpf .olt main_v124 main_v125
  let main_c_49 : IVec S_ 1 := constantI S_ 1 1#1
  let main_v127 : IVec S_ 1 := (fun x v => Host.reduce IntOp.andi x v reducesTo_S190x110_S_d0_1 h_S_) main_v126 main_c_49
  let main_v128 : IVec S_ 1 := andi main_v123 main_v127
  let main_v129 : FVec F S190 .f32 := Host.absf main_arg26
  let main_cst_50 : FVec F S_ .f32 := constant S_ .f32 0x7F800000#32
  let main_v130 : FVec F S190 .f32 := broadcastInDim S190 ![] bcast_S_S190 main_cst_50
  let main_v131 : IVec S190 1 := cmpf .olt main_v129 main_v130
  let main_c_51 : IVec S_ 1 := constantI S_ 1 1#1
  let main_v132 : IVec S_ 1 := (fun x v => Host.reduce IntOp.andi x v reducesTo_S190_S_d0 h_S_) main_v131 main_c_51
  let main_v133 : IVec S_ 1 := andi main_v128 main_v132
  let main_v134 : FVec F S270x190 .f32 := Host.absf main_arg27
  let main_cst_52 : FVec F S_ .f32 := constant S_ .f32 0x7F800000#32
  let main_v135 : FVec F S270x190 .f32 := broadcastInDim S270x190 ![] bcast_S_S270x190 main_cst_52
  let main_v136 : IVec S270x190 1 := cmpf .olt main_v134 main_v135
  fn_part8 (F := F) main_arg28 main_arg29 main_arg30 main_v133 main_v136

def fn_part6 {F : FTy → Type} [FloatOps F] (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v98 : IVec S_ 1) (main_v101 : IVec S270 1) (main_c_39 : IVec S_ 1) : IVec S_ 1 :=
  let main_v102 : IVec S_ 1 := (fun x v => Host.reduce IntOp.andi x v reducesTo_S270_S_d0 h_S_) main_v101 main_c_39
  let main_v103 : IVec S_ 1 := andi main_v98 main_v102
  let main_v104 : FVec F S325x270 .f32 := Host.absf main_arg21
  let main_cst_40 : FVec F S_ .f32 := constant S_ .f32 0x7F800000#32
  let main_v105 : FVec F S325x270 .f32 := broadcastInDim S325x270 ![] bcast_S_S325x270 main_cst_40
  let main_v106 : IVec S325x270 1 := cmpf .olt main_v104 main_v105
  let main_c_41 : IVec S_ 1 := constantI S_ 1 1#1
  let main_v107 : IVec S_ 1 := (fun x v => Host.reduce IntOp.andi x v reducesTo_S325x270_S_d0_1 h_S_) main_v106 main_c_41
  let main_v108 : IVec S_ 1 := andi main_v103 main_v107
  let main_v109 : FVec F S325 .f32 := Host.absf main_arg22
  let main_cst_42 : FVec F S_ .f32 := constant S_ .f32 0x7F800000#32
  let main_v110 : FVec F S325 .f32 := broadcastInDim S325 ![] bcast_S_S325 main_cst_42
  let main_v111 : IVec S325 1 := cmpf .olt main_v109 main_v110
  let main_c_43 : IVec S_ 1 := constantI S_ 1 1#1
  let main_v112 : IVec S_ 1 := (fun x v => Host.reduce IntOp.andi x v reducesTo_S325_S_d0 h_S_) main_v111 main_c_43
  let main_v113 : IVec S_ 1 := andi main_v108 main_v112
  let main_v114 : FVec F S110x40 .f32 := Host.absf main_arg23
  let main_cst_44 : FVec F S_ .f32 := constant S_ .f32 0x7F800000#32
  let main_v115 : FVec F S110x40 .f32 := broadcastInDim S110x40 ![] bcast_S_S110x40 main_cst_44
  let main_v116 : IVec S110x40 1 := cmpf .olt main_v114 main_v115
  let main_c_45 : IVec S_ 1 := constantI S_ 1 1#1
  let main_v117 : IVec S_ 1 := (fun x v => Host.reduce IntOp.andi x v reducesTo_S110x40_S_d0_1 h_S_) main_v116 main_c_45
  let main_v118 : IVec S_ 1 := andi main_v113 main_v117
  let main_v119 : FVec F S110 .f32 := Host.absf main_arg24
  fn_part7 (F := F) main_arg25 main_arg26 main_arg27 main_arg28 main_arg29 main_arg30 main_v118 main_v119

def fn_part5 {F : FTy → Type} [FloatOps F] (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v83 : IVec S_ 1) (main_v84 : FVec F S190x110 .f32) (main_cst_32 : FVec F S_ .f32) : IVec S_ 1 :=
  let main_v85 : FVec F S190x110 .f32 := broadcastInDim S190x110 ![] bcast_S_S190x110 main_cst_32
  let main_v86 : IVec S190x110 1 := cmpf .olt main_v84 main_v85
  let main_c_33 : IVec S_ 1 := constantI S_ 1 1#1
  let main_v87 : IVec S_ 1 := (fun x v => Host.reduce IntOp.andi x v reducesTo_S190x110_S_d0_1 h_S_) main_v86 main_c_33
  let main_v88 : IVec S_ 1 := andi main_v83 main_v87
  let main_v89 : FVec F S190 .f32 := Host.absf main_arg18
  let main_cst_34 : FVec F S_ .f32 := constant S_ .f32 0x7F800000#32
  let main_v90 : FVec F S190 .f32 := broadcastInDim S190 ![] bcast_S_S190 main_cst_34
  let main_v91 : IVec S190 1 := cmpf .olt main_v89 main_v90
  let main_c_35 : IVec S_ 1 := constantI S_ 1 1#1
  let main_v92 : IVec S_ 1 := (fun x v => Host.reduce IntOp.andi x v reducesTo_S190_S_d0 h_S_) main_v91 main_c_35
  let main_v93 : IVec S_ 1 := andi main_v88 main_v92
  let main_v94 : FVec F S270x190 .f32 := Host.absf main_arg19
  let main_cst_36 : FVec F S_ .f32 := constant S_ .f32 0x7F800000#32
  let main_v95 : FVec F S270x190 .f32 := broadcastInDim S270x190 ![] bcast_S_S270x190 main_cst_36
  let main_v96 : IVec S270x190 1 := cmpf .olt main_v94 main_v95
  let main_c_37 : IVec S_ 1 := constantI S_ 1 1#1
  let main_v97 : IVec S_ 1 := (fun x v => Host.reduce IntOp.andi x v reducesTo_S270x190_S_d0_1 h_S_) main_v96 main_c_37
  let main_v98 : IVec S_ 1 := andi main_v93 main_v97
  let main_v99 : FVec F S270 .f32 := Host.absf main_arg20
  let main_cst_38 : FVec F S_ .f32 := constant S_ .f32 0x7F800000#32
  let main_v100 : FVec F S270 .f32 := broadcastInDim S270 ![] bcast_S_S270 main_cst_38
  let main_v101 : IVec S270 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_v98 main_v101 main_c_39

def fn_part4 {F : FTy → Type} [FloatOps F] (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v63 : IVec S_ 1) (main_v67 : IVec S_ 1) : IVec S_ 1 :=
  let main_v68 : IVec S_ 1 := andi main_v63 main_v67
  let main_v69 : FVec F S20 .f32 := Host.absf main_arg14
  let main_cst_26 : FVec F S_ .f32 := constant S_ .f32 0x7F800000#32
  let main_v70 : FVec F S20 .f32 := broadcastInDim S20 ![] bcast_S_S20 main_cst_26
  let main_v71 : IVec S20 1 := cmpf .olt main_v69 main_v70
  let main_c_27 : IVec S_ 1 := constantI S_ 1 1#1
  let main_v72 : IVec S_ 1 := (fun x v => Host.reduce IntOp.andi x v reducesTo_S20_S_d0 h_S_) main_v71 main_c_27
  let main_v73 : IVec S_ 1 := andi main_v68 main_v72
  let main_v74 : FVec F S110x40 .f32 := Host.absf main_arg15
  let main_cst_28 : FVec F S_ .f32 := constant S_ .f32 0x7F800000#32
  let main_v75 : FVec F S110x40 .f32 := broadcastInDim S110x40 ![] bcast_S_S110x40 main_cst_28
  let main_v76 : IVec S110x40 1 := cmpf .olt main_v74 main_v75
  let main_c_29 : IVec S_ 1 := constantI S_ 1 1#1
  let main_v77 : IVec S_ 1 := (fun x v => Host.reduce IntOp.andi x v reducesTo_S110x40_S_d0_1 h_S_) main_v76 main_c_29
  let main_v78 : IVec S_ 1 := andi main_v73 main_v77
  let main_v79 : FVec F S110 .f32 := Host.absf main_arg16
  let main_cst_30 : FVec F S_ .f32 := constant S_ .f32 0x7F800000#32
  let main_v80 : FVec F S110 .f32 := broadcastInDim S110 ![] bcast_S_S110 main_cst_30
  let main_v81 : IVec S110 1 := cmpf .olt main_v79 main_v80
  let main_c_31 : IVec S_ 1 := constantI S_ 1 1#1
  let main_v82 : IVec S_ 1 := (fun x v => Host.reduce IntOp.andi x v reducesTo_S110_S_d0 h_S_) main_v81 main_c_31
  let main_v83 : IVec S_ 1 := andi main_v78 main_v82
  let main_v84 : FVec F S190x110 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_v83 main_v84 main_cst_32

def fn_part3 {F : FTy → Type} [FloatOps F] (main_arg11 : FVec F S3x72 .f32) (main_arg12 : FVec F S3 .f32) (main_arg13 : FVec F S20x325 .f32) (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v48 : IVec S_ 1) (main_v49 : FVec F S92 .f32) (main_v50 : FVec F S92 .f32) : IVec S_ 1 :=
  let main_v51 : IVec S92 1 := cmpf .olt main_v49 main_v50
  let main_c_19 : IVec S_ 1 := constantI S_ 1 1#1
  let main_v52 : IVec S_ 1 := (fun x v => Host.reduce IntOp.andi x v reducesTo_S92_S_d0 h_S_) main_v51 main_c_19
  let main_v53 : IVec S_ 1 := andi main_v48 main_v52
  let main_v54 : FVec F S3x72 .f32 := Host.absf main_arg11
  let main_cst_20 : FVec F S_ .f32 := constant S_ .f32 0x7F800000#32
  let main_v55 : FVec F S3x72 .f32 := broadcastInDim S3x72 ![] bcast_S_S3x72 main_cst_20
  let main_v56 : IVec S3x72 1 := cmpf .olt main_v54 main_v55
  let main_c_21 : IVec S_ 1 := constantI S_ 1 1#1
  let main_v57 : IVec S_ 1 := (fun x v => Host.reduce IntOp.andi x v reducesTo_S3x72_S_d0_1 h_S_) main_v56 main_c_21
  let main_v58 : IVec S_ 1 := andi main_v53 main_v57
  let main_v59 : FVec F S3 .f32 := Host.absf main_arg12
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  let main_v64 : FVec F S20x325 .f32 := Host.absf main_arg13
  let main_cst_24 : FVec F S_ .f32 := constant S_ .f32 0x7F800000#32
  let main_v65 : FVec F S20x325 .f32 := broadcastInDim S20x325 ![] bcast_S_S20x325 main_cst_24
  let main_v66 : IVec S20x325 1 := cmpf .olt main_v64 main_v65
  let main_c_25 : IVec S_ 1 := constantI S_ 1 1#1
  let main_v67 : IVec S_ 1 := (fun x v => Host.reduce IntOp.andi x v reducesTo_S20x325_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg7 : FVec F S72x48 .f32) (main_arg8 : FVec F S72 .f32) (main_arg9 : FVec F S92x72 .f32) (main_arg10 : FVec F S92 .f32) (main_arg11 : FVec F S3x72 .f32) (main_arg12 : FVec F S3 .f32) (main_arg13 : FVec F S20x325 .f32) (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v33 : IVec S_ 1) : IVec S_ 1 :=
  let main_v34 : FVec F S72x48 .f32 := Host.absf main_arg7
  let main_cst_12 : FVec F S_ .f32 := constant S_ .f32 0x7F800000#32
  let main_v35 : FVec F S72x48 .f32 := broadcastInDim S72x48 ![] bcast_S_S72x48 main_cst_12
  let main_v36 : IVec S72x48 1 := cmpf .olt main_v34 main_v35
  let main_c_13 : IVec S_ 1 := constantI S_ 1 1#1
  let main_v37 : IVec S_ 1 := (fun x v => Host.reduce IntOp.andi x v reducesTo_S72x48_S_d0_1 h_S_) main_v36 main_c_13
  let main_v38 : IVec S_ 1 := andi main_v33 main_v37
  let main_v39 : FVec F S72 .f32 := Host.absf main_arg8
  let main_cst_14 : FVec F S_ .f32 := constant S_ .f32 0x7F800000#32
  let main_v40 : FVec F S72 .f32 := broadcastInDim S72 ![] bcast_S_S72 main_cst_14
  let main_v41 : IVec S72 1 := cmpf .olt main_v39 main_v40
  let main_c_15 : IVec S_ 1 := constantI S_ 1 1#1
  let main_v42 : IVec S_ 1 := (fun x v => Host.reduce IntOp.andi x v reducesTo_S72_S_d0 h_S_) main_v41 main_c_15
  let main_v43 : IVec S_ 1 := andi main_v38 main_v42
  let main_v44 : FVec F S92x72 .f32 := Host.absf main_arg9
  let main_cst_16 : FVec F S_ .f32 := constant S_ .f32 0x7F800000#32
  let main_v45 : FVec F S92x72 .f32 := broadcastInDim S92x72 ![] bcast_S_S92x72 main_cst_16
  let main_v46 : IVec S92x72 1 := cmpf .olt main_v44 main_v45
  let main_c_17 : IVec S_ 1 := constantI S_ 1 1#1
  let main_v47 : IVec S_ 1 := (fun x v => Host.reduce IntOp.andi x v reducesTo_S92x72_S_d0_1 h_S_) main_v46 main_c_17
  let main_v48 : IVec S_ 1 := andi main_v43 main_v47
  let main_v49 : FVec F S92 .f32 := Host.absf main_arg10
  let main_cst_18 : FVec F S_ .f32 := constant S_ .f32 0x7F800000#32
  let main_v50 : FVec F S92 .f32 := broadcastInDim S92 ![] bcast_S_S92 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg4 : FVec F S1x20 .f32) (main_arg5 : FVec F S48x14 .f32) (main_arg6 : FVec F S48 .f32) (main_arg7 : FVec F S72x48 .f32) (main_arg8 : FVec F S72 .f32) (main_arg9 : FVec F S92x72 .f32) (main_arg10 : FVec F S92 .f32) (main_arg11 : FVec F S3x72 .f32) (main_arg12 : FVec F S3 .f32) (main_arg13 : FVec F S20x325 .f32) (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v13 : IVec S_ 1) (main_v16 : IVec S1000000x20 1) : IVec S_ 1 :=
  let main_c_5 : IVec S_ 1 := constantI S_ 1 1#1
  let main_v17 : IVec S_ 1 := (fun x v => Host.reduce IntOp.andi x v reducesTo_S1000000x20_S_d0_1 h_S_) main_v16 main_c_5
  let main_v18 : IVec S_ 1 := andi main_v13 main_v17
  let main_v19 : FVec F S1x20 .f32 := Host.absf main_arg4
  let main_cst_6 : FVec F S_ .f32 := constant S_ .f32 0x7F800000#32
  let main_v20 : FVec F S1x20 .f32 := broadcastInDim S1x20 ![] bcast_S_S1x20 main_cst_6
  let main_v21 : IVec S1x20 1 := cmpf .olt main_v19 main_v20
  let main_c_7 : IVec S_ 1 := constantI S_ 1 1#1
  let main_v22 : IVec S_ 1 := (fun x v => Host.reduce IntOp.andi x v reducesTo_S1x20_S_d0_1 h_S_) main_v21 main_c_7
  let main_v23 : IVec S_ 1 := andi main_v18 main_v22
  let main_v24 : FVec F S48x14 .f32 := Host.absf main_arg5
  let main_cst_8 : FVec F S_ .f32 := constant S_ .f32 0x7F800000#32
  let main_v25 : FVec F S48x14 .f32 := broadcastInDim S48x14 ![] bcast_S_S48x14 main_cst_8
  let main_v26 : IVec S48x14 1 := cmpf .olt main_v24 main_v25
  let main_c_9 : IVec S_ 1 := constantI S_ 1 1#1
  let main_v27 : IVec S_ 1 := (fun x v => Host.reduce IntOp.andi x v reducesTo_S48x14_S_d0_1 h_S_) main_v26 main_c_9
  let main_v28 : IVec S_ 1 := andi main_v23 main_v27
  let main_v29 : FVec F S48 .f32 := Host.absf main_arg6
  let main_cst_10 : FVec F S_ .f32 := constant S_ .f32 0x7F800000#32
  let main_v30 : FVec F S48 .f32 := broadcastInDim S48 ![] bcast_S_S48 main_cst_10
  let main_v31 : IVec S48 1 := cmpf .olt main_v29 main_v30
  let main_c_11 : IVec S_ 1 := constantI S_ 1 1#1
  let main_v32 : IVec S_ 1 := (fun x v => Host.reduce IntOp.andi x v reducesTo_S48_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S1x14 .f32) (main_arg1 : FVec F S1x1000000 .f32) (main_arg2 : FVec F S1x1000000 .f32) (main_arg3 : FVec F S1000000x20 .f32) (main_arg4 : FVec F S1x20 .f32) (main_arg5 : FVec F S48x14 .f32) (main_arg6 : FVec F S48 .f32) (main_arg7 : FVec F S72x48 .f32) (main_arg8 : FVec F S72 .f32) (main_arg9 : FVec F S92x72 .f32) (main_arg10 : FVec F S92 .f32) (main_arg11 : FVec F S3x72 .f32) (main_arg12 : FVec F S3 .f32) (main_arg13 : FVec F S20x325 .f32) (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) : IVec S_ 1 :=
  let main_v0 : FVec F S1x14 .f32 := Host.absf main_arg0
  let main_cst : FVec F S_ .f32 := constant S_ .f32 0x7F800000#32
  let main_v1 : FVec F S1x14 .f32 := broadcastInDim S1x14 ![] bcast_S_S1x14 main_cst
  let main_v2 : IVec S1x14 1 := cmpf .olt main_v0 main_v1
  let main_c : IVec S_ 1 := constantI S_ 1 1#1
  let main_v3 : IVec S_ 1 := (fun x v => Host.reduce IntOp.andi x v reducesTo_S1x14_S_d0_1 h_S_) main_v2 main_c
  let main_v4 : FVec F S1x1000000 .f32 := Host.absf main_arg1
  let main_cst_0 : FVec F S_ .f32 := constant S_ .f32 0x7F800000#32
  let main_v5 : FVec F S1x1000000 .f32 := broadcastInDim S1x1000000 ![] bcast_S_S1x1000000 main_cst_0
  let main_v6 : IVec S1x1000000 1 := cmpf .olt main_v4 main_v5
  let main_c_1 : IVec S_ 1 := constantI S_ 1 1#1
  let main_v7 : IVec S_ 1 := (fun x v => Host.reduce IntOp.andi x v reducesTo_S1x1000000_S_d0_1 h_S_) main_v6 main_c_1
  let main_v8 : IVec S_ 1 := andi main_v3 main_v7
  let main_v9 : FVec F S1x1000000 .f32 := Host.absf main_arg2
  let main_cst_2 : FVec F S_ .f32 := constant S_ .f32 0x7F800000#32
  let main_v10 : FVec F S1x1000000 .f32 := broadcastInDim S1x1000000 ![] bcast_S_S1x1000000 main_cst_2
  let main_v11 : IVec S1x1000000 1 := cmpf .olt main_v9 main_v10
  let main_c_3 : IVec S_ 1 := constantI S_ 1 1#1
  let main_v12 : IVec S_ 1 := (fun x v => Host.reduce IntOp.andi x v reducesTo_S1x1000000_S_d0_1 h_S_) main_v11 main_c_3
  let main_v13 : IVec S_ 1 := andi main_v8 main_v12
  let main_v14 : FVec F S1000000x20 .f32 := Host.absf main_arg3
  let main_cst_4 : FVec F S_ .f32 := constant S_ .f32 0x7F800000#32
  let main_v15 : FVec F S1000000x20 .f32 := broadcastInDim S1000000x20 ![] bcast_S_S1000000x20 main_cst_4
  let main_v16 : IVec S1000000x20 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S1x14 : Shape := ⟨2, ![1, 14]⟩
abbrev S1x1000000 : Shape := ⟨2, ![1, 1000000]⟩
abbrev S1000000x20 : Shape := ⟨2, ![1000000, 20]⟩
abbrev S1x20 : Shape := ⟨2, ![1, 20]⟩
abbrev S48x14 : Shape := ⟨2, ![48, 14]⟩
abbrev S48 : Shape := ⟨1, ![48]⟩
abbrev S72x48 : Shape := ⟨2, ![72, 48]⟩
abbrev S72 : Shape := ⟨1, ![72]⟩
abbrev S92x72 : Shape := ⟨2, ![92, 72]⟩
abbrev S92 : Shape := ⟨1, ![92]⟩
abbrev S3x72 : Shape := ⟨2, ![3, 72]⟩
abbrev S3 : Shape := ⟨1, ![3]⟩
abbrev S20x325 : Shape := ⟨2, ![20, 325]⟩
abbrev S20 : Shape := ⟨1, ![20]⟩
abbrev S110x40 : Shape := ⟨2, ![110, 40]⟩
abbrev S110 : Shape := ⟨1, ![110]⟩
abbrev S190x110 : Shape := ⟨2, ![190, 110]⟩
abbrev S190 : Shape := ⟨1, ![190]⟩
abbrev S270x190 : Shape := ⟨2, ![270, 190]⟩
abbrev S270 : Shape := ⟨1, ![270]⟩
abbrev S325x270 : Shape := ⟨2, ![325, 270]⟩
abbrev S325 : Shape := ⟨1, ![325]⟩
abbrev S14x48 : Shape := ⟨2, ![14, 48]⟩
abbrev S1x48 : Shape := ⟨2, ![1, 48]⟩
abbrev S48x72 : Shape := ⟨2, ![48, 72]⟩
abbrev S1x72 : Shape := ⟨2, ![1, 72]⟩
abbrev S72x92 : Shape := ⟨2, ![72, 92]⟩
abbrev S1x92 : Shape := ⟨2, ![1, 92]⟩
abbrev S72x3 : Shape := ⟨2, ![72, 3]⟩
abbrev S1x3 : Shape := ⟨2, ![1, 3]⟩
abbrev S1x26 : Shape := ⟨2, ![1, 26]⟩
abbrev S26 : Shape := ⟨1, ![26]⟩
abbrev S_ : Shape := ⟨0, ![]⟩
abbrev S1x1 : Shape := ⟨2, ![1, 1]⟩
abbrev S1 : Shape := ⟨1, ![1]⟩
abbrev S1000000x1 : Shape := ⟨2, ![1000000, 1]⟩
abbrev S5000x20 : Shape := ⟨2, ![5000, 20]⟩
abbrev S5000x1 : Shape := ⟨2, ![5000, 1]⟩
abbrev S5000 : Shape := ⟨1, ![5000]⟩
abbrev S1x1000002 : Shape := ⟨2, ![1, 1000002]⟩
abbrev S1x40 : Shape := ⟨2, ![1, 40]⟩
abbrev S1x2 : Shape := ⟨2, ![1, 2]⟩
abbrev S40x110 : Shape := ⟨2, ![40, 110]⟩
abbrev S1x110 : Shape := ⟨2, ![1, 110]⟩
abbrev S110x190 : Shape := ⟨2, ![110, 190]⟩
abbrev S1x190 : Shape := ⟨2, ![1, 190]⟩
abbrev S190x270 : Shape := ⟨2, ![190, 270]⟩
abbrev S1x270 : Shape := ⟨2, ![1, 270]⟩
abbrev S270x325 : Shape := ⟨2, ![270, 325]⟩
abbrev S1x325 : Shape := ⟨2, ![1, 325]⟩
abbrev S325x20 : Shape := ⟨2, ![325, 20]⟩

abbrev nBuf : Space → Nat
  | .hbm => 449
  | .vmem => 23
  | .smem => 0
  | _ => 0

abbrev hbmTy0_0 (i : Nat) : BufTy := match i % 128 with
  | 0 => ⟨S1x14, .f32⟩
  | 1 => ⟨S1x1000000, .f32⟩
  | 2 => ⟨S1x1000000, .f32⟩
  | 3 => ⟨S1000000x20, .f32⟩
  | 4 => ⟨S1x20, .f32⟩
  | 5 => ⟨S48x14, .f32⟩
  | 6 => ⟨S48, .f32⟩
  | 7 => ⟨S72x48, .f32⟩
  | 8 => ⟨S72, .f32⟩
  | 9 => ⟨S92x72, .f32⟩
  | 10 => ⟨S92, .f32⟩
  | 11 => ⟨S3x72, .f32⟩
  | 12 => ⟨S3, .f32⟩
  | 13 => ⟨S20x325, .f32⟩
  | 14 => ⟨S20, .f32⟩
  | 15 => ⟨S110x40, .f32⟩
  | 16 => ⟨S110, .f32⟩
  | 17 => ⟨S190x110, .f32⟩
  | 18 => ⟨S190, .f32⟩
  | 19 => ⟨S270x190, .f32⟩
  | 20 => ⟨S270, .f32⟩
  | 21 => ⟨S325x270, .f32⟩
  | 22 => ⟨S325, .f32⟩
  | 23 => ⟨S110x40, .f32⟩
  | 24 => ⟨S110, .f32⟩
  | 25 => ⟨S190x110, .f32⟩
  | 26 => ⟨S190, .f32⟩
  | 27 => ⟨S270x190, .f32⟩
  | 28 => ⟨S270, .f32⟩
  | 29 => ⟨S325x270, .f32⟩
  | 30 => ⟨S325, .f32⟩
  | 31 => ⟨S14x48, .f32⟩
  | 32 => ⟨S1x48, .f32⟩
  | 33 => ⟨S1x48, .f32⟩
  | 34 => ⟨S1x48, .f32⟩
  | 35 => ⟨S48x72, .f32⟩
  | 36 => ⟨S1x72, .f32⟩
  | 37 => ⟨S1x72, .f32⟩
  | 38 => ⟨S1x72, .f32⟩
  | 39 => ⟨S72x92, .f32⟩
  | 40 => ⟨S1x92, .f32⟩
  | 41 => ⟨S1x92, .f32⟩
  | 42 => ⟨S1x92, .f32⟩
  | 43 => ⟨S72x3, .f32⟩
  | 44 => ⟨S1x3, .f32⟩
  | 45 => ⟨S1x3, .f32⟩
  | 46 => ⟨S1x3, .f32⟩
  | 47 => ⟨S1x26, .f32⟩
  | 48 => ⟨S26, .f32⟩
  | 49 => ⟨S1x26, .f32⟩
  | 50 => ⟨S1x26, .f32⟩
  | 51 => ⟨S26, .f32⟩
  | 52 => ⟨S1x26, .f32⟩
  | 53 => ⟨S1x20, .f32⟩
  | 54 => ⟨S20, .f32⟩
  | 55 => ⟨S1x20, .f32⟩
  | 56 => ⟨S1x20, .f32⟩
  | 57 => ⟨S1x20, .f32⟩
  | 58 => ⟨S_, .f32⟩
  | 59 => ⟨S1x20, .f32⟩
  | 60 => ⟨S1x20, .f32⟩
  | 61 => ⟨S_, .f32⟩
  | 62 => ⟨S1x20, .f32⟩
  | 63 => ⟨S1x20, .f32⟩
  | 64 => ⟨S1x20, .f32⟩
  | 65 => ⟨S20, .f32⟩
  | 66 => ⟨S1x20, .f32⟩
  | 67 => ⟨S1x20, .f32⟩
  | 68 => ⟨S1x20, .f32⟩
  | 69 => ⟨S20, .f32⟩
  | 70 => ⟨S20, .f32⟩
  | 71 => ⟨S1x20, .f32⟩
  | 72 => ⟨S1x1, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S1x3, .f32⟩
  | 81 => ⟨S3, .f32⟩
  | 82 => ⟨S_, .f32⟩
  | 83 => ⟨S_, .f32⟩
  | 84 => ⟨S_, .f32⟩
  | 85 => ⟨S_, .f32⟩
  | 86 => ⟨S1, .f32⟩
  | 87 => ⟨S3, .f32⟩
  | 88 => ⟨S3, .f32⟩
  | 89 => ⟨S3, .f32⟩
  | 90 => ⟨S_, .f32⟩
  | 91 => ⟨S_, .f32⟩
  | 92 => ⟨S1, .f32⟩
  | 93 => ⟨S3, .f32⟩
  | 94 => ⟨S3, .f32⟩
  | 95 => ⟨S1x1, .f32⟩
  | 96 => ⟨S_, .f32⟩
  | 97 => ⟨S_, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S1x1, .f32⟩
  | 111 => ⟨S_, .f32⟩
  | 112 => ⟨S_, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S1x20, .f32⟩
  | 124 => ⟨S20, .f32⟩
  | 125 => ⟨S20, .f32⟩
  | 126 => ⟨S1x20, .f32⟩
  | 127 => ⟨S1x1, .f32⟩
  | _ => ⟨S1x14, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S1x3, .f32⟩
  | 8 => ⟨S3, .f32⟩
  | 9 => ⟨S_, .f32⟩
  | 10 => ⟨S_, .f32⟩
  | 11 => ⟨S_, .f32⟩
  | 12 => ⟨S_, .f32⟩
  | 13 => ⟨S1, .f32⟩
  | 14 => ⟨S3, .f32⟩
  | 15 => ⟨S3, .f32⟩
  | 16 => ⟨S3, .f32⟩
  | 17 => ⟨S_, .f32⟩
  | 18 => ⟨S_, .f32⟩
  | 19 => ⟨S1, .f32⟩
  | 20 => ⟨S3, .f32⟩
  | 21 => ⟨S3, .f32⟩
  | 22 => ⟨S1x1, .f32⟩
  | 23 => ⟨S_, .f32⟩
  | 24 => ⟨S_, .f32⟩
  | 25 => ⟨S_, .f32⟩
  | 26 => ⟨S_, .f32⟩
  | 27 => ⟨S_, .i1⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S1x1, .f32⟩
  | 38 => ⟨S_, .f32⟩
  | 39 => ⟨S_, .f32⟩
  | 40 => ⟨S_, .f32⟩
  | 41 => ⟨S_, .f32⟩
  | 42 => ⟨S_, .i1⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S1x20, .f32⟩
  | 52 => ⟨S1x20, .f32⟩
  | 53 => ⟨S_, .f32⟩
  | 54 => ⟨S1x20, .f32⟩
  | 55 => ⟨S1x20, .f32⟩
  | 56 => ⟨S1000000x1, .f32⟩
  | 57 => ⟨S1000000x1, .f32⟩
  | 58 => ⟨S1000000x1, .f32⟩
  | 59 => ⟨S1x20, .f32⟩
  | 60 => ⟨S_, .f32⟩
  | 61 => ⟨S1, .f32⟩
  | 62 => ⟨S1, .f32⟩
  | 63 => ⟨S_, .f32⟩
  | 64 => ⟨S1, .f32⟩
  | 65 => ⟨S1, .f32⟩
  | 66 => ⟨S_, .f32⟩
  | 67 => ⟨S1000000x1, .f32⟩
  | 68 => ⟨S1000000x1, .f32⟩
  | 69 => ⟨S1x1, .f32⟩
  | 70 => ⟨S1000000x1, .f32⟩
  | 71 => ⟨S1000000x1, .f32⟩
  | 72 => ⟨S1000000x1, .f32⟩
  | 73 => ⟨S1000000x1, .f32⟩
  | 74 => ⟨S1000000x1, .f32⟩
  | 75 => ⟨S1x1000000, .f32⟩
  | 76 => ⟨S_, .f32⟩
  | 77 => ⟨S1, .f32⟩
  | 78 => ⟨S_, .f32⟩
  | 79 => ⟨S1, .f32⟩
  | 80 => ⟨S1, .f32⟩
  | 81 => ⟨S1x1, .f32⟩
  | 82 => ⟨S1x1000000, .f32⟩
  | 83 => ⟨S1x1000000, .f32⟩
  | 84 => ⟨S1x1000000, .f32⟩
  | 85 => ⟨S_, .f32⟩
  | 86 => ⟨S1, .f32⟩
  | 87 => ⟨S1x1, .f32⟩
  | 88 => ⟨S1x1000000, .f32⟩
  | 89 => ⟨S1x1000000, .f32⟩
  | 90 => ⟨S1x1000000, .f32⟩
  | 91 => ⟨S1x1000000, .f32⟩
  | 92 => ⟨S_, .f32⟩
  | 93 => ⟨S_, .f32⟩
  | 94 => ⟨S1x1000000, .f32⟩
  | 95 => ⟨S1x1000000, .f32⟩
  | 96 => ⟨S1x1000000, .f32⟩
  | 97 => ⟨S1x1, .f32⟩
  | 98 => ⟨S1x1, .f32⟩
  | 99 => ⟨S1x1000002, .f32⟩
  | 100 => ⟨S1, .f32⟩
  | 101 => ⟨S_, .f32⟩
  | 102 => ⟨S1x1000000, .f32⟩
  | 103 => ⟨S1x1000000, .f32⟩
  | 104 => ⟨S1x1000000, .f32⟩
  | 105 => ⟨S1, .f32⟩
  | 106 => ⟨S_, .f32⟩
  | 107 => ⟨S1x1000000, .f32⟩
  | 108 => ⟨S1x1000000, .f32⟩
  | 109 => ⟨S1x1000000, .f32⟩
  | 110 => ⟨S1x1000000, .f32⟩
  | 111 => ⟨S1, .f32⟩
  | 112 => ⟨S_, .f32⟩
  | 113 => ⟨S1x1000000, .f32⟩
  | 114 => ⟨S1x1000000, .f32⟩
  | 115 => ⟨S1x1000000, .f32⟩
  | 116 => ⟨S1x1000000, .f32⟩
  | 117 => ⟨S1x1000000, .f32⟩
  | 118 => ⟨S1x1000000, .f32⟩
  | 119 => ⟨S_, .f32⟩
  | 120 => ⟨S1, .f32⟩
  | 121 => ⟨S1x1, .f32⟩
  | 122 => ⟨S_, .f32⟩
  | 123 => ⟨S1x1, .f32⟩
  | 124 => ⟨S1x1, .f32⟩
  | 125 => ⟨S1x1000000, .f32⟩
  | 126 => ⟨S1x1000000, .f32⟩
  | 127 => ⟨S1x20, .f32⟩
  | _ => ⟨S1x14, .f32⟩

abbrev hbmTy0_2 (i : Nat) : BufTy := match i % 128 with
  | 0 => ⟨S_, .f32⟩
  | 1 => ⟨S1, .f32⟩
  | 2 => ⟨S1, .f32⟩
  | 3 => ⟨S_, .f32⟩
  | 4 => ⟨S1, .f32⟩
  | 5 => ⟨S1, .f32⟩
  | 6 => ⟨S_, .f32⟩
  | 7 => ⟨S1000000x1, .f32⟩
  | 8 => ⟨S1000000x1, .f32⟩
  | 9 => ⟨S1x1, .f32⟩
  | 10 => ⟨S1000000x1, .f32⟩
  | 11 => ⟨S1000000x1, .f32⟩
  | 12 => ⟨S1000000x1, .f32⟩
  | 13 => ⟨S1000000x1, .f32⟩
  | 14 => ⟨S1000000x1, .f32⟩
  | 15 => ⟨S1x1000000, .f32⟩
  | 16 => ⟨S_, .f32⟩
  | 17 => ⟨S1, .f32⟩
  | 18 => ⟨S_, .f32⟩
  | 19 => ⟨S1, .f32⟩
  | 20 => ⟨S1, .f32⟩
  | 21 => ⟨S1x1, .f32⟩
  | 22 => ⟨S1x1000000, .f32⟩
  | 23 => ⟨S1x1000000, .f32⟩
  | 24 => ⟨S1x1000000, .f32⟩
  | 25 => ⟨S_, .f32⟩
  | 26 => ⟨S1, .f32⟩
  | 27 => ⟨S1x1, .f32⟩
  | 28 => ⟨S1x1000000, .f32⟩
  | 29 => ⟨S1x1000000, .f32⟩
  | 30 => ⟨S1x1000000, .f32⟩
  | 31 => ⟨S1x1000000, .f32⟩
  | 32 => ⟨S_, .f32⟩
  | 33 => ⟨S_, .f32⟩
  | 34 => ⟨S1x1000000, .f32⟩
  | 35 => ⟨S1x1000000, .f32⟩
  | 36 => ⟨S1x1000000, .f32⟩
  | 37 => ⟨S1x1, .f32⟩
  | 38 => ⟨S1x1, .f32⟩
  | 39 => ⟨S1x1000002, .f32⟩
  | 40 => ⟨S1, .f32⟩
  | 41 => ⟨S_, .f32⟩
  | 42 => ⟨S1x1000000, .f32⟩
  | 43 => ⟨S1x1000000, .f32⟩
  | 44 => ⟨S1x1000000, .f32⟩
  | 45 => ⟨S1, .f32⟩
  | 46 => ⟨S_, .f32⟩
  | 47 => ⟨S1x1000000, .f32⟩
  | 48 => ⟨S1x1000000, .f32⟩
  | 49 => ⟨S1x1000000, .f32⟩
  | 50 => ⟨S1x1000000, .f32⟩
  | 51 => ⟨S1, .f32⟩
  | 52 => ⟨S_, .f32⟩
  | 53 => ⟨S1x1000000, .f32⟩
  | 54 => ⟨S1x1000000, .f32⟩
  | 55 => ⟨S1x1000000, .f32⟩
  | 56 => ⟨S1x1000000, .f32⟩
  | 57 => ⟨S1x1000000, .f32⟩
  | 58 => ⟨S1x1000000, .f32⟩
  | 59 => ⟨S_, .f32⟩
  | 60 => ⟨S1, .f32⟩
  | 61 => ⟨S1x1, .f32⟩
  | 62 => ⟨S_, .f32⟩
  | 63 => ⟨S1x1, .f32⟩
  | 64 => ⟨S1x1, .f32⟩
  | 65 => ⟨S1x1000000, .f32⟩
  | 66 => ⟨S1x1000000, .f32⟩
  | 67 => ⟨S1000000x1, .f32⟩
  | 68 => ⟨S1x20, .f32⟩
  | 69 => ⟨S1x40, .f32⟩
  | 70 => ⟨S1x1, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S1x2, .f32⟩
  | 79 => ⟨S_, .f32⟩
  | 80 => ⟨S1, .f32⟩
  | 81 => ⟨S_, .f32⟩
  | 82 => ⟨S1, .f32⟩
  | 83 => ⟨S1, .f32⟩
  | 84 => ⟨S1x1, .f32⟩
  | 85 => ⟨S1x2, .f32⟩
  | 86 => ⟨S1x2, .f32⟩
  | 87 => ⟨S1x2, .f32⟩
  | 88 => ⟨S_, .f32⟩
  | 89 => ⟨S1, .f32⟩
  | 90 => ⟨S1x1, .f32⟩
  | 91 => ⟨S1x2, .f32⟩
  | 92 => ⟨S1x2, .f32⟩
  | 93 => ⟨S40x110, .f32⟩
  | 94 => ⟨S1x110, .f32⟩
  | 95 => ⟨S1x110, .f32⟩
  | 96 => ⟨S1x110, .f32⟩
  | 97 => ⟨S_, .f32⟩
  | 98 => ⟨S1x110, .f32⟩
  | 99 => ⟨S1x110, .f32⟩
  | 100 => ⟨S110x190, .f32⟩
  | 101 => ⟨S1x190, .f32⟩
  | 102 => ⟨S1x190, .f32⟩
  | 103 => ⟨S1x190, .f32⟩
  | 104 => ⟨S_, .f32⟩
  | 105 => ⟨S1x190, .f32⟩
  | 106 => ⟨S1x190, .f32⟩
  | 107 => ⟨S190x270, .f32⟩
  | 108 => ⟨S1x270, .f32⟩
  | 109 => ⟨S1x270, .f32⟩
  | 110 => ⟨S1x270, .f32⟩
  | 111 => ⟨S_, .f32⟩
  | 112 => ⟨S1x270, .f32⟩
  | 113 => ⟨S1x270, .f32⟩
  | 114 => ⟨S270x325, .f32⟩
  | 115 => ⟨S1x325, .f32⟩
  | 116 => ⟨S1x325, .f32⟩
  | 117 => ⟨S1x325, .f32⟩
  | 118 => ⟨S_, .f32⟩
  | 119 => ⟨S1, .f32⟩
  | 120 => ⟨S_, .f32⟩
  | 121 => ⟨S1, .f32⟩
  | 122 => ⟨S1, .f32⟩
  | 123 => ⟨S1x1, .f32⟩
  | 124 => ⟨S1x325, .f32⟩
  | 125 => ⟨S1x325, .f32⟩
  | 126 => ⟨S1x325, .f32⟩
  | 127 => ⟨S_, .f32⟩
  | _ => ⟨S1x14, .f32⟩

abbrev hbmTy0_3 (i : Nat) : BufTy := match i % 128 with
  | 0 => ⟨S1, .f32⟩
  | 1 => ⟨S1x1, .f32⟩
  | 2 => ⟨S1x325, .f32⟩
  | 3 => ⟨S1x325, .f32⟩
  | 4 => ⟨S40x110, .f32⟩
  | 5 => ⟨S1x110, .f32⟩
  | 6 => ⟨S1x110, .f32⟩
  | 7 => ⟨S1x110, .f32⟩
  | 8 => ⟨S_, .f32⟩
  | 9 => ⟨S1x110, .f32⟩
  | 10 => ⟨S1x110, .f32⟩
  | 11 => ⟨S110x190, .f32⟩
  | 12 => ⟨S1x190, .f32⟩
  | 13 => ⟨S1x190, .f32⟩
  | 14 => ⟨S1x190, .f32⟩
  | 15 => ⟨S_, .f32⟩
  | 16 => ⟨S1x190, .f32⟩
  | 17 => ⟨S1x190, .f32⟩
  | 18 => ⟨S190x270, .f32⟩
  | 19 => ⟨S1x270, .f32⟩
  | 20 => ⟨S1x270, .f32⟩
  | 21 => ⟨S1x270, .f32⟩
  | 22 => ⟨S_, .f32⟩
  | 23 => ⟨S1x270, .f32⟩
  | 24 => ⟨S1x270, .f32⟩
  | 25 => ⟨S270x325, .f32⟩
  | 26 => ⟨S1x325, .f32⟩
  | 27 => ⟨S1x325, .f32⟩
  | 28 => ⟨S1x325, .f32⟩
  | 29 => ⟨S_, .f32⟩
  | 30 => ⟨S1, .f32⟩
  | 31 => ⟨S_, .f32⟩
  | 32 => ⟨S1, .f32⟩
  | 33 => ⟨S1, .f32⟩
  | 34 => ⟨S1x1, .f32⟩
  | 35 => ⟨S1x325, .f32⟩
  | 36 => ⟨S1x325, .f32⟩
  | 37 => ⟨S1x325, .f32⟩
  | 38 => ⟨S_, .f32⟩
  | 39 => ⟨S1, .f32⟩
  | 40 => ⟨S1x1, .f32⟩
  | 41 => ⟨S1x325, .f32⟩
  | 42 => ⟨S1x325, .f32⟩
  | 43 => ⟨S1x1, .f32⟩
  | 44 => ⟨S_, .f32⟩
  | 45 => ⟨S1x325, .f32⟩
  | 46 => ⟨S1x325, .f32⟩
  | 47 => ⟨S1x1, .f32⟩
  | 48 => ⟨S_, .f32⟩
  | 49 => ⟨S1x325, .f32⟩
  | 50 => ⟨S1x325, .f32⟩
  | 51 => ⟨S1x325, .f32⟩
  | 52 => ⟨S325x20, .f32⟩
  | 53 => ⟨S1x20, .f32⟩
  | 54 => ⟨S1x20, .f32⟩
  | 55 => ⟨S1x20, .f32⟩
  | 56 => ⟨S1x20, .f32⟩
  | 57 => ⟨S1x20, .f32⟩
  | 58 => ⟨S_, .f32⟩
  | 59 => ⟨S_, .f32⟩
  | 60 => ⟨S1x20, .f32⟩
  | 61 => ⟨S1x20, .f32⟩
  | 62 => ⟨S1x20, .f32⟩
  | 63 => ⟨S1000000x1, .f32⟩
  | 64 => ⟨S1000000x20, .f32⟩
  | _ => ⟨S1x14, .f32⟩

abbrev hbmTy (i : Nat) : BufTy := match i / 128 with
  | 0 => hbmTy0_0 i
  | 1 => hbmTy0_1 i
  | 2 => hbmTy0_2 i
  | 3 => hbmTy0_3 i
  | _ => ⟨S1x14, .f32⟩

abbrev bufTy : (tb : Table) → Fin (tcTables nBuf tb) → BufTy
  | .hbm, ⟨i, _⟩ => hbmTy i
  | .local _ .vmem, ⟨0, _⟩ => ⟨S5000x20, .f32⟩
  | .local _ .vmem, ⟨1, _⟩ => ⟨S5000x20, .f32⟩
  | .local _ .vmem, ⟨2, _⟩ => ⟨S1x20, .f32⟩
  | .local _ .vmem, ⟨3, _⟩ => ⟨S1x20, .f32⟩
  | .local _ .vmem, ⟨4, _⟩ => ⟨S5000x1, .f32⟩
  | .local _ .vmem, ⟨5, _⟩ => ⟨S5000x1, .f32⟩
  | .local _ .vmem, ⟨6, _⟩ => ⟨S5000x1, .f32⟩
  | .local _ .vmem, ⟨7, _⟩ => ⟨S5000x1, .f32⟩
  | .local _ .vmem, ⟨8, _⟩ => ⟨S5000x1, .f32⟩
  | .local _ .vmem, ⟨9, _⟩ => ⟨S5000x1, .f32⟩
  | .local _ .vmem, ⟨10, _⟩ => ⟨S5000x20, .f32⟩
  | .local _ .vmem, ⟨11, _⟩ => ⟨S5000x20, .f32⟩
  | .local _ .vmem, ⟨12, _⟩ => ⟨S5000x1, .f32⟩
  | .local _ .vmem, ⟨13, _⟩ => ⟨S5000x1, .f32⟩
  | .local _ .vmem, ⟨14, _⟩ => ⟨S1x20, .f32⟩
  | .local _ .vmem, ⟨15, _⟩ => ⟨S5000x20, .f32⟩
  | .local _ .vmem, ⟨16, _⟩ => ⟨S5000x20, .f32⟩
  | .local _ .vmem, ⟨17, _⟩ => ⟨S5000x1, .f32⟩
  | .local _ .vmem, ⟨18, _⟩ => ⟨S5000x1, .f32⟩
  | .local _ .vmem, ⟨19, _⟩ => ⟨S1x20, .f32⟩
  | .local _ .vmem, ⟨20, _⟩ => ⟨S1x20, .f32⟩
  | .local _ .vmem, ⟨21, _⟩ => ⟨S5000x20, .f32⟩
  | .local _ .vmem, ⟨22, _⟩ => ⟨S5000x20, .f32⟩
  | _, _ => ⟨S1x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst : Ref sig .tc := ⟨.hbm, 58, rfl⟩
abbrev main_v27 : Ref sig .tc := ⟨.hbm, 59, rfl⟩
abbrev main_v28 : Ref sig .tc := ⟨.hbm, 60, rfl⟩
abbrev main_cst_0 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_1 : Ref sig .tc := ⟨.hbm, 76, rfl⟩
abbrev main_v43 : Ref sig .tc := ⟨.hbm, 77, rfl⟩
abbrev main_cst_2 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_3 : Ref sig .tc := ⟨.hbm, 82, rfl⟩
abbrev main_v47 : Ref sig .tc := ⟨.hbm, 83, rfl⟩
abbrev main_cst_4 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_5 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_call0_cst : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_v8 : Ref sig .tc := ⟨.hbm, 106, rfl⟩
abbrev main_v59 : Ref sig .tc := ⟨.hbm, 107, rfl⟩
abbrev main_cst_6 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_call1_cst : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_v8 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_cst_7 : Ref sig .tc := ⟨.hbm, 131, rfl⟩
abbrev main_v72 : Ref sig .tc := ⟨.hbm, 132, rfl⟩
abbrev main_cst_8 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_cst_9 : Ref sig .tc := ⟨.hbm, 137, rfl⟩
abbrev main_v76 : Ref sig .tc := ⟨.hbm, 138, rfl⟩
abbrev main_cst_10 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_cst_11 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_call2_cst : Ref sig .tc := ⟨.hbm, 152, rfl⟩
abbrev main_call2_v0 : Ref sig .tc := ⟨.hbm, 153, rfl⟩
abbrev main_call2_v1 : Ref sig .tc := ⟨.hbm, 154, rfl⟩
abbrev main_call2_v2 : Ref sig .tc := ⟨.hbm, 155, rfl⟩
abbrev main_call2_v3 : Ref sig .tc := ⟨.hbm, 156, rfl⟩
abbrev main_call2_v4 : Ref sig .tc := ⟨.hbm, 157, rfl⟩
abbrev main_call2_v5 : Ref sig .tc := ⟨.hbm, 158, rfl⟩
abbrev main_call2_v6 : Ref sig .tc := ⟨.hbm, 159, rfl⟩
abbrev main_call2_v7 : Ref sig .tc := ⟨.hbm, 160, rfl⟩
abbrev main_call2_v8 : Ref sig .tc := ⟨.hbm, 161, rfl⟩
abbrev main_v88 : Ref sig .tc := ⟨.hbm, 162, rfl⟩
abbrev main_cst_12 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_call3_cst : Ref sig .tc := ⟨.hbm, 167, rfl⟩
abbrev main_call3_v0 : Ref sig .tc := ⟨.hbm, 168, rfl⟩
abbrev main_call3_v1 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_v5 : Ref sig .tc := ⟨.hbm, 173, rfl⟩
abbrev main_call3_v6 : Ref sig .tc := ⟨.hbm, 174, rfl⟩
abbrev main_call3_v7 : Ref sig .tc := ⟨.hbm, 175, rfl⟩
abbrev main_call3_v8 : Ref sig .tc := ⟨.hbm, 176, rfl⟩
abbrev main_v92 : Ref sig .tc := ⟨.hbm, 177, rfl⟩
abbrev main_cst_13 : Ref sig .tc := ⟨.hbm, 178, rfl⟩
abbrev main_v93 : Ref sig .tc := ⟨.hbm, 179, rfl⟩
abbrev main_v94 : Ref sig .tc := ⟨.hbm, 180, rfl⟩
abbrev main_cst_14 : Ref sig .tc := ⟨.hbm, 181, rfl⟩
abbrev main_v95 : Ref sig .tc := ⟨.hbm, 182, rfl⟩
abbrev main_v96 : Ref sig .tc := ⟨.hbm, 183, rfl⟩
abbrev main_v97_0 : Ref sig .tc := ⟨.hbm, 184, rfl⟩
abbrev main_v97_1 : Ref sig .tc := ⟨.hbm, 185, rfl⟩
abbrev main_v97_2 : Ref sig .tc := ⟨.hbm, 186, rfl⟩
abbrev main_call4_v0 : Ref sig .tc := ⟨.hbm, 187, rfl⟩
abbrev main_call4_cst : Ref sig .tc := ⟨.hbm, 188, rfl⟩
abbrev main_call4_v1 : Ref sig .tc := ⟨.hbm, 189, rfl⟩
abbrev main_v98 : Ref sig .tc := ⟨.hbm, 190, rfl⟩
abbrev main_cst_15 : Ref sig .tc := ⟨.hbm, 191, rfl⟩
abbrev main_v99 : Ref sig .tc := ⟨.hbm, 192, rfl⟩
abbrev main_v100 : Ref sig .tc := ⟨.hbm, 193, rfl⟩
abbrev main_cst_16 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_cst_17 : Ref sig .tc := ⟨.hbm, 204, rfl⟩
abbrev main_v110 : Ref sig .tc := ⟨.hbm, 205, rfl⟩
abbrev main_cst_18 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_cst_19 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_cst_20 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_cst_21 : Ref sig .tc := ⟨.hbm, 247, rfl⟩
abbrev main_v149 : Ref sig .tc := ⟨.hbm, 248, rfl⟩
abbrev main_v150 : Ref sig .tc := ⟨.hbm, 249, rfl⟩
abbrev main_cst_22 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_call5_v0 : Ref sig .tc := ⟨.hbm, 255, rfl⟩
abbrev main_call5_cst : Ref sig .tc := ⟨.hbm, 256, rfl⟩
abbrev main_call5_v1 : Ref sig .tc := ⟨.hbm, 257, rfl⟩
abbrev main_v155 : Ref sig .tc := ⟨.hbm, 258, rfl⟩
abbrev main_cst_23 : Ref sig .tc := ⟨.hbm, 259, rfl⟩
abbrev main_v156 : Ref sig .tc := ⟨.hbm, 260, rfl⟩
abbrev main_v157 : Ref sig .tc := ⟨.hbm, 261, rfl⟩
abbrev main_cst_24 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_v163 : Ref sig .tc := ⟨.hbm, 268, rfl⟩
abbrev main_v164 : Ref sig .tc := ⟨.hbm, 269, rfl⟩
abbrev main_v165 : Ref sig .tc := ⟨.hbm, 270, rfl⟩
abbrev main_v166 : Ref sig .tc := ⟨.hbm, 271, rfl⟩
abbrev main_cst_25 : Ref sig .tc := ⟨.hbm, 272, rfl⟩
abbrev main_v167 : Ref sig .tc := ⟨.hbm, 273, rfl⟩
abbrev main_cst_26 : Ref sig .tc := ⟨.hbm, 274, rfl⟩
abbrev main_v168 : Ref sig .tc := ⟨.hbm, 275, rfl⟩
abbrev main_v169 : Ref sig .tc := ⟨.hbm, 276, rfl⟩
abbrev main_v170 : Ref sig .tc := ⟨.hbm, 277, rfl⟩
abbrev main_v171 : Ref sig .tc := ⟨.hbm, 278, rfl⟩
abbrev main_v172 : Ref sig .tc := ⟨.hbm, 279, rfl⟩
abbrev main_v173 : Ref sig .tc := ⟨.hbm, 280, rfl⟩
abbrev main_cst_27 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_cst_28 : Ref sig .tc := ⟨.hbm, 288, rfl⟩
abbrev main_v180 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩
abbrev main_v186 : Ref sig .tc := ⟨.hbm, 295, rfl⟩
abbrev main_v187 : Ref sig .tc := ⟨.hbm, 296, rfl⟩
abbrev main_v188 : Ref sig .tc := ⟨.hbm, 297, rfl⟩
abbrev main_v189 : Ref sig .tc := ⟨.hbm, 298, rfl⟩
abbrev main_v190 : Ref sig .tc := ⟨.hbm, 299, rfl⟩
abbrev main_v191 : Ref sig .tc := ⟨.hbm, 300, rfl⟩
abbrev main_v192 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_v197 : Ref sig .tc := ⟨.hbm, 306, rfl⟩
abbrev main_v198 : Ref sig .tc := ⟨.hbm, 307, rfl⟩
abbrev main_v199 : Ref sig .tc := ⟨.hbm, 308, rfl⟩
abbrev main_v200 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_cst_29 : Ref sig .tc := ⟨.hbm, 315, rfl⟩
abbrev main_v206 : Ref sig .tc := ⟨.hbm, 316, rfl⟩
abbrev main_v207 : Ref sig .tc := ⟨.hbm, 317, rfl⟩
abbrev main_cst_30 : Ref sig .tc := ⟨.hbm, 318, rfl⟩
abbrev main_v208 : Ref sig .tc := ⟨.hbm, 319, rfl⟩
abbrev main_v209 : Ref sig .tc := ⟨.hbm, 320, rfl⟩
abbrev main_v210 : Ref sig .tc := ⟨.hbm, 321, rfl⟩
abbrev main_v211 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_v217 : Ref sig .tc := ⟨.hbm, 328, rfl⟩
abbrev main_v218 : Ref sig .tc := ⟨.hbm, 329, rfl⟩
abbrev main_cst_31 : Ref sig .tc := ⟨.hbm, 330, rfl⟩
abbrev main_v219 : Ref sig .tc := ⟨.hbm, 331, rfl⟩
abbrev main_cst_32 : Ref sig .tc := ⟨.hbm, 332, rfl⟩
abbrev main_v220 : Ref sig .tc := ⟨.hbm, 333, rfl⟩
abbrev main_v221 : Ref sig .tc := ⟨.hbm, 334, rfl⟩
abbrev main_cst_33 : Ref sig .tc := ⟨.hbm, 335, rfl⟩
abbrev main_v222 : Ref sig .tc := ⟨.hbm, 336, rfl⟩
abbrev main_cst_34 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_v228 : Ref sig .tc := ⟨.hbm, 343, rfl⟩
abbrev main_cst_35 : Ref sig .tc := ⟨.hbm, 344, rfl⟩
abbrev main_v229 : Ref sig .tc := ⟨.hbm, 345, rfl⟩
abbrev main_v230 : Ref sig .tc := ⟨.hbm, 346, rfl⟩
abbrev main_v231 : Ref sig .tc := ⟨.hbm, 347, rfl⟩
abbrev main_v232 : Ref sig .tc := ⟨.hbm, 348, rfl⟩
abbrev main_v233 : Ref sig .tc := ⟨.hbm, 349, rfl⟩
abbrev main_v234 : Ref sig .tc := ⟨.hbm, 350, rfl⟩
abbrev main_v235 : Ref sig .tc := ⟨.hbm, 351, rfl⟩
abbrev main_v236 : Ref sig .tc := ⟨.hbm, 352, rfl⟩
abbrev main_call6_cst : Ref sig .tc := ⟨.hbm, 353, rfl⟩
abbrev main_call6_v0 : Ref sig .tc := ⟨.hbm, 354, rfl⟩
abbrev main_v237 : Ref sig .tc := ⟨.hbm, 355, rfl⟩
abbrev main_v238 : Ref sig .tc := ⟨.hbm, 356, rfl⟩
abbrev main_v239 : Ref sig .tc := ⟨.hbm, 357, rfl⟩
abbrev main_v240 : Ref sig .tc := ⟨.hbm, 358, rfl⟩
abbrev main_v241 : Ref sig .tc := ⟨.hbm, 359, rfl⟩
abbrev main_call7_cst : Ref sig .tc := ⟨.hbm, 360, rfl⟩
abbrev main_call7_v0 : Ref sig .tc := ⟨.hbm, 361, rfl⟩
abbrev main_v242 : Ref sig .tc := ⟨.hbm, 362, rfl⟩
abbrev main_v243 : Ref sig .tc := ⟨.hbm, 363, rfl⟩
abbrev main_v244 : Ref sig .tc := ⟨.hbm, 364, rfl⟩
abbrev main_v245 : Ref sig .tc := ⟨.hbm, 365, rfl⟩
abbrev main_v246 : Ref sig .tc := ⟨.hbm, 366, rfl⟩
abbrev main_call8_cst : Ref sig .tc := ⟨.hbm, 367, rfl⟩
abbrev main_call8_v0 : Ref sig .tc := ⟨.hbm, 368, rfl⟩
abbrev main_v247 : Ref sig .tc := ⟨.hbm, 369, rfl⟩
abbrev main_v248 : Ref sig .tc := ⟨.hbm, 370, rfl⟩
abbrev main_v249 : Ref sig .tc := ⟨.hbm, 371, rfl⟩
abbrev main_v250 : Ref sig .tc := ⟨.hbm, 372, rfl⟩
abbrev main_v251 : Ref sig .tc := ⟨.hbm, 373, rfl⟩
abbrev main_cst_36 : Ref sig .tc := ⟨.hbm, 374, rfl⟩
abbrev main_v252 : Ref sig .tc := ⟨.hbm, 375, rfl⟩
abbrev main_cst_37 : Ref sig .tc := ⟨.hbm, 376, rfl⟩
abbrev main_v253 : Ref sig .tc := ⟨.hbm, 377, rfl⟩
abbrev main_v254 : Ref sig .tc := ⟨.hbm, 378, rfl⟩
abbrev main_v255 : Ref sig .tc := ⟨.hbm, 379, rfl⟩
abbrev main_v256 : Ref sig .tc := ⟨.hbm, 380, rfl⟩
abbrev main_v257 : Ref sig .tc := ⟨.hbm, 381, rfl⟩
abbrev main_v258 : Ref sig .tc := ⟨.hbm, 382, rfl⟩
abbrev main_cst_38 : Ref sig .tc := ⟨.hbm, 383, rfl⟩
abbrev main_v259 : Ref sig .tc := ⟨.hbm, 384, rfl⟩
abbrev main_v260 : Ref sig .tc := ⟨.hbm, 385, rfl⟩
abbrev main_v261 : Ref sig .tc := ⟨.hbm, 386, rfl⟩
abbrev main_v262 : Ref sig .tc := ⟨.hbm, 387, rfl⟩
abbrev main_v263 : Ref sig .tc := ⟨.hbm, 388, rfl⟩
abbrev main_v264 : Ref sig .tc := ⟨.hbm, 389, rfl⟩
abbrev main_v265 : Ref sig .tc := ⟨.hbm, 390, rfl⟩
abbrev main_v266 : Ref sig .tc := ⟨.hbm, 391, rfl⟩
abbrev main_call9_cst : Ref sig .tc := ⟨.hbm, 392, rfl⟩
abbrev main_call9_v0 : Ref sig .tc := ⟨.hbm, 393, rfl⟩
abbrev main_v267 : Ref sig .tc := ⟨.hbm, 394, rfl⟩
abbrev main_v268 : Ref sig .tc := ⟨.hbm, 395, rfl⟩
abbrev main_v269 : Ref sig .tc := ⟨.hbm, 396, rfl⟩
abbrev main_v270 : Ref sig .tc := ⟨.hbm, 397, rfl⟩
abbrev main_v271 : Ref sig .tc := ⟨.hbm, 398, rfl⟩
abbrev main_call10_cst : Ref sig .tc := ⟨.hbm, 399, rfl⟩
abbrev main_call10_v0 : Ref sig .tc := ⟨.hbm, 400, rfl⟩
abbrev main_v272 : Ref sig .tc := ⟨.hbm, 401, rfl⟩
abbrev main_v273 : Ref sig .tc := ⟨.hbm, 402, rfl⟩
abbrev main_v274 : Ref sig .tc := ⟨.hbm, 403, rfl⟩
abbrev main_v275 : Ref sig .tc := ⟨.hbm, 404, rfl⟩
abbrev main_v276 : Ref sig .tc := ⟨.hbm, 405, rfl⟩
abbrev main_call11_cst : Ref sig .tc := ⟨.hbm, 406, rfl⟩
abbrev main_call11_v0 : Ref sig .tc := ⟨.hbm, 407, rfl⟩
abbrev main_v277 : Ref sig .tc := ⟨.hbm, 408, rfl⟩
abbrev main_v278 : Ref sig .tc := ⟨.hbm, 409, rfl⟩
abbrev main_v279 : Ref sig .tc := ⟨.hbm, 410, rfl⟩
abbrev main_v280 : Ref sig .tc := ⟨.hbm, 411, rfl⟩
abbrev main_v281 : Ref sig .tc := ⟨.hbm, 412, rfl⟩
abbrev main_cst_39 : Ref sig .tc := ⟨.hbm, 413, rfl⟩
abbrev main_v282 : Ref sig .tc := ⟨.hbm, 414, rfl⟩
abbrev main_cst_40 : Ref sig .tc := ⟨.hbm, 415, rfl⟩
abbrev main_v283 : Ref sig .tc := ⟨.hbm, 416, rfl⟩
abbrev main_v284 : Ref sig .tc := ⟨.hbm, 417, rfl⟩
abbrev main_v285 : Ref sig .tc := ⟨.hbm, 418, rfl⟩
abbrev main_v286 : Ref sig .tc := ⟨.hbm, 419, rfl⟩
abbrev main_v287 : Ref sig .tc := ⟨.hbm, 420, rfl⟩
abbrev main_v288 : Ref sig .tc := ⟨.hbm, 421, rfl⟩
abbrev main_cst_41 : Ref sig .tc := ⟨.hbm, 422, rfl⟩
abbrev main_v289 : Ref sig .tc := ⟨.hbm, 423, rfl⟩
abbrev main_v290 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_v296 : Ref sig .tc := ⟨.hbm, 430, rfl⟩
abbrev main_v297 : Ref sig .tc := ⟨.hbm, 431, rfl⟩
abbrev main_v298 : Ref sig .tc := ⟨.hbm, 432, rfl⟩
abbrev main_v299 : Ref sig .tc := ⟨.hbm, 433, rfl⟩
abbrev main_v300 : Ref sig .tc := ⟨.hbm, 434, rfl⟩
abbrev main_v301 : Ref sig .tc := ⟨.hbm, 435, rfl⟩
abbrev main_v302 : Ref sig .tc := ⟨.hbm, 436, rfl⟩
abbrev main_v303 : Ref sig .tc := ⟨.hbm, 437, rfl⟩
abbrev main_v304 : Ref sig .tc := ⟨.hbm, 438, rfl⟩
abbrev main_v305 : Ref sig .tc := ⟨.hbm, 439, rfl⟩
abbrev main_v306 : Ref sig .tc := ⟨.hbm, 440, rfl⟩
abbrev main_v307 : Ref sig .tc := ⟨.hbm, 441, rfl⟩
abbrev main_cst_42 : Ref sig .tc := ⟨.hbm, 442, rfl⟩
abbrev main_v308 : Ref sig .tc := ⟨.hbm, 443, rfl⟩
abbrev main_v309 : Ref sig .tc := ⟨.hbm, 444, rfl⟩
abbrev main_v310 : Ref sig .tc := ⟨.hbm, 445, rfl⟩
abbrev main_v311 : Ref sig .tc := ⟨.hbm, 446, rfl⟩
abbrev main_v312 : Ref sig .tc := ⟨.hbm, 447, rfl⟩
abbrev main_v313 : Ref sig .tc := ⟨.hbm, 448, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x20 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x20 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x20 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x20 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S48x14_S14x48_1_0 : S48x14.Transposes [1, 0] S14x48
  bcast_S48_S1x48_1 : S48.BroadcastsInDim S1x48 (![1] : Fin 1 → Fin S1x48.rank)
  transposes_S72x48_S48x72_1_0 : S72x48.Transposes [1, 0] S48x72
  bcast_S72_S1x72_1 : S72.BroadcastsInDim S1x72 (![1] : Fin 1 → Fin S1x72.rank)
  transposes_S92x72_S72x92_1_0 : S92x72.Transposes [1, 0] S72x92
  bcast_S92_S1x92_1 : S92.BroadcastsInDim S1x92 (![1] : Fin 1 → Fin S1x92.rank)
  transposes_S3x72_S72x3_1_0 : S3x72.Transposes [1, 0] S72x3
  bcast_S3_S1x3_1 : S3.BroadcastsInDim S1x3 (![1] : Fin 1 → Fin S1x3.rank)
  slices_S1x92_S1x26_0_0 : S1x92.Slices ![0, 0] S1x26
  shapeCasts_S1x26_S26 : S1x26.ShapeCasts S26
  bcast_S26_S1x26_1 : S26.BroadcastsInDim S1x26 (![1] : Fin 1 → Fin S1x26.rank)
  slices_S1x92_S1x26_0_26 : S1x92.Slices ![0, 26] S1x26
  slices_S1x92_S1x20_0_52 : S1x92.Slices ![0, 52] S1x20
  shapeCasts_S1x20_S20 : S1x20.ShapeCasts S20
  bcast_S20_S1x20_1 : S20.BroadcastsInDim S1x20 (![1] : Fin 1 → Fin S1x20.rank)
  bcast_S_S1x20 : S_.BroadcastsInDim S1x20 (![] : Fin 0 → Fin S1x20.rank)
  slices_S1x92_S1x20_0_72 : S1x92.Slices ![0, 72] S1x20
  slices_S1x26_S1x20_0_0 : S1x26.Slices ![0, 0] S1x20
  slices_S1x26_S1x1_0_20 : S1x26.Slices ![0, 20] S1x1
  shapeCasts_S1x1_S_ : S1x1.ShapeCasts S_
  slices_S1x26_S1x3_0_21 : S1x26.Slices ![0, 21] S1x3
  shapeCasts_S1x3_S3 : S1x3.ShapeCasts S3
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  slices_S1x26_S1x1_0_24 : S1x26.Slices ![0, 24] S1x1
  slices_S1x26_S1x1_0_25 : S1x26.Slices ![0, 25] S1x1
  inb_S5000x20_S5000x20_0_0 : ∀ a, (![0, 0] : Fin 2 → Nat) a + S5000x20.size a ≤ S5000x20.size a
  h_S5000x20 : 0 < S5000x20.numel
  reduces_S5000x20_S5000 : S5000x20.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S5000x20 : S1x20.Broadcasts S5000x20
  reducesTo_S1x20_S1_d1 : S1x20.ReducesTo [1] S1
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1x1000000 : S1000000x1.ShapeCasts S1x1000000
  reducesTo_S1x1000000_S1_d1 : S1x1000000.ReducesTo [1] S1
  bcast_S1_S1x1_0 : S1.BroadcastsInDim S1x1 (![0] : Fin 1 → Fin S1x1.rank)
  bcast_S1x1_S1x1000000_0_1 : S1x1.BroadcastsInDim S1x1000000 (![0, 1] : Fin 2 → Fin S1x1000000.rank)
  bcast_S_S1x1000000 : S_.BroadcastsInDim S1x1000000 (![] : Fin 0 → Fin S1x1000000.rank)
  slices_S1x1000000_S1x1_0_999999 : S1x1000000.Slices ![0, 999999] S1x1
  slices_S1x1000000_S1x1_0_0 : S1x1000000.Slices ![0, 0] S1x1
  concatenates_S1x1_S1x1000000_S1x1_S1x1000002_d1 : Shape.Concatenates [S1x1, S1x1000000, S1x1] S1x1000002 1
  slices_S3_S1_0 : S3.Slices ![0] S1
  shapeCasts_S1_S_ : S1.ShapeCasts S_
  slices_S1x1000002_S1x1000000_0_0 : S1x1000002.Slices ![0, 0] S1x1000000
  slices_S3_S1_1 : S3.Slices ![1] S1
  slices_S1x1000002_S1x1000000_0_1 : S1x1000002.Slices ![0, 1] S1x1000000
  slices_S3_S1_2 : S3.Slices ![2] S1
  slices_S1x1000002_S1x1000000_0_2 : S1x1000002.Slices ![0, 2] S1x1000000
  bcast_S_S1x1 : S_.BroadcastsInDim S1x1 (![] : Fin 0 → Fin S1x1.rank)
  shapeCasts_S1x1000000_S1000000x1 : S1x1000000.ShapeCasts S1000000x1
  shapeCasts_S5000x1_S5000x1 : S5000x1.ShapeCasts S5000x1
  broadcasts_S5000x1_S5000x20 : S5000x1.Broadcasts S5000x20
  reduces_S5000x20_S20 : S5000x20.Reduces [0] S20
  shapeCasts_S20_S1x20 : S20.ShapeCasts S1x20
  concatenates_S1x20_S1x20_S1x40_d1 : Shape.Concatenates [S1x20, S1x20] S1x40 1
  slices_S1x3_S1x1_0_0 : S1x3.Slices ![0, 0] S1x1
  slices_S1x3_S1x2_0_1 : S1x3.Slices ![0, 1] S1x2
  reducesTo_S1x2_S1_d1 : S1x2.ReducesTo [1] S1
  bcast_S1x1_S1x2_0_1 : S1x1.BroadcastsInDim S1x2 (![0, 1] : Fin 2 → Fin S1x2.rank)
  transposes_S110x40_S40x110_1_0 : S110x40.Transposes [1, 0] S40x110
  bcast_S110_S1x110_1 : S110.BroadcastsInDim S1x110 (![1] : Fin 1 → Fin S1x110.rank)
  bcast_S_S1x110 : S_.BroadcastsInDim S1x110 (![] : Fin 0 → Fin S1x110.rank)
  transposes_S190x110_S110x190_1_0 : S190x110.Transposes [1, 0] S110x190
  bcast_S190_S1x190_1 : S190.BroadcastsInDim S1x190 (![1] : Fin 1 → Fin S1x190.rank)
  bcast_S_S1x190 : S_.BroadcastsInDim S1x190 (![] : Fin 0 → Fin S1x190.rank)
  transposes_S270x190_S190x270_1_0 : S270x190.Transposes [1, 0] S190x270
  bcast_S270_S1x270_1 : S270.BroadcastsInDim S1x270 (![1] : Fin 1 → Fin S1x270.rank)
  bcast_S_S1x270 : S_.BroadcastsInDim S1x270 (![] : Fin 0 → Fin S1x270.rank)
  transposes_S325x270_S270x325_1_0 : S325x270.Transposes [1, 0] S270x325
  bcast_S325_S1x325_1 : S325.BroadcastsInDim S1x325 (![1] : Fin 1 → Fin S1x325.rank)
  reducesTo_S1x325_S1_d1 : S1x325.ReducesTo [1] S1
  bcast_S1x1_S1x325_0_1 : S1x1.BroadcastsInDim S1x325 (![0, 1] : Fin 2 → Fin S1x325.rank)
  slices_S1x2_S1x1_0_0 : S1x2.Slices ![0, 0] S1x1
  bcast_S_S1x325 : S_.BroadcastsInDim S1x325 (![] : Fin 0 → Fin S1x325.rank)
  slices_S1x2_S1x1_0_1 : S1x2.Slices ![0, 1] S1x1
  transposes_S20x325_S325x20_1_0 : S20x325.Transposes [1, 0] S325x20
  dot_S1x14_S14x48_S1x48_1_0_0_1_n_n_wf : DotDims.WF S1x14 S14x48 S1x48 [1] [0] [0] [1] [] []
  dot_S1x48_S48x72_S1x72_1_0_0_1_n_n_wf : DotDims.WF S1x48 S48x72 S1x72 [1] [0] [0] [1] [] []
  dot_S1x72_S72x92_S1x92_1_0_0_1_n_n_wf : DotDims.WF S1x72 S72x92 S1x92 [1] [0] [0] [1] [] []
  dot_S1x72_S72x3_S1x3_1_0_0_1_n_n_wf : DotDims.WF S1x72 S72x3 S1x3 [1] [0] [0] [1] [] []
  dot_S1x40_S40x110_S1x110_1_0_0_1_n_n_wf : DotDims.WF S1x40 S40x110 S1x110 [1] [0] [0] [1] [] []
  dot_S1x110_S110x190_S1x190_1_0_0_1_n_n_wf : DotDims.WF S1x110 S110x190 S1x190 [1] [0] [0] [1] [] []
  dot_S1x190_S190x270_S1x270_1_0_0_1_n_n_wf : DotDims.WF S1x190 S190x270 S1x270 [1] [0] [0] [1] [] []
  dot_S1x270_S270x325_S1x325_1_0_0_1_n_n_wf : DotDims.WF S1x270 S270x325 S1x325 [1] [0] [0] [1] [] []
  dot_S1x325_S325x20_S1x20_1_0_0_1_n_n_wf : DotDims.WF S1x325 S325x20 S1x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x20.size a ≤ S1000000x20.size a
  hwx0_0 : ∀ i : grid0.Coords, EltTy.bits .f32 = 32 ∨ (Rect.block (s := S1000000x20) S5000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x20.size a ≤ S1x20.size a
  hwx0_1 : ∀ i : grid0.Coords, EltTy.bits .f32 = 32 ∨ (Rect.block (s := S1x20) S1x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S1000000x1.size a
  hwx0_3 : ∀ i : grid0.Coords, EltTy.bits .f32 = 32 ∨ (Rect.block (s := S1000000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S1000000x1.size a
  hwx0_4 : ∀ i : grid0.Coords, EltTy.bits .f32 = 32 ∨ (Rect.block (s := S1000000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S1000000x1.size a
  hwx0_5 : ∀ i : grid0.Coords, EltTy.bits .f32 = 32 ∨ (Rect.block (s := S1000000x1) S5000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x20.size a ≤ S1000000x20.size a
  hwx1_0 : ∀ i : grid1.Coords, EltTy.bits .f32 = 32 ∨ (Rect.block (s := S1000000x20) S5000x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1000000x1.size a
  hwx1_1 : ∀ i : grid1.Coords, EltTy.bits .f32 = 32 ∨ (Rect.block (s := S1000000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x20.size a ≤ S1x20.size a
  hwx1_2 : ∀ i : grid1.Coords, EltTy.bits .f32 = 32 ∨ (Rect.block (s := S1x20) S1x20.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x20.size a ≤ S1000000x20.size a
  hwx2_0 : ∀ i : grid2.Coords, EltTy.bits .f32 = 32 ∨ (Rect.block (s := S1000000x20) S5000x20.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S1000000x1.size a
  hwx2_1 : ∀ i : grid2.Coords, EltTy.bits .f32 = 32 ∨ (Rect.block (s := S1000000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x20.size a ≤ S1x20.size a
  hwx2_2 : ∀ i : grid2.Coords, EltTy.bits .f32 = 32 ∨ (Rect.block (s := S1x20) S1x20.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x20.size a ≤ S1x20.size a
  hwx2_3 : ∀ i : grid2.Coords, EltTy.bits .f32 = 32 ∨ (Rect.block (s := S1x20) S1x20.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x20.size a ≤ S1000000x20.size a
  hwx2_4 : ∀ i : grid2.Coords, EltTy.bits .f32 = 32 ∨ (Rect.block (s := S1000000x20) S5000x20.size (cc2_transform_4 i) (hinb2_4 i)).WholeWords (EltTy.packing .f32)

variable [Facts₀]

def dot_S1x14_S14x48_S1x48_1_0_0_1_n_n : DotDims S1x14 S14x48 S1x48 where
  lhsContracting := [1]
  rhsContracting := [0]
  lhsNonContracting := [0]
  rhsNonContracting := [1]
  lhsBatch := []
  rhsBatch := []
  wf := dot_S1x14_S14x48_S1x48_1_0_0_1_n_n_wf
def dot_S1x48_S48x72_S1x72_1_0_0_1_n_n : DotDims S1x48 S48x72 S1x72 where
  lhsContracting := [1]
  rhsContracting := [0]
  lhsNonContracting := [0]
  rhsNonContracting := [1]
  lhsBatch := []
  rhsBatch := []
  wf := dot_S1x48_S48x72_S1x72_1_0_0_1_n_n_wf
def dot_S1x72_S72x92_S1x92_1_0_0_1_n_n : DotDims S1x72 S72x92 S1x92 where
  lhsContracting := [1]
  rhsContracting := [0]
  lhsNonContracting := [0]
  rhsNonContracting := [1]
  lhsBatch := []
  rhsBatch := []
  wf := dot_S1x72_S72x92_S1x92_1_0_0_1_n_n_wf
def dot_S1x72_S72x3_S1x3_1_0_0_1_n_n : DotDims S1x72 S72x3 S1x3 where
  lhsContracting := [1]
  rhsContracting := [0]
  lhsNonContracting := [0]
  rhsNonContracting := [1]
  lhsBatch := []
  rhsBatch := []
  wf := dot_S1x72_S72x3_S1x3_1_0_0_1_n_n_wf
def dot_S1x40_S40x110_S1x110_1_0_0_1_n_n : DotDims S1x40 S40x110 S1x110 where
  lhsContracting := [1]
  rhsContracting := [0]
  lhsNonContracting := [0]
  rhsNonContracting := [1]
  lhsBatch := []
  rhsBatch := []
  wf := dot_S1x40_S40x110_S1x110_1_0_0_1_n_n_wf
def dot_S1x110_S110x190_S1x190_1_0_0_1_n_n : DotDims S1x110 S110x190 S1x190 where
  lhsContracting := [1]
  rhsContracting := [0]
  lhsNonContracting := [0]
  rhsNonContracting := [1]
  lhsBatch := []
  rhsBatch := []
  wf := dot_S1x110_S110x190_S1x190_1_0_0_1_n_n_wf
def dot_S1x190_S190x270_S1x270_1_0_0_1_n_n : DotDims S1x190 S190x270 S1x270 where
  lhsContracting := [1]
  rhsContracting := [0]
  lhsNonContracting := [0]
  rhsNonContracting := [1]
  lhsBatch := []
  rhsBatch := []
  wf := dot_S1x190_S190x270_S1x270_1_0_0_1_n_n_wf
def dot_S1x270_S270x325_S1x325_1_0_0_1_n_n : DotDims S1x270 S270x325 S1x325 where
  lhsContracting := [1]
  rhsContracting := [0]
  lhsNonContracting := [0]
  rhsNonContracting := [1]
  lhsBatch := []
  rhsBatch := []
  wf := dot_S1x270_S270x325_S1x325_1_0_0_1_n_n_wf
def dot_S1x325_S325x20_S1x20_1_0_0_1_n_n : DotDims S1x325 S325x20 S1x20 where
  lhsContracting := [1]
  rhsContracting := [0]
  lhsNonContracting := [0]
  rhsNonContracting := [1]
  lhsBatch := []
  rhsBatch := []
  wf := dot_S1x325_S325x20_S1x20_1_0_0_1_n_n_wf

abbrev win0_0 : Pipeline.Window sig grid0 :=
  Pipeline.Window.ofSpec (Memref.whole main_arg3) S5000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v94) S1x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v96) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v97_0) S5000x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v97_1) S5000x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v97_2) S5000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg3) S5000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v212) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v213) S1x20.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg3) S5000x20.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v312) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x20.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v311) S1x20.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v313) S5000x20.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1x14 : Shape := ⟨2, ![1, 14]⟩
abbrev S1x1000000 : Shape := ⟨2, ![1, 1000000]⟩
abbrev S1000000x20 : Shape := ⟨2, ![1000000, 20]⟩
abbrev S1x20 : Shape := ⟨2, ![1, 20]⟩
abbrev S48x14 : Shape := ⟨2, ![48, 14]⟩
abbrev S48 : Shape := ⟨1, ![48]⟩
abbrev S72x48 : Shape := ⟨2, ![72, 48]⟩
abbrev S72 : Shape := ⟨1, ![72]⟩
abbrev S92x72 : Shape := ⟨2, ![92, 72]⟩
abbrev S92 : Shape := ⟨1, ![92]⟩
abbrev S3x72 : Shape := ⟨2, ![3, 72]⟩
abbrev S3 : Shape := ⟨1, ![3]⟩
abbrev S20x325 : Shape := ⟨2, ![20, 325]⟩
abbrev S20 : Shape := ⟨1, ![20]⟩
abbrev S110x40 : Shape := ⟨2, ![110, 40]⟩
abbrev S110 : Shape := ⟨1, ![110]⟩
abbrev S190x110 : Shape := ⟨2, ![190, 110]⟩
abbrev S190 : Shape := ⟨1, ![190]⟩
abbrev S270x190 : Shape := ⟨2, ![270, 190]⟩
abbrev S270 : Shape := ⟨1, ![270]⟩
abbrev S325x270 : Shape := ⟨2, ![325, 270]⟩
abbrev S325 : Shape := ⟨1, ![325]⟩
abbrev S14x48 : Shape := ⟨2, ![14, 48]⟩
abbrev S1x48 : Shape := ⟨2, ![1, 48]⟩
abbrev S48x72 : Shape := ⟨2, ![48, 72]⟩
abbrev S1x72 : Shape := ⟨2, ![1, 72]⟩
abbrev S72x92 : Shape := ⟨2, ![72, 92]⟩
abbrev S1x92 : Shape := ⟨2, ![1, 92]⟩
abbrev S72x3 : Shape := ⟨2, ![72, 3]⟩
abbrev S1x3 : Shape := ⟨2, ![1, 3]⟩
abbrev S1x26 : Shape := ⟨2, ![1, 26]⟩
abbrev S26 : Shape := ⟨1, ![26]⟩
abbrev S_ : Shape := ⟨0, ![]⟩
abbrev S1x1 : Shape := ⟨2, ![1, 1]⟩
abbrev S1 : Shape := ⟨1, ![1]⟩
abbrev S20x1 : Shape := ⟨2, ![20, 1]⟩
abbrev S1000000x1 : Shape := ⟨2, ![1000000, 1]⟩
abbrev S1000000 : Shape := ⟨1, ![1000000]⟩
abbrev S1x1000002 : Shape := ⟨2, ![1, 1000002]⟩
abbrev S1x40 : Shape := ⟨2, ![1, 40]⟩
abbrev S1x2 : Shape := ⟨2, ![1, 2]⟩
abbrev S40x110 : Shape := ⟨2, ![40, 110]⟩
abbrev S1x110 : Shape := ⟨2, ![1, 110]⟩
abbrev S110x190 : Shape := ⟨2, ![110, 190]⟩
abbrev S1x190 : Shape := ⟨2, ![1, 190]⟩
abbrev S190x270 : Shape := ⟨2, ![190, 270]⟩
abbrev S1x270 : Shape := ⟨2, ![1, 270]⟩
abbrev S270x325 : Shape := ⟨2, ![270, 325]⟩
abbrev S1x325 : Shape := ⟨2, ![1, 325]⟩
abbrev S325x20 : Shape := ⟨2, ![325, 20]⟩

abbrev nBuf : Space → Nat
  | .hbm => 468
  | .vmem => 0
  | .smem => 0
  | _ => 0

abbrev hbmTy0_0 (i : Nat) : BufTy := match i % 128 with
  | 0 => ⟨S1x14, .f32⟩
  | 1 => ⟨S1x1000000, .f32⟩
  | 2 => ⟨S1x1000000, .f32⟩
  | 3 => ⟨S1000000x20, .f32⟩
  | 4 => ⟨S1x20, .f32⟩
  | 5 => ⟨S48x14, .f32⟩
  | 6 => ⟨S48, .f32⟩
  | 7 => ⟨S72x48, .f32⟩
  | 8 => ⟨S72, .f32⟩
  | 9 => ⟨S92x72, .f32⟩
  | 10 => ⟨S92, .f32⟩
  | 11 => ⟨S3x72, .f32⟩
  | 12 => ⟨S3, .f32⟩
  | 13 => ⟨S20x325, .f32⟩
  | 14 => ⟨S20, .f32⟩
  | 15 => ⟨S110x40, .f32⟩
  | 16 => ⟨S110, .f32⟩
  | 17 => ⟨S190x110, .f32⟩
  | 18 => ⟨S190, .f32⟩
  | 19 => ⟨S270x190, .f32⟩
  | 20 => ⟨S270, .f32⟩
  | 21 => ⟨S325x270, .f32⟩
  | 22 => ⟨S325, .f32⟩
  | 23 => ⟨S110x40, .f32⟩
  | 24 => ⟨S110, .f32⟩
  | 25 => ⟨S190x110, .f32⟩
  | 26 => ⟨S190, .f32⟩
  | 27 => ⟨S270x190, .f32⟩
  | 28 => ⟨S270, .f32⟩
  | 29 => ⟨S325x270, .f32⟩
  | 30 => ⟨S325, .f32⟩
  | 31 => ⟨S14x48, .f32⟩
  | 32 => ⟨S1x48, .f32⟩
  | 33 => ⟨S1x48, .f32⟩
  | 34 => ⟨S1x48, .f32⟩
  | 35 => ⟨S48x72, .f32⟩
  | 36 => ⟨S1x72, .f32⟩
  | 37 => ⟨S1x72, .f32⟩
  | 38 => ⟨S1x72, .f32⟩
  | 39 => ⟨S72x92, .f32⟩
  | 40 => ⟨S1x92, .f32⟩
  | 41 => ⟨S1x92, .f32⟩
  | 42 => ⟨S1x92, .f32⟩
  | 43 => ⟨S72x3, .f32⟩
  | 44 => ⟨S1x3, .f32⟩
  | 45 => ⟨S1x3, .f32⟩
  | 46 => ⟨S1x3, .f32⟩
  | 47 => ⟨S1x26, .f32⟩
  | 48 => ⟨S26, .f32⟩
  | 49 => ⟨S1x26, .f32⟩
  | 50 => ⟨S1x26, .f32⟩
  | 51 => ⟨S26, .f32⟩
  | 52 => ⟨S1x26, .f32⟩
  | 53 => ⟨S1x20, .f32⟩
  | 54 => ⟨S20, .f32⟩
  | 55 => ⟨S1x20, .f32⟩
  | 56 => ⟨S1x20, .f32⟩
  | 57 => ⟨S1x20, .f32⟩
  | 58 => ⟨S_, .f32⟩
  | 59 => ⟨S1x20, .f32⟩
  | 60 => ⟨S1x20, .f32⟩
  | 61 => ⟨S_, .f32⟩
  | 62 => ⟨S1x20, .f32⟩
  | 63 => ⟨S1x20, .f32⟩
  | 64 => ⟨S1x20, .f32⟩
  | 65 => ⟨S20, .f32⟩
  | 66 => ⟨S1x20, .f32⟩
  | 67 => ⟨S1x20, .f32⟩
  | 68 => ⟨S1x20, .f32⟩
  | 69 => ⟨S20, .f32⟩
  | 70 => ⟨S20, .f32⟩
  | 71 => ⟨S1x20, .f32⟩
  | 72 => ⟨S1x1, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S1x3, .f32⟩
  | 81 => ⟨S3, .f32⟩
  | 82 => ⟨S_, .f32⟩
  | 83 => ⟨S_, .f32⟩
  | 84 => ⟨S_, .f32⟩
  | 85 => ⟨S_, .f32⟩
  | 86 => ⟨S1, .f32⟩
  | 87 => ⟨S3, .f32⟩
  | 88 => ⟨S3, .f32⟩
  | 89 => ⟨S3, .f32⟩
  | 90 => ⟨S_, .f32⟩
  | 91 => ⟨S_, .f32⟩
  | 92 => ⟨S1, .f32⟩
  | 93 => ⟨S3, .f32⟩
  | 94 => ⟨S3, .f32⟩
  | 95 => ⟨S1x1, .f32⟩
  | 96 => ⟨S_, .f32⟩
  | 97 => ⟨S_, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S1x1, .f32⟩
  | 111 => ⟨S_, .f32⟩
  | 112 => ⟨S_, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S1000000x20, .f32⟩
  | 125 => ⟨S1000000x20, .f32⟩
  | 126 => ⟨S_, .f32⟩
  | 127 => ⟨S1x20, .f32⟩
  | _ => ⟨S1x14, .f32⟩

abbrev hbmTy0_1 (i : Nat) : BufTy := match i % 128 with
  | 0 => ⟨S1x20, .f32⟩
  | 1 => ⟨S20x1, .f32⟩
  | 2 => ⟨S1000000x1, .f32⟩
  | 3 => ⟨S1000000, .f32⟩
  | 4 => ⟨S1000000x20, .f32⟩
  | 5 => ⟨S_, .f32⟩
  | 6 => ⟨S1000000, .f32⟩
  | 7 => ⟨S1000000, .f32⟩
  | 8 => ⟨S_, .f32⟩
  | 9 => ⟨S1000000, .f32⟩
  | 10 => ⟨S1000000, .f32⟩
  | 11 => ⟨S1x20, .f32⟩
  | 12 => ⟨S_, .f32⟩
  | 13 => ⟨S1, .f32⟩
  | 14 => ⟨S1, .f32⟩
  | 15 => ⟨S_, .f32⟩
  | 16 => ⟨S1, .f32⟩
  | 17 => ⟨S1, .f32⟩
  | 18 => ⟨S1000000, .f32⟩
  | 19 => ⟨S1000000, .f32⟩
  | 20 => ⟨S1000000, .f32⟩
  | 21 => ⟨S1000000, .f32⟩
  | 22 => ⟨S1000000, .f32⟩
  | 23 => ⟨S_, .f32⟩
  | 24 => ⟨S_, .f32⟩
  | 25 => ⟨S_, .f32⟩
  | 26 => ⟨S_, .f32⟩
  | 27 => ⟨S1, .f32⟩
  | 28 => ⟨S1000000, .f32⟩
  | 29 => ⟨S1000000, .f32⟩
  | 30 => ⟨S1000000, .f32⟩
  | 31 => ⟨S_, .f32⟩
  | 32 => ⟨S_, .f32⟩
  | 33 => ⟨S1, .f32⟩
  | 34 => ⟨S1000000, .f32⟩
  | 35 => ⟨S1000000, .f32⟩
  | 36 => ⟨S1000000, .f32⟩
  | 37 => ⟨S1000000, .f32⟩
  | 38 => ⟨S_, .f32⟩
  | 39 => ⟨S_, .f32⟩
  | 40 => ⟨S1x1000000, .f32⟩
  | 41 => ⟨S1x1000000, .f32⟩
  | 42 => ⟨S1x1000000, .f32⟩
  | 43 => ⟨S1x1000000, .f32⟩
  | 44 => ⟨S1x1, .f32⟩
  | 45 => ⟨S1x1, .f32⟩
  | 46 => ⟨S1x1000002, .f32⟩
  | 47 => ⟨S1, .f32⟩
  | 48 => ⟨S_, .f32⟩
  | 49 => ⟨S1x1000000, .f32⟩
  | 50 => ⟨S1x1000000, .f32⟩
  | 51 => ⟨S1x1000000, .f32⟩
  | 52 => ⟨S1, .f32⟩
  | 53 => ⟨S_, .f32⟩
  | 54 => ⟨S1x1000000, .f32⟩
  | 55 => ⟨S1x1000000, .f32⟩
  | 56 => ⟨S1x1000000, .f32⟩
  | 57 => ⟨S1x1000000, .f32⟩
  | 58 => ⟨S1, .f32⟩
  | 59 => ⟨S_, .f32⟩
  | 60 => ⟨S1x1000000, .f32⟩
  | 61 => ⟨S1x1000000, .f32⟩
  | 62 => ⟨S1x1000000, .f32⟩
  | 63 => ⟨S1x1000000, .f32⟩
  | 64 => ⟨S1x1000000, .f32⟩
  | 65 => ⟨S1x1000000, .f32⟩
  | 66 => ⟨S_, .f32⟩
  | 67 => ⟨S1, .f32⟩
  | 68 => ⟨S1x1, .f32⟩
  | 69 => ⟨S_, .f32⟩
  | 70 => ⟨S1x1, .f32⟩
  | 71 => ⟨S1x1, .f32⟩
  | 72 => ⟨S1x1000000, .f32⟩
  | 73 => ⟨S1x1000000, .f32⟩
  | 74 => ⟨S1x20, .f32⟩
  | 75 => ⟨S20, .f32⟩
  | 76 => ⟨S20, .f32⟩
  | 77 => ⟨S1x20, .f32⟩
  | 78 => ⟨S1x1, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S1x3, .f32⟩
  | 87 => ⟨S3, .f32⟩
  | 88 => ⟨S_, .f32⟩
  | 89 => ⟨S_, .f32⟩
  | 90 => ⟨S_, .f32⟩
  | 91 => ⟨S_, .f32⟩
  | 92 => ⟨S1, .f32⟩
  | 93 => ⟨S3, .f32⟩
  | 94 => ⟨S3, .f32⟩
  | 95 => ⟨S3, .f32⟩
  | 96 => ⟨S_, .f32⟩
  | 97 => ⟨S_, .f32⟩
  | 98 => ⟨S1, .f32⟩
  | 99 => ⟨S3, .f32⟩
  | 100 => ⟨S3, .f32⟩
  | 101 => ⟨S1x1, .f32⟩
  | 102 => ⟨S_, .f32⟩
  | 103 => ⟨S_, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S1x1, .f32⟩
  | 117 => ⟨S_, .f32⟩
  | 118 => ⟨S_, .f32⟩
  | 119 => ⟨S_, .f32⟩
  | 120 => ⟨S_, .f32⟩
  | 121 => ⟨S_, .i1⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1x14, .f32⟩

abbrev hbmTy0_2 (i : Nat) : BufTy := match i % 128 with
  | 0 => ⟨S_, .f32⟩
  | 1 => ⟨S_, .f32⟩
  | 2 => ⟨S1000000x20, .f32⟩
  | 3 => ⟨S1000000x20, .f32⟩
  | 4 => ⟨S_, .f32⟩
  | 5 => ⟨S1x20, .f32⟩
  | 6 => ⟨S1x20, .f32⟩
  | 7 => ⟨S20x1, .f32⟩
  | 8 => ⟨S1000000x1, .f32⟩
  | 9 => ⟨S1000000, .f32⟩
  | 10 => ⟨S1000000x20, .f32⟩
  | 11 => ⟨S_, .f32⟩
  | 12 => ⟨S1000000, .f32⟩
  | 13 => ⟨S1000000, .f32⟩
  | 14 => ⟨S_, .f32⟩
  | 15 => ⟨S1000000, .f32⟩
  | 16 => ⟨S1000000, .f32⟩
  | 17 => ⟨S1x20, .f32⟩
  | 18 => ⟨S_, .f32⟩
  | 19 => ⟨S1, .f32⟩
  | 20 => ⟨S1, .f32⟩
  | 21 => ⟨S_, .f32⟩
  | 22 => ⟨S1, .f32⟩
  | 23 => ⟨S1, .f32⟩
  | 24 => ⟨S1000000, .f32⟩
  | 25 => ⟨S1000000, .f32⟩
  | 26 => ⟨S1000000, .f32⟩
  | 27 => ⟨S1000000, .f32⟩
  | 28 => ⟨S1000000, .f32⟩
  | 29 => ⟨S_, .f32⟩
  | 30 => ⟨S_, .f32⟩
  | 31 => ⟨S_, .f32⟩
  | 32 => ⟨S_, .f32⟩
  | 33 => ⟨S1, .f32⟩
  | 34 => ⟨S1000000, .f32⟩
  | 35 => ⟨S1000000, .f32⟩
  | 36 => ⟨S1000000, .f32⟩
  | 37 => ⟨S_, .f32⟩
  | 38 => ⟨S_, .f32⟩
  | 39 => ⟨S1, .f32⟩
  | 40 => ⟨S1000000, .f32⟩
  | 41 => ⟨S1000000, .f32⟩
  | 42 => ⟨S1000000, .f32⟩
  | 43 => ⟨S1000000, .f32⟩
  | 44 => ⟨S_, .f32⟩
  | 45 => ⟨S_, .f32⟩
  | 46 => ⟨S1x1000000, .f32⟩
  | 47 => ⟨S1x1000000, .f32⟩
  | 48 => ⟨S1x1000000, .f32⟩
  | 49 => ⟨S1x1000000, .f32⟩
  | 50 => ⟨S1x1, .f32⟩
  | 51 => ⟨S1x1, .f32⟩
  | 52 => ⟨S1x1000002, .f32⟩
  | 53 => ⟨S1, .f32⟩
  | 54 => ⟨S_, .f32⟩
  | 55 => ⟨S1x1000000, .f32⟩
  | 56 => ⟨S1x1000000, .f32⟩
  | 57 => ⟨S1x1000000, .f32⟩
  | 58 => ⟨S1, .f32⟩
  | 59 => ⟨S_, .f32⟩
  | 60 => ⟨S1x1000000, .f32⟩
  | 61 => ⟨S1x1000000, .f32⟩
  | 62 => ⟨S1x1000000, .f32⟩
  | 63 => ⟨S1x1000000, .f32⟩
  | 64 => ⟨S1, .f32⟩
  | 65 => ⟨S_, .f32⟩
  | 66 => ⟨S1x1000000, .f32⟩
  | 67 => ⟨S1x1000000, .f32⟩
  | 68 => ⟨S1x1000000, .f32⟩
  | 69 => ⟨S1x1000000, .f32⟩
  | 70 => ⟨S1x1000000, .f32⟩
  | 71 => ⟨S1x1000000, .f32⟩
  | 72 => ⟨S_, .f32⟩
  | 73 => ⟨S1, .f32⟩
  | 74 => ⟨S1x1, .f32⟩
  | 75 => ⟨S_, .f32⟩
  | 76 => ⟨S1x1, .f32⟩
  | 77 => ⟨S1x1, .f32⟩
  | 78 => ⟨S1x1000000, .f32⟩
  | 79 => ⟨S1x1000000, .f32⟩
  | 80 => ⟨S1x20, .f32⟩
  | 81 => ⟨S1x40, .f32⟩
  | 82 => ⟨S1x1, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S1x2, .f32⟩
  | 91 => ⟨S_, .f32⟩
  | 92 => ⟨S1, .f32⟩
  | 93 => ⟨S_, .f32⟩
  | 94 => ⟨S1, .f32⟩
  | 95 => ⟨S1, .f32⟩
  | 96 => ⟨S1x1, .f32⟩
  | 97 => ⟨S1x2, .f32⟩
  | 98 => ⟨S1x2, .f32⟩
  | 99 => ⟨S1x2, .f32⟩
  | 100 => ⟨S_, .f32⟩
  | 101 => ⟨S1, .f32⟩
  | 102 => ⟨S1x1, .f32⟩
  | 103 => ⟨S1x2, .f32⟩
  | 104 => ⟨S1x2, .f32⟩
  | 105 => ⟨S40x110, .f32⟩
  | 106 => ⟨S1x110, .f32⟩
  | 107 => ⟨S1x110, .f32⟩
  | 108 => ⟨S1x110, .f32⟩
  | 109 => ⟨S_, .f32⟩
  | 110 => ⟨S1x110, .f32⟩
  | 111 => ⟨S1x110, .f32⟩
  | 112 => ⟨S110x190, .f32⟩
  | 113 => ⟨S1x190, .f32⟩
  | 114 => ⟨S1x190, .f32⟩
  | 115 => ⟨S1x190, .f32⟩
  | 116 => ⟨S_, .f32⟩
  | 117 => ⟨S1x190, .f32⟩
  | 118 => ⟨S1x190, .f32⟩
  | 119 => ⟨S190x270, .f32⟩
  | 120 => ⟨S1x270, .f32⟩
  | 121 => ⟨S1x270, .f32⟩
  | 122 => ⟨S1x270, .f32⟩
  | 123 => ⟨S_, .f32⟩
  | 124 => ⟨S1x270, .f32⟩
  | 125 => ⟨S1x270, .f32⟩
  | 126 => ⟨S270x325, .f32⟩
  | 127 => ⟨S1x325, .f32⟩
  | _ => ⟨S1x14, .f32⟩

abbrev hbmTy0_3 (i : Nat) : BufTy := match i % 128 with
  | 0 => ⟨S1x325, .f32⟩
  | 1 => ⟨S1x325, .f32⟩
  | 2 => ⟨S_, .f32⟩
  | 3 => ⟨S1, .f32⟩
  | 4 => ⟨S_, .f32⟩
  | 5 => ⟨S1, .f32⟩
  | 6 => ⟨S1, .f32⟩
  | 7 => ⟨S1x1, .f32⟩
  | 8 => ⟨S1x325, .f32⟩
  | 9 => ⟨S1x325, .f32⟩
  | 10 => ⟨S1x325, .f32⟩
  | 11 => ⟨S_, .f32⟩
  | 12 => ⟨S1, .f32⟩
  | 13 => ⟨S1x1, .f32⟩
  | 14 => ⟨S1x325, .f32⟩
  | 15 => ⟨S1x325, .f32⟩
  | 16 => ⟨S40x110, .f32⟩
  | 17 => ⟨S1x110, .f32⟩
  | 18 => ⟨S1x110, .f32⟩
  | 19 => ⟨S1x110, .f32⟩
  | 20 => ⟨S_, .f32⟩
  | 21 => ⟨S1x110, .f32⟩
  | 22 => ⟨S1x110, .f32⟩
  | 23 => ⟨S110x190, .f32⟩
  | 24 => ⟨S1x190, .f32⟩
  | 25 => ⟨S1x190, .f32⟩
  | 26 => ⟨S1x190, .f32⟩
  | 27 => ⟨S_, .f32⟩
  | 28 => ⟨S1x190, .f32⟩
  | 29 => ⟨S1x190, .f32⟩
  | 30 => ⟨S190x270, .f32⟩
  | 31 => ⟨S1x270, .f32⟩
  | 32 => ⟨S1x270, .f32⟩
  | 33 => ⟨S1x270, .f32⟩
  | 34 => ⟨S_, .f32⟩
  | 35 => ⟨S1x270, .f32⟩
  | 36 => ⟨S1x270, .f32⟩
  | 37 => ⟨S270x325, .f32⟩
  | 38 => ⟨S1x325, .f32⟩
  | 39 => ⟨S1x325, .f32⟩
  | 40 => ⟨S1x325, .f32⟩
  | 41 => ⟨S_, .f32⟩
  | 42 => ⟨S1, .f32⟩
  | 43 => ⟨S_, .f32⟩
  | 44 => ⟨S1, .f32⟩
  | 45 => ⟨S1, .f32⟩
  | 46 => ⟨S1x1, .f32⟩
  | 47 => ⟨S1x325, .f32⟩
  | 48 => ⟨S1x325, .f32⟩
  | 49 => ⟨S1x325, .f32⟩
  | 50 => ⟨S_, .f32⟩
  | 51 => ⟨S1, .f32⟩
  | 52 => ⟨S1x1, .f32⟩
  | 53 => ⟨S1x325, .f32⟩
  | 54 => ⟨S1x325, .f32⟩
  | 55 => ⟨S1x1, .f32⟩
  | 56 => ⟨S_, .f32⟩
  | 57 => ⟨S1x325, .f32⟩
  | 58 => ⟨S1x325, .f32⟩
  | 59 => ⟨S1x1, .f32⟩
  | 60 => ⟨S_, .f32⟩
  | 61 => ⟨S1x325, .f32⟩
  | 62 => ⟨S1x325, .f32⟩
  | 63 => ⟨S1x325, .f32⟩
  | 64 => ⟨S325x20, .f32⟩
  | 65 => ⟨S1x20, .f32⟩
  | 66 => ⟨S1x20, .f32⟩
  | 67 => ⟨S1x20, .f32⟩
  | 68 => ⟨S1x20, .f32⟩
  | 69 => ⟨S1x20, .f32⟩
  | 70 => ⟨S_, .f32⟩
  | 71 => ⟨S_, .f32⟩
  | 72 => ⟨S1x20, .f32⟩
  | 73 => ⟨S1x20, .f32⟩
  | 74 => ⟨S1x20, .f32⟩
  | 75 => ⟨S1000000x1, .f32⟩
  | 76 => ⟨S1000000x20, .f32⟩
  | 77 => ⟨S_, .f32⟩
  | 78 => ⟨S1000000x20, .f32⟩
  | 79 => ⟨S1000000x20, .f32⟩
  | 80 => ⟨S1000000x20, .f32⟩
  | 81 => ⟨S1000000x1, .f32⟩
  | 82 => ⟨S1000000x20, .f32⟩
  | 83 => ⟨S1000000x20, .f32⟩
  | _ => ⟨S1x14, .f32⟩

abbrev hbmTy (i : Nat) : BufTy := match i / 128 with
  | 0 => hbmTy0_0 i
  | 1 => hbmTy0_1 i
  | 2 => hbmTy0_2 i
  | 3 => hbmTy0_3 i
  | _ => ⟨S1x14, .f32⟩

abbrev bufTy : (tb : Table) → Fin (tcTables nBuf tb) → BufTy
  | .hbm, ⟨i, _⟩ => hbmTy i
  | _, _ => ⟨S1x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst : Ref sig .tc := ⟨.hbm, 58, rfl⟩
abbrev main_v27 : Ref sig .tc := ⟨.hbm, 59, rfl⟩
abbrev main_v28 : Ref sig .tc := ⟨.hbm, 60, rfl⟩
abbrev main_cst_0 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_1 : Ref sig .tc := ⟨.hbm, 76, rfl⟩
abbrev main_v43 : Ref sig .tc := ⟨.hbm, 77, rfl⟩
abbrev main_cst_2 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_3 : Ref sig .tc := ⟨.hbm, 82, rfl⟩
abbrev main_v47 : Ref sig .tc := ⟨.hbm, 83, rfl⟩
abbrev main_cst_4 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_5 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_call0_cst : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_v8 : Ref sig .tc := ⟨.hbm, 106, rfl⟩
abbrev main_v59 : Ref sig .tc := ⟨.hbm, 107, rfl⟩
abbrev main_cst_6 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_call1_cst : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_v8 : Ref sig .tc := ⟨.hbm, 121, rfl⟩
abbrev main_v63 : Ref sig .tc := ⟨.hbm, 122, rfl⟩
abbrev main_cst_7 : Ref sig .tc := ⟨.hbm, 123, rfl⟩
abbrev main_v64 : Ref sig .tc := ⟨.hbm, 124, rfl⟩
abbrev main_v65 : Ref sig .tc := ⟨.hbm, 125, rfl⟩
abbrev main_cst_8 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_call2_v0 : Ref sig .tc := ⟨.hbm, 132, rfl⟩
abbrev main_call2_cst : Ref sig .tc := ⟨.hbm, 133, rfl⟩
abbrev main_call2_v1 : Ref sig .tc := ⟨.hbm, 134, rfl⟩
abbrev main_v71 : Ref sig .tc := ⟨.hbm, 135, rfl⟩
abbrev main_cst_9 : Ref sig .tc := ⟨.hbm, 136, rfl⟩
abbrev main_v72 : Ref sig .tc := ⟨.hbm, 137, rfl⟩
abbrev main_v73 : Ref sig .tc := ⟨.hbm, 138, rfl⟩
abbrev main_call3_v0 : Ref sig .tc := ⟨.hbm, 139, rfl⟩
abbrev main_call3_cst : Ref sig .tc := ⟨.hbm, 140, rfl⟩
abbrev main_call3_v1 : Ref sig .tc := ⟨.hbm, 141, rfl⟩
abbrev main_v74 : Ref sig .tc := ⟨.hbm, 142, rfl⟩
abbrev main_cst_10 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_cst_11 : Ref sig .tc := ⟨.hbm, 151, rfl⟩
abbrev main_v82 : Ref sig .tc := ⟨.hbm, 152, rfl⟩
abbrev main_cst_12 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_cst_13 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_cst_14 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_cst_15 : Ref sig .tc := ⟨.hbm, 194, rfl⟩
abbrev main_v121 : Ref sig .tc := ⟨.hbm, 195, rfl⟩
abbrev main_v122 : Ref sig .tc := ⟨.hbm, 196, rfl⟩
abbrev main_cst_16 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_cst_17 : Ref sig .tc := ⟨.hbm, 210, rfl⟩
abbrev main_v135 : Ref sig .tc := ⟨.hbm, 211, rfl⟩
abbrev main_cst_18 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_cst_19 : Ref sig .tc := ⟨.hbm, 216, rfl⟩
abbrev main_v139 : Ref sig .tc := ⟨.hbm, 217, rfl⟩
abbrev main_cst_20 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_cst_21 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_call4_cst : Ref sig .tc := ⟨.hbm, 231, rfl⟩
abbrev main_call4_v0 : Ref sig .tc := ⟨.hbm, 232, rfl⟩
abbrev main_call4_v1 : Ref sig .tc := ⟨.hbm, 233, rfl⟩
abbrev main_call4_v2 : Ref sig .tc := ⟨.hbm, 234, rfl⟩
abbrev main_call4_v3 : Ref sig .tc := ⟨.hbm, 235, rfl⟩
abbrev main_call4_v4 : Ref sig .tc := ⟨.hbm, 236, rfl⟩
abbrev main_call4_v5 : Ref sig .tc := ⟨.hbm, 237, rfl⟩
abbrev main_call4_v6 : Ref sig .tc := ⟨.hbm, 238, rfl⟩
abbrev main_call4_v7 : Ref sig .tc := ⟨.hbm, 239, rfl⟩
abbrev main_call4_v8 : Ref sig .tc := ⟨.hbm, 240, rfl⟩
abbrev main_v151 : Ref sig .tc := ⟨.hbm, 241, rfl⟩
abbrev main_cst_22 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_call5_cst : Ref sig .tc := ⟨.hbm, 246, rfl⟩
abbrev main_call5_v0 : Ref sig .tc := ⟨.hbm, 247, rfl⟩
abbrev main_call5_v1 : Ref sig .tc := ⟨.hbm, 248, rfl⟩
abbrev main_call5_v2 : Ref sig .tc := ⟨.hbm, 249, rfl⟩
abbrev main_call5_v3 : Ref sig .tc := ⟨.hbm, 250, rfl⟩
abbrev main_call5_v4 : Ref sig .tc := ⟨.hbm, 251, rfl⟩
abbrev main_call5_v5 : Ref sig .tc := ⟨.hbm, 252, rfl⟩
abbrev main_call5_v6 : Ref sig .tc := ⟨.hbm, 253, rfl⟩
abbrev main_call5_v7 : Ref sig .tc := ⟨.hbm, 254, rfl⟩
abbrev main_call5_v8 : Ref sig .tc := ⟨.hbm, 255, rfl⟩
abbrev main_v155 : Ref sig .tc := ⟨.hbm, 256, rfl⟩
abbrev main_cst_23 : Ref sig .tc := ⟨.hbm, 257, rfl⟩
abbrev main_v156 : Ref sig .tc := ⟨.hbm, 258, rfl⟩
abbrev main_v157 : Ref sig .tc := ⟨.hbm, 259, rfl⟩
abbrev main_cst_24 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_call6_v0 : Ref sig .tc := ⟨.hbm, 266, rfl⟩
abbrev main_call6_cst : Ref sig .tc := ⟨.hbm, 267, rfl⟩
abbrev main_call6_v1 : Ref sig .tc := ⟨.hbm, 268, rfl⟩
abbrev main_v163 : Ref sig .tc := ⟨.hbm, 269, rfl⟩
abbrev main_cst_25 : Ref sig .tc := ⟨.hbm, 270, rfl⟩
abbrev main_v164 : Ref sig .tc := ⟨.hbm, 271, rfl⟩
abbrev main_v165 : Ref sig .tc := ⟨.hbm, 272, rfl⟩
abbrev main_call7_v0 : Ref sig .tc := ⟨.hbm, 273, rfl⟩
abbrev main_call7_cst : Ref sig .tc := ⟨.hbm, 274, rfl⟩
abbrev main_call7_v1 : Ref sig .tc := ⟨.hbm, 275, rfl⟩
abbrev main_v166 : Ref sig .tc := ⟨.hbm, 276, rfl⟩
abbrev main_cst_26 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_cst_27 : Ref sig .tc := ⟨.hbm, 285, rfl⟩
abbrev main_v174 : Ref sig .tc := ⟨.hbm, 286, rfl⟩
abbrev main_cst_28 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_cst_29 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_cst_30 : Ref sig .tc := ⟨.hbm, 300, rfl⟩
abbrev main_v186 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_cst_31 : Ref sig .tc := ⟨.hbm, 328, rfl⟩
abbrev main_v213 : Ref sig .tc := ⟨.hbm, 329, rfl⟩
abbrev main_v214 : Ref sig .tc := ⟨.hbm, 330, rfl⟩
abbrev main_cst_32 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩
abbrev main_cst_33 : Ref sig .tc := ⟨.hbm, 342, rfl⟩
abbrev main_v225 : Ref sig .tc := ⟨.hbm, 343, rfl⟩
abbrev main_cst_34 : Ref sig .tc := ⟨.hbm, 344, rfl⟩
abbrev main_v226 : Ref sig .tc := ⟨.hbm, 345, rfl⟩
abbrev main_v227 : Ref sig .tc := ⟨.hbm, 346, rfl⟩
abbrev main_cst_35 : Ref sig .tc := ⟨.hbm, 347, rfl⟩
abbrev main_v228 : Ref sig .tc := ⟨.hbm, 348, rfl⟩
abbrev main_cst_36 : Ref sig .tc := ⟨.hbm, 349, rfl⟩
abbrev main_v229 : Ref sig .tc := ⟨.hbm, 350, rfl⟩
abbrev main_v230 : Ref sig .tc := ⟨.hbm, 351, rfl⟩
abbrev main_v231 : Ref sig .tc := ⟨.hbm, 352, rfl⟩
abbrev main_v232 : Ref sig .tc := ⟨.hbm, 353, rfl⟩
abbrev main_v233 : Ref sig .tc := ⟨.hbm, 354, rfl⟩
abbrev main_v234 : Ref sig .tc := ⟨.hbm, 355, rfl⟩
abbrev main_cst_37 : Ref sig .tc := ⟨.hbm, 356, rfl⟩
abbrev main_v235 : Ref sig .tc := ⟨.hbm, 357, rfl⟩
abbrev main_v236 : Ref sig .tc := ⟨.hbm, 358, rfl⟩
abbrev main_v237 : Ref sig .tc := ⟨.hbm, 359, rfl⟩
abbrev main_v238 : Ref sig .tc := ⟨.hbm, 360, rfl⟩
abbrev main_v239 : Ref sig .tc := ⟨.hbm, 361, rfl⟩
abbrev main_v240 : Ref sig .tc := ⟨.hbm, 362, rfl⟩
abbrev main_v241 : Ref sig .tc := ⟨.hbm, 363, rfl⟩
abbrev main_v242 : Ref sig .tc := ⟨.hbm, 364, rfl⟩
abbrev main_call8_cst : Ref sig .tc := ⟨.hbm, 365, rfl⟩
abbrev main_call8_v0 : Ref sig .tc := ⟨.hbm, 366, rfl⟩
abbrev main_v243 : Ref sig .tc := ⟨.hbm, 367, rfl⟩
abbrev main_v244 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_call9_cst : Ref sig .tc := ⟨.hbm, 372, rfl⟩
abbrev main_call9_v0 : Ref sig .tc := ⟨.hbm, 373, rfl⟩
abbrev main_v248 : Ref sig .tc := ⟨.hbm, 374, rfl⟩
abbrev main_v249 : Ref sig .tc := ⟨.hbm, 375, rfl⟩
abbrev main_v250 : Ref sig .tc := ⟨.hbm, 376, rfl⟩
abbrev main_v251 : Ref sig .tc := ⟨.hbm, 377, rfl⟩
abbrev main_v252 : Ref sig .tc := ⟨.hbm, 378, rfl⟩
abbrev main_call10_cst : Ref sig .tc := ⟨.hbm, 379, rfl⟩
abbrev main_call10_v0 : Ref sig .tc := ⟨.hbm, 380, rfl⟩
abbrev main_v253 : Ref sig .tc := ⟨.hbm, 381, rfl⟩
abbrev main_v254 : Ref sig .tc := ⟨.hbm, 382, rfl⟩
abbrev main_v255 : Ref sig .tc := ⟨.hbm, 383, rfl⟩
abbrev main_v256 : Ref sig .tc := ⟨.hbm, 384, rfl⟩
abbrev main_v257 : Ref sig .tc := ⟨.hbm, 385, rfl⟩
abbrev main_cst_38 : Ref sig .tc := ⟨.hbm, 386, rfl⟩
abbrev main_v258 : Ref sig .tc := ⟨.hbm, 387, rfl⟩
abbrev main_cst_39 : Ref sig .tc := ⟨.hbm, 388, rfl⟩
abbrev main_v259 : Ref sig .tc := ⟨.hbm, 389, rfl⟩
abbrev main_v260 : Ref sig .tc := ⟨.hbm, 390, rfl⟩
abbrev main_v261 : Ref sig .tc := ⟨.hbm, 391, rfl⟩
abbrev main_v262 : Ref sig .tc := ⟨.hbm, 392, rfl⟩
abbrev main_v263 : Ref sig .tc := ⟨.hbm, 393, rfl⟩
abbrev main_v264 : Ref sig .tc := ⟨.hbm, 394, rfl⟩
abbrev main_cst_40 : Ref sig .tc := ⟨.hbm, 395, rfl⟩
abbrev main_v265 : Ref sig .tc := ⟨.hbm, 396, rfl⟩
abbrev main_v266 : Ref sig .tc := ⟨.hbm, 397, rfl⟩
abbrev main_v267 : Ref sig .tc := ⟨.hbm, 398, rfl⟩
abbrev main_v268 : Ref sig .tc := ⟨.hbm, 399, rfl⟩
abbrev main_v269 : Ref sig .tc := ⟨.hbm, 400, rfl⟩
abbrev main_v270 : Ref sig .tc := ⟨.hbm, 401, rfl⟩
abbrev main_v271 : Ref sig .tc := ⟨.hbm, 402, rfl⟩
abbrev main_v272 : Ref sig .tc := ⟨.hbm, 403, rfl⟩
abbrev main_call11_cst : Ref sig .tc := ⟨.hbm, 404, rfl⟩
abbrev main_call11_v0 : Ref sig .tc := ⟨.hbm, 405, rfl⟩
abbrev main_v273 : Ref sig .tc := ⟨.hbm, 406, rfl⟩
abbrev main_v274 : Ref sig .tc := ⟨.hbm, 407, rfl⟩
abbrev main_v275 : Ref sig .tc := ⟨.hbm, 408, rfl⟩
abbrev main_v276 : Ref sig .tc := ⟨.hbm, 409, rfl⟩
abbrev main_v277 : Ref sig .tc := ⟨.hbm, 410, rfl⟩
abbrev main_call12_cst : Ref sig .tc := ⟨.hbm, 411, rfl⟩
abbrev main_call12_v0 : Ref sig .tc := ⟨.hbm, 412, rfl⟩
abbrev main_v278 : Ref sig .tc := ⟨.hbm, 413, rfl⟩
abbrev main_v279 : Ref sig .tc := ⟨.hbm, 414, rfl⟩
abbrev main_v280 : Ref sig .tc := ⟨.hbm, 415, rfl⟩
abbrev main_v281 : Ref sig .tc := ⟨.hbm, 416, rfl⟩
abbrev main_v282 : Ref sig .tc := ⟨.hbm, 417, rfl⟩
abbrev main_call13_cst : Ref sig .tc := ⟨.hbm, 418, rfl⟩
abbrev main_call13_v0 : Ref sig .tc := ⟨.hbm, 419, rfl⟩
abbrev main_v283 : Ref sig .tc := ⟨.hbm, 420, rfl⟩
abbrev main_v284 : Ref sig .tc := ⟨.hbm, 421, rfl⟩
abbrev main_v285 : Ref sig .tc := ⟨.hbm, 422, rfl⟩
abbrev main_v286 : Ref sig .tc := ⟨.hbm, 423, rfl⟩
abbrev main_v287 : Ref sig .tc := ⟨.hbm, 424, rfl⟩
abbrev main_cst_41 : Ref sig .tc := ⟨.hbm, 425, rfl⟩
abbrev main_v288 : Ref sig .tc := ⟨.hbm, 426, rfl⟩
abbrev main_cst_42 : Ref sig .tc := ⟨.hbm, 427, rfl⟩
abbrev main_v289 : Ref sig .tc := ⟨.hbm, 428, rfl⟩
abbrev main_v290 : Ref sig .tc := ⟨.hbm, 429, rfl⟩
abbrev main_v291 : Ref sig .tc := ⟨.hbm, 430, rfl⟩
abbrev main_v292 : Ref sig .tc := ⟨.hbm, 431, rfl⟩
abbrev main_v293 : Ref sig .tc := ⟨.hbm, 432, rfl⟩
abbrev main_v294 : Ref sig .tc := ⟨.hbm, 433, rfl⟩
abbrev main_cst_43 : Ref sig .tc := ⟨.hbm, 434, rfl⟩
abbrev main_v295 : Ref sig .tc := ⟨.hbm, 435, rfl⟩
abbrev main_v296 : Ref sig .tc := ⟨.hbm, 436, rfl⟩
abbrev main_v297 : Ref sig .tc := ⟨.hbm, 437, rfl⟩
abbrev main_v298 : Ref sig .tc := ⟨.hbm, 438, rfl⟩
abbrev main_v299 : Ref sig .tc := ⟨.hbm, 439, rfl⟩
abbrev main_v300 : Ref sig .tc := ⟨.hbm, 440, rfl⟩
abbrev main_v301 : Ref sig .tc := ⟨.hbm, 441, rfl⟩
abbrev main_v302 : Ref sig .tc := ⟨.hbm, 442, rfl⟩
abbrev main_v303 : Ref sig .tc := ⟨.hbm, 443, rfl⟩
abbrev main_v304 : Ref sig .tc := ⟨.hbm, 444, rfl⟩
abbrev main_v305 : Ref sig .tc := ⟨.hbm, 445, rfl⟩
abbrev main_v306 : Ref sig .tc := ⟨.hbm, 446, rfl⟩
abbrev main_v307 : Ref sig .tc := ⟨.hbm, 447, rfl⟩
abbrev main_v308 : Ref sig .tc := ⟨.hbm, 448, rfl⟩
abbrev main_v309 : Ref sig .tc := ⟨.hbm, 449, rfl⟩
abbrev main_v310 : Ref sig .tc := ⟨.hbm, 450, rfl⟩
abbrev main_v311 : Ref sig .tc := ⟨.hbm, 451, rfl⟩
abbrev main_v312 : Ref sig .tc := ⟨.hbm, 452, rfl⟩
abbrev main_v313 : Ref sig .tc := ⟨.hbm, 453, rfl⟩
abbrev main_cst_44 : Ref sig .tc := ⟨.hbm, 454, rfl⟩
abbrev main_v314 : Ref sig .tc := ⟨.hbm, 455, rfl⟩
abbrev main_v315 : Ref sig .tc := ⟨.hbm, 456, rfl⟩
abbrev main_v316 : Ref sig .tc := ⟨.hbm, 457, rfl⟩
abbrev main_v317 : Ref sig .tc := ⟨.hbm, 458, rfl⟩
abbrev main_v318 : Ref sig .tc := ⟨.hbm, 459, rfl⟩
abbrev main_v319 : Ref sig .tc := ⟨.hbm, 460, rfl⟩
abbrev main_cst_45 : Ref sig .tc := ⟨.hbm, 461, rfl⟩
abbrev main_v320 : Ref sig .tc := ⟨.hbm, 462, rfl⟩
abbrev main_v321 : Ref sig .tc := ⟨.hbm, 463, rfl⟩
abbrev main_v322 : Ref sig .tc := ⟨.hbm, 464, rfl⟩
abbrev main_v323 : Ref sig .tc := ⟨.hbm, 465, rfl⟩
abbrev main_v324 : Ref sig .tc := ⟨.hbm, 466, rfl⟩
abbrev main_v325 : Ref sig .tc := ⟨.hbm, 467, rfl⟩

abbrev nD : Nat := 1
abbrev τ : Topo := Topo.v7x

variable {F : FTy → Type} [FloatOps F]

class Facts₀ : Prop where
  transposes_S48x14_S14x48_1_0 : S48x14.Transposes [1, 0] S14x48
  bcast_S48_S1x48_1 : S48.BroadcastsInDim S1x48 (![1] : Fin 1 → Fin S1x48.rank)
  transposes_S72x48_S48x72_1_0 : S72x48.Transposes [1, 0] S48x72
  bcast_S72_S1x72_1 : S72.BroadcastsInDim S1x72 (![1] : Fin 1 → Fin S1x72.rank)
  transposes_S92x72_S72x92_1_0 : S92x72.Transposes [1, 0] S72x92
  bcast_S92_S1x92_1 : S92.BroadcastsInDim S1x92 (![1] : Fin 1 → Fin S1x92.rank)
  transposes_S3x72_S72x3_1_0 : S3x72.Transposes [1, 0] S72x3
  bcast_S3_S1x3_1 : S3.BroadcastsInDim S1x3 (![1] : Fin 1 → Fin S1x3.rank)
  slices_S1x92_S1x26_0_0 : S1x92.Slices ![0, 0] S1x26
  shapeCasts_S1x26_S26 : S1x26.ShapeCasts S26
  bcast_S26_S1x26_1 : S26.BroadcastsInDim S1x26 (![1] : Fin 1 → Fin S1x26.rank)
  slices_S1x92_S1x26_0_26 : S1x92.Slices ![0, 26] S1x26
  slices_S1x92_S1x20_0_52 : S1x92.Slices ![0, 52] S1x20
  shapeCasts_S1x20_S20 : S1x20.ShapeCasts S20
  bcast_S20_S1x20_1 : S20.BroadcastsInDim S1x20 (![1] : Fin 1 → Fin S1x20.rank)
  bcast_S_S1x20 : S_.BroadcastsInDim S1x20 (![] : Fin 0 → Fin S1x20.rank)
  slices_S1x92_S1x20_0_72 : S1x92.Slices ![0, 72] S1x20
  slices_S1x26_S1x20_0_0 : S1x26.Slices ![0, 0] S1x20
  slices_S1x26_S1x1_0_20 : S1x26.Slices ![0, 20] S1x1
  shapeCasts_S1x1_S_ : S1x1.ShapeCasts S_
  slices_S1x26_S1x3_0_21 : S1x26.Slices ![0, 21] S1x3
  shapeCasts_S1x3_S3 : S1x3.ShapeCasts S3
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  slices_S1x26_S1x1_0_24 : S1x26.Slices ![0, 24] S1x1
  slices_S1x26_S1x1_0_25 : S1x26.Slices ![0, 25] S1x1
  bcast_S_S1000000x20 : S_.BroadcastsInDim S1000000x20 (![] : Fin 0 → Fin S1000000x20.rank)
  transposes_S1x20_S20x1_1_0 : S1x20.Transposes [1, 0] S20x1
  shapeCasts_S1000000x1_S1000000 : S1000000x1.ShapeCasts S1000000
  reducesTo_S1000000x20_S1000000_d1 : S1000000x20.ReducesTo [1] S1000000
  bcast_S_S1000000 : S_.BroadcastsInDim S1000000 (![] : Fin 0 → Fin S1000000.rank)
  reducesTo_S1x20_S1_d1 : S1x20.ReducesTo [1] S1
  bcast_S1_S1000000_0 : S1.BroadcastsInDim S1000000 (![0] : Fin 1 → Fin S1000000.rank)
  reducesTo_S1000000_S_d0 : S1000000.ReducesTo [0] S_
  bcast_S_S1x1000000 : S_.BroadcastsInDim S1x1000000 (![] : Fin 0 → Fin S1x1000000.rank)
  bcast_S1000000_S1x1000000_1 : S1000000.BroadcastsInDim S1x1000000 (![1] : Fin 1 → Fin S1x1000000.rank)
  slices_S1x1000000_S1x1_0_999999 : S1x1000000.Slices ![0, 999999] S1x1
  slices_S1x1000000_S1x1_0_0 : S1x1000000.Slices ![0, 0] S1x1
  concatenates_S1x1_S1x1000000_S1x1_S1x1000002_d1 : Shape.Concatenates [S1x1, S1x1000000, S1x1] S1x1000002 1
  slices_S3_S1_0 : S3.Slices ![0] S1
  shapeCasts_S1_S_ : S1.ShapeCasts S_
  slices_S1x1000002_S1x1000000_0_0 : S1x1000002.Slices ![0, 0] S1x1000000
  slices_S3_S1_1 : S3.Slices ![1] S1
  slices_S1x1000002_S1x1000000_0_1 : S1x1000002.Slices ![0, 1] S1x1000000
  slices_S3_S1_2 : S3.Slices ![2] S1
  slices_S1x1000002_S1x1000000_0_2 : S1x1000002.Slices ![0, 2] S1x1000000
  reducesTo_S1x1000000_S1_d1 : S1x1000000.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x1000000_0_1 : S1x1.BroadcastsInDim S1x1000000 (![0, 1] : Fin 2 → Fin S1x1000000.rank)
  concatenates_S1x20_S1x20_S1x40_d1 : Shape.Concatenates [S1x20, S1x20] S1x40 1
  slices_S1x3_S1x1_0_0 : S1x3.Slices ![0, 0] S1x1
  slices_S1x3_S1x2_0_1 : S1x3.Slices ![0, 1] S1x2
  reducesTo_S1x2_S1_d1 : S1x2.ReducesTo [1] S1
  bcast_S1x1_S1x2_0_1 : S1x1.BroadcastsInDim S1x2 (![0, 1] : Fin 2 → Fin S1x2.rank)
  transposes_S110x40_S40x110_1_0 : S110x40.Transposes [1, 0] S40x110
  bcast_S110_S1x110_1 : S110.BroadcastsInDim S1x110 (![1] : Fin 1 → Fin S1x110.rank)
  bcast_S_S1x110 : S_.BroadcastsInDim S1x110 (![] : Fin 0 → Fin S1x110.rank)
  transposes_S190x110_S110x190_1_0 : S190x110.Transposes [1, 0] S110x190
  bcast_S190_S1x190_1 : S190.BroadcastsInDim S1x190 (![1] : Fin 1 → Fin S1x190.rank)
  bcast_S_S1x190 : S_.BroadcastsInDim S1x190 (![] : Fin 0 → Fin S1x190.rank)
  transposes_S270x190_S190x270_1_0 : S270x190.Transposes [1, 0] S190x270
  bcast_S270_S1x270_1 : S270.BroadcastsInDim S1x270 (![1] : Fin 1 → Fin S1x270.rank)
  bcast_S_S1x270 : S_.BroadcastsInDim S1x270 (![] : Fin 0 → Fin S1x270.rank)
  transposes_S325x270_S270x325_1_0 : S325x270.Transposes [1, 0] S270x325
  bcast_S325_S1x325_1 : S325.BroadcastsInDim S1x325 (![1] : Fin 1 → Fin S1x325.rank)
  reducesTo_S1x325_S1_d1 : S1x325.ReducesTo [1] S1
  bcast_S1x1_S1x325_0_1 : S1x1.BroadcastsInDim S1x325 (![0, 1] : Fin 2 → Fin S1x325.rank)
  slices_S1x2_S1x1_0_0 : S1x2.Slices ![0, 0] S1x1
  bcast_S_S1x325 : S_.BroadcastsInDim S1x325 (![] : Fin 0 → Fin S1x325.rank)
  slices_S1x2_S1x1_0_1 : S1x2.Slices ![0, 1] S1x1
  transposes_S20x325_S325x20_1_0 : S20x325.Transposes [1, 0] S325x20
  transposes_S1x1000000_S1000000x1_1_0 : S1x1000000.Transposes [1, 0] S1000000x1
  dot_S1x14_S14x48_S1x48_1_0_0_1_n_n_wf : DotDims.WF S1x14 S14x48 S1x48 [1] [0] [0] [1] [] []
  dot_S1x48_S48x72_S1x72_1_0_0_1_n_n_wf : DotDims.WF S1x48 S48x72 S1x72 [1] [0] [0] [1] [] []
  dot_S1x72_S72x92_S1x92_1_0_0_1_n_n_wf : DotDims.WF S1x72 S72x92 S1x92 [1] [0] [0] [1] [] []
  dot_S1x72_S72x3_S1x3_1_0_0_1_n_n_wf : DotDims.WF S1x72 S72x3 S1x3 [1] [0] [0] [1] [] []
  dot_S1000000x20_S20x1_S1000000x1_1_0_0_1_n_n_wf : DotDims.WF S1000000x20 S20x1 S1000000x1 [1] [0] [0] [1] [] []
  dot_S1x1000000_S1000000x20_S1x20_1_0_0_1_n_n_wf : DotDims.WF S1x1000000 S1000000x20 S1x20 [1] [0] [0] [1] [] []
  dot_S1x40_S40x110_S1x110_1_0_0_1_n_n_wf : DotDims.WF S1x40 S40x110 S1x110 [1] [0] [0] [1] [] []
  dot_S1x110_S110x190_S1x190_1_0_0_1_n_n_wf : DotDims.WF S1x110 S110x190 S1x190 [1] [0] [0] [1] [] []
  dot_S1x190_S190x270_S1x270_1_0_0_1_n_n_wf : DotDims.WF S1x190 S190x270 S1x270 [1] [0] [0] [1] [] []
  dot_S1x270_S270x325_S1x325_1_0_0_1_n_n_wf : DotDims.WF S1x270 S270x325 S1x325 [1] [0] [0] [1] [] []
  dot_S1x325_S325x20_S1x20_1_0_0_1_n_n_wf : DotDims.WF S1x325 S325x20 S1x20 [1] [0] [0] [1] [] []
  dot_S1000000x1_S1x20_S1000000x20_1_0_0_1_n_n_wf : DotDims.WF S1000000x1 S1x20 S1000000x20 [1] [0] [0] [1] [] []

variable [Facts₀]

def dot_S1x14_S14x48_S1x48_1_0_0_1_n_n : DotDims S1x14 S14x48 S1x48 where
  lhsContracting := [1]
  rhsContracting := [0]
  lhsNonContracting := [0]
  rhsNonContracting := [1]
  lhsBatch := []
  rhsBatch := []
  wf := dot_S1x14_S14x48_S1x48_1_0_0_1_n_n_wf
def dot_S1x48_S48x72_S1x72_1_0_0_1_n_n : DotDims S1x48 S48x72 S1x72 where
  lhsContracting := [1]
  rhsContracting := [0]
  lhsNonContracting := [0]
  rhsNonContracting := [1]
  lhsBatch := []
  rhsBatch := []
  wf := dot_S1x48_S48x72_S1x72_1_0_0_1_n_n_wf
def dot_S1x72_S72x92_S1x92_1_0_0_1_n_n : DotDims S1x72 S72x92 S1x92 where
  lhsContracting := [1]
  rhsContracting := [0]
  lhsNonContracting := [0]
  rhsNonContracting := [1]
  lhsBatch := []
  rhsBatch := []
  wf := dot_S1x72_S72x92_S1x92_1_0_0_1_n_n_wf
def dot_S1x72_S72x3_S1x3_1_0_0_1_n_n : DotDims S1x72 S72x3 S1x3 where
  lhsContracting := [1]
  rhsContracting := [0]
  lhsNonContracting := [0]
  rhsNonContracting := [1]
  lhsBatch := []
  rhsBatch := []
  wf := dot_S1x72_S72x3_S1x3_1_0_0_1_n_n_wf
def dot_S1000000x20_S20x1_S1000000x1_1_0_0_1_n_n : DotDims S1000000x20 S20x1 S1000000x1 where
  lhsContracting := [1]
  rhsContracting := [0]
  lhsNonContracting := [0]
  rhsNonContracting := [1]
  lhsBatch := []
  rhsBatch := []
  wf := dot_S1000000x20_S20x1_S1000000x1_1_0_0_1_n_n_wf
def dot_S1x1000000_S1000000x20_S1x20_1_0_0_1_n_n : DotDims S1x1000000 S1000000x20 S1x20 where
  lhsContracting := [1]
  rhsContracting := [0]
  lhsNonContracting := [0]
  rhsNonContracting := [1]
  lhsBatch := []
  rhsBatch := []
  wf := dot_S1x1000000_S1000000x20_S1x20_1_0_0_1_n_n_wf
def dot_S1x40_S40x110_S1x110_1_0_0_1_n_n : DotDims S1x40 S40x110 S1x110 where
  lhsContracting := [1]
  rhsContracting := [0]
  lhsNonContracting := [0]
  rhsNonContracting := [1]
  lhsBatch := []
  rhsBatch := []
  wf := dot_S1x40_S40x110_S1x110_1_0_0_1_n_n_wf
def dot_S1x110_S110x190_S1x190_1_0_0_1_n_n : DotDims S1x110 S110x190 S1x190 where
  lhsContracting := [1]
  rhsContracting := [0]
  lhsNonContracting := [0]
  rhsNonContracting := [1]
  lhsBatch := []
  rhsBatch := []
  wf := dot_S1x110_S110x190_S1x190_1_0_0_1_n_n_wf
def dot_S1x190_S190x270_S1x270_1_0_0_1_n_n : DotDims S1x190 S190x270 S1x270 where
  lhsContracting := [1]
  rhsContracting := [0]
  lhsNonContracting := [0]
  rhsNonContracting := [1]
  lhsBatch := []
  rhsBatch := []
  wf := dot_S1x190_S190x270_S1x270_1_0_0_1_n_n_wf
def dot_S1x270_S270x325_S1x325_1_0_0_1_n_n : DotDims S1x270 S270x325 S1x325 where
  lhsContracting := [1]
  rhsContracting := [0]
  lhsNonContracting := [0]
  rhsNonContracting := [1]
  lhsBatch := []
  rhsBatch := []
  wf := dot_S1x270_S270x325_S1x325_1_0_0_1_n_n_wf
def dot_S1x325_S325x20_S1x20_1_0_0_1_n_n : DotDims S1x325 S325x20 S1x20 where
  lhsContracting := [1]
  rhsContracting := [0]
  lhsNonContracting := [0]
  rhsNonContracting := [1]
  lhsBatch := []
  rhsBatch := []
  wf := dot_S1x325_S325x20_S1x20_1_0_0_1_n_n_wf
def dot_S1000000x1_S1x20_S1000000x20_1_0_0_1_n_n : DotDims S1000000x1 S1x20 S1000000x20 where
  lhsContracting := [1]
  rhsContracting := [0]
  lhsNonContracting := [0]
  rhsNonContracting := [1]
  lhsBatch := []
  rhsBatch := []
  wf := dot_S1000000x1_S1x20_S1000000x20_1_0_0_1_n_n_wf

class Facts : Prop extends Facts₀ where

variable [Facts]
-- ==== Proof.K.Writes.lean ====
/- Per host stretch of @main: no operation allocates, and every operation writes one reference of the stretch's list. -/
import proofs.«147285_j27152783245914_1_alg».proof.Proof.Gen.Kernel.Launch

set_option maxRecDepth 16384

noncomputable section

namespace Cert.Kernel.Hand

open Cert.Kernel Cert.Kernel.Gen Idealize.ShloMosaic Idealize.ShloMosaic.TcCoe Idealize.SL.Sem

variable {F : FTy → Type} [FloatOps F]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_cst, main_v27, main_v28, main_cst_0, main_v29, main_v30, main_v31, main_v32, main_v33, main_v34, main_v35, main_v36, main_v37, main_v38, main_v39, main_v40, main_v41, main_v42, main_cst_1, main_v43, main_cst_2, main_v44, main_v45, main_v46, main_cst_3, main_v47, main_cst_4, main_v48, main_v49, main_v50, main_v51, main_v52, main_cst_5, main_v53, main_v54, main_v55, main_v56, main_v57, main_v58]
set_option maxHeartbeats 4000000 in
theorem hostOps0_writes : (hostOps0 : List (HloOp τ sig (Elt F))).Forall fun op => op.writes ⊆ (hostOps0_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_1_fresh : (hostOps0_1 : List (HloOp τ sig (Elt F))).Forall fun op => op.fresh = ∅ := by
  simp only [List.Forall]; repeat' constructor
abbrev hostOps0_1_W : List (Ref sig .tc) := [main_call0_cst, main_call0_v0, main_call0_v1, main_call0_v2, main_call0_v3, main_call0_v4, main_call0_v5, main_call0_v6, main_call0_v7, main_call0_v8, main_v59]
set_option maxHeartbeats 4000000 in
theorem hostOps0_1_writes : (hostOps0_1 : List (HloOp τ sig (Elt F))).Forall fun op => op.writes ⊆ (hostOps0_1_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_2_fresh : (hostOps0_2 : List (HloOp τ sig (Elt F))).Forall fun op => op.fresh = ∅ := by
  simp only [List.Forall]; repeat' constructor
abbrev hostOps0_2_W : List (Ref sig .tc) := [main_cst_6, main_v60, main_v61, main_v62]
set_option maxHeartbeats 4000000 in
theorem hostOps0_2_writes : (hostOps0_2 : List (HloOp τ sig (Elt F))).Forall fun op => op.writes ⊆ (hostOps0_2_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_3_fresh : (hostOps0_3 : List (HloOp τ sig (Elt F))).Forall fun op => op.fresh = ∅ := by
  simp only [List.Forall]; repeat' constructor
abbrev hostOps0_3_W : List (Ref sig .tc) := [main_call1_cst, main_call1_v0, main_call1_v1, main_call1_v2, main_call1_v3, main_call1_v4, main_call1_v5, main_call1_v6, main_call1_v7, main_call1_v8, main_v63]
set_option maxHeartbeats 4000000 in
theorem hostOps0_3_writes : (hostOps0_3 : List (HloOp τ sig (Elt F))).Forall fun op => op.writes ⊆ (hostOps0_3_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_4_fresh : (hostOps0_4 : List (HloOp τ sig (Elt F))).Forall fun op => op.fresh = ∅ := by
  simp only [List.Forall]; repeat' constructor
abbrev hostOps0_4_W : List (Ref sig .tc) := [main_v64, main_v65, main_v66, main_v67, main_v68, main_v69, main_v70, main_v71, main_cst_7, main_v72, main_cst_8, main_v73, main_v74, main_v75, main_cst_9, main_v76, main_cst_10, main_v77, main_v78, main_v79, main_v80, main_v81, main_cst_11, main_v82, main_v83, main_v84, main_v85, main_v86, main_v87]
set_option maxHeartbeats 4000000 in
theorem hostOps0_4_writes : (hostOps0_4 : List (HloOp τ sig (Elt F))).Forall fun op => op.writes ⊆ (hostOps0_4_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_5_fresh : (hostOps0_5 : List (HloOp τ sig (Elt F))).Forall fun op => op.fresh = ∅ := by
  simp only [List.Forall]; repeat' constructor
abbrev hostOps0_5_W : List (Ref sig .tc) := [main_call2_cst, main_call2_v0, main_call2_v1, main_call2_v2, main_call2_v3, main_call2_v4, main_call2_v5, main_call2_v6, main_call2_v7, main_call2_v8, main_v88]
set_option maxHeartbeats 4000000 in
theorem hostOps0_5_writes : (hostOps0_5 : List (HloOp τ sig (Elt F))).Forall fun op => op.writes ⊆ (hostOps0_5_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_6_fresh : (hostOps0_6 : List (HloOp τ sig (Elt F))).Forall fun op => op.fresh = ∅ := by
  simp only [List.Forall]; repeat' constructor
abbrev hostOps0_6_W : List (Ref sig .tc) := [main_cst_12, main_v89, main_v90, main_v91]
set_option maxHeartbeats 4000000 in
theorem hostOps0_6_writes : (hostOps0_6 : List (HloOp τ sig (Elt F))).Forall fun op => op.writes ⊆ (hostOps0_6_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_7_fresh : (hostOps0_7 : List (HloOp τ sig (Elt F))).Forall fun op => op.fresh = ∅ := by
  simp only [List.Forall]; repeat' constructor
abbrev hostOps0_7_W : List (Ref sig .tc) := [main_call3_cst, main_call3_v0, main_call3_v1, main_call3_v2, main_call3_v3, main_call3_v4, main_call3_v5, main_call3_v6, main_call3_v7, main_call3_v8, main_v92]
set_option maxHeartbeats 4000000 in
theorem hostOps0_7_writes : (hostOps0_7 : List (HloOp τ sig (Elt F))).Forall fun op => op.writes ⊆ (hostOps0_7_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_8_fresh : (hostOps0_8 : List (HloOp τ sig (Elt F))).Forall fun op => op.fresh = ∅ := by
  simp only [List.Forall]; repeat' constructor
abbrev hostOps0_8_W : List (Ref sig .tc) := [main_cst_13, main_v93, main_v94, main_cst_14, main_v95, main_v96]
set_option maxHeartbeats 4000000 in
theorem hostOps0_8_writes : (hostOps0_8 : List (HloOp τ sig (Elt F))).Forall fun op => op.writes ⊆ (hostOps0_8_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_fresh : (hostOps1 : List (HloOp τ sig (Elt F))).Forall fun op => op.fresh = ∅ := by
  simp only [List.Forall]; repeat' constructor
abbrev hostOps1_W : List (Ref sig .tc) := [main_call4_v0, main_call4_cst, main_call4_v1, main_v98]
set_option maxHeartbeats 4000000 in
theorem hostOps1_writes : (hostOps1 : List (HloOp τ sig (Elt F))).Forall fun op => op.writes ⊆ (hostOps1_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_1_fresh : (hostOps1_1 : List (HloOp τ sig (Elt F))).Forall fun op => op.fresh = ∅ := by
  simp only [List.Forall]; repeat' constructor
abbrev hostOps1_1_W : List (Ref sig .tc) := [main_cst_15, main_v99, main_v100, main_cst_16, main_v101, main_v102, main_v103, main_v104, main_v105, main_v106, main_v107, main_v108, main_v109, main_cst_17, main_v110, main_cst_18, main_v111, main_v112, main_v113, main_v114, main_v115, main_v116, main_cst_19, main_v117, main_v118, main_v119, main_v120, main_v121, main_v122, main_cst_20, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_cst_21, main_v149, main_v150, main_cst_22, main_v151, main_v152, main_v153, main_v154]
set_option maxHeartbeats 4000000 in
theorem hostOps1_1_writes : (hostOps1_1 : List (HloOp τ sig (Elt F))).Forall fun op => op.writes ⊆ (hostOps1_1_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_2_fresh : (hostOps1_2 : List (HloOp τ sig (Elt F))).Forall fun op => op.fresh = ∅ := by
  simp only [List.Forall]; repeat' constructor
abbrev hostOps1_2_W : List (Ref sig .tc) := [main_call5_v0, main_call5_cst, main_call5_v1, main_v155]
set_option maxHeartbeats 4000000 in
theorem hostOps1_2_writes : (hostOps1_2 : List (HloOp τ sig (Elt F))).Forall fun op => op.writes ⊆ (hostOps1_2_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_3_fresh : (hostOps1_3 : List (HloOp τ sig (Elt F))).Forall fun op => op.fresh = ∅ := by
  simp only [List.Forall]; repeat' constructor
abbrev hostOps1_3_W : List (Ref sig .tc) := [main_cst_23, main_v156, main_v157, main_cst_24, main_v158, main_v159, main_v160, main_v161, main_v162, main_v163, main_v164, main_v165, main_v166, main_cst_25, main_v167, main_cst_26, main_v168, main_v169, main_v170, main_v171, main_v172, main_v173, main_cst_27, main_v174, main_v175, main_v176, main_v177, main_v178, main_v179, main_cst_28, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_cst_29, main_v206, main_v207, main_cst_30, main_v208, main_v209, main_v210, main_v211, main_v212]
set_option maxHeartbeats 4000000 in
theorem hostOps1_3_writes : (hostOps1_3 : List (HloOp τ sig (Elt F))).Forall fun op => op.writes ⊆ (hostOps1_3_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_fresh : (hostOps2 : List (HloOp τ sig (Elt F))).Forall fun op => op.fresh = ∅ := by
  simp only [List.Forall]; repeat' constructor
abbrev hostOps2_W : List (Ref sig .tc) := [main_v214, main_v215, main_v216, main_v217, main_v218, main_cst_31, main_v219, main_cst_32, main_v220, main_v221, main_cst_33, main_v222, main_cst_34, main_v223, main_v224, main_v225, main_v226, main_v227, main_v228, main_cst_35, main_v229, main_v230, main_v231, main_v232, main_v233, main_v234, main_v235, main_v236]
set_option maxHeartbeats 4000000 in
theorem hostOps2_writes : (hostOps2 : List (HloOp τ sig (Elt F))).Forall fun op => op.writes ⊆ (hostOps2_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_1_fresh : (hostOps2_1 : List (HloOp τ sig (Elt F))).Forall fun op => op.fresh = ∅ := by
  simp only [List.Forall]; repeat' constructor
abbrev hostOps2_1_W : List (Ref sig .tc) := [main_call6_cst, main_call6_v0, main_v237]
set_option maxHeartbeats 4000000 in
theorem hostOps2_1_writes : (hostOps2_1 : List (HloOp τ sig (Elt F))).Forall fun op => op.writes ⊆ (hostOps2_1_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_2_fresh : (hostOps2_2 : List (HloOp τ sig (Elt F))).Forall fun op => op.fresh = ∅ := by
  simp only [List.Forall]; repeat' constructor
abbrev hostOps2_2_W : List (Ref sig .tc) := [main_v238, main_v239, main_v240, main_v241]
set_option maxHeartbeats 4000000 in
theorem hostOps2_2_writes : (hostOps2_2 : List (HloOp τ sig (Elt F))).Forall fun op => op.writes ⊆ (hostOps2_2_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_3_fresh : (hostOps2_3 : List (HloOp τ sig (Elt F))).Forall fun op => op.fresh = ∅ := by
  simp only [List.Forall]; repeat' constructor
abbrev hostOps2_3_W : List (Ref sig .tc) := [main_call7_cst, main_call7_v0, main_v242]
set_option maxHeartbeats 4000000 in
theorem hostOps2_3_writes : (hostOps2_3 : List (HloOp τ sig (Elt F))).Forall fun op => op.writes ⊆ (hostOps2_3_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_4_fresh : (hostOps2_4 : List (HloOp τ sig (Elt F))).Forall fun op => op.fresh = ∅ := by
  simp only [List.Forall]; repeat' constructor
abbrev hostOps2_4_W : List (Ref sig .tc) := [main_v243, main_v244, main_v245, main_v246]
set_option maxHeartbeats 4000000 in
theorem hostOps2_4_writes : (hostOps2_4 : List (HloOp τ sig (Elt F))).Forall fun op => op.writes ⊆ (hostOps2_4_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_5_fresh : (hostOps2_5 : List (HloOp τ sig (Elt F))).Forall fun op => op.fresh = ∅ := by
  simp only [List.Forall]; repeat' constructor
abbrev hostOps2_5_W : List (Ref sig .tc) := [main_call8_cst, main_call8_v0, main_v247]
set_option maxHeartbeats 4000000 in
theorem hostOps2_5_writes : (hostOps2_5 : List (HloOp τ sig (Elt F))).Forall fun op => op.writes ⊆ (hostOps2_5_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_6_fresh : (hostOps2_6 : List (HloOp τ sig (Elt F))).Forall fun op => op.fresh = ∅ := by
  simp only [List.Forall]; repeat' constructor
abbrev hostOps2_6_W : List (Ref sig .tc) := [main_v248, main_v249, main_v250, main_v251, main_cst_36, main_v252, main_cst_37, main_v253, main_v254, main_v255, main_v256, main_v257, main_v258, main_cst_38, main_v259, main_v260, main_v261, main_v262, main_v263, main_v264, main_v265, main_v266]
set_option maxHeartbeats 4000000 in
theorem hostOps2_6_writes : (hostOps2_6 : List (HloOp τ sig (Elt F))).Forall fun op => op.writes ⊆ (hostOps2_6_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_7_fresh : (hostOps2_7 : List (HloOp τ sig (Elt F))).Forall fun op => op.fresh = ∅ := by
  simp only [List.Forall]; repeat' constructor
abbrev hostOps2_7_W : List (Ref sig .tc) := [main_call9_cst, main_call9_v0, main_v267]
set_option maxHeartbeats 4000000 in
theorem hostOps2_7_writes : (hostOps2_7 : List (HloOp τ sig (Elt F))).Forall fun op => op.writes ⊆ (hostOps2_7_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_8_fresh : (hostOps2_8 : List (HloOp τ sig (Elt F))).Forall fun op => op.fresh = ∅ := by
  simp only [List.Forall]; repeat' constructor
abbrev hostOps2_8_W : List (Ref sig .tc) := [main_v268, main_v269, main_v270, main_v271]
set_option maxHeartbeats 4000000 in
theorem hostOps2_8_writes : (hostOps2_8 : List (HloOp τ sig (Elt F))).Forall fun op => op.writes ⊆ (hostOps2_8_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_9_fresh : (hostOps2_9 : List (HloOp τ sig (Elt F))).Forall fun op => op.fresh = ∅ := by
  simp only [List.Forall]; repeat' constructor
abbrev hostOps2_9_W : List (Ref sig .tc) := [main_call10_cst, main_call10_v0, main_v272]
set_option maxHeartbeats 4000000 in
theorem hostOps2_9_writes : (hostOps2_9 : List (HloOp τ sig (Elt F))).Forall fun op => op.writes ⊆ (hostOps2_9_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_10_fresh : (hostOps2_10 : List (HloOp τ sig (Elt F))).Forall fun op => op.fresh = ∅ := by
  simp only [List.Forall]; repeat' constructor
abbrev hostOps2_10_W : List (Ref sig .tc) := [main_v273, main_v274, main_v275, main_v276]
set_option maxHeartbeats 4000000 in
theorem hostOps2_10_writes : (hostOps2_10 : List (HloOp τ sig (Elt F))).Forall fun op => op.writes ⊆ (hostOps2_10_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_11_fresh : (hostOps2_11 : List (HloOp τ sig (Elt F))).Forall fun op => op.fresh = ∅ := by
  simp only [List.Forall]; repeat' constructor
abbrev hostOps2_11_W : List (Ref sig .tc) := [main_call11_cst, main_call11_v0, main_v277]
set_option maxHeartbeats 4000000 in
theorem hostOps2_11_writes : (hostOps2_11 : List (HloOp τ sig (Elt F))).Forall fun op => op.writes ⊆ (hostOps2_11_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_12_fresh : (hostOps2_12 : List (HloOp τ sig (Elt F))).Forall fun op => op.fresh = ∅ := by
  simp only [List.Forall]; repeat' constructor
abbrev hostOps2_12_W : List (Ref sig .tc) := [main_v278, main_v279, main_v280, main_v281, main_cst_39, main_v282, main_cst_40, main_v283, main_v284, main_v285, main_v286, main_v287, main_v288, main_cst_41, main_v289, main_v290, main_v291, main_v292, main_v293, main_v294, main_v295, main_v296, main_v297, main_v298, main_v299, main_v300, main_v301, main_v302, main_v303, main_v304, main_v305, main_v306, main_v307, main_cst_42, main_v308, main_v309, main_v310, main_v311, main_v312]
set_option maxHeartbeats 4000000 in
theorem hostOps2_12_writes : (hostOps2_12 : List (HloOp τ sig (Elt F))).Forall fun op => op.writes ⊆ (hostOps2_12_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.Kernel.Hand

end
-- ==== Proof.K.Fold.lean ====
/- The run of @main as a fold of buffer valuations through 26 host stretches and three kernel regions. -/
import proofs.«147285_j27152783245914_1_alg».proof.Proof.Gen.Kernel.Launch
import proofs.«147285_j27152783245914_1_alg».proof.Proof.Gen.Kernel.Points
import proofs.«147285_j27152783245914_1_alg».proof.Proof.K.Writes
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Entry (F : FTy → Type) [FloatOps F] : Type := (c : Dev nD) → (b : Ref sig .tc) → Buf (Elt F) ((c : Thread nD τ).loc b)

structure Region0 (F : FTy → Type) [FloatOps F] where
  dat : Entry F → (c : Dev nD) → Dat τ (Elt F) Unit ℕ (UR sig nD τ) ℕ cfg0 c
  A_eq : ∀ (V : Entry F) (c : Dev nD) (w : Fin cfg0.W), (dat V c).A w = V c (Pipeline.arrRef spec0 w)
  Φ_eq : ∀ (V : Entry F) (c : Dev nD) t, (dat V c).Φ t = Pipeline.ΦA spec0 c
  q_eq : ∀ (V : Entry F) (c : Dev nD) w, (dat V c).q w = fullShare
  owed_eq : ∀ (V : Entry F) (c : Dev nD) t, (dat V c).owed t = 0
  recorded_eq : ∀ (V : Entry F) (c : Dev nD) t, (dat V c).recorded t = Set.univ
  body : ∀ (V : Entry F) (c : Dev nD), BodyObligation (dat V c) (defs₀ (F := F)) Variants.none () Set.univ

structure Region1 (F : FTy → Type) [FloatOps F] where
  dat : Entry F → (c : Dev nD) → Dat τ (Elt F) Unit ℕ (UR sig nD τ) ℕ cfg1 c
  A_eq : ∀ (V : Entry F) (c : Dev nD) (w : Fin cfg1.W), (dat V c).A w = V c (Pipeline.arrRef spec1 w)
  Φ_eq : ∀ (V : Entry F) (c : Dev nD) t, (dat V c).Φ t = Pipeline.ΦA spec1 c
  q_eq : ∀ (V : Entry F) (c : Dev nD) w, (dat V c).q w = fullShare
  owed_eq : ∀ (V : Entry F) (c : Dev nD) t, (dat V c).owed t = 0
  recorded_eq : ∀ (V : Entry F) (c : Dev nD) t, (dat V c).recorded t = Set.univ
  body : ∀ (V : Entry F) (c : Dev nD), BodyObligation (dat V c) (defs₀ (F := F)) Variants.none () Set.univ

structure Region2 (F : FTy → Type) [FloatOps F] where
  dat : Entry F → (c : Dev nD) → Dat τ (Elt F) Unit ℕ (UR sig nD τ) ℕ cfg2 c
  A_eq : ∀ (V : Entry F) (c : Dev nD) (w : Fin cfg2.W), (dat V c).A w = V c (Pipeline.arrRef spec2 w)
  Φ_eq : ∀ (V : Entry F) (c : Dev nD) t, (dat V c).Φ t = Pipeline.ΦA spec2 c
  q_eq : ∀ (V : Entry F) (c : Dev nD) w, (dat V c).q w = fullShare
  owed_eq : ∀ (V : Entry F) (c : Dev nD) t, (dat V c).owed t = 0
  recorded_eq : ∀ (V : Entry F) (c : Dev nD) t, (dat V c).recorded t = Set.univ
  body : ∀ (V : Entry F) (c : Dev nD), BodyObligation (dat V c) (defs₀ (F := F)) Variants.none () Set.univ

variable (m : (ℓ : Loc nD τ sig) → Buf (Elt F) ℓ) (ρ : Dev nD → PrngReg)
variable (D0 : Region0 F) (D1 : Region1 F) (D2 : Region2 F)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev V9 : Entry F := fun c b => W9 m ρ c b
def W10 (c : Dev nD) : Valuation τ sig (Elt F) :=
  Pipeline.withArrays spec0 c (W9 m ρ c) fun w => (D0.dat (V9 m ρ) c).arrAt w cfg0.N
theorem W10_arr (c : Dev nD) (w : Fin cfg0.W) :
    W10 m ρ D0 c (Proc.devRef .tc (Pipeline.arrRef spec0 w)) = (D0.dat (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ D0 c (Proc.devRef .tc b) = W9 m ρ c (Proc.devRef .tc b) := by
  unfold W10; exact Pipeline.withArrays_of_ne spec0 c _ _ b hb
abbrev V10 : Entry F := fun c b => W10 m ρ D0 c b
theorem hF0 (c : Dev nD) (w : Fin cfg0.W) : (D0.dat (V9 m ρ) c).arrAt w cfg0.N = V10 m ρ D0 c (Pipeline.arrRef spec0 w) :=
  (W10_arr m ρ D0 c w).symm
theorem hrest0 (c : Dev nD) : ∀ b, b ∉ Finset.univ.image (Pipeline.arrRef spec0) → V10 m ρ D0 c b = V9 m ρ c b :=
  fun b hb => W10_of_ne m ρ D0 c b fun w e => hb (Finset.mem_image.mpr ⟨w, Finset.mem_univ _, e⟩)
abbrev W11 : Dev nD → Valuation τ sig (Elt F) := fun c => StableHlo.after hostOps1 (W10 m ρ D0 c)
abbrev W12 : Dev nD → Valuation τ sig (Elt F) := fun c => StableHlo.after hostOps1_1 (W11 m ρ D0 c)
abbrev W13 : Dev nD → Valuation τ sig (Elt F) := fun c => StableHlo.after hostOps1_2 (W12 m ρ D0 c)
abbrev W14 : Dev nD → Valuation τ sig (Elt F) := fun c => StableHlo.after hostOps1_3 (W13 m ρ D0 c)
abbrev V14 : Entry F := fun c b => W14 m ρ D0 c b
def W15 (c : Dev nD) : Valuation τ sig (Elt F) :=
  Pipeline.withArrays spec1 c (W14 m ρ D0 c) fun w => (D1.dat (V14 m ρ D0) c).arrAt w cfg1.N
theorem W15_arr (c : Dev nD) (w : Fin cfg1.W) :
    W15 m ρ D0 D1 c (Proc.devRef .tc (Pipeline.arrRef spec1 w)) = (D1.dat (V14 m ρ D0) c).arrAt w cfg1.N := by
  unfold W15; exact Pipeline.withArrays_arr spec1 launch1.win.arr_inj c _ _ w
theorem W15_of_ne (c : Dev nD) (b : Ref sig .tc) (hb : ∀ w, Pipeline.arrRef spec1 w ≠ b) :
    W15 m ρ D0 D1 c (Proc.devRef .tc b) = W14 m ρ D0 c (Proc.devRef .tc b) := by
  unfold W15; exact Pipeline.withArrays_of_ne spec1 c _ _ b hb
abbrev V15 : Entry F := fun c b => W15 m ρ D0 D1 c b
theorem hF1 (c : Dev nD) (w : Fin cfg1.W) : (D1.dat (V14 m ρ D0) c).arrAt w cfg1.N = V15 m ρ D0 D1 c (Pipeline.arrRef spec1 w) :=
  (W15_arr m ρ D0 D1 c w).symm
theorem hrest1 (c : Dev nD) : ∀ b, b ∉ Finset.univ.image (Pipeline.arrRef spec1) → V15 m ρ D0 D1 c b = V14 m ρ D0 c b :=
  fun b hb => W15_of_ne m ρ D0 D1 c b fun w e => hb (Finset.mem_image.mpr ⟨w, Finset.mem_univ _, e⟩)
abbrev W16 : Dev nD → Valuation τ sig (Elt F) := fun c => StableHlo.after hostOps2 (W15 m ρ D0 D1 c)
abbrev W17 : Dev nD → Valuation τ sig (Elt F) := fun c => StableHlo.after hostOps2_1 (W16 m ρ D0 D1 c)
abbrev W18 : Dev nD → Valuation τ sig (Elt F) := fun c => StableHlo.after hostOps2_2 (W17 m ρ D0 D1 c)
abbrev W19 : Dev nD → Valuation τ sig (Elt F) := fun c => StableHlo.after hostOps2_3 (W18 m ρ D0 D1 c)
abbrev W20 : Dev nD → Valuation τ sig (Elt F) := fun c => StableHlo.after hostOps2_4 (W19 m ρ D0 D1 c)
abbrev W21 : Dev nD → Valuation τ sig (Elt F) := fun c => StableHlo.after hostOps2_5 (W20 m ρ D0 D1 c)
abbrev W22 : Dev nD → Valuation τ sig (Elt F) := fun c => StableHlo.after hostOps2_6 (W21 m ρ D0 D1 c)
abbrev W23 : Dev nD → Valuation τ sig (Elt F) := fun c => StableHlo.after hostOps2_7 (W22 m ρ D0 D1 c)
abbrev W24 : Dev nD → Valuation τ sig (Elt F) := fun c => StableHlo.after hostOps2_8 (W23 m ρ D0 D1 c)
abbrev W25 : Dev nD → Valuation τ sig (Elt F) := fun c => StableHlo.after hostOps2_9 (W24 m ρ D0 D1 c)
abbrev W26 : Dev nD → Valuation τ sig (Elt F) := fun c => StableHlo.after hostOps2_10 (W25 m ρ D0 D1 c)
abbrev W27 : Dev nD → Valuation τ sig (Elt F) := fun c => StableHlo.after hostOps2_11 (W26 m ρ D0 D1 c)
abbrev W28 : Dev nD → Valuation τ sig (Elt F) := fun c => StableHlo.after hostOps2_12 (W27 m ρ D0 D1 c)
abbrev V28 : Entry F := fun c b => W28 m ρ D0 D1 c b
def W29 (c : Dev nD) : Valuation τ sig (Elt F) :=
  Pipeline.withArrays spec2 c (W28 m ρ D0 D1 c) fun w => (D2.dat (V28 m ρ D0 D1) c).arrAt w cfg2.N
theorem W29_arr (c : Dev nD) (w : Fin cfg2.W) :
    W29 m ρ D0 D1 D2 c (Proc.devRef .tc (Pipeline.arrRef spec2 w)) = (D2.dat (V28 m ρ D0 D1) c).arrAt w cfg2.N := by
  unfold W29; exact Pipeline.withArrays_arr spec2 launch2.win.arr_inj c _ _ w
theorem W29_of_ne (c : Dev nD) (b : Ref sig .tc) (hb : ∀ w, Pipeline.arrRef spec2 w ≠ b) :
    W29 m ρ D0 D1 D2 c (Proc.devRef .tc b) = W28 m ρ D0 D1 c (Proc.devRef .tc b) := by
  unfold W29; exact Pipeline.withArrays_of_ne spec2 c _ _ b hb
abbrev V29 : Entry F := fun c b => W29 m ρ D0 D1 D2 c b
theorem hF2 (c : Dev nD) (w : Fin cfg2.W) : (D2.dat (V28 m ρ D0 D1) c).arrAt w cfg2.N = V29 m ρ D0 D1 D2 c (Pipeline.arrRef spec2 w) :=
  (W29_arr m ρ D0 D1 D2 c w).symm
theorem hrest2 (c : Dev nD) : ∀ b, b ∉ Finset.univ.image (Pipeline.arrRef spec2) → V29 m ρ D0 D1 D2 c b = V28 m ρ D0 D1 c b :=
  fun b hb => W29_of_ne m ρ D0 D1 D2 c b fun w e => hb (Finset.mem_image.mpr ⟨w, Finset.mem_univ _, e⟩)

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30]

theorem W1_kept (c : Dev nD) (r : Ref sig .tc) (h : r ∉ hostOps0_W) : W1 m ρ c (Proc.devRef .tc r) = W0 m ρ c (Proc.devRef .tc r) :=
  StableHlo.after_of_writes_sub hostOps0 _ hostOps0_writes h
theorem W2_kept (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_kept (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_kept (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W5_kept (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W6_kept (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W7_kept (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W8_kept (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W9_kept (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W11_kept (c : Dev nD) (r : Ref sig .tc) (h : r ∉ hostOps1_W) : W11 m ρ D0 c (Proc.devRef .tc r) = W10 m ρ D0 c (Proc.devRef .tc r) :=
  StableHlo.after_of_writes_sub hostOps1 _ hostOps1_writes h
theorem W12_kept (c : Dev nD) (r : Ref sig .tc) (h : r ∉ hostOps1_1_W) : W12 m ρ D0 c (Proc.devRef .tc r) = W11 m ρ D0 c (Proc.devRef .tc r) :=
  StableHlo.after_of_writes_sub hostOps1_1 _ hostOps1_1_writes h
theorem W13_kept (c : Dev nD) (r : Ref sig .tc) (h : r ∉ hostOps1_2_W) : W13 m ρ D0 c (Proc.devRef .tc r) = W12 m ρ D0 c (Proc.devRef .tc r) :=
  StableHlo.after_of_writes_sub hostOps1_2 _ hostOps1_2_writes h
theorem W14_kept (c : Dev nD) (r : Ref sig .tc) (h : r ∉ hostOps1_3_W) : W14 m ρ D0 c (Proc.devRef .tc r) = W13 m ρ D0 c (Proc.devRef .tc r) :=
  StableHlo.after_of_writes_sub hostOps1_3 _ hostOps1_3_writes h
theorem W16_kept (c : Dev nD) (r : Ref sig .tc) (h : r ∉ hostOps2_W) : W16 m ρ D0 D1 c (Proc.devRef .tc r) = W15 m ρ D0 D1 c (Proc.devRef .tc r) :=
  StableHlo.after_of_writes_sub hostOps2 _ hostOps2_writes h
theorem W17_kept (c : Dev nD) (r : Ref sig .tc) (h : r ∉ hostOps2_1_W) : W17 m ρ D0 D1 c (Proc.devRef .tc r) = W16 m ρ D0 D1 c (Proc.devRef .tc r) :=
  StableHlo.after_of_writes_sub hostOps2_1 _ hostOps2_1_writes h
theorem W18_kept (c : Dev nD) (r : Ref sig .tc) (h : r ∉ hostOps2_2_W) : W18 m ρ D0 D1 c (Proc.devRef .tc r) = W17 m ρ D0 D1 c (Proc.devRef .tc r) :=
  StableHlo.after_of_writes_sub hostOps2_2 _ hostOps2_2_writes h
theorem W19_kept (c : Dev nD) (r : Ref sig .tc) (h : r ∉ hostOps2_3_W) : W19 m ρ D0 D1 c (Proc.devRef .tc r) = W18 m ρ D0 D1 c (Proc.devRef .tc r) :=
  StableHlo.after_of_writes_sub hostOps2_3 _ hostOps2_3_writes h
theorem W20_kept (c : Dev nD) (r : Ref sig .tc) (h : r ∉ hostOps2_4_W) : W20 m ρ D0 D1 c (Proc.devRef .tc r) = W19 m ρ D0 D1 c (Proc.devRef .tc r) :=
  StableHlo.after_of_writes_sub hostOps2_4 _ hostOps2_4_writes h
theorem W21_kept (c : Dev nD) (r : Ref sig .tc) (h : r ∉ hostOps2_5_W) : W21 m ρ D0 D1 c (Proc.devRef .tc r) = W20 m ρ D0 D1 c (Proc.devRef .tc r) :=
  StableHlo.after_of_writes_sub hostOps2_5 _ hostOps2_5_writes h
theorem W22_kept (c : Dev nD) (r : Ref sig .tc) (h : r ∉ hostOps2_6_W) : W22 m ρ D0 D1 c (Proc.devRef .tc r) = W21 m ρ D0 D1 c (Proc.devRef .tc r) :=
  StableHlo.after_of_writes_sub hostOps2_6 _ hostOps2_6_writes h
theorem W23_kept (c : Dev nD) (r : Ref sig .tc) (h : r ∉ hostOps2_7_W) : W23 m ρ D0 D1 c (Proc.devRef .tc r) = W22 m ρ D0 D1 c (Proc.devRef .tc r) :=
  StableHlo.after_of_writes_sub hostOps2_7 _ hostOps2_7_writes h
theorem W24_kept (c : Dev nD) (r : Ref sig .tc) (h : r ∉ hostOps2_8_W) : W24 m ρ D0 D1 c (Proc.devRef .tc r) = W23 m ρ D0 D1 c (Proc.devRef .tc r) :=
  StableHlo.after_of_writes_sub hostOps2_8 _ hostOps2_8_writes h
theorem W25_kept (c : Dev nD) (r : Ref sig .tc) (h : r ∉ hostOps2_9_W) : W25 m ρ D0 D1 c (Proc.devRef .tc r) = W24 m ρ D0 D1 c (Proc.devRef .tc r) :=
  StableHlo.after_of_writes_sub hostOps2_9 _ hostOps2_9_writes h
theorem W26_kept (c : Dev nD) (r : Ref sig .tc) (h : r ∉ hostOps2_10_W) : W26 m ρ D0 D1 c (Proc.devRef .tc r) = W25 m ρ D0 D1 c (Proc.devRef .tc r) :=
  StableHlo.after_of_writes_sub hostOps2_10 _ hostOps2_10_writes h
theorem W27_kept (c : Dev nD) (r : Ref sig .tc) (h : r ∉ hostOps2_11_W) : W27 m ρ D0 D1 c (Proc.devRef .tc r) = W26 m ρ D0 D1 c (Proc.devRef .tc r) :=
  StableHlo.after_of_writes_sub hostOps2_11 _ hostOps2_11_writes h
theorem W28_kept (c : Dev nD) (r : Ref sig .tc) (h : r ∉ hostOps2_12_W) : W28 m ρ D0 D1 c (Proc.devRef .tc r) = W27 m ρ D0 D1 c (Proc.devRef .tc r) :=
  StableHlo.after_of_writes_sub hostOps2_12 _ hostOps2_12_writes h

theorem W10_in (c : Dev nD) (w : Fin cfg0.W) (hw : (cfg0.win w).isOut = false) : W10 m ρ D0 c (Proc.devRef .tc (Pipeline.arrRef spec0 w)) = W9 m ρ c (Proc.devRef .tc (Pipeline.arrRef spec0 w)) :=
  (W10_arr m ρ D0 c w).trans (((D0.dat (V9 m ρ) c).arrAt_in w hw _).trans (D0.A_eq (V9 m ρ) c w))
theorem W15_in (c : Dev nD) (w : Fin cfg1.W) (hw : (cfg1.win w).isOut = false) : W15 m ρ D0 D1 c (Proc.devRef .tc (Pipeline.arrRef spec1 w)) = W14 m ρ D0 c (Proc.devRef .tc (Pipeline.arrRef spec1 w)) :=
  (W15_arr m ρ D0 D1 c w).trans (((D1.dat (V14 m ρ D0) c).arrAt_in w hw _).trans (D1.A_eq (V14 m ρ D0) c w))
theorem W29_in (c : Dev nD) (w : Fin cfg2.W) (hw : (cfg2.win w).isOut = false) : W29 m ρ D0 D1 D2 c (Proc.devRef .tc (Pipeline.arrRef spec2 w)) = W28 m ρ D0 D1 c (Proc.devRef .tc (Pipeline.arrRef spec2 w)) :=
  (W29_arr m ρ D0 D1 D2 c w).trans (((D2.dat (V28 m ρ D0 D1) c).arrAt_in w hw _).trans (D2.A_eq (V28 m ρ D0 D1) c w))

end Cert.Kernel.Hand

end
-- ==== Proof.K.Args.lean ====
/- No item of @main writes an argument: a host stretch leaves the references it does not write, a region every buffer that
   is no output window's array. -/
import proofs.«147285_j27152783245914_1_alg».proof.Proof.Gen.Kernel.Launch
import proofs.«147285_j27152783245914_1_alg».proof.Proof.Gen.Kernel.Points
import proofs.«147285_j27152783245914_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (D0 : Region0 F) (D1 : Region1 F) (D2 : Region2 F)

/-- The memory matrix is input window 0 of each region, and no host stretch writes it. -/
theorem W29_memory (c : Dev nD) : W29 m ρ D0 D1 D2 c (Proc.devRef .tc main_arg3) = m ((c : Thread nD τ).loc main_arg3) :=
  (W29_in m ρ D0 D1 D2 c 0 rfl).trans <|
  (W28_kept m ρ D0 D1 c main_arg3 (by decide)).trans <|
  (W27_kept m ρ D0 D1 c main_arg3 (by decide)).trans <|
  (W26_kept m ρ D0 D1 c main_arg3 (by decide)).trans <|
  (W25_kept m ρ D0 D1 c main_arg3 (by decide)).trans <|
  (W24_kept m ρ D0 D1 c main_arg3 (by decide)).trans <|
  (W23_kept m ρ D0 D1 c main_arg3 (by decide)).trans <|
  (W22_kept m ρ D0 D1 c main_arg3 (by decide)).trans <|
  (W21_kept m ρ D0 D1 c main_arg3 (by decide)).trans <|
  (W20_kept m ρ D0 D1 c main_arg3 (by decide)).trans <|
  (W19_kept m ρ D0 D1 c main_arg3 (by decide)).trans <|
  (W18_kept m ρ D0 D1 c main_arg3 (by decide)).trans <|
  (W17_kept m ρ D0 D1 c main_arg3 (by decide)).trans <|
  (W16_kept m ρ D0 D1 c main_arg3 (by decide)).trans <|
  (W15_in m ρ D0 D1 c 0 rfl).trans <|
  (W14_kept m ρ D0 c main_arg3 (by decide)).trans <|
  (W13_kept m ρ D0 c main_arg3 (by decide)).trans <|
  (W12_kept m ρ D0 c main_arg3 (by decide)).trans <|
  (W11_kept m ρ D0 c main_arg3 (by decide)).trans <|
  (W10_in m ρ D0 c 0 rfl).trans <|
  (W9_kept m ρ c main_arg3 (by decide)).trans <|
  (W8_kept m ρ c main_arg3 (by decide)).trans <|
  (W7_kept m ρ c main_arg3 (by decide)).trans <|
  (W6_kept m ρ c main_arg3 (by decide)).trans <|
  (W5_kept m ρ c main_arg3 (by decide)).trans <|
  (W4_kept m ρ c main_arg3 (by decide)).trans <|
  (W3_kept m ρ c main_arg3 (by decide)).trans <|
  (W2_kept m ρ c main_arg3 (by decide)).trans <|
  (W1_kept m ρ c main_arg3 (by decide)).trans rfl
/-- Every argument reaches the end as launched: the others are no window's array. -/
theorem W29_arg (c : Dev nD) (b : Ref sig .tc) (hb : b ∈ args) : W29 m ρ D0 D1 D2 c (Proc.devRef .tc b) = m ((c : Thread nD τ).loc b) := by
  by_cases h3 : b = main_arg3
  · subst h3; exact W29_memory m ρ D0 D1 D2 c
  exact
    (W29_of_ne m ρ D0 D1 D2 c b ((by decide : ∀ b ∈ args, b ≠ main_arg3 → ∀ w, Pipeline.arrRef spec2 w ≠ b) b hb h3)).trans <|
    (W28_kept m ρ D0 D1 c b ((by decide : ∀ b ∈ args, b ∉ hostOps2_12_W) b hb)).trans <|
    (W27_kept m ρ D0 D1 c b ((by decide : ∀ b ∈ args, b ∉ hostOps2_11_W) b hb)).trans <|
    (W26_kept m ρ D0 D1 c b ((by decide : ∀ b ∈ args, b ∉ hostOps2_10_W) b hb)).trans <|
    (W25_kept m ρ D0 D1 c b ((by decide : ∀ b ∈ args, b ∉ hostOps2_9_W) b hb)).trans <|
    (W24_kept m ρ D0 D1 c b ((by decide : ∀ b ∈ args, b ∉ hostOps2_8_W) b hb)).trans <|
    (W23_kept m ρ D0 D1 c b ((by decide : ∀ b ∈ args, b ∉ hostOps2_7_W) b hb)).trans <|
    (W22_kept m ρ D0 D1 c b ((by decide : ∀ b ∈ args, b ∉ hostOps2_6_W) b hb)).trans <|
    (W21_kept m ρ D0 D1 c b ((by decide : ∀ b ∈ args, b ∉ hostOps2_5_W) b hb)).trans <|
    (W20_kept m ρ D0 D1 c b ((by decide : ∀ b ∈ args, b ∉ hostOps2_4_W) b hb)).trans <|
    (W19_kept m ρ D0 D1 c b ((by decide : ∀ b ∈ args, b ∉ hostOps2_3_W) b hb)).trans <|
    (W18_kept m ρ D0 D1 c b ((by decide : ∀ b ∈ args, b ∉ hostOps2_2_W) b hb)).trans <|
    (W17_kept m ρ D0 D1 c b ((by decide : ∀ b ∈ args, b ∉ hostOps2_1_W) b hb)).trans <|
    (W16_kept m ρ D0 D1 c b ((by decide : ∀ b ∈ args, b ∉ hostOps2_W) b hb)).trans <|
    (W15_of_ne m ρ D0 D1 c b ((by decide : ∀ b ∈ args, b ≠ main_arg3 → ∀ w, Pipeline.arrRef spec1 w ≠ b) b hb h3)).trans <|
    (W14_kept m ρ D0 c b ((by decide : ∀ b ∈ args, b ∉ hostOps1_3_W) b hb)).trans <|
    (W13_kept m ρ D0 c b ((by decide : ∀ b ∈ args, b ∉ hostOps1_2_W) b hb)).trans <|
    (W12_kept m ρ D0 c b ((by decide : ∀ b ∈ args, b ∉ hostOps1_1_W) b hb)).trans <|
    (W11_kept m ρ D0 c b ((by decide : ∀ b ∈ args, b ∉ hostOps1_W) b hb)).trans <|
    (W10_of_ne m ρ D0 c b ((by decide : ∀ b ∈ args, b ≠ main_arg3 → ∀ w, Pipeline.arrRef spec0 w ≠ b) b hb h3)).trans <|
    (W9_kept m ρ c b ((by decide : ∀ b ∈ args, b ∉ hostOps0_8_W) b hb)).trans <|
    (W8_kept m ρ c b ((by decide : ∀ b ∈ args, b ∉ hostOps0_7_W) b hb)).trans <|
    (W7_kept m ρ c b ((by decide : ∀ b ∈ args, b ∉ hostOps0_6_W) b hb)).trans <|
    (W6_kept m ρ c b ((by decide : ∀ b ∈ args, b ∉ hostOps0_5_W) b hb)).trans <|
    (W5_kept m ρ c b ((by decide : ∀ b ∈ args, b ∉ hostOps0_4_W) b hb)).trans <|
    (W4_kept m ρ c b ((by decide : ∀ b ∈ args, b ∉ hostOps0_3_W) b hb)).trans <|
    (W3_kept m ρ c b ((by decide : ∀ b ∈ args, b ∉ hostOps0_2_W) b hb)).trans <|
    (W2_kept m ρ c b ((by decide : ∀ b ∈ args, b ∉ hostOps0_1_W) b hb)).trans <|
    (W1_kept m ρ c b ((by decide : ∀ b ∈ args, b ∉ hostOps0_W) b hb)).trans rfl

end Cert.Kernel.Hand

end
-- ==== Proof.K.Launch.lean ====
/- The launch of @main over the fold: each pipeline's proof data at its region's entry contents, a segment per item. -/
import proofs.«147285_j27152783245914_1_alg».proof.Proof.Gen.Kernel.Launch
import proofs.«147285_j27152783245914_1_alg».proof.Proof.Gen.Kernel.Points
import proofs.«147285_j27152783245914_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (D0 : Region0 F) (D1 : Region1 F) (D2 : Region2 F)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => D0.dat (V9 m ρ) c
  | ⟨1, _⟩ => fun c => D1.dat (V14 m ρ D0) c
  | ⟨2, _⟩ => fun c => D2.dat (V28 m ρ D0 D1) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W29 m ρ D0 D1 D2 c) ∗ ∃ r, prngReg c r)

set_option backward.isDefEq.respectTransparency.types false in
def reg0 : Pipeline.RegionSeg (pcfgs (F := F)) adm (pdats m ρ D0 D1 D2) () defs₀ 𝒱₀ L lv 0 where
  win := launch0.win.to₀
  block_pos := launch0.block_pos
  stage_whole := launch0.stage_whole
  K := PEmpty
  osem k := k.elim
  ho := Pipeline.OwnSemFacts.none _
  hbody c := (D0.body (V9 m ρ) c).loose
  hwaits := Pipeline.hwaits_of_owed_zero _ _ _ _ L lv 0 fun c t => D0.owed_eq (V9 m ρ) c t
  pre c := iprop(StableHlo.held (c : Thread nD τ) (Pipeline.ucRefs τ sig) (W9 m ρ c) ∗ R c)
  post c := iprop(StableHlo.held (c : Thread nD τ) (Pipeline.ucRefs τ sig) (W10 m ρ D0 c) ∗ R c)
  X c := iprop(∃ r, prngReg c r)
  Y c := iprop(∃ r, prngReg c r)
  Z c := Pipeline.unscopedRest (Ix := Unit) (Name := ℕ) (U := UR sig nD τ) (Lvl := ℕ) spec0 c (V9 m ρ c)
  hentry c := by
    rw [Pipeline.ownSems0_none]
    have hsplit := Pipeline.arrays_of_unscopedBufs (p := 0) (pcfgs (F := F)) adm (pdats m ρ D0 D1 D2) launch0.win launch0.arr_whole c
      ((pdats m ρ D0 D1 D2 0 c).share_full fun w => D0.q_eq (V9 m ρ) c w) (V9 m ρ c) fun w => D0.A_eq (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m ρ D0 D1 D2 0 c).owed 0 = 0 from D0.owed_eq (V9 m ρ) c 0, show (pdats m ρ D0 D1 D2 0 c).recorded 0 = Set.univ from D0.recorded_eq (V9 m ρ) c 0]
      icases HO with ⟨%W, HO⟩; iexists W; isplitr; · ipureintro; exact fun _ _ => Or.inl trivial
      iexact HO
    isplitl [Hp]; · iexact Hp
    iexact Hrest
  hin c := by
    rw [show (pdats m ρ D0 D1 D2 0 c).Φ 0 = Pipeline.ΦA spec0 c from D0.Φ_eq (V9 m ρ) c 0]; unfold Pipeline.ΦA
    iintro ⟨Hp, -, Hr⟩
    isplitl [Hr]; · iexact Hr
    iexact Hp
  hout c := by
    rw [Pipeline.ownSems0_none, show (pdats m ρ D0 D1 D2 0 c).Φ (Fin.last _) = Pipeline.ΦA spec0 c from D0.Φ_eq (V9 m ρ) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ D0 D1 D2) ((pdats m ρ D0 D1 D2 0 c).share_full fun w => D0.q_eq (V9 m ρ) c w)
      (V9 m ρ c) (V10 m ρ D0 c) ((pdats m ρ D0 D1 D2 0 c).arrAt · cfg0.N) (hF0 m ρ D0 c) (hrest0 m ρ D0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ D0 D1 D2 0 c).owed (Fin.last _) = 0 from D0.owed_eq (V9 m ρ) c _]
    icases HO with ⟨%W, -, HO⟩; iexists W; iexact HO

set_option backward.isDefEq.respectTransparency.types false in
def reg1 : Pipeline.RegionSeg (pcfgs (F := F)) adm (pdats m ρ D0 D1 D2) () defs₀ 𝒱₀ L lv 1 where
  win := launch1.win.to₀
  block_pos := launch1.block_pos
  stage_whole := launch1.stage_whole
  K := PEmpty
  osem k := k.elim
  ho := Pipeline.OwnSemFacts.none _
  hbody c := (D1.body (V14 m ρ D0) c).loose
  hwaits := Pipeline.hwaits_of_owed_zero _ _ _ _ L lv 1 fun c t => D1.owed_eq (V14 m ρ D0) c t
  pre c := iprop(StableHlo.held (c : Thread nD τ) (Pipeline.ucRefs τ sig) (W14 m ρ D0 c) ∗ R c)
  post c := iprop(StableHlo.held (c : Thread nD τ) (Pipeline.ucRefs τ sig) (W15 m ρ D0 D1 c) ∗ R c)
  X c := iprop(∃ r, prngReg c r)
  Y c := iprop(∃ r, prngReg c r)
  Z c := Pipeline.unscopedRest (Ix := Unit) (Name := ℕ) (U := UR sig nD τ) (Lvl := ℕ) spec1 c (V14 m ρ D0 c)
  hentry c := by
    rw [Pipeline.ownSems0_none]
    have hsplit := Pipeline.arrays_of_unscopedBufs (p := 1) (pcfgs (F := F)) adm (pdats m ρ D0 D1 D2) launch1.win launch1.arr_whole c
      ((pdats m ρ D0 D1 D2 1 c).share_full fun w => D1.q_eq (V14 m ρ D0) c w) (V14 m ρ D0 c) fun w => D1.A_eq (V14 m ρ D0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m ρ D0 D1 D2 1 c).owed 0 = 0 from D1.owed_eq (V14 m ρ D0) c 0, show (pdats m ρ D0 D1 D2 1 c).recorded 0 = Set.univ from D1.recorded_eq (V14 m ρ D0) c 0]
      icases HO with ⟨%W, HO⟩; iexists W; isplitr; · ipureintro; exact fun _ _ => Or.inl trivial
      iexact HO
    isplitl [Hp]; · iexact Hp
    iexact Hrest
  hin c := by
    rw [show (pdats m ρ D0 D1 D2 1 c).Φ 0 = Pipeline.ΦA spec1 c from D1.Φ_eq (V14 m ρ D0) c 0]; unfold Pipeline.ΦA
    iintro ⟨Hp, -, Hr⟩
    isplitl [Hr]; · iexact Hr
    iexact Hp
  hout c := by
    rw [Pipeline.ownSems0_none, show (pdats m ρ D0 D1 D2 1 c).Φ (Fin.last _) = Pipeline.ΦA spec1 c from D1.Φ_eq (V14 m ρ D0) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ D0 D1 D2) ((pdats m ρ D0 D1 D2 1 c).share_full fun w => D1.q_eq (V14 m ρ D0) c w)
      (V14 m ρ D0 c) (V15 m ρ D0 D1 c) ((pdats m ρ D0 D1 D2 1 c).arrAt · cfg1.N) (hF1 m ρ D0 D1 c) (hrest1 m ρ D0 D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ D0 D1 D2 1 c).owed (Fin.last _) = 0 from D1.owed_eq (V14 m ρ D0) c _]
    icases HO with ⟨%W, -, HO⟩; iexists W; iexact HO

set_option backward.isDefEq.respectTransparency.types false in
def reg2 : Pipeline.RegionSeg (pcfgs (F := F)) adm (pdats m ρ D0 D1 D2) () defs₀ 𝒱₀ L lv 2 where
  win := launch2.win.to₀
  block_pos := launch2.block_pos
  stage_whole := launch2.stage_whole
  K := PEmpty
  osem k := k.elim
  ho := Pipeline.OwnSemFacts.none _
  hbody c := (D2.body (V28 m ρ D0 D1) c).loose
  hwaits := Pipeline.hwaits_of_owed_zero _ _ _ _ L lv 2 fun c t => D2.owed_eq (V28 m ρ D0 D1) c t
  pre c := iprop(StableHlo.held (c : Thread nD τ) (Pipeline.ucRefs τ sig) (W28 m ρ D0 D1 c) ∗ R c)
  post c := iprop(Tₙ m ρ D0 D1 D2 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V28 m ρ D0 D1 c)
  hentry c := by
    rw [Pipeline.ownSems0_none]
    have hsplit := Pipeline.arrays_of_unscopedBufs (p := 2) (pcfgs (F := F)) adm (pdats m ρ D0 D1 D2) launch2.win launch2.arr_whole c
      ((pdats m ρ D0 D1 D2 2 c).share_full fun w => D2.q_eq (V28 m ρ D0 D1) c w) (V28 m ρ D0 D1 c) fun w => D2.A_eq (V28 m ρ D0 D1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m ρ D0 D1 D2 2 c).owed 0 = 0 from D2.owed_eq (V28 m ρ D0 D1) c 0, show (pdats m ρ D0 D1 D2 2 c).recorded 0 = Set.univ from D2.recorded_eq (V28 m ρ D0 D1) c 0]
      icases HO with ⟨%W, HO⟩; iexists W; isplitr; · ipureintro; exact fun _ _ => Or.inl trivial
      iexact HO
    isplitl [Hp]; · iexact Hp
    iexact Hrest
  hin c := by
    rw [show (pdats m ρ D0 D1 D2 2 c).Φ 0 = Pipeline.ΦA spec2 c from D2.Φ_eq (V28 m ρ D0 D1) c 0]; unfold Pipeline.ΦA
    iintro ⟨Hp, -, Hr⟩
    isplitl [Hr]; · iexact Hr
    iexact Hp
  hout c := by
    rw [Pipeline.ownSems0_none, show (pdats m ρ D0 D1 D2 2 c).Φ (Fin.last _) = Pipeline.ΦA spec2 c from D2.Φ_eq (V28 m ρ D0 D1) c _]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ D0 D1 D2) ((pdats m ρ D0 D1 D2 2 c).share_full fun w => D2.q_eq (V28 m ρ D0 D1) c w)
      (V28 m ρ D0 D1 c) (V29 m ρ D0 D1 D2 c) ((pdats m ρ D0 D1 D2 2 c).arrAt · cfg2.N) (hF2 m ρ D0 D1 D2 c) (hrest2 m ρ D0 D1 D2 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ D0 D1 D2 2 c).owed (Fin.last _) = 0 from D2.owed_eq (V28 m ρ D0 D1) c _]
    icases HO with ⟨%W, -, HO⟩; iexists W; iexact HO

abbrev segs : List (Pipeline.Seg (pcfgs (F := F)) adm (pdats m ρ D0 D1 D2) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ D0 D1 D2),
    .host (hseg hostOps1 hostOps1_sub hostOps1_fresh (W10 m ρ D0)),
    .host (hseg hostOps1_1 hostOps1_1_sub hostOps1_1_fresh (W11 m ρ D0)),
    .host (hseg hostOps1_2 hostOps1_2_sub hostOps1_2_fresh (W12 m ρ D0)),
    .host (hseg hostOps1_3 hostOps1_3_sub hostOps1_3_fresh (W13 m ρ D0)),
    .region (reg1 m ρ D0 D1 D2),
    .host (hseg hostOps2 hostOps2_sub hostOps2_fresh (W15 m ρ D0 D1)),
    .host (hseg hostOps2_1 hostOps2_1_sub hostOps2_1_fresh (W16 m ρ D0 D1)),
    .host (hseg hostOps2_2 hostOps2_2_sub hostOps2_2_fresh (W17 m ρ D0 D1)),
    .host (hseg hostOps2_3 hostOps2_3_sub hostOps2_3_fresh (W18 m ρ D0 D1)),
    .host (hseg hostOps2_4 hostOps2_4_sub hostOps2_4_fresh (W19 m ρ D0 D1)),
    .host (hseg hostOps2_5 hostOps2_5_sub hostOps2_5_fresh (W20 m ρ D0 D1)),
    .host (hseg hostOps2_6 hostOps2_6_sub hostOps2_6_fresh (W21 m ρ D0 D1)),
    .host (hseg hostOps2_7 hostOps2_7_sub hostOps2_7_fresh (W22 m ρ D0 D1)),
    .host (hseg hostOps2_8 hostOps2_8_sub hostOps2_8_fresh (W23 m ρ D0 D1)),
    .host (hseg hostOps2_9 hostOps2_9_sub hostOps2_9_fresh (W24 m ρ D0 D1)),
    .host (hseg hostOps2_10 hostOps2_10_sub hostOps2_10_fresh (W25 m ρ D0 D1)),
    .host (hseg hostOps2_11 hostOps2_11_sub hostOps2_11_fresh (W26 m ρ D0 D1)),
    .host (hseg hostOps2_12 hostOps2_12_sub hostOps2_12_fresh (W27 m ρ D0 D1)),
    .region (reg2 m ρ D0 D1 D2) ]

set_option maxHeartbeats 4000000 in
theorem main_run (c : Dev nD) : main (F := F) c = Pipeline.Seg.run (segs m ρ D0 D1 D2) := (main_chain c).trans (by chain_rfl)

set_option maxHeartbeats 4000000 in
set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W29 m ρ D0 D1 D2 c b) :=
  Pipeline.θ_run_regions_kit (pcfgs (F := F)) adm (pdats m ρ D0 D1 D2) () cellOf_inj emb₁ defs₀ 𝒱₀ L lv m ρ main (segs m ρ D0 D1 D2)
    (fun c Q => by rw [main_run m ρ D0 D1 D2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ D0 D1 D2)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ D0 D1 D2 c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ D0 D1 D2 c) s')
      isplitl [Hh] <;> iassumption)
    (hQ := fun s h c => h c)

end Cert.Kernel.Hand

end
-- ==== Proof.K.AddrBody.lean ====
/- The first pass over the memory, tile by tile: each row's squared norm and its products with the two keys. -/
import proofs.«147285_j27152783245914_1_alg».proof.Proof.Gen.Kernel.Launch
import proofs.«147285_j27152783245914_1_alg».proof.Proof.Gen.Kernel.Skeleton
import proofs.«147285_j27152783245914_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem tile_found_of0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem keyR_found_of0 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem keyW_found_of0 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev tileRect0 : Rect S5000x20 := Rect.unit (s := S5000x20) ![0, 0] S5000x20.size inb_S5000x20_S5000x20_0_0
abbrev keyRect0 : Rect S1x20 := Rect.unit (s := S1x20) ![0, 0] S1x20.size inb_S1x20_S1x20_0_0
abbrev colRect0 : Rect S5000x1 := Rect.unit (s := S5000x1) ![0, 0] S5000x1.size inb_S5000x1_S5000x1_0_0

def normCol0 (x : Vec F S5000x20 .f32) : Vec F S5000x1 .f32 :=
  View.canon [⟨colRect0, k0_pay2 (View.ld x tileRect0)⟩]

def dotColR0 (x : Vec F S5000x20 .f32) (k : Vec F S1x20 .f32) : Vec F S5000x1 .f32 :=
  View.canon [⟨colRect0, k0_pay3 (View.ld x tileRect0) (View.ld k keyRect0)⟩]

def dotColW0 (x : Vec F S5000x20 .f32) (k : Vec F S1x20 .f32) : Vec F S5000x1 .f32 :=
  View.canon [⟨colRect0, k0_pay4 (View.ld x tileRect0) (View.ld k keyRect0)⟩]

theorem col_covered0 (p : Vec F S5000x1 .f32) (y : S5000x1.Idx) :
    ∃ pc ∈ ([⟨colRect0, p⟩] : List (View.Piece (Elt F) S5000x1 .f32)), y ∈ pc.1.set :=
  View.cover_of_tiled [⟨colRect0, p⟩] S5000x1.size (by rfl) y

set_option maxHeartbeats 1000000 in
theorem sound_addr0 (c : Dev nD) (E : Set ℕ) (i : grid0.Coords)
    (arg1 : Memref sig .tc .vmem S5000x20 .f32) (harg1 : arg1.IsWhole)
    (arg2 : Memref sig .tc .vmem S1x20 .f32) (harg2 : arg2.IsWhole)
    (arg3 : Memref sig .tc .vmem S1x20 .f32) (harg3 : arg3.IsWhole)
    (arg4 : Memref sig .tc .vmem S5000x1 .f32) (harg4 : arg4.IsWhole)
    (arg5 : Memref sig .tc .vmem S5000x1 .f32) (harg5 : arg5.IsWhole)
    (arg6 : Memref sig .tc .vmem S5000x1 .f32) (harg6 : arg6.IsWhole)
    (x0 : Vec F S5000x20 .f32) (x1 : Vec F S1x20 .f32) (x2 : Vec F S1x20 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (normCol0 x0) ∗ owns (c : Thread nD τ) arg5 fullShare (dotColR0 x0 x1)
            ∗ owns (c : Thread nD τ) arg6 fullShare (dotColW0 x0 x2)) -∗ K ⟨⟩))
      ⊢ wp frame (wpE (defs₀ (F := F)) Variants.none c none) E (cc0__addr_kernel i arg1 harg1 arg2 harg2 arg3 harg3 arg4 harg4 arg5 harg5 arg6 harg6) K := by
  simp only [cc0__addr_kernel_eq_skeleton]; unfold cc0__addr_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (col_covered0 _)
  isplitl [H5]
  · iexists _; isplitr
    swap; · iexact H5
    ipureintro
    exact View.read_writes_eq_canon _ _ _ (col_covered0 _)
  iexists _; isplitr
  swap; · iexact H6
  ipureintro
  exact View.read_writes_eq_canon _ _ _ (col_covered0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => normCol0 (iblk0 V c 0 t)
    | ⟨4, _⟩ => dotColR0 (iblk0 V c 0 t) (iblk0 V c 1 t)
    | ⟨5, _⟩ => dotColW0 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = normCol0 (iblk0 V c 0 t) := by dsimp only [dat0]
theorem after0_4 (c : Dev nD) (t : Fin cfg0.N) : (dat0 V c).after 4 t = dotColR0 (iblk0 V c 0 t) (iblk0 V c 1 t) := by dsimp only [dat0]
theorem after0_5 (c : Dev nD) (t : Fin cfg0.N) : (dat0 V c).after 5 t = dotColW0 (iblk0 V c 0 t) (iblk0 V c 2 t) := by dsimp only [dat0]

theorem tile_found0 (c : Dev nD) (t : Fin cfg0.N) (d) : (dat0 V c).before 0 t d = iblk0 V c 0 t :=
  tile_found_of0 V (dat0 V c) (A_eq0 V c 0) (after0_0 V c) t d
theorem keyR_found0 (c : Dev nD) (t : Fin cfg0.N) (d) : (dat0 V c).before 1 t d = iblk0 V c 1 t :=
  keyR_found_of0 V (dat0 V c) (A_eq0 V c 1) (after0_1 V c) t d
theorem keyW_found0 (c : Dev nD) (t : Fin cfg0.N) (d) : (dat0 V c).before 2 t d = iblk0 V c 2 t :=
  keyW_found_of0 V (dat0 V c) (A_eq0 V c 2) (after0_2 V c) t d

def addrPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def addrPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_addr_at0 (c : Dev nD) (t : Fin cfg0.N) :
    addrPre0 V c t ⊢ wp frame (wpE (defs₀ (F := F)) Variants.none c none) Set.univ (bodyAt0 t) (fun _ => addrPost0 V c t) := by
  unfold addrPre0 addrPost0 bodyAt0
  simp only [tile_found0, keyR_found0, keyW_found0]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_addr0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_addr_at0 V c t

end Cert.Kernel.Hand

end
-- ==== Proof.K.ReadBody.lean ====
/- The second pass over the memory, tile by tile: the weighted column sums, accumulated. -/
import proofs.«147285_j27152783245914_1_alg».proof.Proof.Gen.Kernel.Launch
import proofs.«147285_j27152783245914_1_alg».proof.Proof.Gen.Kernel.Skeleton
import proofs.«147285_j27152783245914_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section ReadHead

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 200 = 0 :=
  (by decide +kernel : ∀ t : Fin grid1.N, cond1_0 (grid1.coords t) ↔ t.val % 200 = 0)

abbrev VO1_2 : View sig .tc .vmem S1x20 .f32 := (Memref.whole cc1_stg2_0 : Memref sig .tc .vmem S1x20 .f32).view
abbrev ms1_0 (t : Fin cfg1.N) : Memref sig .tc .vmem S5000x20 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x20 .f32 := win1_2.stage (cfg1.slots t 2)
abbrev hs1_2 (t : Fin cfg1.N) : (ms1_2 t).IsWhole := hstage1_2 ((cfg1.slots t 2).cast nbuf1_2)

set_option maxHeartbeats 1000000 in
noncomputable def kernelRun1_A (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : cond1_0 i)
    (x0 : Vec F S5000x20 .f32) (x1 : Vec F S5000x1 .f32) :
    { L2 : List (View.Piece (Elt F) S1x20 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__readhead_kernel i arg1 harg1 arg2 harg2 arg3 harg3) K } := by
  refine ⟨?_, fun E K => ?run⟩
  case run =>
    simp only [cc1__readhead_kernel_eq_skeleton]; unfold cc1__readhead_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
noncomputable def kernelRun1_B (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : ¬cond1_0 i)
    (x0 : Vec F S5000x20 .f32) (x1 : Vec F S5000x1 .f32) (xo2 : Vec F S1x20 .f32) :
    { L2 : List (View.Piece (Elt F) S1x20 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__readhead_kernel i arg1 harg1 arg2 harg2 arg3 harg3) K } := by
  refine ⟨?_, fun E K => ?run⟩
  case run =>
    simp only [cc1__readhead_kernel_eq_skeleton]; unfold cc1__readhead_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

theorem cover1_A_2 (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : cond1_0 i)
    (x0 : Vec F S5000x20 .f32) (x1 : Vec F S5000x1 .f32) (y : S1x20.Idx) :
    ∃ pc ∈ (kernelRun1_A c i arg1 harg1 arg2 harg2 arg3 harg3 hc0 x0 x1).1, y ∈ pc.1.set :=
  View.cover_of_tiledL (kernelRun1_A c i arg1 harg1 arg2 harg2 arg3 harg3 hc0 x0 x1).1 S1x20.size (by sl_kernel_rfl) y

def out1_A_2 (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : cond1_0 i)
    (x0 : Vec F S5000x20 .f32) (x1 : Vec F S5000x1 .f32) : Vec F S1x20 .f32 :=
  VO1_2.read (Elt F) (VO1_2.writes (Elt F) VO1_2.junk (kernelRun1_A c i arg1 harg1 arg2 harg2 arg3 harg3 hc0 x0 x1).1)

theorem cover1_B_2 (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : ¬cond1_0 i)
    (x0 : Vec F S5000x20 .f32) (x1 : Vec F S5000x1 .f32) (xo2 : Vec F S1x20 .f32) (y : S1x20.Idx) :
    ∃ pc ∈ (kernelRun1_B c i arg1 harg1 arg2 harg2 arg3 harg3 hc0 x0 x1 xo2).1, y ∈ pc.1.set :=
  View.cover_of_tiledL (kernelRun1_B c i arg1 harg1 arg2 harg2 arg3 harg3 hc0 x0 x1 xo2).1 S1x20.size (by sl_kernel_rfl) y

def out1_B_2 (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : ¬cond1_0 i)
    (x0 : Vec F S5000x20 .f32) (x1 : Vec F S5000x1 .f32) (xo2 : Vec F S1x20 .f32) : Vec F S1x20 .f32 :=
  VO1_2.read (Elt F) (VO1_2.writes (Elt F) VO1_2.junk (kernelRun1_B c i arg1 harg1 arg2 harg2 arg3 harg3 hc0 x0 x1 xo2).1)

theorem zeroOffsets1 : (![0, 0] : Fin 2 → Nat) = fun _ => 0 := funext fun a => by fin_cases a <;> rfl

theorem out1_B_2_eq (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : ¬cond1_0 i)
    (x0 : Vec F S5000x20 .f32) (x1 : Vec F S5000x1 .f32) (xo2 : Vec F S1x20 .f32) :
    out1_B_2 c i arg1 harg1 arg2 harg2 arg3 harg3 hc0 x0 x1 xo2 = k1_pay2 x0 x1 xo2 := by
  unfold out1_B_2
  rw [View.read_writes_eq_canon _ _ _ (cover1_B_2 c i arg1 harg1 arg2 harg2 arg3 harg3 hc0 x0 x1 xo2)]
  unfold kernelRun1_B
  dsimp only
  rw [View.canon_unit_zero zeroOffsets1]
  simp only [View.readAt_eq_ld, harg1.read_unread, harg2.read_unread, harg3.read_unread,
    View.ld_unit_zero (S := S5000x20) zeroOffsets1, View.ld_unit_zero (S := S5000x1) zeroOffsets1,
    View.ld_unit_zero (S := S1x20) zeroOffsets1]

theorem out1_A_2_eq (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : cond1_0 i)
    (x0 : Vec F S5000x20 .f32) (x1 : Vec F S5000x1 .f32) :
    out1_A_2 c i arg1 harg1 arg2 harg2 arg3 harg3 hc0 x0 x1 = k1_pay2 x0 x1 (k1_pay1 (F := F)) := by
  unfold out1_A_2
  rw [View.read_writes_eq_canon _ _ _ (cover1_A_2 c i arg1 harg1 arg2 harg2 arg3 harg3 hc0 x0 x1)]
  unfold kernelRun1_A
  dsimp only
  sl_unfold_words
  rw [View.canon_cons_unit_zero (S := S1x20) zeroOffsets1, View.readCov_unit_zero (S := S1x20) _ zeroOffsets1]
  simp only [View.readAt_eq_ld, harg1.read_unread, harg2.read_unread,
    View.ld_unit_zero (S := S5000x20) zeroOffsets1, View.ld_unit_zero (S := S5000x1) zeroOffsets1]

def outsAt1 (c : Dev nD) : (n : ℕ) → n < cfg1.N → Vec F S1x20 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 200 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 200 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 200 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def acc1 (c : Dev nD) : (n : ℕ) → n < cfg1.N → Vec F S1x20 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (acc1 c n (Nat.lt_of_succ_lt h))

theorem outsAt1_eq (c : Dev nD) : ∀ (n : ℕ) (h : n < cfg1.N), outsAt1 V c n h = acc1 V c n h
  | 0, h => (outsAt1_A V c ⟨0, h⟩ rfl).trans (out1_A_2_eq ..)
  | n + 1, h => by
    have hN : cfg1.N = 200 := N_1
    have hB : ¬(⟨n + 1, h⟩ : Fin cfg1.N).val % 200 = 0 := by dsimp only; omega
    rw [outsAt1_B V c ⟨n + 1, h⟩ hB, out1_B_2_eq]
    show k1_pay2 _ _ (outsAt1 V c n _) = k1_pay2 _ _ (acc1 V c n _)
    rw [outsAt1_eq c n]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2_pieces (c : Dev nD) (t : Fin cfg1.N) : (dat1 V c).after 2 t = (outsAt1 V c t.val t.isLt) := by dsimp only [dat1]
theorem after1_2 (c : Dev nD) (t : Fin cfg1.N) : (dat1 V c).after 2 t = acc1 V c t.val t.isLt :=
  (after1_2_pieces V c t).trans (outsAt1_eq V c t.val t.isLt)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2_B (c : Dev nD) (t : Fin cfg1.N) (h0 : ¬t.val % 200 = 0) (d) :
    (dat1 V c).before 2 t d = (outsAt1 V c (t.val - 1) (Nat.lt_of_le_of_lt (Nat.sub_le _ _) t.isLt)) := by
  have hN : t.val < 200 := lt_of_lt_of_eq t.isLt (show cfg1.N = 200 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2_pieces]
  have hN : t.val < 200 := lt_of_lt_of_eq t.isLt (show cfg1.N = 200 from N_1)
  by_cases h0 : t.val % 200 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end ReadHead

end Cert.Kernel.Hand

end
-- ==== Proof.K.UpdBody.lean ====
/- The erase-and-add update of the memory, tile by tile. -/
import proofs.«147285_j27152783245914_1_alg».proof.Proof.Gen.Kernel.Launch
import proofs.«147285_j27152783245914_1_alg».proof.Proof.Gen.Kernel.Skeleton
import proofs.«147285_j27152783245914_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem foundOf2_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem foundOf2_1 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem foundOf2_2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem foundOf2_3 {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev tileRect2 : Rect S5000x20 := Rect.unit (s := S5000x20) ![0, 0] S5000x20.size inb_S5000x20_S5000x20_0_0
abbrev colRect2 : Rect S5000x1 := Rect.unit (s := S5000x1) ![0, 0] S5000x1.size inb_S5000x1_S5000x1_0_0
abbrev vecRect2 : Rect S1x20 := Rect.unit (s := S1x20) ![0, 0] S1x20.size inb_S1x20_S1x20_0_0

def newTile2 (x0 : Vec F S5000x20 .f32) (x1 : Vec F S5000x1 .f32) (x2 : Vec F S1x20 .f32) (x3 : Vec F S1x20 .f32) : Vec F S5000x20 .f32 :=
  View.canon [⟨tileRect2, k2_pay1 (View.ld x0 tileRect2) (View.ld x1 colRect2) (View.ld x2 vecRect2) (View.ld x3 vecRect2)⟩]

theorem newTileCover2 (p0 : Vec F S5000x20 .f32) (y : S5000x20.Idx) :
    ∃ pc ∈ ([⟨tileRect2, p0⟩] : List (View.Piece (Elt F) S5000x20 .f32)), y ∈ pc.1.set :=
  View.cover_of_tiled [⟨tileRect2, p0⟩] S5000x20.size (by rfl) y

set_option maxHeartbeats 1000000 in
theorem updateTriple2 (c : Dev nD) (E : Set ℕ) (i : grid2.Coords)
    (arg1 : Memref sig .tc .vmem S5000x20 .f32) (harg1 : arg1.IsWhole) (arg2 : Memref sig .tc .vmem S5000x1 .f32) (harg2 : arg2.IsWhole)
    (arg3 : Memref sig .tc .vmem S1x20 .f32) (harg3 : arg3.IsWhole) (arg4 : Memref sig .tc .vmem S1x20 .f32) (harg4 : arg4.IsWhole)
    (arg5 : Memref sig .tc .vmem S5000x20 .f32) (harg5 : arg5.IsWhole)
    (x0 : Vec F S5000x20 .f32) (x1 : Vec F S5000x1 .f32) (x2 : Vec F S1x20 .f32) (x3 : Vec F S1x20 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (newTile2 x0 x1 x2 x3)) -∗ K ⟨⟩))
      ⊢ wp frame (wpE (defs₀ (F := F)) Variants.none c none) E (cc2__update_kernel i arg1 harg1 arg2 harg2 arg3 harg3 arg4 harg4 arg5 harg5) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (newTileCover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => newTile2 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = newTile2 (iblk2 V c 0 t) (iblk2 V c 1 t) (iblk2 V c 2 t) (iblk2 V c 3 t) := by dsimp only [dat2]

theorem found2_0 (c : Dev nD) (t : Fin cfg2.N) (d) : (dat2 V c).before 0 t d = iblk2 V c 0 t :=
  foundOf2_0 V (dat2 V c) (A_eq2 V c 0) (after2_0 V c) t d
theorem found2_1 (c : Dev nD) (t : Fin cfg2.N) (d) : (dat2 V c).before 1 t d = iblk2 V c 1 t :=
  foundOf2_1 V (dat2 V c) (A_eq2 V c 1) (after2_1 V c) t d
theorem found2_2 (c : Dev nD) (t : Fin cfg2.N) (d) : (dat2 V c).before 2 t d = iblk2 V c 2 t :=
  foundOf2_2 V (dat2 V c) (A_eq2 V c 2) (after2_2 V c) t d
theorem found2_3 (c : Dev nD) (t : Fin cfg2.N) (d) : (dat2 V c).before 3 t d = iblk2 V c 3 t :=
  foundOf2_3 V (dat2 V c) (A_eq2 V c 3) (after2_3 V c) t d

def updPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def updPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem updateBodyTriple2 (c : Dev nD) (t : Fin cfg2.N) :
    updPre2 V c t ⊢ wp frame (wpE (defs₀ (F := F)) Variants.none c none) Set.univ (bodyAt2 t) (fun _ => updPost2 V c t) := by
  unfold updPre2 updPost2 bodyAt2
  simp only [found2_0, found2_1, found2_2, found2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (updateTriple2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact updateBodyTriple2 V c t

end Cert.Kernel.Hand

end
-- ==== Proof.K.Regions.lean ====
/- The three kernels' proof data meet what the run asks of a region. -/
import proofs.«147285_j27152783245914_1_alg».proof.Proof.Gen.Kernel.Launch
import proofs.«147285_j27152783245914_1_alg».proof.Proof.Gen.Kernel.Points
import proofs.«147285_j27152783245914_1_alg».proof.Proof.K.Fold
import proofs.«147285_j27152783245914_1_alg».proof.Proof.K.AddrBody
import proofs.«147285_j27152783245914_1_alg».proof.Proof.K.ReadBody
import proofs.«147285_j27152783245914_1_alg».proof.Proof.K.UpdBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def region0 : Region0 F where
  dat V c := dat0 V c
  A_eq V c w := A_eq0 V c w
  Φ_eq _ _ _ := rfl
  q_eq _ _ _ := rfl
  owed_eq _ _ _ := rfl
  recorded_eq _ _ _ := rfl
  body V c := body_obligation0 V c

def region1 : Region1 F where
  dat V c := dat1 V c
  A_eq V c w := A_eq1 V c w
  Φ_eq _ _ _ := rfl
  q_eq _ _ _ := rfl
  owed_eq _ _ _ := rfl
  recorded_eq _ _ _ := rfl
  body V c := body_obligation1 V c

def region2 : Region2 F where
  dat V c := dat2 V c
  A_eq V c w := A_eq2 V c w
  Φ_eq _ _ _ := rfl
  q_eq _ _ _ := rfl
  owed_eq _ _ _ := rfl
  recorded_eq _ _ _ := rfl
  body V c := body_obligation2 V c

end Cert.Kernel.Hand

end
-- ==== Proof.K.Frame.lean ====
/- The frame of @main: every weakly fair execution terminates, nothing faulting, each argument read off the last valuation
   of the fold, which holds what the launch memory held. -/
import proofs.«147285_j27152783245914_1_alg».proof.Proof.Gen.Kernel.Launch
import proofs.«147285_j27152783245914_1_alg».proof.Proof.Gen.Kernel.Points
import proofs.«147285_j27152783245914_1_alg».proof.Proof.K.Fold
import proofs.«147285_j27152783245914_1_alg».proof.Proof.K.Args
import proofs.«147285_j27152783245914_1_alg».proof.Proof.K.Launch
import proofs.«147285_j27152783245914_1_alg».proof.Proof.K.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem frame : θ_run defs (onTc (τ := τ) (main (F := F))) ⟨m, fun _ => 0, ρ⟩ (fun r => ∀ c : Dev nD, ∀ b ∈ args,
      r.2.mem ((c.tc : Thread nD τ).loc b) = m ((c.tc : Thread nD τ).loc b)) :=
  (θ_run defs _ _).mono (fun r h c b hb =>
    (h c _ (mem_uc b ((by decide : ∀ b ∈ args, ¬ (Proc.devRef .tc b : DevRef τ sig).isScoped) b hb))).trans
      (W29_arg m ρ region0 region1 region2 c b hb))
    (run_main m ρ region0 region1 region2)

end Cert.Kernel.Hand

end
-- ==== Proof.KI.Writes.lean ====
/- Per host stretch of @main: no operation allocates, and every operation writes one reference of the stretch's list. -/
import proofs.«147285_j27152783245914_1_alg».proof.Proof.Gen.KernelIdeal.Launch

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_cst, main_v27, main_v28, main_cst_0, main_v29, main_v30, main_v31, main_v32, main_v33, main_v34, main_v35, main_v36, main_v37, main_v38, main_v39, main_v40, main_v41, main_v42, main_cst_1, main_v43, main_cst_2, main_v44, main_v45, main_v46, main_cst_3, main_v47, main_cst_4, main_v48, main_v49, main_v50, main_v51, main_v52, main_cst_5, main_v53, main_v54, main_v55, main_v56, main_v57, main_v58]
set_option maxHeartbeats 4000000 in
theorem hostOps0_writes : (hostOps0 : List (HloOp τ sig (Elt F))).Forall fun op => op.writes ⊆ (hostOps0_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_1_fresh : (hostOps0_1 : List (HloOp τ sig (Elt F))).Forall fun op => op.fresh = ∅ := by
  simp only [List.Forall]; repeat' constructor
abbrev hostOps0_1_W : List (Ref sig .tc) := [main_call0_cst, main_call0_v0, main_call0_v1, main_call0_v2, main_call0_v3, main_call0_v4, main_call0_v5, main_call0_v6, main_call0_v7, main_call0_v8, main_v59]
set_option maxHeartbeats 4000000 in
theorem hostOps0_1_writes : (hostOps0_1 : List (HloOp τ sig (Elt F))).Forall fun op => op.writes ⊆ (hostOps0_1_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_2_fresh : (hostOps0_2 : List (HloOp τ sig (Elt F))).Forall fun op => op.fresh = ∅ := by
  simp only [List.Forall]; repeat' constructor
abbrev hostOps0_2_W : List (Ref sig .tc) := [main_cst_6, main_v60, main_v61, main_v62]
set_option maxHeartbeats 4000000 in
theorem hostOps0_2_writes : (hostOps0_2 : List (HloOp τ sig (Elt F))).Forall fun op => op.writes ⊆ (hostOps0_2_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_3_fresh : (hostOps0_3 : List (HloOp τ sig (Elt F))).Forall fun op => op.fresh = ∅ := by
  simp only [List.Forall]; repeat' constructor
abbrev hostOps0_3_W : List (Ref sig .tc) := [main_call1_cst, main_call1_v0, main_call1_v1, main_call1_v2, main_call1_v3, main_call1_v4, main_call1_v5, main_call1_v6, main_call1_v7, main_call1_v8, main_v63]
set_option maxHeartbeats 4000000 in
theorem hostOps0_3_writes : (hostOps0_3 : List (HloOp τ sig (Elt F))).Forall fun op => op.writes ⊆ (hostOps0_3_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_4_fresh : (hostOps0_4 : List (HloOp τ sig (Elt F))).Forall fun op => op.fresh = ∅ := by
  simp only [List.Forall]; repeat' constructor
abbrev hostOps0_4_W : List (Ref sig .tc) := [main_v64, main_v65, main_v66, main_v67, main_v68, main_v69, main_v70, main_v71, main_cst_7, main_v72, main_cst_8, main_v73, main_v74, main_v75, main_cst_9, main_v76, main_cst_10, main_v77, main_v78, main_v79, main_v80, main_v81, main_cst_11, main_v82, main_v83, main_v84, main_v85, main_v86, main_v87]
set_option maxHeartbeats 4000000 in
theorem hostOps0_4_writes : (hostOps0_4 : List (HloOp τ sig (Elt F))).Forall fun op => op.writes ⊆ (hostOps0_4_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_5_fresh : (hostOps0_5 : List (HloOp τ sig (Elt F))).Forall fun op => op.fresh = ∅ := by
  simp only [List.Forall]; repeat' constructor
abbrev hostOps0_5_W : List (Ref sig .tc) := [main_call2_cst, main_call2_v0, main_call2_v1, main_call2_v2, main_call2_v3, main_call2_v4, main_call2_v5, main_call2_v6, main_call2_v7, main_call2_v8, main_v88]
set_option maxHeartbeats 4000000 in
theorem hostOps0_5_writes : (hostOps0_5 : List (HloOp τ sig (Elt F))).Forall fun op => op.writes ⊆ (hostOps0_5_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_6_fresh : (hostOps0_6 : List (HloOp τ sig (Elt F))).Forall fun op => op.fresh = ∅ := by
  simp only [List.Forall]; repeat' constructor
abbrev hostOps0_6_W : List (Ref sig .tc) := [main_cst_12, main_v89, main_v90, main_v91]
set_option maxHeartbeats 4000000 in
theorem hostOps0_6_writes : (hostOps0_6 : List (HloOp τ sig (Elt F))).Forall fun op => op.writes ⊆ (hostOps0_6_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_7_fresh : (hostOps0_7 : List (HloOp τ sig (Elt F))).Forall fun op => op.fresh = ∅ := by
  simp only [List.Forall]; repeat' constructor
abbrev hostOps0_7_W : List (Ref sig .tc) := [main_call3_cst, main_call3_v0, main_call3_v1, main_call3_v2, main_call3_v3, main_call3_v4, main_call3_v5, main_call3_v6, main_call3_v7, main_call3_v8, main_v92]
set_option maxHeartbeats 4000000 in
theorem hostOps0_7_writes : (hostOps0_7 : List (HloOp τ sig (Elt F))).Forall fun op => op.writes ⊆ (hostOps0_7_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_8_fresh : (hostOps0_8 : List (HloOp τ sig (Elt F))).Forall fun op => op.fresh = ∅ := by
  simp only [List.Forall]; repeat' constructor
abbrev hostOps0_8_W : List (Ref sig .tc) := [main_cst_13, main_v93, main_v94, main_cst_14, main_v95, main_v96]
set_option maxHeartbeats 4000000 in
theorem hostOps0_8_writes : (hostOps0_8 : List (HloOp τ sig (Elt F))).Forall fun op => op.writes ⊆ (hostOps0_8_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_fresh : (hostOps1 : List (HloOp τ sig (Elt F))).Forall fun op => op.fresh = ∅ := by
  simp only [List.Forall]; repeat' constructor
abbrev hostOps1_W : List (Ref sig .tc) := [main_call4_v0, main_call4_cst, main_call4_v1, main_v98]
set_option maxHeartbeats 4000000 in
theorem hostOps1_writes : (hostOps1 : List (HloOp τ sig (Elt F))).Forall fun op => op.writes ⊆ (hostOps1_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_1_fresh : (hostOps1_1 : List (HloOp τ sig (Elt F))).Forall fun op => op.fresh = ∅ := by
  simp only [List.Forall]; repeat' constructor
abbrev hostOps1_1_W : List (Ref sig .tc) := [main_cst_15, main_v99, main_v100, main_cst_16, main_v101, main_v102, main_v103, main_v104, main_v105, main_v106, main_v107, main_v108, main_v109, main_cst_17, main_v110, main_cst_18, main_v111, main_v112, main_v113, main_v114, main_v115, main_v116, main_cst_19, main_v117, main_v118, main_v119, main_v120, main_v121, main_v122, main_cst_20, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_cst_21, main_v149, main_v150, main_cst_22, main_v151, main_v152, main_v153, main_v154]
set_option maxHeartbeats 4000000 in
theorem hostOps1_1_writes : (hostOps1_1 : List (HloOp τ sig (Elt F))).Forall fun op => op.writes ⊆ (hostOps1_1_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_2_fresh : (hostOps1_2 : List (HloOp τ sig (Elt F))).Forall fun op => op.fresh = ∅ := by
  simp only [List.Forall]; repeat' constructor
abbrev hostOps1_2_W : List (Ref sig .tc) := [main_call5_v0, main_call5_cst, main_call5_v1, main_v155]
set_option maxHeartbeats 4000000 in
theorem hostOps1_2_writes : (hostOps1_2 : List (HloOp τ sig (Elt F))).Forall fun op => op.writes ⊆ (hostOps1_2_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_3_fresh : (hostOps1_3 : List (HloOp τ sig (Elt F))).Forall fun op => op.fresh = ∅ := by
  simp only [List.Forall]; repeat' constructor
abbrev hostOps1_3_W : List (Ref sig .tc) := [main_cst_23, main_v156, main_v157, main_cst_24, main_v158, main_v159, main_v160, main_v161, main_v162, main_v163, main_v164, main_v165, main_v166, main_cst_25, main_v167, main_cst_26, main_v168, main_v169, main_v170, main_v171, main_v172, main_v173, main_cst_27, main_v174, main_v175, main_v176, main_v177, main_v178, main_v179, main_cst_28, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_cst_29, main_v206, main_v207, main_cst_30, main_v208, main_v209, main_v210, main_v211, main_v212]
set_option maxHeartbeats 4000000 in
theorem hostOps1_3_writes : (hostOps1_3 : List (HloOp τ sig (Elt F))).Forall fun op => op.writes ⊆ (hostOps1_3_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_fresh : (hostOps2 : List (HloOp τ sig (Elt F))).Forall fun op => op.fresh = ∅ := by
  simp only [List.Forall]; repeat' constructor
abbrev hostOps2_W : List (Ref sig .tc) := [main_v214, main_v215, main_v216, main_v217, main_v218, main_cst_31, main_v219, main_cst_32, main_v220, main_v221, main_cst_33, main_v222, main_cst_34, main_v223, main_v224, main_v225, main_v226, main_v227, main_v228, main_cst_35, main_v229, main_v230, main_v231, main_v232, main_v233, main_v234, main_v235, main_v236]
set_option maxHeartbeats 4000000 in
theorem hostOps2_writes : (hostOps2 : List (HloOp τ sig (Elt F))).Forall fun op => op.writes ⊆ (hostOps2_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_1_fresh : (hostOps2_1 : List (HloOp τ sig (Elt F))).Forall fun op => op.fresh = ∅ := by
  simp only [List.Forall]; repeat' constructor
abbrev hostOps2_1_W : List (Ref sig .tc) := [main_call6_cst, main_call6_v0, main_v237]
set_option maxHeartbeats 4000000 in
theorem hostOps2_1_writes : (hostOps2_1 : List (HloOp τ sig (Elt F))).Forall fun op => op.writes ⊆ (hostOps2_1_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_2_fresh : (hostOps2_2 : List (HloOp τ sig (Elt F))).Forall fun op => op.fresh = ∅ := by
  simp only [List.Forall]; repeat' constructor
abbrev hostOps2_2_W : List (Ref sig .tc) := [main_v238, main_v239, main_v240, main_v241]
set_option maxHeartbeats 4000000 in
theorem hostOps2_2_writes : (hostOps2_2 : List (HloOp τ sig (Elt F))).Forall fun op => op.writes ⊆ (hostOps2_2_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_3_fresh : (hostOps2_3 : List (HloOp τ sig (Elt F))).Forall fun op => op.fresh = ∅ := by
  simp only [List.Forall]; repeat' constructor
abbrev hostOps2_3_W : List (Ref sig .tc) := [main_call7_cst, main_call7_v0, main_v242]
set_option maxHeartbeats 4000000 in
theorem hostOps2_3_writes : (hostOps2_3 : List (HloOp τ sig (Elt F))).Forall fun op => op.writes ⊆ (hostOps2_3_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_4_fresh : (hostOps2_4 : List (HloOp τ sig (Elt F))).Forall fun op => op.fresh = ∅ := by
  simp only [List.Forall]; repeat' constructor
abbrev hostOps2_4_W : List (Ref sig .tc) := [main_v243, main_v244, main_v245, main_v246]
set_option maxHeartbeats 4000000 in
theorem hostOps2_4_writes : (hostOps2_4 : List (HloOp τ sig (Elt F))).Forall fun op => op.writes ⊆ (hostOps2_4_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_5_fresh : (hostOps2_5 : List (HloOp τ sig (Elt F))).Forall fun op => op.fresh = ∅ := by
  simp only [List.Forall]; repeat' constructor
abbrev hostOps2_5_W : List (Ref sig .tc) := [main_call8_cst, main_call8_v0, main_v247]
set_option maxHeartbeats 4000000 in
theorem hostOps2_5_writes : (hostOps2_5 : List (HloOp τ sig (Elt F))).Forall fun op => op.writes ⊆ (hostOps2_5_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_6_fresh : (hostOps2_6 : List (HloOp τ sig (Elt F))).Forall fun op => op.fresh = ∅ := by
  simp only [List.Forall]; repeat' constructor
abbrev hostOps2_6_W : List (Ref sig .tc) := [main_v248, main_v249, main_v250, main_v251, main_cst_36, main_v252, main_cst_37, main_v253, main_v254, main_v255, main_v256, main_v257, main_v258, main_cst_38, main_v259, main_v260, main_v261, main_v262, main_v263, main_v264, main_v265, main_v266]
set_option maxHeartbeats 4000000 in
theorem hostOps2_6_writes : (hostOps2_6 : List (HloOp τ sig (Elt F))).Forall fun op => op.writes ⊆ (hostOps2_6_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_7_fresh : (hostOps2_7 : List (HloOp τ sig (Elt F))).Forall fun op => op.fresh = ∅ := by
  simp only [List.Forall]; repeat' constructor
abbrev hostOps2_7_W : List (Ref sig .tc) := [main_call9_cst, main_call9_v0, main_v267]
set_option maxHeartbeats 4000000 in
theorem hostOps2_7_writes : (hostOps2_7 : List (HloOp τ sig (Elt F))).Forall fun op => op.writes ⊆ (hostOps2_7_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_8_fresh : (hostOps2_8 : List (HloOp τ sig (Elt F))).Forall fun op => op.fresh = ∅ := by
  simp only [List.Forall]; repeat' constructor
abbrev hostOps2_8_W : List (Ref sig .tc) := [main_v268, main_v269, main_v270, main_v271]
set_option maxHeartbeats 4000000 in
theorem hostOps2_8_writes : (hostOps2_8 : List (HloOp τ sig (Elt F))).Forall fun op => op.writes ⊆ (hostOps2_8_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_9_fresh : (hostOps2_9 : List (HloOp τ sig (Elt F))).Forall fun op => op.fresh = ∅ := by
  simp only [List.Forall]; repeat' constructor
abbrev hostOps2_9_W : List (Ref sig .tc) := [main_call10_cst, main_call10_v0, main_v272]
set_option maxHeartbeats 4000000 in
theorem hostOps2_9_writes : (hostOps2_9 : List (HloOp τ sig (Elt F))).Forall fun op => op.writes ⊆ (hostOps2_9_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_10_fresh : (hostOps2_10 : List (HloOp τ sig (Elt F))).Forall fun op => op.fresh = ∅ := by
  simp only [List.Forall]; repeat' constructor
abbrev hostOps2_10_W : List (Ref sig .tc) := [main_v273, main_v274, main_v275, main_v276]
set_option maxHeartbeats 4000000 in
theorem hostOps2_10_writes : (hostOps2_10 : List (HloOp τ sig (Elt F))).Forall fun op => op.writes ⊆ (hostOps2_10_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_11_fresh : (hostOps2_11 : List (HloOp τ sig (Elt F))).Forall fun op => op.fresh = ∅ := by
  simp only [List.Forall]; repeat' constructor
abbrev hostOps2_11_W : List (Ref sig .tc) := [main_call11_cst, main_call11_v0, main_v277]
set_option maxHeartbeats 4000000 in
theorem hostOps2_11_writes : (hostOps2_11 : List (HloOp τ sig (Elt F))).Forall fun op => op.writes ⊆ (hostOps2_11_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_12_fresh : (hostOps2_12 : List (HloOp τ sig (Elt F))).Forall fun op => op.fresh = ∅ := by
  simp only [List.Forall]; repeat' constructor
abbrev hostOps2_12_W : List (Ref sig .tc) := [main_v278, main_v279, main_v280, main_v281, main_cst_39, main_v282, main_cst_40, main_v283, main_v284, main_v285, main_v286, main_v287, main_v288, main_cst_41, main_v289, main_v290, main_v291, main_v292, main_v293, main_v294, main_v295, main_v296, main_v297, main_v298, main_v299, main_v300, main_v301, main_v302, main_v303, main_v304, main_v305, main_v306, main_v307, main_cst_42, main_v308, main_v309, main_v310, main_v311, main_v312]
set_option maxHeartbeats 4000000 in
theorem hostOps2_12_writes : (hostOps2_12 : List (HloOp τ sig (Elt F))).Forall fun op => op.writes ⊆ (hostOps2_12_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.KernelIdeal.Hand

end
-- ==== Proof.KI.Fold.lean ====
/- The run of @main as a fold of buffer valuations through 26 host stretches and three kernel regions. -/
import proofs.«147285_j27152783245914_1_alg».proof.Proof.Gen.KernelIdeal.Launch
import proofs.«147285_j27152783245914_1_alg».proof.Proof.Gen.KernelIdeal.Points
import proofs.«147285_j27152783245914_1_alg».proof.Proof.KI.Writes
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Entry (F : FTy → Type) [FloatOps F] : Type := (c : Dev nD) → (b : Ref sig .tc) → Buf (Elt F) ((c : Thread nD τ).loc b)

structure Region0 (F : FTy → Type) [FloatOps F] where
  dat : Entry F → (c : Dev nD) → Dat τ (Elt F) Unit ℕ (UR sig nD τ) ℕ cfg0 c
  A_eq : ∀ (V : Entry F) (c : Dev nD) (w : Fin cfg0.W), (dat V c).A w = V c (Pipeline.arrRef spec0 w)
  Φ_eq : ∀ (V : Entry F) (c : Dev nD) t, (dat V c).Φ t = Pipeline.ΦA spec0 c
  q_eq : ∀ (V : Entry F) (c : Dev nD) w, (dat V c).q w = fullShare
  owed_eq : ∀ (V : Entry F) (c : Dev nD) t, (dat V c).owed t = 0
  recorded_eq : ∀ (V : Entry F) (c : Dev nD) t, (dat V c).recorded t = Set.univ
  body : ∀ (V : Entry F) (c : Dev nD), BodyObligation (dat V c) (defs₀ (F := F)) Variants.none () Set.univ

structure Region1 (F : FTy → Type) [FloatOps F] where
  dat : Entry F → (c : Dev nD) → Dat τ (Elt F) Unit ℕ (UR sig nD τ) ℕ cfg1 c
  A_eq : ∀ (V : Entry F) (c : Dev nD) (w : Fin cfg1.W), (dat V c).A w = V c (Pipeline.arrRef spec1 w)
  Φ_eq : ∀ (V : Entry F) (c : Dev nD) t, (dat V c).Φ t = Pipeline.ΦA spec1 c
  q_eq : ∀ (V : Entry F) (c : Dev nD) w, (dat V c).q w = fullShare
  owed_eq : ∀ (V : Entry F) (c : Dev nD) t, (dat V c).owed t = 0
  recorded_eq : ∀ (V : Entry F) (c : Dev nD) t, (dat V c).recorded t = Set.univ
  body : ∀ (V : Entry F) (c : Dev nD), BodyObligation (dat V c) (defs₀ (F := F)) Variants.none () Set.univ

structure Region2 (F : FTy → Type) [FloatOps F] where
  dat : Entry F → (c : Dev nD) → Dat τ (Elt F) Unit ℕ (UR sig nD τ) ℕ cfg2 c
  A_eq : ∀ (V : Entry F) (c : Dev nD) (w : Fin cfg2.W), (dat V c).A w = V c (Pipeline.arrRef spec2 w)
  Φ_eq : ∀ (V : Entry F) (c : Dev nD) t, (dat V c).Φ t = Pipeline.ΦA spec2 c
  q_eq : ∀ (V : Entry F) (c : Dev nD) w, (dat V c).q w = fullShare
  owed_eq : ∀ (V : Entry F) (c : Dev nD) t, (dat V c).owed t = 0
  recorded_eq : ∀ (V : Entry F) (c : Dev nD) t, (dat V c).recorded t = Set.univ
  body : ∀ (V : Entry F) (c : Dev nD), BodyObligation (dat V c) (defs₀ (F := F)) Variants.none () Set.univ

variable (m : (ℓ : Loc nD τ sig) → Buf (Elt F) ℓ) (ρ : Dev nD → PrngReg)
variable (D0 : Region0 F) (D1 : Region1 F) (D2 : Region2 F)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev V9 : Entry F := fun c b => W9 m ρ c b
def W10 (c : Dev nD) : Valuation τ sig (Elt F) :=
  Pipeline.withArrays spec0 c (W9 m ρ c) fun w => (D0.dat (V9 m ρ) c).arrAt w cfg0.N
theorem W10_arr (c : Dev nD) (w : Fin cfg0.W) :
    W10 m ρ D0 c (Proc.devRef .tc (Pipeline.arrRef spec0 w)) = (D0.dat (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ D0 c (Proc.devRef .tc b) = W9 m ρ c (Proc.devRef .tc b) := by
  unfold W10; exact Pipeline.withArrays_of_ne spec0 c _ _ b hb
abbrev V10 : Entry F := fun c b => W10 m ρ D0 c b
theorem hF0 (c : Dev nD) (w : Fin cfg0.W) : (D0.dat (V9 m ρ) c).arrAt w cfg0.N = V10 m ρ D0 c (Pipeline.arrRef spec0 w) :=
  (W10_arr m ρ D0 c w).symm
theorem hrest0 (c : Dev nD) : ∀ b, b ∉ Finset.univ.image (Pipeline.arrRef spec0) → V10 m ρ D0 c b = V9 m ρ c b :=
  fun b hb => W10_of_ne m ρ D0 c b fun w e => hb (Finset.mem_image.mpr ⟨w, Finset.mem_univ _, e⟩)
abbrev W11 : Dev nD → Valuation τ sig (Elt F) := fun c => StableHlo.after hostOps1 (W10 m ρ D0 c)
abbrev W12 : Dev nD → Valuation τ sig (Elt F) := fun c => StableHlo.after hostOps1_1 (W11 m ρ D0 c)
abbrev W13 : Dev nD → Valuation τ sig (Elt F) := fun c => StableHlo.after hostOps1_2 (W12 m ρ D0 c)
abbrev W14 : Dev nD → Valuation τ sig (Elt F) := fun c => StableHlo.after hostOps1_3 (W13 m ρ D0 c)
abbrev V14 : Entry F := fun c b => W14 m ρ D0 c b
def W15 (c : Dev nD) : Valuation τ sig (Elt F) :=
  Pipeline.withArrays spec1 c (W14 m ρ D0 c) fun w => (D1.dat (V14 m ρ D0) c).arrAt w cfg1.N
theorem W15_arr (c : Dev nD) (w : Fin cfg1.W) :
    W15 m ρ D0 D1 c (Proc.devRef .tc (Pipeline.arrRef spec1 w)) = (D1.dat (V14 m ρ D0) c).arrAt w cfg1.N := by
  unfold W15; exact Pipeline.withArrays_arr spec1 launch1.win.arr_inj c _ _ w
theorem W15_of_ne (c : Dev nD) (b : Ref sig .tc) (hb : ∀ w, Pipeline.arrRef spec1 w ≠ b) :
    W15 m ρ D0 D1 c (Proc.devRef .tc b) = W14 m ρ D0 c (Proc.devRef .tc b) := by
  unfold W15; exact Pipeline.withArrays_of_ne spec1 c _ _ b hb
abbrev V15 : Entry F := fun c b => W15 m ρ D0 D1 c b
theorem hF1 (c : Dev nD) (w : Fin cfg1.W) : (D1.dat (V14 m ρ D0) c).arrAt w cfg1.N = V15 m ρ D0 D1 c (Pipeline.arrRef spec1 w) :=
  (W15_arr m ρ D0 D1 c w).symm
theorem hrest1 (c : Dev nD) : ∀ b, b ∉ Finset.univ.image (Pipeline.arrRef spec1) → V15 m ρ D0 D1 c b = V14 m ρ D0 c b :=
  fun b hb => W15_of_ne m ρ D0 D1 c b fun w e => hb (Finset.mem_image.mpr ⟨w, Finset.mem_univ _, e⟩)
abbrev W16 : Dev nD → Valuation τ sig (Elt F) := fun c => StableHlo.after hostOps2 (W15 m ρ D0 D1 c)
abbrev W17 : Dev nD → Valuation τ sig (Elt F) := fun c => StableHlo.after hostOps2_1 (W16 m ρ D0 D1 c)
abbrev W18 : Dev nD → Valuation τ sig (Elt F) := fun c => StableHlo.after hostOps2_2 (W17 m ρ D0 D1 c)
abbrev W19 : Dev nD → Valuation τ sig (Elt F) := fun c => StableHlo.after hostOps2_3 (W18 m ρ D0 D1 c)
abbrev W20 : Dev nD → Valuation τ sig (Elt F) := fun c => StableHlo.after hostOps2_4 (W19 m ρ D0 D1 c)
abbrev W21 : Dev nD → Valuation τ sig (Elt F) := fun c => StableHlo.after hostOps2_5 (W20 m ρ D0 D1 c)
abbrev W22 : Dev nD → Valuation τ sig (Elt F) := fun c => StableHlo.after hostOps2_6 (W21 m ρ D0 D1 c)
abbrev W23 : Dev nD → Valuation τ sig (Elt F) := fun c => StableHlo.after hostOps2_7 (W22 m ρ D0 D1 c)
abbrev W24 : Dev nD → Valuation τ sig (Elt F) := fun c => StableHlo.after hostOps2_8 (W23 m ρ D0 D1 c)
abbrev W25 : Dev nD → Valuation τ sig (Elt F) := fun c => StableHlo.after hostOps2_9 (W24 m ρ D0 D1 c)
abbrev W26 : Dev nD → Valuation τ sig (Elt F) := fun c => StableHlo.after hostOps2_10 (W25 m ρ D0 D1 c)
abbrev W27 : Dev nD → Valuation τ sig (Elt F) := fun c => StableHlo.after hostOps2_11 (W26 m ρ D0 D1 c)
abbrev W28 : Dev nD → Valuation τ sig (Elt F) := fun c => StableHlo.after hostOps2_12 (W27 m ρ D0 D1 c)
abbrev V28 : Entry F := fun c b => W28 m ρ D0 D1 c b
def W29 (c : Dev nD) : Valuation τ sig (Elt F) :=
  Pipeline.withArrays spec2 c (W28 m ρ D0 D1 c) fun w => (D2.dat (V28 m ρ D0 D1) c).arrAt w cfg2.N
theorem W29_arr (c : Dev nD) (w : Fin cfg2.W) :
    W29 m ρ D0 D1 D2 c (Proc.devRef .tc (Pipeline.arrRef spec2 w)) = (D2.dat (V28 m ρ D0 D1) c).arrAt w cfg2.N := by
  unfold W29; exact Pipeline.withArrays_arr spec2 launch2.win.arr_inj c _ _ w
theorem W29_of_ne (c : Dev nD) (b : Ref sig .tc) (hb : ∀ w, Pipeline.arrRef spec2 w ≠ b) :
    W29 m ρ D0 D1 D2 c (Proc.devRef .tc b) = W28 m ρ D0 D1 c (Proc.devRef .tc b) := by
  unfold W29; exact Pipeline.withArrays_of_ne spec2 c _ _ b hb
abbrev V29 : Entry F := fun c b => W29 m ρ D0 D1 D2 c b
theorem hF2 (c : Dev nD) (w : Fin cfg2.W) : (D2.dat (V28 m ρ D0 D1) c).arrAt w cfg2.N = V29 m ρ D0 D1 D2 c (Pipeline.arrRef spec2 w) :=
  (W29_arr m ρ D0 D1 D2 c w).symm
theorem hrest2 (c : Dev nD) : ∀ b, b ∉ Finset.univ.image (Pipeline.arrRef spec2) → V29 m ρ D0 D1 D2 c b = V28 m ρ D0 D1 c b :=
  fun b hb => W29_of_ne m ρ D0 D1 D2 c b fun w e => hb (Finset.mem_image.mpr ⟨w, Finset.mem_univ _, e⟩)

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30]

theorem W1_kept (c : Dev nD) (r : Ref sig .tc) (h : r ∉ hostOps0_W) : W1 m ρ c (Proc.devRef .tc r) = W0 m ρ c (Proc.devRef .tc r) :=
  StableHlo.after_of_writes_sub hostOps0 _ hostOps0_writes h
theorem W2_kept (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_kept (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_kept (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W5_kept (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W6_kept (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W7_kept (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W8_kept (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W9_kept (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W11_kept (c : Dev nD) (r : Ref sig .tc) (h : r ∉ hostOps1_W) : W11 m ρ D0 c (Proc.devRef .tc r) = W10 m ρ D0 c (Proc.devRef .tc r) :=
  StableHlo.after_of_writes_sub hostOps1 _ hostOps1_writes h
theorem W12_kept (c : Dev nD) (r : Ref sig .tc) (h : r ∉ hostOps1_1_W) : W12 m ρ D0 c (Proc.devRef .tc r) = W11 m ρ D0 c (Proc.devRef .tc r) :=
  StableHlo.after_of_writes_sub hostOps1_1 _ hostOps1_1_writes h
theorem W13_kept (c : Dev nD) (r : Ref sig .tc) (h : r ∉ hostOps1_2_W) : W13 m ρ D0 c (Proc.devRef .tc r) = W12 m ρ D0 c (Proc.devRef .tc r) :=
  StableHlo.after_of_writes_sub hostOps1_2 _ hostOps1_2_writes h
theorem W14_kept (c : Dev nD) (r : Ref sig .tc) (h : r ∉ hostOps1_3_W) : W14 m ρ D0 c (Proc.devRef .tc r) = W13 m ρ D0 c (Proc.devRef .tc r) :=
  StableHlo.after_of_writes_sub hostOps1_3 _ hostOps1_3_writes h
theorem W16_kept (c : Dev nD) (r : Ref sig .tc) (h : r ∉ hostOps2_W) : W16 m ρ D0 D1 c (Proc.devRef .tc r) = W15 m ρ D0 D1 c (Proc.devRef .tc r) :=
  StableHlo.after_of_writes_sub hostOps2 _ hostOps2_writes h
theorem W17_kept (c : Dev nD) (r : Ref sig .tc) (h : r ∉ hostOps2_1_W) : W17 m ρ D0 D1 c (Proc.devRef .tc r) = W16 m ρ D0 D1 c (Proc.devRef .tc r) :=
  StableHlo.after_of_writes_sub hostOps2_1 _ hostOps2_1_writes h
theorem W18_kept (c : Dev nD) (r : Ref sig .tc) (h : r ∉ hostOps2_2_W) : W18 m ρ D0 D1 c (Proc.devRef .tc r) = W17 m ρ D0 D1 c (Proc.devRef .tc r) :=
  StableHlo.after_of_writes_sub hostOps2_2 _ hostOps2_2_writes h
theorem W19_kept (c : Dev nD) (r : Ref sig .tc) (h : r ∉ hostOps2_3_W) : W19 m ρ D0 D1 c (Proc.devRef .tc r) = W18 m ρ D0 D1 c (Proc.devRef .tc r) :=
  StableHlo.after_of_writes_sub hostOps2_3 _ hostOps2_3_writes h
theorem W20_kept (c : Dev nD) (r : Ref sig .tc) (h : r ∉ hostOps2_4_W) : W20 m ρ D0 D1 c (Proc.devRef .tc r) = W19 m ρ D0 D1 c (Proc.devRef .tc r) :=
  StableHlo.after_of_writes_sub hostOps2_4 _ hostOps2_4_writes h
theorem W21_kept (c : Dev nD) (r : Ref sig .tc) (h : r ∉ hostOps2_5_W) : W21 m ρ D0 D1 c (Proc.devRef .tc r) = W20 m ρ D0 D1 c (Proc.devRef .tc r) :=
  StableHlo.after_of_writes_sub hostOps2_5 _ hostOps2_5_writes h
theorem W22_kept (c : Dev nD) (r : Ref sig .tc) (h : r ∉ hostOps2_6_W) : W22 m ρ D0 D1 c (Proc.devRef .tc r) = W21 m ρ D0 D1 c (Proc.devRef .tc r) :=
  StableHlo.after_of_writes_sub hostOps2_6 _ hostOps2_6_writes h
theorem W23_kept (c : Dev nD) (r : Ref sig .tc) (h : r ∉ hostOps2_7_W) : W23 m ρ D0 D1 c (Proc.devRef .tc r) = W22 m ρ D0 D1 c (Proc.devRef .tc r) :=
  StableHlo.after_of_writes_sub hostOps2_7 _ hostOps2_7_writes h
theorem W24_kept (c : Dev nD) (r : Ref sig .tc) (h : r ∉ hostOps2_8_W) : W24 m ρ D0 D1 c (Proc.devRef .tc r) = W23 m ρ D0 D1 c (Proc.devRef .tc r) :=
  StableHlo.after_of_writes_sub hostOps2_8 _ hostOps2_8_writes h
theorem W25_kept (c : Dev nD) (r : Ref sig .tc) (h : r ∉ hostOps2_9_W) : W25 m ρ D0 D1 c (Proc.devRef .tc r) = W24 m ρ D0 D1 c (Proc.devRef .tc r) :=
  StableHlo.after_of_writes_sub hostOps2_9 _ hostOps2_9_writes h
theorem W26_kept (c : Dev nD) (r : Ref sig .tc) (h : r ∉ hostOps2_10_W) : W26 m ρ D0 D1 c (Proc.devRef .tc r) = W25 m ρ D0 D1 c (Proc.devRef .tc r) :=
  StableHlo.after_of_writes_sub hostOps2_10 _ hostOps2_10_writes h
theorem W27_kept (c : Dev nD) (r : Ref sig .tc) (h : r ∉ hostOps2_11_W) : W27 m ρ D0 D1 c (Proc.devRef .tc r) = W26 m ρ D0 D1 c (Proc.devRef .tc r) :=
  StableHlo.after_of_writes_sub hostOps2_11 _ hostOps2_11_writes h
theorem W28_kept (c : Dev nD) (r : Ref sig .tc) (h : r ∉ hostOps2_12_W) : W28 m ρ D0 D1 c (Proc.devRef .tc r) = W27 m ρ D0 D1 c (Proc.devRef .tc r) :=
  StableHlo.after_of_writes_sub hostOps2_12 _ hostOps2_12_writes h

theorem W10_in (c : Dev nD) (w : Fin cfg0.W) (hw : (cfg0.win w).isOut = false) : W10 m ρ D0 c (Proc.devRef .tc (Pipeline.arrRef spec0 w)) = W9 m ρ c (Proc.devRef .tc (Pipeline.arrRef spec0 w)) :=
  (W10_arr m ρ D0 c w).trans (((D0.dat (V9 m ρ) c).arrAt_in w hw _).trans (D0.A_eq (V9 m ρ) c w))
theorem W15_in (c : Dev nD) (w : Fin cfg1.W) (hw : (cfg1.win w).isOut = false) : W15 m ρ D0 D1 c (Proc.devRef .tc (Pipeline.arrRef spec1 w)) = W14 m ρ D0 c (Proc.devRef .tc (Pipeline.arrRef spec1 w)) :=
  (W15_arr m ρ D0 D1 c w).trans (((D1.dat (V14 m ρ D0) c).arrAt_in w hw _).trans (D1.A_eq (V14 m ρ D0) c w))
theorem W29_in (c : Dev nD) (w : Fin cfg2.W) (hw : (cfg2.win w).isOut = false) : W29 m ρ D0 D1 D2 c (Proc.devRef .tc (Pipeline.arrRef spec2 w)) = W28 m ρ D0 D1 c (Proc.devRef .tc (Pipeline.arrRef spec2 w)) :=
  (W29_arr m ρ D0 D1 D2 c w).trans (((D2.dat (V28 m ρ D0 D1) c).arrAt_in w hw _).trans (D2.A_eq (V28 m ρ D0 D1) c w))

end Cert.KernelIdeal.Hand

end
-- ==== Proof.KI.Args.lean ====
/- No item of @main writes an argument: a host stretch leaves the references it does not write, a region every buffer that
   is no output window's array. -/
import proofs.«147285_j27152783245914_1_alg».proof.Proof.Gen.KernelIdeal.Launch
import proofs.«147285_j27152783245914_1_alg».proof.Proof.Gen.KernelIdeal.Points
import proofs.«147285_j27152783245914_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (D0 : Region0 F) (D1 : Region1 F) (D2 : Region2 F)

/-- The memory matrix is input window 0 of each region, and no host stretch writes it. -/
theorem W29_memory (c : Dev nD) : W29 m ρ D0 D1 D2 c (Proc.devRef .tc main_arg3) = m ((c : Thread nD τ).loc main_arg3) :=
  (W29_in m ρ D0 D1 D2 c 0 rfl).trans <|
  (W28_kept m ρ D0 D1 c main_arg3 (by decide)).trans <|
  (W27_kept m ρ D0 D1 c main_arg3 (by decide)).trans <|
  (W26_kept m ρ D0 D1 c main_arg3 (by decide)).trans <|
  (W25_kept m ρ D0 D1 c main_arg3 (by decide)).trans <|
  (W24_kept m ρ D0 D1 c main_arg3 (by decide)).trans <|
  (W23_kept m ρ D0 D1 c main_arg3 (by decide)).trans <|
  (W22_kept m ρ D0 D1 c main_arg3 (by decide)).trans <|
  (W21_kept m ρ D0 D1 c main_arg3 (by decide)).trans <|
  (W20_kept m ρ D0 D1 c main_arg3 (by decide)).trans <|
  (W19_kept m ρ D0 D1 c main_arg3 (by decide)).trans <|
  (W18_kept m ρ D0 D1 c main_arg3 (by decide)).trans <|
  (W17_kept m ρ D0 D1 c main_arg3 (by decide)).trans <|
  (W16_kept m ρ D0 D1 c main_arg3 (by decide)).trans <|
  (W15_in m ρ D0 D1 c 0 rfl).trans <|
  (W14_kept m ρ D0 c main_arg3 (by decide)).trans <|
  (W13_kept m ρ D0 c main_arg3 (by decide)).trans <|
  (W12_kept m ρ D0 c main_arg3 (by decide)).trans <|
  (W11_kept m ρ D0 c main_arg3 (by decide)).trans <|
  (W10_in m ρ D0 c 0 rfl).trans <|
  (W9_kept m ρ c main_arg3 (by decide)).trans <|
  (W8_kept m ρ c main_arg3 (by decide)).trans <|
  (W7_kept m ρ c main_arg3 (by decide)).trans <|
  (W6_kept m ρ c main_arg3 (by decide)).trans <|
  (W5_kept m ρ c main_arg3 (by decide)).trans <|
  (W4_kept m ρ c main_arg3 (by decide)).trans <|
  (W3_kept m ρ c main_arg3 (by decide)).trans <|
  (W2_kept m ρ c main_arg3 (by decide)).trans <|
  (W1_kept m ρ c main_arg3 (by decide)).trans rfl
/-- Every argument reaches the end as launched: the others are no window's array. -/
theorem W29_arg (c : Dev nD) (b : Ref sig .tc) (hb : b ∈ args) : W29 m ρ D0 D1 D2 c (Proc.devRef .tc b) = m ((c : Thread nD τ).loc b) := by
  by_cases h3 : b = main_arg3
  · subst h3; exact W29_memory m ρ D0 D1 D2 c
  exact
    (W29_of_ne m ρ D0 D1 D2 c b ((by decide : ∀ b ∈ args, b ≠ main_arg3 → ∀ w, Pipeline.arrRef spec2 w ≠ b) b hb h3)).trans <|
    (W28_kept m ρ D0 D1 c b ((by decide : ∀ b ∈ args, b ∉ hostOps2_12_W) b hb)).trans <|
    (W27_kept m ρ D0 D1 c b ((by decide : ∀ b ∈ args, b ∉ hostOps2_11_W) b hb)).trans <|
    (W26_kept m ρ D0 D1 c b ((by decide : ∀ b ∈ args, b ∉ hostOps2_10_W) b hb)).trans <|
    (W25_kept m ρ D0 D1 c b ((by decide : ∀ b ∈ args, b ∉ hostOps2_9_W) b hb)).trans <|
    (W24_kept m ρ D0 D1 c b ((by decide : ∀ b ∈ args, b ∉ hostOps2_8_W) b hb)).trans <|
    (W23_kept m ρ D0 D1 c b ((by decide : ∀ b ∈ args, b ∉ hostOps2_7_W) b hb)).trans <|
    (W22_kept m ρ D0 D1 c b ((by decide : ∀ b ∈ args, b ∉ hostOps2_6_W) b hb)).trans <|
    (W21_kept m ρ D0 D1 c b ((by decide : ∀ b ∈ args, b ∉ hostOps2_5_W) b hb)).trans <|
    (W20_kept m ρ D0 D1 c b ((by decide : ∀ b ∈ args, b ∉ hostOps2_4_W) b hb)).trans <|
    (W19_kept m ρ D0 D1 c b ((by decide : ∀ b ∈ args, b ∉ hostOps2_3_W) b hb)).trans <|
    (W18_kept m ρ D0 D1 c b ((by decide : ∀ b ∈ args, b ∉ hostOps2_2_W) b hb)).trans <|
    (W17_kept m ρ D0 D1 c b ((by decide : ∀ b ∈ args, b ∉ hostOps2_1_W) b hb)).trans <|
    (W16_kept m ρ D0 D1 c b ((by decide : ∀ b ∈ args, b ∉ hostOps2_W) b hb)).trans <|
    (W15_of_ne m ρ D0 D1 c b ((by decide : ∀ b ∈ args, b ≠ main_arg3 → ∀ w, Pipeline.arrRef spec1 w ≠ b) b hb h3)).trans <|
    (W14_kept m ρ D0 c b ((by decide : ∀ b ∈ args, b ∉ hostOps1_3_W) b hb)).trans <|
    (W13_kept m ρ D0 c b ((by decide : ∀ b ∈ args, b ∉ hostOps1_2_W) b hb)).trans <|
    (W12_kept m ρ D0 c b ((by decide : ∀ b ∈ args, b ∉ hostOps1_1_W) b hb)).trans <|
    (W11_kept m ρ D0 c b ((by decide : ∀ b ∈ args, b ∉ hostOps1_W) b hb)).trans <|
    (W10_of_ne m ρ D0 c b ((by decide : ∀ b ∈ args, b ≠ main_arg3 → ∀ w, Pipeline.arrRef spec0 w ≠ b) b hb h3)).trans <|
    (W9_kept m ρ c b ((by decide : ∀ b ∈ args, b ∉ hostOps0_8_W) b hb)).trans <|
    (W8_kept m ρ c b ((by decide : ∀ b ∈ args, b ∉ hostOps0_7_W) b hb)).trans <|
    (W7_kept m ρ c b ((by decide : ∀ b ∈ args, b ∉ hostOps0_6_W) b hb)).trans <|
    (W6_kept m ρ c b ((by decide : ∀ b ∈ args, b ∉ hostOps0_5_W) b hb)).trans <|
    (W5_kept m ρ c b ((by decide : ∀ b ∈ args, b ∉ hostOps0_4_W) b hb)).trans <|
    (W4_kept m ρ c b ((by decide : ∀ b ∈ args, b ∉ hostOps0_3_W) b hb)).trans <|
    (W3_kept m ρ c b ((by decide : ∀ b ∈ args, b ∉ hostOps0_2_W) b hb)).trans <|
    (W2_kept m ρ c b ((by decide : ∀ b ∈ args, b ∉ hostOps0_1_W) b hb)).trans <|
    (W1_kept m ρ c b ((by decide : ∀ b ∈ args, b ∉ hostOps0_W) b hb)).trans rfl

end Cert.KernelIdeal.Hand

end
-- ==== Proof.KI.Launch.lean ====
/- The launch of @main over the fold: each pipeline's proof data at its region's entry contents, a segment per item. -/
import proofs.«147285_j27152783245914_1_alg».proof.Proof.Gen.KernelIdeal.Launch
import proofs.«147285_j27152783245914_1_alg».proof.Proof.Gen.KernelIdeal.Points
import proofs.«147285_j27152783245914_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (D0 : Region0 F) (D1 : Region1 F) (D2 : Region2 F)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => D0.dat (V9 m ρ) c
  | ⟨1, _⟩ => fun c => D1.dat (V14 m ρ D0) c
  | ⟨2, _⟩ => fun c => D2.dat (V28 m ρ D0 D1) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W29 m ρ D0 D1 D2 c) ∗ ∃ r, prngReg c r)

set_option backward.isDefEq.respectTransparency.types false in
def reg0 : Pipeline.RegionSeg (pcfgs (F := F)) adm (pdats m ρ D0 D1 D2) () defs₀ 𝒱₀ L lv 0 where
  win := launch0.win.to₀
  block_pos := launch0.block_pos
  stage_whole := launch0.stage_whole
  K := PEmpty
  osem k := k.elim
  ho := Pipeline.OwnSemFacts.none _
  hbody c := (D0.body (V9 m ρ) c).loose
  hwaits := Pipeline.hwaits_of_owed_zero _ _ _ _ L lv 0 fun c t => D0.owed_eq (V9 m ρ) c t
  pre c := iprop(StableHlo.held (c : Thread nD τ) (Pipeline.ucRefs τ sig) (W9 m ρ c) ∗ R c)
  post c := iprop(StableHlo.held (c : Thread nD τ) (Pipeline.ucRefs τ sig) (W10 m ρ D0 c) ∗ R c)
  X c := iprop(∃ r, prngReg c r)
  Y c := iprop(∃ r, prngReg c r)
  Z c := Pipeline.unscopedRest (Ix := Unit) (Name := ℕ) (U := UR sig nD τ) (Lvl := ℕ) spec0 c (V9 m ρ c)
  hentry c := by
    rw [Pipeline.ownSems0_none]
    have hsplit := Pipeline.arrays_of_unscopedBufs (p := 0) (pcfgs (F := F)) adm (pdats m ρ D0 D1 D2) launch0.win launch0.arr_whole c
      ((pdats m ρ D0 D1 D2 0 c).share_full fun w => D0.q_eq (V9 m ρ) c w) (V9 m ρ c) fun w => D0.A_eq (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m ρ D0 D1 D2 0 c).owed 0 = 0 from D0.owed_eq (V9 m ρ) c 0, show (pdats m ρ D0 D1 D2 0 c).recorded 0 = Set.univ from D0.recorded_eq (V9 m ρ) c 0]
      icases HO with ⟨%W, HO⟩; iexists W; isplitr; · ipureintro; exact fun _ _ => Or.inl trivial
      iexact HO
    isplitl [Hp]; · iexact Hp
    iexact Hrest
  hin c := by
    rw [show (pdats m ρ D0 D1 D2 0 c).Φ 0 = Pipeline.ΦA spec0 c from D0.Φ_eq (V9 m ρ) c 0]; unfold Pipeline.ΦA
    iintro ⟨Hp, -, Hr⟩
    isplitl [Hr]; · iexact Hr
    iexact Hp
  hout c := by
    rw [Pipeline.ownSems0_none, show (pdats m ρ D0 D1 D2 0 c).Φ (Fin.last _) = Pipeline.ΦA spec0 c from D0.Φ_eq (V9 m ρ) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ D0 D1 D2) ((pdats m ρ D0 D1 D2 0 c).share_full fun w => D0.q_eq (V9 m ρ) c w)
      (V9 m ρ c) (V10 m ρ D0 c) ((pdats m ρ D0 D1 D2 0 c).arrAt · cfg0.N) (hF0 m ρ D0 c) (hrest0 m ρ D0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ D0 D1 D2 0 c).owed (Fin.last _) = 0 from D0.owed_eq (V9 m ρ) c _]
    icases HO with ⟨%W, -, HO⟩; iexists W; iexact HO

set_option backward.isDefEq.respectTransparency.types false in
def reg1 : Pipeline.RegionSeg (pcfgs (F := F)) adm (pdats m ρ D0 D1 D2) () defs₀ 𝒱₀ L lv 1 where
  win := launch1.win.to₀
  block_pos := launch1.block_pos
  stage_whole := launch1.stage_whole
  K := PEmpty
  osem k := k.elim
  ho := Pipeline.OwnSemFacts.none _
  hbody c := (D1.body (V14 m ρ D0) c).loose
  hwaits := Pipeline.hwaits_of_owed_zero _ _ _ _ L lv 1 fun c t => D1.owed_eq (V14 m ρ D0) c t
  pre c := iprop(StableHlo.held (c : Thread nD τ) (Pipeline.ucRefs τ sig) (W14 m ρ D0 c) ∗ R c)
  post c := iprop(StableHlo.held (c : Thread nD τ) (Pipeline.ucRefs τ sig) (W15 m ρ D0 D1 c) ∗ R c)
  X c := iprop(∃ r, prngReg c r)
  Y c := iprop(∃ r, prngReg c r)
  Z c := Pipeline.unscopedRest (Ix := Unit) (Name := ℕ) (U := UR sig nD τ) (Lvl := ℕ) spec1 c (V14 m ρ D0 c)
  hentry c := by
    rw [Pipeline.ownSems0_none]
    have hsplit := Pipeline.arrays_of_unscopedBufs (p := 1) (pcfgs (F := F)) adm (pdats m ρ D0 D1 D2) launch1.win launch1.arr_whole c
      ((pdats m ρ D0 D1 D2 1 c).share_full fun w => D1.q_eq (V14 m ρ D0) c w) (V14 m ρ D0 c) fun w => D1.A_eq (V14 m ρ D0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m ρ D0 D1 D2 1 c).owed 0 = 0 from D1.owed_eq (V14 m ρ D0) c 0, show (pdats m ρ D0 D1 D2 1 c).recorded 0 = Set.univ from D1.recorded_eq (V14 m ρ D0) c 0]
      icases HO with ⟨%W, HO⟩; iexists W; isplitr; · ipureintro; exact fun _ _ => Or.inl trivial
      iexact HO
    isplitl [Hp]; · iexact Hp
    iexact Hrest
  hin c := by
    rw [show (pdats m ρ D0 D1 D2 1 c).Φ 0 = Pipeline.ΦA spec1 c from D1.Φ_eq (V14 m ρ D0) c 0]; unfold Pipeline.ΦA
    iintro ⟨Hp, -, Hr⟩
    isplitl [Hr]; · iexact Hr
    iexact Hp
  hout c := by
    rw [Pipeline.ownSems0_none, show (pdats m ρ D0 D1 D2 1 c).Φ (Fin.last _) = Pipeline.ΦA spec1 c from D1.Φ_eq (V14 m ρ D0) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ D0 D1 D2) ((pdats m ρ D0 D1 D2 1 c).share_full fun w => D1.q_eq (V14 m ρ D0) c w)
      (V14 m ρ D0 c) (V15 m ρ D0 D1 c) ((pdats m ρ D0 D1 D2 1 c).arrAt · cfg1.N) (hF1 m ρ D0 D1 c) (hrest1 m ρ D0 D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ D0 D1 D2 1 c).owed (Fin.last _) = 0 from D1.owed_eq (V14 m ρ D0) c _]
    icases HO with ⟨%W, -, HO⟩; iexists W; iexact HO

set_option backward.isDefEq.respectTransparency.types false in
def reg2 : Pipeline.RegionSeg (pcfgs (F := F)) adm (pdats m ρ D0 D1 D2) () defs₀ 𝒱₀ L lv 2 where
  win := launch2.win.to₀
  block_pos := launch2.block_pos
  stage_whole := launch2.stage_whole
  K := PEmpty
  osem k := k.elim
  ho := Pipeline.OwnSemFacts.none _
  hbody c := (D2.body (V28 m ρ D0 D1) c).loose
  hwaits := Pipeline.hwaits_of_owed_zero _ _ _ _ L lv 2 fun c t => D2.owed_eq (V28 m ρ D0 D1) c t
  pre c := iprop(StableHlo.held (c : Thread nD τ) (Pipeline.ucRefs τ sig) (W28 m ρ D0 D1 c) ∗ R c)
  post c := iprop(Tₙ m ρ D0 D1 D2 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V28 m ρ D0 D1 c)
  hentry c := by
    rw [Pipeline.ownSems0_none]
    have hsplit := Pipeline.arrays_of_unscopedBufs (p := 2) (pcfgs (F := F)) adm (pdats m ρ D0 D1 D2) launch2.win launch2.arr_whole c
      ((pdats m ρ D0 D1 D2 2 c).share_full fun w => D2.q_eq (V28 m ρ D0 D1) c w) (V28 m ρ D0 D1 c) fun w => D2.A_eq (V28 m ρ D0 D1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m ρ D0 D1 D2 2 c).owed 0 = 0 from D2.owed_eq (V28 m ρ D0 D1) c 0, show (pdats m ρ D0 D1 D2 2 c).recorded 0 = Set.univ from D2.recorded_eq (V28 m ρ D0 D1) c 0]
      icases HO with ⟨%W, HO⟩; iexists W; isplitr; · ipureintro; exact fun _ _ => Or.inl trivial
      iexact HO
    isplitl [Hp]; · iexact Hp
    iexact Hrest
  hin c := by
    rw [show (pdats m ρ D0 D1 D2 2 c).Φ 0 = Pipeline.ΦA spec2 c from D2.Φ_eq (V28 m ρ D0 D1) c 0]; unfold Pipeline.ΦA
    iintro ⟨Hp, -, Hr⟩
    isplitl [Hr]; · iexact Hr
    iexact Hp
  hout c := by
    rw [Pipeline.ownSems0_none, show (pdats m ρ D0 D1 D2 2 c).Φ (Fin.last _) = Pipeline.ΦA spec2 c from D2.Φ_eq (V28 m ρ D0 D1) c _]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ D0 D1 D2) ((pdats m ρ D0 D1 D2 2 c).share_full fun w => D2.q_eq (V28 m ρ D0 D1) c w)
      (V28 m ρ D0 D1 c) (V29 m ρ D0 D1 D2 c) ((pdats m ρ D0 D1 D2 2 c).arrAt · cfg2.N) (hF2 m ρ D0 D1 D2 c) (hrest2 m ρ D0 D1 D2 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ D0 D1 D2 2 c).owed (Fin.last _) = 0 from D2.owed_eq (V28 m ρ D0 D1) c _]
    icases HO with ⟨%W, -, HO⟩; iexists W; iexact HO

abbrev segs : List (Pipeline.Seg (pcfgs (F := F)) adm (pdats m ρ D0 D1 D2) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ D0 D1 D2),
    .host (hseg hostOps1 hostOps1_sub hostOps1_fresh (W10 m ρ D0)),
    .host (hseg hostOps1_1 hostOps1_1_sub hostOps1_1_fresh (W11 m ρ D0)),
    .host (hseg hostOps1_2 hostOps1_2_sub hostOps1_2_fresh (W12 m ρ D0)),
    .host (hseg hostOps1_3 hostOps1_3_sub hostOps1_3_fresh (W13 m ρ D0)),
    .region (reg1 m ρ D0 D1 D2),
    .host (hseg hostOps2 hostOps2_sub hostOps2_fresh (W15 m ρ D0 D1)),
    .host (hseg hostOps2_1 hostOps2_1_sub hostOps2_1_fresh (W16 m ρ D0 D1)),
    .host (hseg hostOps2_2 hostOps2_2_sub hostOps2_2_fresh (W17 m ρ D0 D1)),
    .host (hseg hostOps2_3 hostOps2_3_sub hostOps2_3_fresh (W18 m ρ D0 D1)),
    .host (hseg hostOps2_4 hostOps2_4_sub hostOps2_4_fresh (W19 m ρ D0 D1)),
    .host (hseg hostOps2_5 hostOps2_5_sub hostOps2_5_fresh (W20 m ρ D0 D1)),
    .host (hseg hostOps2_6 hostOps2_6_sub hostOps2_6_fresh (W21 m ρ D0 D1)),
    .host (hseg hostOps2_7 hostOps2_7_sub hostOps2_7_fresh (W22 m ρ D0 D1)),
    .host (hseg hostOps2_8 hostOps2_8_sub hostOps2_8_fresh (W23 m ρ D0 D1)),
    .host (hseg hostOps2_9 hostOps2_9_sub hostOps2_9_fresh (W24 m ρ D0 D1)),
    .host (hseg hostOps2_10 hostOps2_10_sub hostOps2_10_fresh (W25 m ρ D0 D1)),
    .host (hseg hostOps2_11 hostOps2_11_sub hostOps2_11_fresh (W26 m ρ D0 D1)),
    .host (hseg hostOps2_12 hostOps2_12_sub hostOps2_12_fresh (W27 m ρ D0 D1)),
    .region (reg2 m ρ D0 D1 D2) ]

set_option maxHeartbeats 4000000 in
theorem main_run (c : Dev nD) : main (F := F) c = Pipeline.Seg.run (segs m ρ D0 D1 D2) := (main_chain c).trans (by chain_rfl)

set_option maxHeartbeats 4000000 in
set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W29 m ρ D0 D1 D2 c b) :=
  Pipeline.θ_run_regions_kit (pcfgs (F := F)) adm (pdats m ρ D0 D1 D2) () cellOf_inj emb₁ defs₀ 𝒱₀ L lv m ρ main (segs m ρ D0 D1 D2)
    (fun c Q => by rw [main_run m ρ D0 D1 D2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ D0 D1 D2)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ D0 D1 D2 c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ D0 D1 D2 c) s')
      isplitl [Hh] <;> iassumption)
    (hQ := fun s h c => h c)

end Cert.KernelIdeal.Hand

end
-- ==== Proof.KI.AddrBody.lean ====
/- The first pass over the memory, tile by tile: each row's squared norm and its products with the two keys. -/
import proofs.«147285_j27152783245914_1_alg».proof.Proof.Gen.KernelIdeal.Launch
import proofs.«147285_j27152783245914_1_alg».proof.Proof.Gen.KernelIdeal.Skeleton
import proofs.«147285_j27152783245914_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem tile_found_of0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem keyR_found_of0 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem keyW_found_of0 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev tileRect0 : Rect S5000x20 := Rect.unit (s := S5000x20) ![0, 0] S5000x20.size inb_S5000x20_S5000x20_0_0
abbrev keyRect0 : Rect S1x20 := Rect.unit (s := S1x20) ![0, 0] S1x20.size inb_S1x20_S1x20_0_0
abbrev colRect0 : Rect S5000x1 := Rect.unit (s := S5000x1) ![0, 0] S5000x1.size inb_S5000x1_S5000x1_0_0

def normCol0 (x : Vec F S5000x20 .f32) : Vec F S5000x1 .f32 :=
  View.canon [⟨colRect0, k0_pay2 (View.ld x tileRect0)⟩]

def dotColR0 (x : Vec F S5000x20 .f32) (k : Vec F S1x20 .f32) : Vec F S5000x1 .f32 :=
  View.canon [⟨colRect0, k0_pay3 (View.ld x tileRect0) (View.ld k keyRect0)⟩]

def dotColW0 (x : Vec F S5000x20 .f32) (k : Vec F S1x20 .f32) : Vec F S5000x1 .f32 :=
  View.canon [⟨colRect0, k0_pay4 (View.ld x tileRect0) (View.ld k keyRect0)⟩]

theorem col_covered0 (p : Vec F S5000x1 .f32) (y : S5000x1.Idx) :
    ∃ pc ∈ ([⟨colRect0, p⟩] : List (View.Piece (Elt F) S5000x1 .f32)), y ∈ pc.1.set :=
  View.cover_of_tiled [⟨colRect0, p⟩] S5000x1.size (by rfl) y

set_option maxHeartbeats 1000000 in
theorem sound_addr0 (c : Dev nD) (E : Set ℕ) (i : grid0.Coords)
    (arg1 : Memref sig .tc .vmem S5000x20 .f32) (harg1 : arg1.IsWhole)
    (arg2 : Memref sig .tc .vmem S1x20 .f32) (harg2 : arg2.IsWhole)
    (arg3 : Memref sig .tc .vmem S1x20 .f32) (harg3 : arg3.IsWhole)
    (arg4 : Memref sig .tc .vmem S5000x1 .f32) (harg4 : arg4.IsWhole)
    (arg5 : Memref sig .tc .vmem S5000x1 .f32) (harg5 : arg5.IsWhole)
    (arg6 : Memref sig .tc .vmem S5000x1 .f32) (harg6 : arg6.IsWhole)
    (x0 : Vec F S5000x20 .f32) (x1 : Vec F S1x20 .f32) (x2 : Vec F S1x20 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (normCol0 x0) ∗ owns (c : Thread nD τ) arg5 fullShare (dotColR0 x0 x1)
            ∗ owns (c : Thread nD τ) arg6 fullShare (dotColW0 x0 x2)) -∗ K ⟨⟩))
      ⊢ wp frame (wpE (defs₀ (F := F)) Variants.none c none) E (cc0__addr_kernel i arg1 harg1 arg2 harg2 arg3 harg3 arg4 harg4 arg5 harg5 arg6 harg6) K := by
  simp only [cc0__addr_kernel_eq_skeleton]; unfold cc0__addr_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (col_covered0 _)
  isplitl [H5]
  · iexists _; isplitr
    swap; · iexact H5
    ipureintro
    exact View.read_writes_eq_canon _ _ _ (col_covered0 _)
  iexists _; isplitr
  swap; · iexact H6
  ipureintro
  exact View.read_writes_eq_canon _ _ _ (col_covered0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => normCol0 (iblk0 V c 0 t)
    | ⟨4, _⟩ => dotColR0 (iblk0 V c 0 t) (iblk0 V c 1 t)
    | ⟨5, _⟩ => dotColW0 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = normCol0 (iblk0 V c 0 t) := by dsimp only [dat0]
theorem after0_4 (c : Dev nD) (t : Fin cfg0.N) : (dat0 V c).after 4 t = dotColR0 (iblk0 V c 0 t) (iblk0 V c 1 t) := by dsimp only [dat0]
theorem after0_5 (c : Dev nD) (t : Fin cfg0.N) : (dat0 V c).after 5 t = dotColW0 (iblk0 V c 0 t) (iblk0 V c 2 t) := by dsimp only [dat0]

theorem tile_found0 (c : Dev nD) (t : Fin cfg0.N) (d) : (dat0 V c).before 0 t d = iblk0 V c 0 t :=
  tile_found_of0 V (dat0 V c) (A_eq0 V c 0) (after0_0 V c) t d
theorem keyR_found0 (c : Dev nD) (t : Fin cfg0.N) (d) : (dat0 V c).before 1 t d = iblk0 V c 1 t :=
  keyR_found_of0 V (dat0 V c) (A_eq0 V c 1) (after0_1 V c) t d
theorem keyW_found0 (c : Dev nD) (t : Fin cfg0.N) (d) : (dat0 V c).before 2 t d = iblk0 V c 2 t :=
  keyW_found_of0 V (dat0 V c) (A_eq0 V c 2) (after0_2 V c) t d

def addrPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def addrPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_addr_at0 (c : Dev nD) (t : Fin cfg0.N) :
    addrPre0 V c t ⊢ wp frame (wpE (defs₀ (F := F)) Variants.none c none) Set.univ (bodyAt0 t) (fun _ => addrPost0 V c t) := by
  unfold addrPre0 addrPost0 bodyAt0
  simp only [tile_found0, keyR_found0, keyW_found0]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_addr0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_addr_at0 V c t

end Cert.KernelIdeal.Hand

end
-- ==== Proof.KI.ReadBody.lean ====
/- The second pass over the memory, tile by tile: the weighted column sums, accumulated. -/
import proofs.«147285_j27152783245914_1_alg».proof.Proof.Gen.KernelIdeal.Launch
import proofs.«147285_j27152783245914_1_alg».proof.Proof.Gen.KernelIdeal.Skeleton
import proofs.«147285_j27152783245914_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section ReadHead

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 200 = 0 :=
  (by decide +kernel : ∀ t : Fin grid1.N, cond1_0 (grid1.coords t) ↔ t.val % 200 = 0)

abbrev VO1_2 : View sig .tc .vmem S1x20 .f32 := (Memref.whole cc1_stg2_0 : Memref sig .tc .vmem S1x20 .f32).view
abbrev ms1_0 (t : Fin cfg1.N) : Memref sig .tc .vmem S5000x20 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x20 .f32 := win1_2.stage (cfg1.slots t 2)
abbrev hs1_2 (t : Fin cfg1.N) : (ms1_2 t).IsWhole := hstage1_2 ((cfg1.slots t 2).cast nbuf1_2)

set_option maxHeartbeats 1000000 in
noncomputable def kernelRun1_A (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : cond1_0 i)
    (x0 : Vec F S5000x20 .f32) (x1 : Vec F S5000x1 .f32) :
    { L2 : List (View.Piece (Elt F) S1x20 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__readhead_kernel i arg1 harg1 arg2 harg2 arg3 harg3) K } := by
  refine ⟨?_, fun E K => ?run⟩
  case run =>
    simp only [cc1__readhead_kernel_eq_skeleton]; unfold cc1__readhead_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
noncomputable def kernelRun1_B (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : ¬cond1_0 i)
    (x0 : Vec F S5000x20 .f32) (x1 : Vec F S5000x1 .f32) (xo2 : Vec F S1x20 .f32) :
    { L2 : List (View.Piece (Elt F) S1x20 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__readhead_kernel i arg1 harg1 arg2 harg2 arg3 harg3) K } := by
  refine ⟨?_, fun E K => ?run⟩
  case run =>
    simp only [cc1__readhead_kernel_eq_skeleton]; unfold cc1__readhead_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

theorem cover1_A_2 (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : cond1_0 i)
    (x0 : Vec F S5000x20 .f32) (x1 : Vec F S5000x1 .f32) (y : S1x20.Idx) :
    ∃ pc ∈ (kernelRun1_A c i arg1 harg1 arg2 harg2 arg3 harg3 hc0 x0 x1).1, y ∈ pc.1.set :=
  View.cover_of_tiledL (kernelRun1_A c i arg1 harg1 arg2 harg2 arg3 harg3 hc0 x0 x1).1 S1x20.size (by sl_kernel_rfl) y

def out1_A_2 (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : cond1_0 i)
    (x0 : Vec F S5000x20 .f32) (x1 : Vec F S5000x1 .f32) : Vec F S1x20 .f32 :=
  VO1_2.read (Elt F) (VO1_2.writes (Elt F) VO1_2.junk (kernelRun1_A c i arg1 harg1 arg2 harg2 arg3 harg3 hc0 x0 x1).1)

theorem cover1_B_2 (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : ¬cond1_0 i)
    (x0 : Vec F S5000x20 .f32) (x1 : Vec F S5000x1 .f32) (xo2 : Vec F S1x20 .f32) (y : S1x20.Idx) :
    ∃ pc ∈ (kernelRun1_B c i arg1 harg1 arg2 harg2 arg3 harg3 hc0 x0 x1 xo2).1, y ∈ pc.1.set :=
  View.cover_of_tiledL (kernelRun1_B c i arg1 harg1 arg2 harg2 arg3 harg3 hc0 x0 x1 xo2).1 S1x20.size (by sl_kernel_rfl) y

def out1_B_2 (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : ¬cond1_0 i)
    (x0 : Vec F S5000x20 .f32) (x1 : Vec F S5000x1 .f32) (xo2 : Vec F S1x20 .f32) : Vec F S1x20 .f32 :=
  VO1_2.read (Elt F) (VO1_2.writes (Elt F) VO1_2.junk (kernelRun1_B c i arg1 harg1 arg2 harg2 arg3 harg3 hc0 x0 x1 xo2).1)

theorem zeroOffsets1 : (![0, 0] : Fin 2 → Nat) = fun _ => 0 := funext fun a => by fin_cases a <;> rfl

theorem out1_B_2_eq (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : ¬cond1_0 i)
    (x0 : Vec F S5000x20 .f32) (x1 : Vec F S5000x1 .f32) (xo2 : Vec F S1x20 .f32) :
    out1_B_2 c i arg1 harg1 arg2 harg2 arg3 harg3 hc0 x0 x1 xo2 = k1_pay2 x0 x1 xo2 := by
  unfold out1_B_2
  rw [View.read_writes_eq_canon _ _ _ (cover1_B_2 c i arg1 harg1 arg2 harg2 arg3 harg3 hc0 x0 x1 xo2)]
  unfold kernelRun1_B
  dsimp only
  rw [View.canon_unit_zero zeroOffsets1]
  simp only [View.readAt_eq_ld, harg1.read_unread, harg2.read_unread, harg3.read_unread,
    View.ld_unit_zero (S := S5000x20) zeroOffsets1, View.ld_unit_zero (S := S5000x1) zeroOffsets1,
    View.ld_unit_zero (S := S1x20) zeroOffsets1]

theorem out1_A_2_eq (c : Dev nD) (i : grid1.Coords) (arg1 : Memref sig .tc .vmem S5000x20 .f32) (harg1 : arg1.IsWhole) (arg2 : Memref sig .tc .vmem S5000x1 .f32) (harg2 : arg2.IsWhole) (arg3 : Memref sig .tc .vmem S1x20 .f32) (harg3 : arg3.IsWhole) (hc0 : cond1_0 i)
    (x0 : Vec F S5000x20 .f32) (x1 : Vec F S5000x1 .f32) :
    out1_A_2 c i arg1 harg1 arg2 harg2 arg3 harg3 hc0 x0 x1 = k1_pay2 x0 x1 (k1_pay1 (F := F)) := by
  unfold out1_A_2
  rw [View.read_writes_eq_canon _ _ _ (cover1_A_2 c i arg1 harg1 arg2 harg2 arg3 harg3 hc0 x0 x1)]
  unfold kernelRun1_A
  dsimp only
  sl_unfold_words
  rw [View.canon_cons_unit_zero (S := S1x20) zeroOffsets1, View.readCov_unit_zero (S := S1x20) _ zeroOffsets1]
  simp only [View.readAt_eq_ld, harg1.read_unread, harg2.read_unread,
    View.ld_unit_zero (S := S5000x20) zeroOffsets1, View.ld_unit_zero (S := S5000x1) zeroOffsets1]

def outsAt1 (c : Dev nD) : (n : ℕ) → n < cfg1.N → Vec F S1x20 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 200 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 200 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 200 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def acc1 (c : Dev nD) : (n : ℕ) → n < cfg1.N → Vec F S1x20 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (acc1 c n (Nat.lt_of_succ_lt h))

theorem outsAt1_eq (c : Dev nD) : ∀ (n : ℕ) (h : n < cfg1.N), outsAt1 V c n h = acc1 V c n h
  | 0, h => (outsAt1_A V c ⟨0, h⟩ rfl).trans (out1_A_2_eq ..)
  | n + 1, h => by
    have hN : cfg1.N = 200 := N_1
    have hB : ¬(⟨n + 1, h⟩ : Fin cfg1.N).val % 200 = 0 := by dsimp only; omega
    rw [outsAt1_B V c ⟨n + 1, h⟩ hB, out1_B_2_eq]
    show k1_pay2 _ _ (outsAt1 V c n _) = k1_pay2 _ _ (acc1 V c n _)
    rw [outsAt1_eq c n]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2_pieces (c : Dev nD) (t : Fin cfg1.N) : (dat1 V c).after 2 t = (outsAt1 V c t.val t.isLt) := by dsimp only [dat1]
theorem after1_2 (c : Dev nD) (t : Fin cfg1.N) : (dat1 V c).after 2 t = acc1 V c t.val t.isLt :=
  (after1_2_pieces V c t).trans (outsAt1_eq V c t.val t.isLt)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2_B (c : Dev nD) (t : Fin cfg1.N) (h0 : ¬t.val % 200 = 0) (d) :
    (dat1 V c).before 2 t d = (outsAt1 V c (t.val - 1) (Nat.lt_of_le_of_lt (Nat.sub_le _ _) t.isLt)) := by
  have hN : t.val < 200 := lt_of_lt_of_eq t.isLt (show cfg1.N = 200 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2_pieces]
  have hN : t.val < 200 := lt_of_lt_of_eq t.isLt (show cfg1.N = 200 from N_1)
  by_cases h0 : t.val % 200 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end ReadHead

end Cert.KernelIdeal.Hand

end
-- ==== Proof.KI.UpdBody.lean ====
/- The erase-and-add update of the memory, tile by tile. -/
import proofs.«147285_j27152783245914_1_alg».proof.Proof.Gen.KernelIdeal.Launch
import proofs.«147285_j27152783245914_1_alg».proof.Proof.Gen.KernelIdeal.Skeleton
import proofs.«147285_j27152783245914_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem foundOf2_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem foundOf2_1 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem foundOf2_2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem foundOf2_3 {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev tileRect2 : Rect S5000x20 := Rect.unit (s := S5000x20) ![0, 0] S5000x20.size inb_S5000x20_S5000x20_0_0
abbrev colRect2 : Rect S5000x1 := Rect.unit (s := S5000x1) ![0, 0] S5000x1.size inb_S5000x1_S5000x1_0_0
abbrev vecRect2 : Rect S1x20 := Rect.unit (s := S1x20) ![0, 0] S1x20.size inb_S1x20_S1x20_0_0

def newTile2 (x0 : Vec F S5000x20 .f32) (x1 : Vec F S5000x1 .f32) (x2 : Vec F S1x20 .f32) (x3 : Vec F S1x20 .f32) : Vec F S5000x20 .f32 :=
  View.canon [⟨tileRect2, k2_pay1 (View.ld x0 tileRect2) (View.ld x1 colRect2) (View.ld x2 vecRect2) (View.ld x3 vecRect2)⟩]

theorem newTileCover2 (p0 : Vec F S5000x20 .f32) (y : S5000x20.Idx) :
    ∃ pc ∈ ([⟨tileRect2, p0⟩] : List (View.Piece (Elt F) S5000x20 .f32)), y ∈ pc.1.set :=
  View.cover_of_tiled [⟨tileRect2, p0⟩] S5000x20.size (by rfl) y

set_option maxHeartbeats 1000000 in
theorem updateTriple2 (c : Dev nD) (E : Set ℕ) (i : grid2.Coords)
    (arg1 : Memref sig .tc .vmem S5000x20 .f32) (harg1 : arg1.IsWhole) (arg2 : Memref sig .tc .vmem S5000x1 .f32) (harg2 : arg2.IsWhole)
    (arg3 : Memref sig .tc .vmem S1x20 .f32) (harg3 : arg3.IsWhole) (arg4 : Memref sig .tc .vmem S1x20 .f32) (harg4 : arg4.IsWhole)
    (arg5 : Memref sig .tc .vmem S5000x20 .f32) (harg5 : arg5.IsWhole)
    (x0 : Vec F S5000x20 .f32) (x1 : Vec F S5000x1 .f32) (x2 : Vec F S1x20 .f32) (x3 : Vec F S1x20 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (newTile2 x0 x1 x2 x3)) -∗ K ⟨⟩))
      ⊢ wp frame (wpE (defs₀ (F := F)) Variants.none c none) E (cc2__update_kernel i arg1 harg1 arg2 harg2 arg3 harg3 arg4 harg4 arg5 harg5) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (newTileCover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => newTile2 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = newTile2 (iblk2 V c 0 t) (iblk2 V c 1 t) (iblk2 V c 2 t) (iblk2 V c 3 t) := by dsimp only [dat2]

theorem found2_0 (c : Dev nD) (t : Fin cfg2.N) (d) : (dat2 V c).before 0 t d = iblk2 V c 0 t :=
  foundOf2_0 V (dat2 V c) (A_eq2 V c 0) (after2_0 V c) t d
theorem found2_1 (c : Dev nD) (t : Fin cfg2.N) (d) : (dat2 V c).before 1 t d = iblk2 V c 1 t :=
  foundOf2_1 V (dat2 V c) (A_eq2 V c 1) (after2_1 V c) t d
theorem found2_2 (c : Dev nD) (t : Fin cfg2.N) (d) : (dat2 V c).before 2 t d = iblk2 V c 2 t :=
  foundOf2_2 V (dat2 V c) (A_eq2 V c 2) (after2_2 V c) t d
theorem found2_3 (c : Dev nD) (t : Fin cfg2.N) (d) : (dat2 V c).before 3 t d = iblk2 V c 3 t :=
  foundOf2_3 V (dat2 V c) (A_eq2 V c 3) (after2_3 V c) t d

def updPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def updPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem updateBodyTriple2 (c : Dev nD) (t : Fin cfg2.N) :
    updPre2 V c t ⊢ wp frame (wpE (defs₀ (F := F)) Variants.none c none) Set.univ (bodyAt2 t) (fun _ => updPost2 V c t) := by
  unfold updPre2 updPost2 bodyAt2
  simp only [found2_0, found2_1, found2_2, found2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (updateTriple2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact updateBodyTriple2 V c t

end Cert.KernelIdeal.Hand

end
-- ==== Proof.KI.Regions.lean ====
/- The three kernels' proof data meet what the run asks of a region. -/
import proofs.«147285_j27152783245914_1_alg».proof.Proof.Gen.KernelIdeal.Launch
import proofs.«147285_j27152783245914_1_alg».proof.Proof.Gen.KernelIdeal.Points
import proofs.«147285_j27152783245914_1_alg».proof.Proof.KI.Fold
import proofs.«147285_j27152783245914_1_alg».proof.Proof.KI.AddrBody
import proofs.«147285_j27152783245914_1_alg».proof.Proof.KI.ReadBody
import proofs.«147285_j27152783245914_1_alg».proof.Proof.KI.UpdBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def region0 : Region0 F where
  dat V c := dat0 V c
  A_eq V c w := A_eq0 V c w
  Φ_eq _ _ _ := rfl
  q_eq _ _ _ := rfl
  owed_eq _ _ _ := rfl
  recorded_eq _ _ _ := rfl
  body V c := body_obligation0 V c

def region1 : Region1 F where
  dat V c := dat1 V c
  A_eq V c w := A_eq1 V c w
  Φ_eq _ _ _ := rfl
  q_eq _ _ _ := rfl
  owed_eq _ _ _ := rfl
  recorded_eq _ _ _ := rfl
  body V c := body_obligation1 V c

def region2 : Region2 F where
  dat V c := dat2 V c
  A_eq V c w := A_eq2 V c w
  Φ_eq _ _ _ := rfl
  q_eq _ _ _ := rfl
  owed_eq _ _ _ := rfl
  recorded_eq _ _ _ := rfl
  body V c := body_obligation2 V c

end Cert.KernelIdeal.Hand

end
-- ==== Proof.KI.Frame.lean ====
/- The frame of @main: every weakly fair execution terminates, nothing faulting, each argument read off the last valuation
   of the fold, which holds what the launch memory held. -/
import proofs.«147285_j27152783245914_1_alg».proof.Proof.Gen.KernelIdeal.Launch
import proofs.«147285_j27152783245914_1_alg».proof.Proof.Gen.KernelIdeal.Points
import proofs.«147285_j27152783245914_1_alg».proof.Proof.KI.Fold
import proofs.«147285_j27152783245914_1_alg».proof.Proof.KI.Args
import proofs.«147285_j27152783245914_1_alg».proof.Proof.KI.Launch
import proofs.«147285_j27152783245914_1_alg».proof.Proof.KI.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem frame : θ_run defs (onTc (τ := τ) (main (F := F))) ⟨m, fun _ => 0, ρ⟩ (fun r => ∀ c : Dev nD, ∀ b ∈ args,
      r.2.mem ((c.tc : Thread nD τ).loc b) = m ((c.tc : Thread nD τ).loc b)) :=
  (θ_run defs _ _).mono (fun r h c b hb =>
    (h c _ (mem_uc b ((by decide : ∀ b ∈ args, ¬ (Proc.devRef .tc b : DevRef τ sig).isScoped) b hb))).trans
      (W29_arg m ρ region0 region1 region2 c b hb))
    (run_main m ρ region0 region1 region2)

end Cert.KernelIdeal.Hand

end
-- ==== Proof.RefOps.lean ====
import proofs.«147285_j27152783245914_1_alg».proof.Proof.Gen.ReferenceIdeal
import Idealize.ShloMosaic.Lib.StableHlo.Run

noncomputable section

namespace Cert.ReferenceIdeal.Blocks

open Cert.ReferenceIdeal Cert.ReferenceIdeal.Gen Idealize.ShloMosaic Idealize.ShloMosaic.TcCoe Idealize.SL.Sem Idealize.ShloMosaic.StableHlo

variable {F : FTy → Type} [FloatOps F]

/-- Operations 1 to 46 of @main (46 of them), the last writing `main_cst_1`. -/
abbrev rA1 : List (HloOp τ sig (Elt F)) :=
  [ unary main_arg5 main_v0 ((transpose S14x48 [1, 0] · transposes_S48x14_S14x48_1_0) : (⟨S48x14, .f32⟩ : BufTy).Contents (Elt F) → (⟨S14x48, .f32⟩ : BufTy).Contents (Elt F)),
    binary main_arg0 main_v0 main_v1 ((fun l r => Host.dotGeneral dot_S1x14_S14x48_S1x48_1_0_0_1_n_n none l r) : (⟨S1x14, .f32⟩ : BufTy).Contents (Elt F) → (⟨S14x48, .f32⟩ : BufTy).Contents (Elt F) → (⟨S1x48, .f32⟩ : BufTy).Contents (Elt F)),
    unary main_arg6 main_v2 (broadcastInDim S1x48 ![1] bcast_S48_S1x48_1 : (⟨S48, .f32⟩ : BufTy).Contents (Elt F) → (⟨S1x48, .f32⟩ : BufTy).Contents (Elt F)),
    binary main_v1 main_v2 main_v3 (addf : (⟨S1x48, .f32⟩ : BufTy).Contents (Elt F) → (⟨S1x48, .f32⟩ : BufTy).Contents (Elt F) → (⟨S1x48, .f32⟩ : BufTy).Contents (Elt F)),
    unary main_arg7 main_v4 ((transpose S48x72 [1, 0] · transposes_S72x48_S48x72_1_0) : (⟨S72x48, .f32⟩ : BufTy).Contents (Elt F) → (⟨S48x72, .f32⟩ : BufTy).Contents (Elt F)),
    binary main_v3 main_v4 main_v5 ((fun l r => Host.dotGeneral dot_S1x48_S48x72_S1x72_1_0_0_1_n_n none l r) : (⟨S1x48, .f32⟩ : BufTy).Contents (Elt F) → (⟨S48x72, .f32⟩ : BufTy).Contents (Elt F) → (⟨S1x72, .f32⟩ : BufTy).Contents (Elt F)),
    unary main_arg8 main_v6 (broadcastInDim S1x72 ![1] bcast_S72_S1x72_1 : (⟨S72, .f32⟩ : BufTy).Contents (Elt F) → (⟨S1x72, .f32⟩ : BufTy).Contents (Elt F)),
    binary main_v5 main_v6 main_v7 (addf : (⟨S1x72, .f32⟩ : BufTy).Contents (Elt F) → (⟨S1x72, .f32⟩ : BufTy).Contents (Elt F) → (⟨S1x72, .f32⟩ : BufTy).Contents (Elt F)),
    unary main_arg9 main_v8 ((transpose S72x92 [1, 0] · transposes_S92x72_S72x92_1_0) : (⟨S92x72, .f32⟩ : BufTy).Contents (Elt F) → (⟨S72x92, .f32⟩ : BufTy).Contents (Elt F)),
    binary main_v7 main_v8 main_v9 ((fun l r => Host.dotGeneral dot_S1x72_S72x92_S1x92_1_0_0_1_n_n none l r) : (⟨S1x72, .f32⟩ : BufTy).Contents (Elt F) → (⟨S72x92, .f32⟩ : BufTy).Contents (Elt F) → (⟨S1x92, .f32⟩ : BufTy).Contents (Elt F)),
    unary main_arg10 main_v10 (broadcastInDim S1x92 ![1] bcast_S92_S1x92_1 : (⟨S92, .f32⟩ : BufTy).Contents (Elt F) → (⟨S1x92, .f32⟩ : BufTy).Contents (Elt F)),
    binary main_v9 main_v10 main_v11 (addf : (⟨S1x92, .f32⟩ : BufTy).Contents (Elt F) → (⟨S1x92, .f32⟩ : BufTy).Contents (Elt F) → (⟨S1x92, .f32⟩ : BufTy).Contents (Elt F)),
    unary main_arg11 main_v12 ((transpose S72x3 [1, 0] · transposes_S3x72_S72x3_1_0) : (⟨S3x72, .f32⟩ : BufTy).Contents (Elt F) → (⟨S72x3, .f32⟩ : BufTy).Contents (Elt F)),
    binary main_v7 main_v12 main_v13 ((fun l r => Host.dotGeneral dot_S1x72_S72x3_S1x3_1_0_0_1_n_n none l r) : (⟨S1x72, .f32⟩ : BufTy).Contents (Elt F) → (⟨S72x3, .f32⟩ : BufTy).Contents (Elt F) → (⟨S1x3, .f32⟩ : BufTy).Contents (Elt F)),
    unary main_arg12 main_v14 (broadcastInDim S1x3 ![1] bcast_S3_S1x3_1 : (⟨S3, .f32⟩ : BufTy).Contents (Elt F) → (⟨S1x3, .f32⟩ : BufTy).Contents (Elt F)),
    binary main_v13 main_v14 main_v15 (addf : (⟨S1x3, .f32⟩ : BufTy).Contents (Elt F) → (⟨S1x3, .f32⟩ : BufTy).Contents (Elt F) → (⟨S1x3, .f32⟩ : BufTy).Contents (Elt F)),
    unary main_v11 main_v16 ((extractStridedSlice S1x26 ![0, 0] · slices_S1x92_S1x26_0_0) : (⟨S1x92, .f32⟩ : BufTy).Contents (Elt F) → (⟨S1x26, .f32⟩ : BufTy).Contents (Elt F)),
    reshape main_v16 main_v17 rfl shapeCasts_S1x26_S26,
    unary main_v17 main_v18 (broadcastInDim S1x26 ![1] bcast_S26_S1x26_1 : (⟨S26, .f32⟩ : BufTy).Contents (Elt F) → (⟨S1x26, .f32⟩ : BufTy).Contents (Elt F)),
    unary main_v11 main_v19 ((extractStridedSlice S1x26 ![0, 26] · slices_S1x92_S1x26_0_26) : (⟨S1x92, .f32⟩ : BufTy).Contents (Elt F) → (⟨S1x26, .f32⟩ : BufTy).Contents (Elt F)),
    reshape main_v19 main_v20 rfl shapeCasts_S1x26_S26,
    unary main_v20 main_v21 (broadcastInDim S1x26 ![1] bcast_S26_S1x26_1 : (⟨S26, .f32⟩ : BufTy).Contents (Elt F) → (⟨S1x26, .f32⟩ : BufTy).Contents (Elt F)),
    unary main_v11 main_v22 ((extractStridedSlice S1x20 ![0, 52] · slices_S1x92_S1x20_0_52) : (⟨S1x92, .f32⟩ : BufTy).Contents (Elt F) → (⟨S1x20, .f32⟩ : BufTy).Contents (Elt F)),
    reshape main_v22 main_v23 rfl shapeCasts_S1x20_S20,
    unary main_v23 main_v24 (broadcastInDim S1x20 ![1] bcast_S20_S1x20_1 : (⟨S20, .f32⟩ : BufTy).Contents (Elt F) → (⟨S1x20, .f32⟩ : BufTy).Contents (Elt F)),
    unary main_v24 main_v25 (Host.negf : (⟨S1x20, .f32⟩ : BufTy).Contents (Elt F) → (⟨S1x20, .f32⟩ : BufTy).Contents (Elt F)),
    unary main_v25 main_v26 (Host.exp : (⟨S1x20, .f32⟩ : BufTy).Contents (Elt F) → (⟨S1x20, .f32⟩ : BufTy).Contents (Elt F)),
    nullary main_cst (constant S_ .f32 0x3F800000#32),
    unary main_cst main_v27 (broadcastInDim S1x20 ![] bcast_S_S1x20 : (⟨S_, .f32⟩ : BufTy).Contents (Elt F) → (⟨S1x20, .f32⟩ : BufTy).Contents (Elt F)),
    binary main_v27 main_v26 main_v28 (addf : (⟨S1x20, .f32⟩ : BufTy).Contents (Elt F) → (⟨S1x20, .f32⟩ : BufTy).Contents (Elt F) → (⟨S1x20, .f32⟩ : BufTy).Contents (Elt F)),
    nullary main_cst_0 (constant S_ .f32 0x3F800000#32),
    unary main_cst_0 main_v29 (broadcastInDim S1x20 ![] bcast_S_S1x20 : (⟨S_, .f32⟩ : BufTy).Contents (Elt F) → (⟨S1x20, .f32⟩ : BufTy).Contents (Elt F)),
    binary main_v29 main_v28 main_v30 (Host.divf : (⟨S1x20, .f32⟩ : BufTy).Contents (Elt F) → (⟨S1x20, .f32⟩ : BufTy).Contents (Elt F) → (⟨S1x20, .f32⟩ : BufTy).Contents (Elt F)),
    unary main_v11 main_v31 ((extractStridedSlice S1x20 ![0, 72] · slices_S1x92_S1x20_0_72) : (⟨S1x92, .f32⟩ : BufTy).Contents (Elt F) → (⟨S1x20, .f32⟩ : BufTy).Contents (Elt F)),
    reshape main_v31 main_v32 rfl shapeCasts_S1x20_S20,
    unary main_v32 main_v33 (broadcastInDim S1x20 ![1] bcast_S20_S1x20_1 : (⟨S20, .f32⟩ : BufTy).Contents (Elt F) → (⟨S1x20, .f32⟩ : BufTy).Contents (Elt F)),
    unary main_v33 main_v34 (Host.tanh : (⟨S1x20, .f32⟩ : BufTy).Contents (Elt F) → (⟨S1x20, .f32⟩ : BufTy).Contents (Elt F)),
    unary main_v18 main_v35 ((extractStridedSlice S1x20 ![0, 0] · slices_S1x26_S1x20_0_0) : (⟨S1x26, .f32⟩ : BufTy).Contents (Elt F) → (⟨S1x20, .f32⟩ : BufTy).Contents (Elt F)),
    reshape main_v35 main_v36 rfl shapeCasts_S1x20_S20,
    unary main_v36 main_v37 (Host.tanh : (⟨S20, .f32⟩ : BufTy).Contents (Elt F) → (⟨S20, .f32⟩ : BufTy).Contents (Elt F)),
    unary main_v37 main_v38 (broadcastInDim S1x20 ![1] bcast_S20_S1x20_1 : (⟨S20, .f32⟩ : BufTy).Contents (Elt F) → (⟨S1x20, .f32⟩ : BufTy).Contents (Elt F)),
    unary main_v18 main_v39 ((extractStridedSlice S1x1 ![0, 20] · slices_S1x26_S1x1_0_20) : (⟨S1x26, .f32⟩ : BufTy).Contents (Elt F) → (⟨S1x1, .f32⟩ : BufTy).Contents (Elt F)),
    reshape main_v39 main_v40 rfl shapeCasts_S1x1_S_,
    unary main_v40 main_v41 (Host.negf : (⟨S_, .f32⟩ : BufTy).Contents (Elt F) → (⟨S_, .f32⟩ : BufTy).Contents (Elt F)),
    unary main_v41 main_v42 (Host.exp : (⟨S_, .f32⟩ : BufTy).Contents (Elt F) → (⟨S_, .f32⟩ : BufTy).Contents (Elt F)),
    nullary main_cst_1 (constant S_ .f32 0x3F800000#32) ]

/-- Operations 47 to 92 of @main (46 of them), the last writing `main_v63`. -/
abbrev rA2 : List (HloOp τ sig (Elt F)) :=
  [ binary main_cst_1 main_v42 main_v43 (addf : (⟨S_, .f32⟩ : BufTy).Contents (Elt F) → (⟨S_, .f32⟩ : BufTy).Contents (Elt F) → (⟨S_, .f32⟩ : BufTy).Contents (Elt F)),
    nullary main_cst_2 (constant S_ .f32 0x3F800000#32),
    binary main_cst_2 main_v43 main_v44 (Host.divf : (⟨S_, .f32⟩ : BufTy).Contents (Elt F) → (⟨S_, .f32⟩ : BufTy).Contents (Elt F) → (⟨S_, .f32⟩ : BufTy).Contents (Elt F)),
    unary main_v18 main_v45 ((extractStridedSlice S1x3 ![0, 21] · slices_S1x26_S1x3_0_21) : (⟨S1x26, .f32⟩ : BufTy).Contents (Elt F) → (⟨S1x3, .f32⟩ : BufTy).Contents (Elt F)),
    reshape main_v45 main_v46 rfl shapeCasts_S1x3_S3,
    nullary main_cst_3 (constant S_ .f32 0xFF800000#32),
    binary main_v46 main_cst_3 main_v47 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    nullary main_cst_4 (constant S_ .f32 0xFF800000#32),
    binary main_cst_4 main_v47 main_v48 (maximumf : (⟨S_, .f32⟩ : BufTy).Contents (Elt F) → (⟨S_, .f32⟩ : BufTy).Contents (Elt F) → (⟨S_, .f32⟩ : BufTy).Contents (Elt F)),
    unary main_v48 main_v49 (broadcastInDim S1 ![] bcast_S_S1 : (⟨S_, .f32⟩ : BufTy).Contents (Elt F) → (⟨S1, .f32⟩ : BufTy).Contents (Elt F)),
    unary main_v49 main_v50 (broadcastInDim S3 ![0] bcast_S1_S3_0 : (⟨S1, .f32⟩ : BufTy).Contents (Elt F) → (⟨S3, .f32⟩ : BufTy).Contents (Elt F)),
    binary main_v46 main_v50 main_v51 (subf : (⟨S3, .f32⟩ : BufTy).Contents (Elt F) → (⟨S3, .f32⟩ : BufTy).Contents (Elt F) → (⟨S3, .f32⟩ : BufTy).Contents (Elt F)),
    unary main_v51 main_v52 (Host.exp : (⟨S3, .f32⟩ : BufTy).Contents (Elt F) → (⟨S3, .f32⟩ : BufTy).Contents (Elt F)),
    nullary main_cst_5 (constant S_ .f32 0x00000000#32),
    binary main_v52 main_cst_5 main_v53 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_v53 main_v54 (broadcastInDim S1 ![] bcast_S_S1 : (⟨S_, .f32⟩ : BufTy).Contents (Elt F) → (⟨S1, .f32⟩ : BufTy).Contents (Elt F)),
    unary main_v54 main_v55 (broadcastInDim S3 ![0] bcast_S1_S3_0 : (⟨S1, .f32⟩ : BufTy).Contents (Elt F) → (⟨S3, .f32⟩ : BufTy).Contents (Elt F)),
    binary main_v52 main_v55 main_v56 (Host.divf : (⟨S3, .f32⟩ : BufTy).Contents (Elt F) → (⟨S3, .f32⟩ : BufTy).Contents (Elt F) → (⟨S3, .f32⟩ : BufTy).Contents (Elt F)),
    unary main_v18 main_v57 ((extractStridedSlice S1x1 ![0, 24] · slices_S1x26_S1x1_0_24) : (⟨S1x26, .f32⟩ : BufTy).Contents (Elt F) → (⟨S1x1, .f32⟩ : BufTy).Contents (Elt F)),
    reshape main_v57 main_v58 rfl shapeCasts_S1x1_S_,
    TRef.nullary (TRef.of (T := ⟨S_, .f32⟩) main_call0_cst) (constant S_ .f32 0x00000000#32),
    TRef.binary (TRef.of (T := ⟨S_, .f32⟩) main_v58) (TRef.of (T := ⟨S_, .f32⟩) main_call0_cst) (TRef.of (T := ⟨S_, .f32⟩) main_call0_v0) maximumf,
    TRef.binary (TRef.of (T := ⟨S_, .f32⟩) main_v58) (TRef.of (T := ⟨S_, .f32⟩) main_call0_cst) (TRef.of (T := ⟨S_, .f32⟩) main_call0_v1) subf,
    TRef.binary (TRef.of (T := ⟨S_, .f32⟩) main_call0_v1) (TRef.of (T := ⟨S_, .f32⟩) main_call0_v1) (TRef.of (T := ⟨S_, .i1⟩) main_call0_v2) (cmpf .une),
    TRef.binary (TRef.of (T := ⟨S_, .f32⟩) main_v58) (TRef.of (T := ⟨S_, .f32⟩) main_call0_cst) (TRef.of (T := ⟨S_, .f32⟩) main_call0_v3) addf,
    TRef.unary (TRef.of (T := ⟨S_, .f32⟩) main_call0_v1) (TRef.of (T := ⟨S_, .f32⟩) main_call0_v4) Host.absf,
    TRef.unary (TRef.of (T := ⟨S_, .f32⟩) main_call0_v4) (TRef.of (T := ⟨S_, .f32⟩) main_call0_v5) Host.negf,
    TRef.unary (TRef.of (T := ⟨S_, .f32⟩) main_call0_v5) (TRef.of (T := ⟨S_, .f32⟩) main_call0_v6) Host.exp,
    TRef.unary (TRef.of (T := ⟨S_, .f32⟩) main_call0_v6) (TRef.of (T := ⟨S_, .f32⟩) main_call0_v7) Host.log1p,
    TRef.binary (TRef.of (T := ⟨S_, .f32⟩) main_call0_v0) (TRef.of (T := ⟨S_, .f32⟩) main_call0_v7) (TRef.of (T := ⟨S_, .f32⟩) main_call0_v8) addf,
    TRef.ternary (TRef.of (T := ⟨S_, .i1⟩) main_call0_v2) (TRef.of (T := ⟨S_, .f32⟩) main_call0_v3) (TRef.of (T := ⟨S_, .f32⟩) main_call0_v8) (TRef.of (T := ⟨S_, .f32⟩) main_v59) select,
    nullary main_cst_6 (constant S_ .f32 0x3F800000#32),
    binary main_cst_6 main_v59 main_v60 (addf : (⟨S_, .f32⟩ : BufTy).Contents (Elt F) → (⟨S_, .f32⟩ : BufTy).Contents (Elt F) → (⟨S_, .f32⟩ : BufTy).Contents (Elt F)),
    unary main_v18 main_v61 ((extractStridedSlice S1x1 ![0, 25] · slices_S1x26_S1x1_0_25) : (⟨S1x26, .f32⟩ : BufTy).Contents (Elt F) → (⟨S1x1, .f32⟩ : BufTy).Contents (Elt F)),
    reshape main_v61 main_v62 rfl shapeCasts_S1x1_S_,
    TRef.nullary (TRef.of (T := ⟨S_, .f32⟩) main_call1_cst) (constant S_ .f32 0x00000000#32),
    TRef.binary (TRef.of (T := ⟨S_, .f32⟩) main_v62) (TRef.of (T := ⟨S_, .f32⟩) main_call1_cst) (TRef.of (T := ⟨S_, .f32⟩) main_call1_v0) maximumf,
    TRef.binary (TRef.of (T := ⟨S_, .f32⟩) main_v62) (TRef.of (T := ⟨S_, .f32⟩) main_call1_cst) (TRef.of (T := ⟨S_, .f32⟩) main_call1_v1) subf,
    TRef.binary (TRef.of (T := ⟨S_, .f32⟩) main_call1_v1) (TRef.of (T := ⟨S_, .f32⟩) main_call1_v1) (TRef.of (T := ⟨S_, .i1⟩) main_call1_v2) (cmpf .une),
    TRef.binary (TRef.of (T := ⟨S_, .f32⟩) main_v62) (TRef.of (T := ⟨S_, .f32⟩) main_call1_cst) (TRef.of (T := ⟨S_, .f32⟩) main_call1_v3) addf,
    TRef.unary (TRef.of (T := ⟨S_, .f32⟩) main_call1_v1) (TRef.of (T := ⟨S_, .f32⟩) main_call1_v4) Host.absf,
    TRef.unary (TRef.of (T := ⟨S_, .f32⟩) main_call1_v4) (TRef.of (T := ⟨S_, .f32⟩) main_call1_v5) Host.negf,
    TRef.unary (TRef.of (T := ⟨S_, .f32⟩) main_call1_v5) (TRef.of (T := ⟨S_, .f32⟩) main_call1_v6) Host.exp,
    TRef.unary (TRef.of (T := ⟨S_, .f32⟩) main_call1_v6) (TRef.of (T := ⟨S_, .f32⟩) main_call1_v7) Host.log1p,
    TRef.binary (TRef.of (T := ⟨S_, .f32⟩) main_call1_v0) (TRef.of (T := ⟨S_, .f32⟩) main_call1_v7) (TRef.of (T := ⟨S_, .f32⟩) main_call1_v8) addf,
    TRef.ternary (TRef.of (T := ⟨S_, .i1⟩) main_call1_v2) (TRef.of (T := ⟨S_, .f32⟩) main_call1_v3) (TRef.of (T := ⟨S_, .f32⟩) main_call1_v8) (TRef.of (T := ⟨S_, .f32⟩) main_v63) select ]

/-- Operations 93 to 143 of @main (51 of them), the last writing `main_v100`. -/
abbrev rB1 : List (HloOp τ sig (Elt F)) :=
  [ nullary main_cst_7 (constant S_ .f32 0x24E69595#32),
    unary main_cst_7 main_v64 (broadcastInDim S1000000x20 ![] bcast_S_S1000000x20 : (⟨S_, .f32⟩ : BufTy).Contents (Elt F) → (⟨S1000000x20, .f32⟩ : BufTy).Contents (Elt F)),
    binary main_arg3 main_v64 main_v65 (addf : (⟨S1000000x20, .f32⟩ : BufTy).Contents (Elt F) → (⟨S1000000x20, .f32⟩ : BufTy).Contents (Elt F) → (⟨S1000000x20, .f32⟩ : BufTy).Contents (Elt F)),
    nullary main_cst_8 (constant S_ .f32 0x24E69595#32),
    unary main_cst_8 main_v66 (broadcastInDim S1x20 ![] bcast_S_S1x20 : (⟨S_, .f32⟩ : BufTy).Contents (Elt F) → (⟨S1x20, .f32⟩ : BufTy).Contents (Elt F)),
    binary main_v38 main_v66 main_v67 (addf : (⟨S1x20, .f32⟩ : BufTy).Contents (Elt F) → (⟨S1x20, .f32⟩ : BufTy).Contents (Elt F) → (⟨S1x20, .f32⟩ : BufTy).Contents (Elt F)),
    unary main_v67 main_v68 ((transpose S20x1 [1, 0] · transposes_S1x20_S20x1_1_0) : (⟨S1x20, .f32⟩ : BufTy).Contents (Elt F) → (⟨S20x1, .f32⟩ : BufTy).Contents (Elt F)),
    binary main_v65 main_v68 main_v69 ((fun l r => Host.dotGeneral dot_S1000000x20_S20x1_S1000000x1_1_0_0_1_n_n none l r) : (⟨S1000000x20, .f32⟩ : BufTy).Contents (Elt F) → (⟨S20x1, .f32⟩ : BufTy).Contents (Elt F) → (⟨S1000000x1, .f32⟩ : BufTy).Contents (Elt F)),
    reshape main_v69 main_v70 rfl shapeCasts_S1000000x1_S1000000,
    TRef.binary (TRef.of (T := ⟨S1000000x20, .f32⟩) main_v65) (TRef.of (T := ⟨S1000000x20, .f32⟩) main_v65) (TRef.of (T := ⟨S1000000x20, .f32⟩) main_call2_v0) mulf,
    TRef.nullary (TRef.of (T := ⟨S_, .f32⟩) main_call2_cst) (constant S_ .f32 0x00000000#32),
    TRef.binary (TRef.of (T := ⟨S1000000x20, .f32⟩) main_call2_v0) (TRef.of (T := ⟨S_, .f32⟩) main_call2_cst) (TRef.of (T := ⟨S1000000, .f32⟩) main_call2_v1) (fun x v => Host.reduceAdd x v reducesTo_S1000000x20_S1000000_d1 h_S_),
    TRef.unary (TRef.of (T := ⟨S1000000, .f32⟩) main_call2_v1) (TRef.of (T := ⟨S1000000, .f32⟩) main_v71) Host.sqrt,
    nullary main_cst_9 (constant S_ .f32 0x322BCC77#32),
    unary main_cst_9 main_v72 (broadcastInDim S1000000 ![] bcast_S_S1000000 : (⟨S_, .f32⟩ : BufTy).Contents (Elt F) → (⟨S1000000, .f32⟩ : BufTy).Contents (Elt F)),
    binary main_v71 main_v72 main_v73 (maximumf : (⟨S1000000, .f32⟩ : BufTy).Contents (Elt F) → (⟨S1000000, .f32⟩ : BufTy).Contents (Elt F) → (⟨S1000000, .f32⟩ : BufTy).Contents (Elt F)),
    TRef.binary (TRef.of (T := ⟨S1x20, .f32⟩) main_v67) (TRef.of (T := ⟨S1x20, .f32⟩) main_v67) (TRef.of (T := ⟨S1x20, .f32⟩) main_call3_v0) mulf,
    TRef.nullary (TRef.of (T := ⟨S_, .f32⟩) main_call3_cst) (constant S_ .f32 0x00000000#32),
    TRef.binary (TRef.of (T := ⟨S1x20, .f32⟩) main_call3_v0) (TRef.of (T := ⟨S_, .f32⟩) main_call3_cst) (TRef.of (T := ⟨S1, .f32⟩) main_call3_v1) (fun x v => Host.reduceAdd x v reducesTo_S1x20_S1_d1 h_S_),
    TRef.unary (TRef.of (T := ⟨S1, .f32⟩) main_call3_v1) (TRef.of (T := ⟨S1, .f32⟩) main_v74) Host.sqrt,
    nullary main_cst_10 (constant S_ .f32 0x322BCC77#32),
    unary main_cst_10 main_v75 (broadcastInDim S1 ![] bcast_S_S1 : (⟨S_, .f32⟩ : BufTy).Contents (Elt F) → (⟨S1, .f32⟩ : BufTy).Contents (Elt F)),
    binary main_v74 main_v75 main_v76 (maximumf : (⟨S1, .f32⟩ : BufTy).Contents (Elt F) → (⟨S1, .f32⟩ : BufTy).Contents (Elt F) → (⟨S1, .f32⟩ : BufTy).Contents (Elt F)),
    unary main_v76 main_v77 (broadcastInDim S1000000 ![0] bcast_S1_S1000000_0 : (⟨S1, .f32⟩ : BufTy).Contents (Elt F) → (⟨S1000000, .f32⟩ : BufTy).Contents (Elt F)),
    binary main_v73 main_v77 main_v78 (mulf : (⟨S1000000, .f32⟩ : BufTy).Contents (Elt F) → (⟨S1000000, .f32⟩ : BufTy).Contents (Elt F) → (⟨S1000000, .f32⟩ : BufTy).Contents (Elt F)),
    binary main_v70 main_v78 main_v79 (Host.divf : (⟨S1000000, .f32⟩ : BufTy).Contents (Elt F) → (⟨S1000000, .f32⟩ : BufTy).Contents (Elt F) → (⟨S1000000, .f32⟩ : BufTy).Contents (Elt F)),
    unary main_v63 main_v80 (broadcastInDim S1000000 ![] bcast_S_S1000000 : (⟨S_, .f32⟩ : BufTy).Contents (Elt F) → (⟨S1000000, .f32⟩ : BufTy).Contents (Elt F)),
    binary main_v79 main_v80 main_v81 (mulf : (⟨S1000000, .f32⟩ : BufTy).Contents (Elt F) → (⟨S1000000, .f32⟩ : BufTy).Contents (Elt F) → (⟨S1000000, .f32⟩ : BufTy).Contents (Elt F)),
    nullary main_cst_11 (constant S_ .f32 0xFF800000#32),
    binary main_v81 main_cst_11 main_v82 ((fun x v => Host.reduce FloatOps.maximumf x v reducesTo_S1000000_S_d0 h_S_) : (⟨S1000000, .f32⟩ : BufTy).Contents (Elt F) → (⟨S_, .f32⟩ : BufTy).Contents (Elt F) → (⟨S_, .f32⟩ : BufTy).Contents (Elt F)),
    nullary main_cst_12 (constant S_ .f32 0xFF800000#32),
    binary main_cst_12 main_v82 main_v83 (maximumf : (⟨S_, .f32⟩ : BufTy).Contents (Elt F) → (⟨S_, .f32⟩ : BufTy).Contents (Elt F) → (⟨S_, .f32⟩ : BufTy).Contents (Elt F)),
    unary main_v83 main_v84 (broadcastInDim S1 ![] bcast_S_S1 : (⟨S_, .f32⟩ : BufTy).Contents (Elt F) → (⟨S1, .f32⟩ : BufTy).Contents (Elt F)),
    unary main_v84 main_v85 (broadcastInDim S1000000 ![0] bcast_S1_S1000000_0 : (⟨S1, .f32⟩ : BufTy).Contents (Elt F) → (⟨S1000000, .f32⟩ : BufTy).Contents (Elt F)),
    binary main_v81 main_v85 main_v86 (subf : (⟨S1000000, .f32⟩ : BufTy).Contents (Elt F) → (⟨S1000000, .f32⟩ : BufTy).Contents (Elt F) → (⟨S1000000, .f32⟩ : BufTy).Contents (Elt F)),
    unary main_v86 main_v87 (Host.exp : (⟨S1000000, .f32⟩ : BufTy).Contents (Elt F) → (⟨S1000000, .f32⟩ : BufTy).Contents (Elt F)),
    nullary main_cst_13 (constant S_ .f32 0x00000000#32),
    binary main_v87 main_cst_13 main_v88 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    unary main_v88 main_v89 (broadcastInDim S1 ![] bcast_S_S1 : (⟨S_, .f32⟩ : BufTy).Contents (Elt F) → (⟨S1, .f32⟩ : BufTy).Contents (Elt F)),
    unary main_v89 main_v90 (broadcastInDim S1000000 ![0] bcast_S1_S1000000_0 : (⟨S1, .f32⟩ : BufTy).Contents (Elt F) → (⟨S1000000, .f32⟩ : BufTy).Contents (Elt F)),
    binary main_v87 main_v90 main_v91 (Host.divf : (⟨S1000000, .f32⟩ : BufTy).Contents (Elt F) → (⟨S1000000, .f32⟩ : BufTy).Contents (Elt F) → (⟨S1000000, .f32⟩ : BufTy).Contents (Elt F)),
    unary main_v44 main_v92 (broadcastInDim S1000000 ![] bcast_S_S1000000 : (⟨S_, .f32⟩ : BufTy).Contents (Elt F) → (⟨S1000000, .f32⟩ : BufTy).Contents (Elt F)),
    binary main_v92 main_v91 main_v93 (mulf : (⟨S1000000, .f32⟩ : BufTy).Contents (Elt F) → (⟨S1000000, .f32⟩ : BufTy).Contents (Elt F) → (⟨S1000000, .f32⟩ : BufTy).Contents (Elt F)),
    nullary main_cst_14 (constant S_ .f32 0x3F800000#32),
    binary main_cst_14 main_v44 main_v94 (subf : (⟨S_, .f32⟩ : BufTy).Contents (Elt F) → (⟨S_, .f32⟩ : BufTy).Contents (Elt F) → (⟨S_, .f32⟩ : BufTy).Contents (Elt F)),
    unary main_v94 main_v95 (broadcastInDim S1x1000000 ![] bcast_S_S1x1000000 : (⟨S_, .f32⟩ : BufTy).Contents (Elt F) → (⟨S1x1000000, .f32⟩ : BufTy).Contents (Elt F)),
    binary main_v95 main_arg1 main_v96 (mulf : (⟨S1x1000000, .f32⟩ : BufTy).Contents (Elt F) → (⟨S1x1000000, .f32⟩ : BufTy).Contents (Elt F) → (⟨S1x1000000, .f32⟩ : BufTy).Contents (Elt F)),
    unary main_v93 main_v97 (broadcastInDim S1x1000000 ![1] bcast_S1000000_S1x1000000_1 : (⟨S1000000, .f32⟩ : BufTy).Contents (Elt F) → (⟨S1x1000000, .f32⟩ : BufTy).Contents (Elt F)),
    binary main_v97 main_v96 main_v98 (addf : (⟨S1x1000000, .f32⟩ : BufTy).Contents (Elt F) → (⟨S1x1000000, .f32⟩ : BufTy).Contents (Elt F) → (⟨S1x1000000, .f32⟩ : BufTy).Contents (Elt F)),
    unary main_v98 main_v99 ((extractStridedSlice S1x1 ![0, 999999] · slices_S1x1000000_S1x1_0_999999) : (⟨S1x1000000, .f32⟩ : BufTy).Contents (Elt F) → (⟨S1x1, .f32⟩ : BufTy).Contents (Elt F)),
    unary main_v98 main_v100 ((extractStridedSlice S1x1 ![0, 0] · slices_S1x1000000_S1x1_0_0) : (⟨S1x1000000, .f32⟩ : BufTy).Contents (Elt F) → (⟨S1x1, .f32⟩ : BufTy).Contents (Elt F)) ]

/-- Operations 144 to 171 of @main (28 of them), the last writing `main_v126`. -/
abbrev rB2 : List (HloOp τ sig (Elt F)) :=
  [ nary ![main_v99, main_v98, main_v100] main_v101 (fun u => concatenate S1x1000002 1 [⟨S1x1, u 0⟩, ⟨S1x1000000, u 1⟩, ⟨S1x1, u 2⟩] concatenates_S1x1_S1x1000000_S1x1_S1x1000002_d1),
    unary main_v56 main_v102 ((extractStridedSlice S1 ![0] · slices_S3_S1_0) : (⟨S3, .f32⟩ : BufTy).Contents (Elt F) → (⟨S1, .f32⟩ : BufTy).Contents (Elt F)),
    reshape main_v102 main_v103 rfl shapeCasts_S1_S_,
    unary main_v101 main_v104 ((extractStridedSlice S1x1000000 ![0, 0] · slices_S1x1000002_S1x1000000_0_0) : (⟨S1x1000002, .f32⟩ : BufTy).Contents (Elt F) → (⟨S1x1000000, .f32⟩ : BufTy).Contents (Elt F)),
    unary main_v103 main_v105 (broadcastInDim S1x1000000 ![] bcast_S_S1x1000000 : (⟨S_, .f32⟩ : BufTy).Contents (Elt F) → (⟨S1x1000000, .f32⟩ : BufTy).Contents (Elt F)),
    binary main_v105 main_v104 main_v106 (mulf : (⟨S1x1000000, .f32⟩ : BufTy).Contents (Elt F) → (⟨S1x1000000, .f32⟩ : BufTy).Contents (Elt F) → (⟨S1x1000000, .f32⟩ : BufTy).Contents (Elt F)),
    unary main_v56 main_v107 ((extractStridedSlice S1 ![1] · slices_S3_S1_1) : (⟨S3, .f32⟩ : BufTy).Contents (Elt F) → (⟨S1, .f32⟩ : BufTy).Contents (Elt F)),
    reshape main_v107 main_v108 rfl shapeCasts_S1_S_,
    unary main_v101 main_v109 ((extractStridedSlice S1x1000000 ![0, 1] · slices_S1x1000002_S1x1000000_0_1) : (⟨S1x1000002, .f32⟩ : BufTy).Contents (Elt F) → (⟨S1x1000000, .f32⟩ : BufTy).Contents (Elt F)),
    unary main_v108 main_v110 (broadcastInDim S1x1000000 ![] bcast_S_S1x1000000 : (⟨S_, .f32⟩ : BufTy).Contents (Elt F) → (⟨S1x1000000, .f32⟩ : BufTy).Contents (Elt F)),
    binary main_v110 main_v109 main_v111 (mulf : (⟨S1x1000000, .f32⟩ : BufTy).Contents (Elt F) → (⟨S1x1000000, .f32⟩ : BufTy).Contents (Elt F) → (⟨S1x1000000, .f32⟩ : BufTy).Contents (Elt F)),
    binary main_v106 main_v111 main_v112 (addf : (⟨S1x1000000, .f32⟩ : BufTy).Contents (Elt F) → (⟨S1x1000000, .f32⟩ : BufTy).Contents (Elt F) → (⟨S1x1000000, .f32⟩ : BufTy).Contents (Elt F)),
    unary main_v56 main_v113 ((extractStridedSlice S1 ![2] · slices_S3_S1_2) : (⟨S3, .f32⟩ : BufTy).Contents (Elt F) → (⟨S1, .f32⟩ : BufTy).Contents (Elt F)),
    reshape main_v113 main_v114 rfl shapeCasts_S1_S_,
    unary main_v101 main_v115 ((extractStridedSlice S1x1000000 ![0, 2] · slices_S1x1000002_S1x1000000_0_2) : (⟨S1x1000002, .f32⟩ : BufTy).Contents (Elt F) → (⟨S1x1000000, .f32⟩ : BufTy).Contents (Elt F)),
    unary main_v114 main_v116 (broadcastInDim S1x1000000 ![] bcast_S_S1x1000000 : (⟨S_, .f32⟩ : BufTy).Contents (Elt F) → (⟨S1x1000000, .f32⟩ : BufTy).Contents (Elt F)),
    binary main_v116 main_v115 main_v117 (mulf : (⟨S1x1000000, .f32⟩ : BufTy).Contents (Elt F) → (⟨S1x1000000, .f32⟩ : BufTy).Contents (Elt F) → (⟨S1x1000000, .f32⟩ : BufTy).Contents (Elt F)),
    binary main_v112 main_v117 main_v118 (addf : (⟨S1x1000000, .f32⟩ : BufTy).Contents (Elt F) → (⟨S1x1000000, .f32⟩ : BufTy).Contents (Elt F) → (⟨S1x1000000, .f32⟩ : BufTy).Contents (Elt F)),
    unary main_v60 main_v119 (broadcastInDim S1x1000000 ![] bcast_S_S1x1000000 : (⟨S_, .f32⟩ : BufTy).Contents (Elt F) → (⟨S1x1000000, .f32⟩ : BufTy).Contents (Elt F)),
    binary main_v118 main_v119 main_v120 (Host.powf : (⟨S1x1000000, .f32⟩ : BufTy).Contents (Elt F) → (⟨S1x1000000, .f32⟩ : BufTy).Contents (Elt F) → (⟨S1x1000000, .f32⟩ : BufTy).Contents (Elt F)),
    nullary main_cst_15 (constant S_ .f32 0x00000000#32),
    binary main_v120 main_cst_15 main_v121 ((fun x v => Host.reduceAdd x v reducesTo_S1x1000000_S1_d1 h_S_) : (⟨S1x1000000, .f32⟩ : BufTy).Contents (Elt F) → (⟨S_, .f32⟩ : BufTy).Contents (Elt F) → (⟨S1, .f32⟩ : BufTy).Contents (Elt F)),
    unary main_v121 main_v122 (broadcastInDim S1x1 ![0] bcast_S1_S1x1_0 : (⟨S1, .f32⟩ : BufTy).Contents (Elt F) → (⟨S1x1, .f32⟩ : BufTy).Contents (Elt F)),
    nullary main_cst_16 (constant S_ .f32 0x24E69595#32),
    unary main_cst_16 main_v123 (broadcastInDim S1x1 ![] bcast_S_S1x1 : (⟨S_, .f32⟩ : BufTy).Contents (Elt F) → (⟨S1x1, .f32⟩ : BufTy).Contents (Elt F)),
    binary main_v122 main_v123 main_v124 (addf : (⟨S1x1, .f32⟩ : BufTy).Contents (Elt F) → (⟨S1x1, .f32⟩ : BufTy).Contents (Elt F) → (⟨S1x1, .f32⟩ : BufTy).Contents (Elt F)),
    unary main_v124 main_v125 (broadcastInDim S1x1000000 ![0, 1] bcast_S1x1_S1x1000000_0_1 : (⟨S1x1, .f32⟩ : BufTy).Contents (Elt F) → (⟨S1x1000000, .f32⟩ : BufTy).Contents (Elt F)),
    binary main_v120 main_v125 main_v126 (Host.divf : (⟨S1x1000000, .f32⟩ : BufTy).Contents (Elt F) → (⟨S1x1000000, .f32⟩ : BufTy).Contents (Elt F) → (⟨S1x1000000, .f32⟩ : BufTy).Contents (Elt F)) ]

/-- Operations 172 to 199 of @main (28 of them), the last writing `main_v149`. -/
abbrev rC1 : List (HloOp τ sig (Elt F)) :=
  [ unary main_v21 main_v127 ((extractStridedSlice S1x20 ![0, 0] · slices_S1x26_S1x20_0_0) : (⟨S1x26, .f32⟩ : BufTy).Contents (Elt F) → (⟨S1x20, .f32⟩ : BufTy).Contents (Elt F)),
    reshape main_v127 main_v128 rfl shapeCasts_S1x20_S20,
    unary main_v128 main_v129 (Host.tanh : (⟨S20, .f32⟩ : BufTy).Contents (Elt F) → (⟨S20, .f32⟩ : BufTy).Contents (Elt F)),
    unary main_v129 main_v130 (broadcastInDim S1x20 ![1] bcast_S20_S1x20_1 : (⟨S20, .f32⟩ : BufTy).Contents (Elt F) → (⟨S1x20, .f32⟩ : BufTy).Contents (Elt F)),
    unary main_v21 main_v131 ((extractStridedSlice S1x1 ![0, 20] · slices_S1x26_S1x1_0_20) : (⟨S1x26, .f32⟩ : BufTy).Contents (Elt F) → (⟨S1x1, .f32⟩ : BufTy).Contents (Elt F)),
    reshape main_v131 main_v132 rfl shapeCasts_S1x1_S_,
    unary main_v132 main_v133 (Host.negf : (⟨S_, .f32⟩ : BufTy).Contents (Elt F) → (⟨S_, .f32⟩ : BufTy).Contents (Elt F)),
    unary main_v133 main_v134 (Host.exp : (⟨S_, .f32⟩ : BufTy).Contents (Elt F) → (⟨S_, .f32⟩ : BufTy).Contents (Elt F)),
    nullary main_cst_17 (constant S_ .f32 0x3F800000#32),
    binary main_cst_17 main_v134 main_v135 (addf : (⟨S_, .f32⟩ : BufTy).Contents (Elt F) → (⟨S_, .f32⟩ : BufTy).Contents (Elt F) → (⟨S_, .f32⟩ : BufTy).Contents (Elt F)),
    nullary main_cst_18 (constant S_ .f32 0x3F800000#32),
    binary main_cst_18 main_v135 main_v136 (Host.divf : (⟨S_, .f32⟩ : BufTy).Contents (Elt F) → (⟨S_, .f32⟩ : BufTy).Contents (Elt F) → (⟨S_, .f32⟩ : BufTy).Contents (Elt F)),
    unary main_v21 main_v137 ((extractStridedSlice S1x3 ![0, 21] · slices_S1x26_S1x3_0_21) : (⟨S1x26, .f32⟩ : BufTy).Contents (Elt F) → (⟨S1x3, .f32⟩ : BufTy).Contents (Elt F)),
    reshape main_v137 main_v138 rfl shapeCasts_S1x3_S3,
    nullary main_cst_19 (constant S_ .f32 0xFF800000#32),
    binary main_v138 main_cst_19 main_v139 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    nullary main_cst_20 (constant S_ .f32 0xFF800000#32),
    binary main_cst_20 main_v139 main_v140 (maximumf : (⟨S_, .f32⟩ : BufTy).Contents (Elt F) → (⟨S_, .f32⟩ : BufTy).Contents (Elt F) → (⟨S_, .f32⟩ : BufTy).Contents (Elt F)),
    unary main_v140 main_v141 (broadcastInDim S1 ![] bcast_S_S1 : (⟨S_, .f32⟩ : BufTy).Contents (Elt F) → (⟨S1, .f32⟩ : BufTy).Contents (Elt F)),
    unary main_v141 main_v142 (broadcastInDim S3 ![0] bcast_S1_S3_0 : (⟨S1, .f32⟩ : BufTy).Contents (Elt F) → (⟨S3, .f32⟩ : BufTy).Contents (Elt F)),
    binary main_v138 main_v142 main_v143 (subf : (⟨S3, .f32⟩ : BufTy).Contents (Elt F) → (⟨S3, .f32⟩ : BufTy).Contents (Elt F) → (⟨S3, .f32⟩ : BufTy).Contents (Elt F)),
    unary main_v143 main_v144 (Host.exp : (⟨S3, .f32⟩ : BufTy).Contents (Elt F) → (⟨S3, .f32⟩ : BufTy).Contents (Elt F)),
    nullary main_cst_21 (constant S_ .f32 0x00000000#32),
    binary main_v144 main_cst_21 main_v145 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_v145 main_v146 (broadcastInDim S1 ![] bcast_S_S1 : (⟨S_, .f32⟩ : BufTy).Contents (Elt F) → (⟨S1, .f32⟩ : BufTy).Contents (Elt F)),
    unary main_v146 main_v147 (broadcastInDim S3 ![0] bcast_S1_S3_0 : (⟨S1, .f32⟩ : BufTy).Contents (Elt F) → (⟨S3, .f32⟩ : BufTy).Contents (Elt F)),
    binary main_v144 main_v147 main_v148 (Host.divf : (⟨S3, .f32⟩ : BufTy).Contents (Elt F) → (⟨S3, .f32⟩ : BufTy).Contents (Elt F) → (⟨S3, .f32⟩ : BufTy).Contents (Elt F)),
    unary main_v21 main_v149 ((extractStridedSlice S1x1 ![0, 24] · slices_S1x26_S1x1_0_24) : (⟨S1x26, .f32⟩ : BufTy).Contents (Elt F) → (⟨S1x1, .f32⟩ : BufTy).Contents (Elt F)) ]

/-- Operations 200 to 226 of @main (27 of them), the last writing `main_v155`. -/
abbrev rC2 : List (HloOp τ sig (Elt F)) :=
  [ reshape main_v149 main_v150 rfl shapeCasts_S1x1_S_,
    TRef.nullary (TRef.of (T := ⟨S_, .f32⟩) main_call4_cst) (constant S_ .f32 0x00000000#32),
    TRef.binary (TRef.of (T := ⟨S_, .f32⟩) main_v150) (TRef.of (T := ⟨S_, .f32⟩) main_call4_cst) (TRef.of (T := ⟨S_, .f32⟩) main_call4_v0) maximumf,
    TRef.binary (TRef.of (T := ⟨S_, .f32⟩) main_v150) (TRef.of (T := ⟨S_, .f32⟩) main_call4_cst) (TRef.of (T := ⟨S_, .f32⟩) main_call4_v1) subf,
    TRef.binary (TRef.of (T := ⟨S_, .f32⟩) main_call4_v1) (TRef.of (T := ⟨S_, .f32⟩) main_call4_v1) (TRef.of (T := ⟨S_, .i1⟩) main_call4_v2) (cmpf .une),
    TRef.binary (TRef.of (T := ⟨S_, .f32⟩) main_v150) (TRef.of (T := ⟨S_, .f32⟩) main_call4_cst) (TRef.of (T := ⟨S_, .f32⟩) main_call4_v3) addf,
    TRef.unary (TRef.of (T := ⟨S_, .f32⟩) main_call4_v1) (TRef.of (T := ⟨S_, .f32⟩) main_call4_v4) Host.absf,
    TRef.unary (TRef.of (T := ⟨S_, .f32⟩) main_call4_v4) (TRef.of (T := ⟨S_, .f32⟩) main_call4_v5) Host.negf,
    TRef.unary (TRef.of (T := ⟨S_, .f32⟩) main_call4_v5) (TRef.of (T := ⟨S_, .f32⟩) main_call4_v6) Host.exp,
    TRef.unary (TRef.of (T := ⟨S_, .f32⟩) main_call4_v6) (TRef.of (T := ⟨S_, .f32⟩) main_call4_v7) Host.log1p,
    TRef.binary (TRef.of (T := ⟨S_, .f32⟩) main_call4_v0) (TRef.of (T := ⟨S_, .f32⟩) main_call4_v7) (TRef.of (T := ⟨S_, .f32⟩) main_call4_v8) addf,
    TRef.ternary (TRef.of (T := ⟨S_, .i1⟩) main_call4_v2) (TRef.of (T := ⟨S_, .f32⟩) main_call4_v3) (TRef.of (T := ⟨S_, .f32⟩) main_call4_v8) (TRef.of (T := ⟨S_, .f32⟩) main_v151) select,
    nullary main_cst_22 (constant S_ .f32 0x3F800000#32),
    binary main_cst_22 main_v151 main_v152 (addf : (⟨S_, .f32⟩ : BufTy).Contents (Elt F) → (⟨S_, .f32⟩ : BufTy).Contents (Elt F) → (⟨S_, .f32⟩ : BufTy).Contents (Elt F)),
    unary main_v21 main_v153 ((extractStridedSlice S1x1 ![0, 25] · slices_S1x26_S1x1_0_25) : (⟨S1x26, .f32⟩ : BufTy).Contents (Elt F) → (⟨S1x1, .f32⟩ : BufTy).Contents (Elt F)),
    reshape main_v153 main_v154 rfl shapeCasts_S1x1_S_,
    TRef.nullary (TRef.of (T := ⟨S_, .f32⟩) main_call5_cst) (constant S_ .f32 0x00000000#32),
    TRef.binary (TRef.of (T := ⟨S_, .f32⟩) main_v154) (TRef.of (T := ⟨S_, .f32⟩) main_call5_cst) (TRef.of (T := ⟨S_, .f32⟩) main_call5_v0) maximumf,
    TRef.binary (TRef.of (T := ⟨S_, .f32⟩) main_v154) (TRef.of (T := ⟨S_, .f32⟩) main_call5_cst) (TRef.of (T := ⟨S_, .f32⟩) main_call5_v1) subf,
    TRef.binary (TRef.of (T := ⟨S_, .f32⟩) main_call5_v1) (TRef.of (T := ⟨S_, .f32⟩) main_call5_v1) (TRef.of (T := ⟨S_, .i1⟩) main_call5_v2) (cmpf .une),
    TRef.binary (TRef.of (T := ⟨S_, .f32⟩) main_v154) (TRef.of (T := ⟨S_, .f32⟩) main_call5_cst) (TRef.of (T := ⟨S_, .f32⟩) main_call5_v3) addf,
    TRef.unary (TRef.of (T := ⟨S_, .f32⟩) main_call5_v1) (TRef.of (T := ⟨S_, .f32⟩) main_call5_v4) Host.absf,
    TRef.unary (TRef.of (T := ⟨S_, .f32⟩) main_call5_v4) (TRef.of (T := ⟨S_, .f32⟩) main_call5_v5) Host.negf,
    TRef.unary (TRef.of (T := ⟨S_, .f32⟩) main_call5_v5) (TRef.of (T := ⟨S_, .f32⟩) main_call5_v6) Host.exp,
    TRef.unary (TRef.of (T := ⟨S_, .f32⟩) main_call5_v6) (TRef.of (T := ⟨S_, .f32⟩) main_call5_v7) Host.log1p,
    TRef.binary (TRef.of (T := ⟨S_, .f32⟩) main_call5_v0) (TRef.of (T := ⟨S_, .f32⟩) main_call5_v7) (TRef.of (T := ⟨S_, .f32⟩) main_call5_v8) addf,
    TRef.ternary (TRef.of (T := ⟨S_, .i1⟩) main_call5_v2) (TRef.of (T := ⟨S_, .f32⟩) main_call5_v3) (TRef.of (T := ⟨S_, .f32⟩) main_call5_v8) (TRef.of (T := ⟨S_, .f32⟩) main_v155) select ]

/-- Operations 227 to 277 of @main (51 of them), the last writing `main_v192`. -/
abbrev rD1 : List (HloOp τ sig (Elt F)) :=
  [ nullary main_cst_23 (constant S_ .f32 0x24E69595#32),
    unary main_cst_23 main_v156 (broadcastInDim S1000000x20 ![] bcast_S_S1000000x20 : (⟨S_, .f32⟩ : BufTy).Contents (Elt F) → (⟨S1000000x20, .f32⟩ : BufTy).Contents (Elt F)),
    binary main_arg3 main_v156 main_v157 (addf : (⟨S1000000x20, .f32⟩ : BufTy).Contents (Elt F) → (⟨S1000000x20, .f32⟩ : BufTy).Contents (Elt F) → (⟨S1000000x20, .f32⟩ : BufTy).Contents (Elt F)),
    nullary main_cst_24 (constant S_ .f32 0x24E69595#32),
    unary main_cst_24 main_v158 (broadcastInDim S1x20 ![] bcast_S_S1x20 : (⟨S_, .f32⟩ : BufTy).Contents (Elt F) → (⟨S1x20, .f32⟩ : BufTy).Contents (Elt F)),
    binary main_v130 main_v158 main_v159 (addf : (⟨S1x20, .f32⟩ : BufTy).Contents (Elt F) → (⟨S1x20, .f32⟩ : BufTy).Contents (Elt F) → (⟨S1x20, .f32⟩ : BufTy).Contents (Elt F)),
    unary main_v159 main_v160 ((transpose S20x1 [1, 0] · transposes_S1x20_S20x1_1_0) : (⟨S1x20, .f32⟩ : BufTy).Contents (Elt F) → (⟨S20x1, .f32⟩ : BufTy).Contents (Elt F)),
    binary main_v157 main_v160 main_v161 ((fun l r => Host.dotGeneral dot_S1000000x20_S20x1_S1000000x1_1_0_0_1_n_n none l r) : (⟨S1000000x20, .f32⟩ : BufTy).Contents (Elt F) → (⟨S20x1, .f32⟩ : BufTy).Contents (Elt F) → (⟨S1000000x1, .f32⟩ : BufTy).Contents (Elt F)),
    reshape main_v161 main_v162 rfl shapeCasts_S1000000x1_S1000000,
    TRef.binary (TRef.of (T := ⟨S1000000x20, .f32⟩) main_v157) (TRef.of (T := ⟨S1000000x20, .f32⟩) main_v157) (TRef.of (T := ⟨S1000000x20, .f32⟩) main_call6_v0) mulf,
    TRef.nullary (TRef.of (T := ⟨S_, .f32⟩) main_call6_cst) (constant S_ .f32 0x00000000#32),
    TRef.binary (TRef.of (T := ⟨S1000000x20, .f32⟩) main_call6_v0) (TRef.of (T := ⟨S_, .f32⟩) main_call6_cst) (TRef.of (T := ⟨S1000000, .f32⟩) main_call6_v1) (fun x v => Host.reduceAdd x v reducesTo_S1000000x20_S1000000_d1 h_S_),
    TRef.unary (TRef.of (T := ⟨S1000000, .f32⟩) main_call6_v1) (TRef.of (T := ⟨S1000000, .f32⟩) main_v163) Host.sqrt,
    nullary main_cst_25 (constant S_ .f32 0x322BCC77#32),
    unary main_cst_25 main_v164 (broadcastInDim S1000000 ![] bcast_S_S1000000 : (⟨S_, .f32⟩ : BufTy).Contents (Elt F) → (⟨S1000000, .f32⟩ : BufTy).Contents (Elt F)),
    binary main_v163 main_v164 main_v165 (maximumf : (⟨S1000000, .f32⟩ : BufTy).Contents (Elt F) → (⟨S1000000, .f32⟩ : BufTy).Contents (Elt F) → (⟨S1000000, .f32⟩ : BufTy).Contents (Elt F)),
    TRef.binary (TRef.of (T := ⟨S1x20, .f32⟩) main_v159) (TRef.of (T := ⟨S1x20, .f32⟩) main_v159) (TRef.of (T := ⟨S1x20, .f32⟩) main_call7_v0) mulf,
    TRef.nullary (TRef.of (T := ⟨S_, .f32⟩) main_call7_cst) (constant S_ .f32 0x00000000#32),
    TRef.binary (TRef.of (T := ⟨S1x20, .f32⟩) main_call7_v0) (TRef.of (T := ⟨S_, .f32⟩) main_call7_cst) (TRef.of (T := ⟨S1, .f32⟩) main_call7_v1) (fun x v => Host.reduceAdd x v reducesTo_S1x20_S1_d1 h_S_),
    TRef.unary (TRef.of (T := ⟨S1, .f32⟩) main_call7_v1) (TRef.of (T := ⟨S1, .f32⟩) main_v166) Host.sqrt,
    nullary main_cst_26 (constant S_ .f32 0x322BCC77#32),
    unary main_cst_26 main_v167 (broadcastInDim S1 ![] bcast_S_S1 : (⟨S_, .f32⟩ : BufTy).Contents (Elt F) → (⟨S1, .f32⟩ : BufTy).Contents (Elt F)),
    binary main_v166 main_v167 main_v168 (maximumf : (⟨S1, .f32⟩ : BufTy).Contents (Elt F) → (⟨S1, .f32⟩ : BufTy).Contents (Elt F) → (⟨S1, .f32⟩ : BufTy).Contents (Elt F)),
    unary main_v168 main_v169 (broadcastInDim S1000000 ![0] bcast_S1_S1000000_0 : (⟨S1, .f32⟩ : BufTy).Contents (Elt F) → (⟨S1000000, .f32⟩ : BufTy).Contents (Elt F)),
    binary main_v165 main_v169 main_v170 (mulf : (⟨S1000000, .f32⟩ : BufTy).Contents (Elt F) → (⟨S1000000, .f32⟩ : BufTy).Contents (Elt F) → (⟨S1000000, .f32⟩ : BufTy).Contents (Elt F)),
    binary main_v162 main_v170 main_v171 (Host.divf : (⟨S1000000, .f32⟩ : BufTy).Contents (Elt F) → (⟨S1000000, .f32⟩ : BufTy).Contents (Elt F) → (⟨S1000000, .f32⟩ : BufTy).Contents (Elt F)),
    unary main_v155 main_v172 (broadcastInDim S1000000 ![] bcast_S_S1000000 : (⟨S_, .f32⟩ : BufTy).Contents (Elt F) → (⟨S1000000, .f32⟩ : BufTy).Contents (Elt F)),
    binary main_v171 main_v172 main_v173 (mulf : (⟨S1000000, .f32⟩ : BufTy).Contents (Elt F) → (⟨S1000000, .f32⟩ : BufTy).Contents (Elt F) → (⟨S1000000, .f32⟩ : BufTy).Contents (Elt F)),
    nullary main_cst_27 (constant S_ .f32 0xFF800000#32),
    binary main_v173 main_cst_27 main_v174 ((fun x v => Host.reduce FloatOps.maximumf x v reducesTo_S1000000_S_d0 h_S_) : (⟨S1000000, .f32⟩ : BufTy).Contents (Elt F) → (⟨S_, .f32⟩ : BufTy).Contents (Elt F) → (⟨S_, .f32⟩ : BufTy).Contents (Elt F)),
    nullary main_cst_28 (constant S_ .f32 0xFF800000#32),
    binary main_cst_28 main_v174 main_v175 (maximumf : (⟨S_, .f32⟩ : BufTy).Contents (Elt F) → (⟨S_, .f32⟩ : BufTy).Contents (Elt F) → (⟨S_, .f32⟩ : BufTy).Contents (Elt F)),
    unary main_v175 main_v176 (broadcastInDim S1 ![] bcast_S_S1 : (⟨S_, .f32⟩ : BufTy).Contents (Elt F) → (⟨S1, .f32⟩ : BufTy).Contents (Elt F)),
    unary main_v176 main_v177 (broadcastInDim S1000000 ![0] bcast_S1_S1000000_0 : (⟨S1, .f32⟩ : BufTy).Contents (Elt F) → (⟨S1000000, .f32⟩ : BufTy).Contents (Elt F)),
    binary main_v173 main_v177 main_v178 (subf : (⟨S1000000, .f32⟩ : BufTy).Contents (Elt F) → (⟨S1000000, .f32⟩ : BufTy).Contents (Elt F) → (⟨S1000000, .f32⟩ : BufTy).Contents (Elt F)),
    unary main_v178 main_v179 (Host.exp : (⟨S1000000, .f32⟩ : BufTy).Contents (Elt F) → (⟨S1000000, .f32⟩ : BufTy).Contents (Elt F)),
    nullary main_cst_29 (constant S_ .f32 0x00000000#32),
    binary main_v179 main_cst_29 main_v180 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    unary main_v180 main_v181 (broadcastInDim S1 ![] bcast_S_S1 : (⟨S_, .f32⟩ : BufTy).Contents (Elt F) → (⟨S1, .f32⟩ : BufTy).Contents (Elt F)),
    unary main_v181 main_v182 (broadcastInDim S1000000 ![0] bcast_S1_S1000000_0 : (⟨S1, .f32⟩ : BufTy).Contents (Elt F) → (⟨S1000000, .f32⟩ : BufTy).Contents (Elt F)),
    binary main_v179 main_v182 main_v183 (Host.divf : (⟨S1000000, .f32⟩ : BufTy).Contents (Elt F) → (⟨S1000000, .f32⟩ : BufTy).Contents (Elt F) → (⟨S1000000, .f32⟩ : BufTy).Contents (Elt F)),
    unary main_v136 main_v184 (broadcastInDim S1000000 ![] bcast_S_S1000000 : (⟨S_, .f32⟩ : BufTy).Contents (Elt F) → (⟨S1000000, .f32⟩ : BufTy).Contents (Elt F)),
    binary main_v184 main_v183 main_v185 (mulf : (⟨S1000000, .f32⟩ : BufTy).Contents (Elt F) → (⟨S1000000, .f32⟩ : BufTy).Contents (Elt F) → (⟨S1000000, .f32⟩ : BufTy).Contents (Elt F)),
    nullary main_cst_30 (constant S_ .f32 0x3F800000#32),
    binary main_cst_30 main_v136 main_v186 (subf : (⟨S_, .f32⟩ : BufTy).Contents (Elt F) → (⟨S_, .f32⟩ : BufTy).Contents (Elt F) → (⟨S_, .f32⟩ : BufTy).Contents (Elt F)),
    unary main_v186 main_v187 (broadcastInDim S1x1000000 ![] bcast_S_S1x1000000 : (⟨S_, .f32⟩ : BufTy).Contents (Elt F) → (⟨S1x1000000, .f32⟩ : BufTy).Contents (Elt F)),
    binary main_v187 main_arg2 main_v188 (mulf : (⟨S1x1000000, .f32⟩ : BufTy).Contents (Elt F) → (⟨S1x1000000, .f32⟩ : BufTy).Contents (Elt F) → (⟨S1x1000000, .f32⟩ : BufTy).Contents (Elt F)),
    unary main_v185 main_v189 (broadcastInDim S1x1000000 ![1] bcast_S1000000_S1x1000000_1 : (⟨S1000000, .f32⟩ : BufTy).Contents (Elt F) → (⟨S1x1000000, .f32⟩ : BufTy).Contents (Elt F)),
    binary main_v189 main_v188 main_v190 (addf : (⟨S1x1000000, .f32⟩ : BufTy).Contents (Elt F) → (⟨S1x1000000, .f32⟩ : BufTy).Contents (Elt F) → (⟨S1x1000000, .f32⟩ : BufTy).Contents (Elt F)),
    unary main_v190 main_v191 ((extractStridedSlice S1x1 ![0, 999999] · slices_S1x1000000_S1x1_0_999999) : (⟨S1x1000000, .f32⟩ : BufTy).Contents (Elt F) → (⟨S1x1, .f32⟩ : BufTy).Contents (Elt F)),
    unary main_v190 main_v192 ((extractStridedSlice S1x1 ![0, 0] · slices_S1x1000000_S1x1_0_0) : (⟨S1x1000000, .f32⟩ : BufTy).Contents (Elt F) → (⟨S1x1, .f32⟩ : BufTy).Contents (Elt F)) ]

/-- Operations 278 to 305 of @main (28 of them), the last writing `main_v218`. -/
abbrev rD2 : List (HloOp τ sig (Elt F)) :=
  [ nary ![main_v191, main_v190, main_v192] main_v193 (fun u => concatenate S1x1000002 1 [⟨S1x1, u 0⟩, ⟨S1x1000000, u 1⟩, ⟨S1x1, u 2⟩] concatenates_S1x1_S1x1000000_S1x1_S1x1000002_d1),
    unary main_v148 main_v194 ((extractStridedSlice S1 ![0] · slices_S3_S1_0) : (⟨S3, .f32⟩ : BufTy).Contents (Elt F) → (⟨S1, .f32⟩ : BufTy).Contents (Elt F)),
    reshape main_v194 main_v195 rfl shapeCasts_S1_S_,
    unary main_v193 main_v196 ((extractStridedSlice S1x1000000 ![0, 0] · slices_S1x1000002_S1x1000000_0_0) : (⟨S1x1000002, .f32⟩ : BufTy).Contents (Elt F) → (⟨S1x1000000, .f32⟩ : BufTy).Contents (Elt F)),
    unary main_v195 main_v197 (broadcastInDim S1x1000000 ![] bcast_S_S1x1000000 : (⟨S_, .f32⟩ : BufTy).Contents (Elt F) → (⟨S1x1000000, .f32⟩ : BufTy).Contents (Elt F)),
    binary main_v197 main_v196 main_v198 (mulf : (⟨S1x1000000, .f32⟩ : BufTy).Contents (Elt F) → (⟨S1x1000000, .f32⟩ : BufTy).Contents (Elt F) → (⟨S1x1000000, .f32⟩ : BufTy).Contents (Elt F)),
    unary main_v148 main_v199 ((extractStridedSlice S1 ![1] · slices_S3_S1_1) : (⟨S3, .f32⟩ : BufTy).Contents (Elt F) → (⟨S1, .f32⟩ : BufTy).Contents (Elt F)),
    reshape main_v199 main_v200 rfl shapeCasts_S1_S_,
    unary main_v193 main_v201 ((extractStridedSlice S1x1000000 ![0, 1] · slices_S1x1000002_S1x1000000_0_1) : (⟨S1x1000002, .f32⟩ : BufTy).Contents (Elt F) → (⟨S1x1000000, .f32⟩ : BufTy).Contents (Elt F)),
    unary main_v200 main_v202 (broadcastInDim S1x1000000 ![] bcast_S_S1x1000000 : (⟨S_, .f32⟩ : BufTy).Contents (Elt F) → (⟨S1x1000000, .f32⟩ : BufTy).Contents (Elt F)),
    binary main_v202 main_v201 main_v203 (mulf : (⟨S1x1000000, .f32⟩ : BufTy).Contents (Elt F) → (⟨S1x1000000, .f32⟩ : BufTy).Contents (Elt F) → (⟨S1x1000000, .f32⟩ : BufTy).Contents (Elt F)),
    binary main_v198 main_v203 main_v204 (addf : (⟨S1x1000000, .f32⟩ : BufTy).Contents (Elt F) → (⟨S1x1000000, .f32⟩ : BufTy).Contents (Elt F) → (⟨S1x1000000, .f32⟩ : BufTy).Contents (Elt F)),
    unary main_v148 main_v205 ((extractStridedSlice S1 ![2] · slices_S3_S1_2) : (⟨S3, .f32⟩ : BufTy).Contents (Elt F) → (⟨S1, .f32⟩ : BufTy).Contents (Elt F)),
    reshape main_v205 main_v206 rfl shapeCasts_S1_S_,
    unary main_v193 main_v207 ((extractStridedSlice S1x1000000 ![0, 2] · slices_S1x1000002_S1x1000000_0_2) : (⟨S1x1000002, .f32⟩ : BufTy).Contents (Elt F) → (⟨S1x1000000, .f32⟩ : BufTy).Contents (Elt F)),
    unary main_v206 main_v208 (broadcastInDim S1x1000000 ![] bcast_S_S1x1000000 : (⟨S_, .f32⟩ : BufTy).Contents (Elt F) → (⟨S1x1000000, .f32⟩ : BufTy).Contents (Elt F)),
    binary main_v208 main_v207 main_v209 (mulf : (⟨S1x1000000, .f32⟩ : BufTy).Contents (Elt F) → (⟨S1x1000000, .f32⟩ : BufTy).Contents (Elt F) → (⟨S1x1000000, .f32⟩ : BufTy).Contents (Elt F)),
    binary main_v204 main_v209 main_v210 (addf : (⟨S1x1000000, .f32⟩ : BufTy).Contents (Elt F) → (⟨S1x1000000, .f32⟩ : BufTy).Contents (Elt F) → (⟨S1x1000000, .f32⟩ : BufTy).Contents (Elt F)),
    unary main_v152 main_v211 (broadcastInDim S1x1000000 ![] bcast_S_S1x1000000 : (⟨S_, .f32⟩ : BufTy).Contents (Elt F) → (⟨S1x1000000, .f32⟩ : BufTy).Contents (Elt F)),
    binary main_v210 main_v211 main_v212 (Host.powf : (⟨S1x1000000, .f32⟩ : BufTy).Contents (Elt F) → (⟨S1x1000000, .f32⟩ : BufTy).Contents (Elt F) → (⟨S1x1000000, .f32⟩ : BufTy).Contents (Elt F)),
    nullary main_cst_31 (constant S_ .f32 0x00000000#32),
    binary main_v212 main_cst_31 main_v213 ((fun x v => Host.reduceAdd x v reducesTo_S1x1000000_S1_d1 h_S_) : (⟨S1x1000000, .f32⟩ : BufTy).Contents (Elt F) → (⟨S_, .f32⟩ : BufTy).Contents (Elt F) → (⟨S1, .f32⟩ : BufTy).Contents (Elt F)),
    unary main_v213 main_v214 (broadcastInDim S1x1 ![0] bcast_S1_S1x1_0 : (⟨S1, .f32⟩ : BufTy).Contents (Elt F) → (⟨S1x1, .f32⟩ : BufTy).Contents (Elt F)),
    nullary main_cst_32 (constant S_ .f32 0x24E69595#32),
    unary main_cst_32 main_v215 (broadcastInDim S1x1 ![] bcast_S_S1x1 : (⟨S_, .f32⟩ : BufTy).Contents (Elt F) → (⟨S1x1, .f32⟩ : BufTy).Contents (Elt F)),
    binary main_v214 main_v215 main_v216 (addf : (⟨S1x1, .f32⟩ : BufTy).Contents (Elt F) → (⟨S1x1, .f32⟩ : BufTy).Contents (Elt F) → (⟨S1x1, .f32⟩ : BufTy).Contents (Elt F)),
    unary main_v216 main_v217 (broadcastInDim S1x1000000 ![0, 1] bcast_S1x1_S1x1000000_0_1 : (⟨S1x1, .f32⟩ : BufTy).Contents (Elt F) → (⟨S1x1000000, .f32⟩ : BufTy).Contents (Elt F)),
    binary main_v212 main_v217 main_v218 (Host.divf : (⟨S1x1000000, .f32⟩ : BufTy).Contents (Elt F) → (⟨S1x1000000, .f32⟩ : BufTy).Contents (Elt F) → (⟨S1x1000000, .f32⟩ : BufTy).Contents (Elt F)) ]

/-- Operations 306 to 306 of @main (1 of them), the last writing `main_v219`. -/
abbrev rE : List (HloOp τ sig (Elt F)) :=
  [ binary main_v126 main_arg3 main_v219 ((fun l r => Host.dotGeneral dot_S1x1000000_S1000000x20_S1x20_1_0_0_1_n_n none l r) : (⟨S1x1000000, .f32⟩ : BufTy).Contents (Elt F) → (⟨S1000000x20, .f32⟩ : BufTy).Contents (Elt F) → (⟨S1x20, .f32⟩ : BufTy).Contents (Elt F)) ]

/-- Operations 307 to 347 of @main (41 of them), the last writing `main_v251`. -/
abbrev rF1 : List (HloOp τ sig (Elt F)) :=
  [ binary main_arg4 main_v219 main_v220 ((fun a b => concatenate S1x40 1 [⟨S1x20, a⟩, ⟨S1x20, b⟩] concatenates_S1x20_S1x20_S1x40_d1) : (⟨S1x20, .f32⟩ : BufTy).Contents (Elt F) → (⟨S1x20, .f32⟩ : BufTy).Contents (Elt F) → (⟨S1x40, .f32⟩ : BufTy).Contents (Elt F)),
    unary main_v15 main_v221 ((extractStridedSlice S1x1 ![0, 0] · slices_S1x3_S1x1_0_0) : (⟨S1x3, .f32⟩ : BufTy).Contents (Elt F) → (⟨S1x1, .f32⟩ : BufTy).Contents (Elt F)),
    reshape main_v221 main_v222 rfl shapeCasts_S1x1_S_,
    unary main_v222 main_v223 (Host.negf : (⟨S_, .f32⟩ : BufTy).Contents (Elt F) → (⟨S_, .f32⟩ : BufTy).Contents (Elt F)),
    unary main_v223 main_v224 (Host.exp : (⟨S_, .f32⟩ : BufTy).Contents (Elt F) → (⟨S_, .f32⟩ : BufTy).Contents (Elt F)),
    nullary main_cst_33 (constant S_ .f32 0x3F800000#32),
    binary main_cst_33 main_v224 main_v225 (addf : (⟨S_, .f32⟩ : BufTy).Contents (Elt F) → (⟨S_, .f32⟩ : BufTy).Contents (Elt F) → (⟨S_, .f32⟩ : BufTy).Contents (Elt F)),
    nullary main_cst_34 (constant S_ .f32 0x3F800000#32),
    binary main_cst_34 main_v225 main_v226 (Host.divf : (⟨S_, .f32⟩ : BufTy).Contents (Elt F) → (⟨S_, .f32⟩ : BufTy).Contents (Elt F) → (⟨S_, .f32⟩ : BufTy).Contents (Elt F)),
    unary main_v15 main_v227 ((extractStridedSlice S1x2 ![0, 1] · slices_S1x3_S1x2_0_1) : (⟨S1x3, .f32⟩ : BufTy).Contents (Elt F) → (⟨S1x2, .f32⟩ : BufTy).Contents (Elt F)),
    nullary main_cst_35 (constant S_ .f32 0xFF800000#32),
    binary main_v227 main_cst_35 main_v228 ((fun x v => Host.reduce FloatOps.maximumf x v reducesTo_S1x2_S1_d1 h_S_) : (⟨S1x2, .f32⟩ : BufTy).Contents (Elt F) → (⟨S_, .f32⟩ : BufTy).Contents (Elt F) → (⟨S1, .f32⟩ : BufTy).Contents (Elt F)),
    nullary main_cst_36 (constant S_ .f32 0xFF800000#32),
    unary main_cst_36 main_v229 (broadcastInDim S1 ![] bcast_S_S1 : (⟨S_, .f32⟩ : BufTy).Contents (Elt F) → (⟨S1, .f32⟩ : BufTy).Contents (Elt F)),
    binary main_v229 main_v228 main_v230 (maximumf : (⟨S1, .f32⟩ : BufTy).Contents (Elt F) → (⟨S1, .f32⟩ : BufTy).Contents (Elt F) → (⟨S1, .f32⟩ : BufTy).Contents (Elt F)),
    unary main_v230 main_v231 (broadcastInDim S1x1 ![0] bcast_S1_S1x1_0 : (⟨S1, .f32⟩ : BufTy).Contents (Elt F) → (⟨S1x1, .f32⟩ : BufTy).Contents (Elt F)),
    unary main_v231 main_v232 (broadcastInDim S1x2 ![0, 1] bcast_S1x1_S1x2_0_1 : (⟨S1x1, .f32⟩ : BufTy).Contents (Elt F) → (⟨S1x2, .f32⟩ : BufTy).Contents (Elt F)),
    binary main_v227 main_v232 main_v233 (subf : (⟨S1x2, .f32⟩ : BufTy).Contents (Elt F) → (⟨S1x2, .f32⟩ : BufTy).Contents (Elt F) → (⟨S1x2, .f32⟩ : BufTy).Contents (Elt F)),
    unary main_v233 main_v234 (Host.exp : (⟨S1x2, .f32⟩ : BufTy).Contents (Elt F) → (⟨S1x2, .f32⟩ : BufTy).Contents (Elt F)),
    nullary main_cst_37 (constant S_ .f32 0x00000000#32),
    binary main_v234 main_cst_37 main_v235 ((fun x v => Host.reduceAdd x v reducesTo_S1x2_S1_d1 h_S_) : (⟨S1x2, .f32⟩ : BufTy).Contents (Elt F) → (⟨S_, .f32⟩ : BufTy).Contents (Elt F) → (⟨S1, .f32⟩ : BufTy).Contents (Elt F)),
    unary main_v235 main_v236 (broadcastInDim S1x1 ![0] bcast_S1_S1x1_0 : (⟨S1, .f32⟩ : BufTy).Contents (Elt F) → (⟨S1x1, .f32⟩ : BufTy).Contents (Elt F)),
    unary main_v236 main_v237 (broadcastInDim S1x2 ![0, 1] bcast_S1x1_S1x2_0_1 : (⟨S1x1, .f32⟩ : BufTy).Contents (Elt F) → (⟨S1x2, .f32⟩ : BufTy).Contents (Elt F)),
    binary main_v234 main_v237 main_v238 (Host.divf : (⟨S1x2, .f32⟩ : BufTy).Contents (Elt F) → (⟨S1x2, .f32⟩ : BufTy).Contents (Elt F) → (⟨S1x2, .f32⟩ : BufTy).Contents (Elt F)),
    unary main_arg15 main_v239 ((transpose S40x110 [1, 0] · transposes_S110x40_S40x110_1_0) : (⟨S110x40, .f32⟩ : BufTy).Contents (Elt F) → (⟨S40x110, .f32⟩ : BufTy).Contents (Elt F)),
    binary main_v220 main_v239 main_v240 ((fun l r => Host.dotGeneral dot_S1x40_S40x110_S1x110_1_0_0_1_n_n none l r) : (⟨S1x40, .f32⟩ : BufTy).Contents (Elt F) → (⟨S40x110, .f32⟩ : BufTy).Contents (Elt F) → (⟨S1x110, .f32⟩ : BufTy).Contents (Elt F)),
    unary main_arg16 main_v241 (broadcastInDim S1x110 ![1] bcast_S110_S1x110_1 : (⟨S110, .f32⟩ : BufTy).Contents (Elt F) → (⟨S1x110, .f32⟩ : BufTy).Contents (Elt F)),
    binary main_v240 main_v241 main_v242 (addf : (⟨S1x110, .f32⟩ : BufTy).Contents (Elt F) → (⟨S1x110, .f32⟩ : BufTy).Contents (Elt F) → (⟨S1x110, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S1x110, .f32⟩) main_call8_v0) (broadcastInDim S1x110 ![] bcast_S_S1x110),
    TRef.binary (TRef.of (T := ⟨S1x110, .f32⟩) main_v242) (TRef.of (T := ⟨S1x110, .f32⟩) main_call8_v0) (TRef.of (T := ⟨S1x110, .f32⟩) main_v243) maximumf,
    unary main_arg17 main_v244 ((transpose S110x190 [1, 0] · transposes_S190x110_S110x190_1_0) : (⟨S190x110, .f32⟩ : BufTy).Contents (Elt F) → (⟨S110x190, .f32⟩ : BufTy).Contents (Elt F)),
    binary main_v243 main_v244 main_v245 ((fun l r => Host.dotGeneral dot_S1x110_S110x190_S1x190_1_0_0_1_n_n none l r) : (⟨S1x110, .f32⟩ : BufTy).Contents (Elt F) → (⟨S110x190, .f32⟩ : BufTy).Contents (Elt F) → (⟨S1x190, .f32⟩ : BufTy).Contents (Elt F)),
    unary main_arg18 main_v246 (broadcastInDim S1x190 ![1] bcast_S190_S1x190_1 : (⟨S190, .f32⟩ : BufTy).Contents (Elt F) → (⟨S1x190, .f32⟩ : BufTy).Contents (Elt F)),
    binary main_v245 main_v246 main_v247 (addf : (⟨S1x190, .f32⟩ : BufTy).Contents (Elt F) → (⟨S1x190, .f32⟩ : BufTy).Contents (Elt F) → (⟨S1x190, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S1x190, .f32⟩) main_call9_v0) (broadcastInDim S1x190 ![] bcast_S_S1x190),
    TRef.binary (TRef.of (T := ⟨S1x190, .f32⟩) main_v247) (TRef.of (T := ⟨S1x190, .f32⟩) main_call9_v0) (TRef.of (T := ⟨S1x190, .f32⟩) main_v248) maximumf,
    unary main_arg19 main_v249 ((transpose S190x270 [1, 0] · transposes_S270x190_S190x270_1_0) : (⟨S270x190, .f32⟩ : BufTy).Contents (Elt F) → (⟨S190x270, .f32⟩ : BufTy).Contents (Elt F)),
    binary main_v248 main_v249 main_v250 ((fun l r => Host.dotGeneral dot_S1x190_S190x270_S1x270_1_0_0_1_n_n none l r) : (⟨S1x190, .f32⟩ : BufTy).Contents (Elt F) → (⟨S190x270, .f32⟩ : BufTy).Contents (Elt F) → (⟨S1x270, .f32⟩ : BufTy).Contents (Elt F)),
    unary main_arg20 main_v251 (broadcastInDim S1x270 ![1] bcast_S270_S1x270_1 : (⟨S270, .f32⟩ : BufTy).Contents (Elt F) → (⟨S1x270, .f32⟩ : BufTy).Contents (Elt F)) ]

/-- Operations 348 to 388 of @main (41 of them), the last writing `main_call13_cst`. -/
abbrev rF2 : List (HloOp τ sig (Elt F)) :=
  [ binary main_v250 main_v251 main_v252 (addf : (⟨S1x270, .f32⟩ : BufTy).Contents (Elt F) → (⟨S1x270, .f32⟩ : BufTy).Contents (Elt F) → (⟨S1x270, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S1x270, .f32⟩) main_call10_v0) (broadcastInDim S1x270 ![] bcast_S_S1x270),
    TRef.binary (TRef.of (T := ⟨S1x270, .f32⟩) main_v252) (TRef.of (T := ⟨S1x270, .f32⟩) main_call10_v0) (TRef.of (T := ⟨S1x270, .f32⟩) main_v253) maximumf,
    unary main_arg21 main_v254 ((transpose S270x325 [1, 0] · transposes_S325x270_S270x325_1_0) : (⟨S325x270, .f32⟩ : BufTy).Contents (Elt F) → (⟨S270x325, .f32⟩ : BufTy).Contents (Elt F)),
    binary main_v253 main_v254 main_v255 ((fun l r => Host.dotGeneral dot_S1x270_S270x325_S1x325_1_0_0_1_n_n none l r) : (⟨S1x270, .f32⟩ : BufTy).Contents (Elt F) → (⟨S270x325, .f32⟩ : BufTy).Contents (Elt F) → (⟨S1x325, .f32⟩ : BufTy).Contents (Elt F)),
    unary main_arg22 main_v256 (broadcastInDim S1x325 ![1] bcast_S325_S1x325_1 : (⟨S325, .f32⟩ : BufTy).Contents (Elt F) → (⟨S1x325, .f32⟩ : BufTy).Contents (Elt F)),
    binary main_v255 main_v256 main_v257 (addf : (⟨S1x325, .f32⟩ : BufTy).Contents (Elt F) → (⟨S1x325, .f32⟩ : BufTy).Contents (Elt F) → (⟨S1x325, .f32⟩ : BufTy).Contents (Elt F)),
    nullary main_cst_38 (constant S_ .f32 0xFF800000#32),
    binary main_v257 main_cst_38 main_v258 ((fun x v => Host.reduce FloatOps.maximumf x v reducesTo_S1x325_S1_d1 h_S_) : (⟨S1x325, .f32⟩ : BufTy).Contents (Elt F) → (⟨S_, .f32⟩ : BufTy).Contents (Elt F) → (⟨S1, .f32⟩ : BufTy).Contents (Elt F)),
    nullary main_cst_39 (constant S_ .f32 0xFF800000#32),
    unary main_cst_39 main_v259 (broadcastInDim S1 ![] bcast_S_S1 : (⟨S_, .f32⟩ : BufTy).Contents (Elt F) → (⟨S1, .f32⟩ : BufTy).Contents (Elt F)),
    binary main_v259 main_v258 main_v260 (maximumf : (⟨S1, .f32⟩ : BufTy).Contents (Elt F) → (⟨S1, .f32⟩ : BufTy).Contents (Elt F) → (⟨S1, .f32⟩ : BufTy).Contents (Elt F)),
    unary main_v260 main_v261 (broadcastInDim S1x1 ![0] bcast_S1_S1x1_0 : (⟨S1, .f32⟩ : BufTy).Contents (Elt F) → (⟨S1x1, .f32⟩ : BufTy).Contents (Elt F)),
    unary main_v261 main_v262 (broadcastInDim S1x325 ![0, 1] bcast_S1x1_S1x325_0_1 : (⟨S1x1, .f32⟩ : BufTy).Contents (Elt F) → (⟨S1x325, .f32⟩ : BufTy).Contents (Elt F)),
    binary main_v257 main_v262 main_v263 (subf : (⟨S1x325, .f32⟩ : BufTy).Contents (Elt F) → (⟨S1x325, .f32⟩ : BufTy).Contents (Elt F) → (⟨S1x325, .f32⟩ : BufTy).Contents (Elt F)),
    unary main_v263 main_v264 (Host.exp : (⟨S1x325, .f32⟩ : BufTy).Contents (Elt F) → (⟨S1x325, .f32⟩ : BufTy).Contents (Elt F)),
    nullary main_cst_40 (constant S_ .f32 0x00000000#32),
    binary main_v264 main_cst_40 main_v265 ((fun x v => Host.reduceAdd x v reducesTo_S1x325_S1_d1 h_S_) : (⟨S1x325, .f32⟩ : BufTy).Contents (Elt F) → (⟨S_, .f32⟩ : BufTy).Contents (Elt F) → (⟨S1, .f32⟩ : BufTy).Contents (Elt F)),
    unary main_v265 main_v266 (broadcastInDim S1x1 ![0] bcast_S1_S1x1_0 : (⟨S1, .f32⟩ : BufTy).Contents (Elt F) → (⟨S1x1, .f32⟩ : BufTy).Contents (Elt F)),
    unary main_v266 main_v267 (broadcastInDim S1x325 ![0, 1] bcast_S1x1_S1x325_0_1 : (⟨S1x1, .f32⟩ : BufTy).Contents (Elt F) → (⟨S1x325, .f32⟩ : BufTy).Contents (Elt F)),
    binary main_v264 main_v267 main_v268 (Host.divf : (⟨S1x325, .f32⟩ : BufTy).Contents (Elt F) → (⟨S1x325, .f32⟩ : BufTy).Contents (Elt F) → (⟨S1x325, .f32⟩ : BufTy).Contents (Elt F)),
    unary main_arg23 main_v269 ((transpose S40x110 [1, 0] · transposes_S110x40_S40x110_1_0) : (⟨S110x40, .f32⟩ : BufTy).Contents (Elt F) → (⟨S40x110, .f32⟩ : BufTy).Contents (Elt F)),
    binary main_v220 main_v269 main_v270 ((fun l r => Host.dotGeneral dot_S1x40_S40x110_S1x110_1_0_0_1_n_n none l r) : (⟨S1x40, .f32⟩ : BufTy).Contents (Elt F) → (⟨S40x110, .f32⟩ : BufTy).Contents (Elt F) → (⟨S1x110, .f32⟩ : BufTy).Contents (Elt F)),
    unary main_arg24 main_v271 (broadcastInDim S1x110 ![1] bcast_S110_S1x110_1 : (⟨S110, .f32⟩ : BufTy).Contents (Elt F) → (⟨S1x110, .f32⟩ : BufTy).Contents (Elt F)),
    binary main_v270 main_v271 main_v272 (addf : (⟨S1x110, .f32⟩ : BufTy).Contents (Elt F) → (⟨S1x110, .f32⟩ : BufTy).Contents (Elt F) → (⟨S1x110, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S1x110, .f32⟩) main_call11_v0) (broadcastInDim S1x110 ![] bcast_S_S1x110),
    TRef.binary (TRef.of (T := ⟨S1x110, .f32⟩) main_v272) (TRef.of (T := ⟨S1x110, .f32⟩) main_call11_v0) (TRef.of (T := ⟨S1x110, .f32⟩) main_v273) maximumf,
    unary main_arg25 main_v274 ((transpose S110x190 [1, 0] · transposes_S190x110_S110x190_1_0) : (⟨S190x110, .f32⟩ : BufTy).Contents (Elt F) → (⟨S110x190, .f32⟩ : BufTy).Contents (Elt F)),
    binary main_v273 main_v274 main_v275 ((fun l r => Host.dotGeneral dot_S1x110_S110x190_S1x190_1_0_0_1_n_n none l r) : (⟨S1x110, .f32⟩ : BufTy).Contents (Elt F) → (⟨S110x190, .f32⟩ : BufTy).Contents (Elt F) → (⟨S1x190, .f32⟩ : BufTy).Contents (Elt F)),
    unary main_arg26 main_v276 (broadcastInDim S1x190 ![1] bcast_S190_S1x190_1 : (⟨S190, .f32⟩ : BufTy).Contents (Elt F) → (⟨S1x190, .f32⟩ : BufTy).Contents (Elt F)),
    binary main_v275 main_v276 main_v277 (addf : (⟨S1x190, .f32⟩ : BufTy).Contents (Elt F) → (⟨S1x190, .f32⟩ : BufTy).Contents (Elt F) → (⟨S1x190, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S1x190, .f32⟩) main_call12_v0) (broadcastInDim S1x190 ![] bcast_S_S1x190),
    TRef.binary (TRef.of (T := ⟨S1x190, .f32⟩) main_v277) (TRef.of (T := ⟨S1x190, .f32⟩) main_call12_v0) (TRef.of (T := ⟨S1x190, .f32⟩) main_v278) maximumf,
    unary main_arg27 main_v279 ((transpose S190x270 [1, 0] · transposes_S270x190_S190x270_1_0) : (⟨S270x190, .f32⟩ : BufTy).Contents (Elt F) → (⟨S190x270, .f32⟩ : BufTy).Contents (Elt F)),
    binary main_v278 main_v279 main_v280 ((fun l r => Host.dotGeneral dot_S1x190_S190x270_S1x270_1_0_0_1_n_n none l r) : (⟨S1x190, .f32⟩ : BufTy).Contents (Elt F) → (⟨S190x270, .f32⟩ : BufTy).Contents (Elt F) → (⟨S1x270, .f32⟩ : BufTy).Contents (Elt F)),
    unary main_arg28 main_v281 (broadcastInDim S1x270 ![1] bcast_S270_S1x270_1 : (⟨S270, .f32⟩ : BufTy).Contents (Elt F) → (⟨S1x270, .f32⟩ : BufTy).Contents (Elt F)),
    binary main_v280 main_v281 main_v282 (addf : (⟨S1x270, .f32⟩ : BufTy).Contents (Elt F) → (⟨S1x270, .f32⟩ : BufTy).Contents (Elt F) → (⟨S1x270, .f32⟩ : BufTy).Contents (Elt F)),
    TRef.nullary (TRef.of (T := ⟨S_, .f32⟩) main_call13_cst) (constant S_ .f32 0x00000000#32) ]

/-- Operations 389 to 428 of @main (40 of them), the last writing `main_v317`. -/
abbrev rF3 : List (HloOp τ sig (Elt F)) :=
  [ TRef.unary (TRef.of (T := ⟨S_, .f32⟩) main_call13_cst) (TRef.of (T := ⟨S1x270, .f32⟩) main_call13_v0) (broadcastInDim S1x270 ![] bcast_S_S1x270),
    TRef.binary (TRef.of (T := ⟨S1x270, .f32⟩) main_v282) (TRef.of (T := ⟨S1x270, .f32⟩) main_call13_v0) (TRef.of (T := ⟨S1x270, .f32⟩) main_v283) maximumf,
    unary main_arg29 main_v284 ((transpose S270x325 [1, 0] · transposes_S325x270_S270x325_1_0) : (⟨S325x270, .f32⟩ : BufTy).Contents (Elt F) → (⟨S270x325, .f32⟩ : BufTy).Contents (Elt F)),
    binary main_v283 main_v284 main_v285 ((fun l r => Host.dotGeneral dot_S1x270_S270x325_S1x325_1_0_0_1_n_n none l r) : (⟨S1x270, .f32⟩ : BufTy).Contents (Elt F) → (⟨S270x325, .f32⟩ : BufTy).Contents (Elt F) → (⟨S1x325, .f32⟩ : BufTy).Contents (Elt F)),
    unary main_arg30 main_v286 (broadcastInDim S1x325 ![1] bcast_S325_S1x325_1 : (⟨S325, .f32⟩ : BufTy).Contents (Elt F) → (⟨S1x325, .f32⟩ : BufTy).Contents (Elt F)),
    binary main_v285 main_v286 main_v287 (addf : (⟨S1x325, .f32⟩ : BufTy).Contents (Elt F) → (⟨S1x325, .f32⟩ : BufTy).Contents (Elt F) → (⟨S1x325, .f32⟩ : BufTy).Contents (Elt F)),
    nullary main_cst_41 (constant S_ .f32 0xFF800000#32),
    binary main_v287 main_cst_41 main_v288 ((fun x v => Host.reduce FloatOps.maximumf x v reducesTo_S1x325_S1_d1 h_S_) : (⟨S1x325, .f32⟩ : BufTy).Contents (Elt F) → (⟨S_, .f32⟩ : BufTy).Contents (Elt F) → (⟨S1, .f32⟩ : BufTy).Contents (Elt F)),
    nullary main_cst_42 (constant S_ .f32 0xFF800000#32),
    unary main_cst_42 main_v289 (broadcastInDim S1 ![] bcast_S_S1 : (⟨S_, .f32⟩ : BufTy).Contents (Elt F) → (⟨S1, .f32⟩ : BufTy).Contents (Elt F)),
    binary main_v289 main_v288 main_v290 (maximumf : (⟨S1, .f32⟩ : BufTy).Contents (Elt F) → (⟨S1, .f32⟩ : BufTy).Contents (Elt F) → (⟨S1, .f32⟩ : BufTy).Contents (Elt F)),
    unary main_v290 main_v291 (broadcastInDim S1x1 ![0] bcast_S1_S1x1_0 : (⟨S1, .f32⟩ : BufTy).Contents (Elt F) → (⟨S1x1, .f32⟩ : BufTy).Contents (Elt F)),
    unary main_v291 main_v292 (broadcastInDim S1x325 ![0, 1] bcast_S1x1_S1x325_0_1 : (⟨S1x1, .f32⟩ : BufTy).Contents (Elt F) → (⟨S1x325, .f32⟩ : BufTy).Contents (Elt F)),
    binary main_v287 main_v292 main_v293 (subf : (⟨S1x325, .f32⟩ : BufTy).Contents (Elt F) → (⟨S1x325, .f32⟩ : BufTy).Contents (Elt F) → (⟨S1x325, .f32⟩ : BufTy).Contents (Elt F)),
    unary main_v293 main_v294 (Host.exp : (⟨S1x325, .f32⟩ : BufTy).Contents (Elt F) → (⟨S1x325, .f32⟩ : BufTy).Contents (Elt F)),
    nullary main_cst_43 (constant S_ .f32 0x00000000#32),
    binary main_v294 main_cst_43 main_v295 ((fun x v => Host.reduceAdd x v reducesTo_S1x325_S1_d1 h_S_) : (⟨S1x325, .f32⟩ : BufTy).Contents (Elt F) → (⟨S_, .f32⟩ : BufTy).Contents (Elt F) → (⟨S1, .f32⟩ : BufTy).Contents (Elt F)),
    unary main_v295 main_v296 (broadcastInDim S1x1 ![0] bcast_S1_S1x1_0 : (⟨S1, .f32⟩ : BufTy).Contents (Elt F) → (⟨S1x1, .f32⟩ : BufTy).Contents (Elt F)),
    unary main_v296 main_v297 (broadcastInDim S1x325 ![0, 1] bcast_S1x1_S1x325_0_1 : (⟨S1x1, .f32⟩ : BufTy).Contents (Elt F) → (⟨S1x325, .f32⟩ : BufTy).Contents (Elt F)),
    binary main_v294 main_v297 main_v298 (Host.divf : (⟨S1x325, .f32⟩ : BufTy).Contents (Elt F) → (⟨S1x325, .f32⟩ : BufTy).Contents (Elt F) → (⟨S1x325, .f32⟩ : BufTy).Contents (Elt F)),
    unary main_v238 main_v299 ((extractStridedSlice S1x1 ![0, 0] · slices_S1x2_S1x1_0_0) : (⟨S1x2, .f32⟩ : BufTy).Contents (Elt F) → (⟨S1x1, .f32⟩ : BufTy).Contents (Elt F)),
    reshape main_v299 main_v300 rfl shapeCasts_S1x1_S_,
    unary main_v300 main_v301 (broadcastInDim S1x325 ![] bcast_S_S1x325 : (⟨S_, .f32⟩ : BufTy).Contents (Elt F) → (⟨S1x325, .f32⟩ : BufTy).Contents (Elt F)),
    binary main_v301 main_v268 main_v302 (mulf : (⟨S1x325, .f32⟩ : BufTy).Contents (Elt F) → (⟨S1x325, .f32⟩ : BufTy).Contents (Elt F) → (⟨S1x325, .f32⟩ : BufTy).Contents (Elt F)),
    unary main_v238 main_v303 ((extractStridedSlice S1x1 ![0, 1] · slices_S1x2_S1x1_0_1) : (⟨S1x2, .f32⟩ : BufTy).Contents (Elt F) → (⟨S1x1, .f32⟩ : BufTy).Contents (Elt F)),
    reshape main_v303 main_v304 rfl shapeCasts_S1x1_S_,
    unary main_v304 main_v305 (broadcastInDim S1x325 ![] bcast_S_S1x325 : (⟨S_, .f32⟩ : BufTy).Contents (Elt F) → (⟨S1x325, .f32⟩ : BufTy).Contents (Elt F)),
    binary main_v305 main_v298 main_v306 (mulf : (⟨S1x325, .f32⟩ : BufTy).Contents (Elt F) → (⟨S1x325, .f32⟩ : BufTy).Contents (Elt F) → (⟨S1x325, .f32⟩ : BufTy).Contents (Elt F)),
    binary main_v302 main_v306 main_v307 (addf : (⟨S1x325, .f32⟩ : BufTy).Contents (Elt F) → (⟨S1x325, .f32⟩ : BufTy).Contents (Elt F) → (⟨S1x325, .f32⟩ : BufTy).Contents (Elt F)),
    unary main_arg13 main_v308 ((transpose S325x20 [1, 0] · transposes_S20x325_S325x20_1_0) : (⟨S20x325, .f32⟩ : BufTy).Contents (Elt F) → (⟨S325x20, .f32⟩ : BufTy).Contents (Elt F)),
    binary main_v307 main_v308 main_v309 ((fun l r => Host.dotGeneral dot_S1x325_S325x20_S1x20_1_0_0_1_n_n none l r) : (⟨S1x325, .f32⟩ : BufTy).Contents (Elt F) → (⟨S325x20, .f32⟩ : BufTy).Contents (Elt F) → (⟨S1x20, .f32⟩ : BufTy).Contents (Elt F)),
    unary main_arg14 main_v310 (broadcastInDim S1x20 ![1] bcast_S20_S1x20_1 : (⟨S20, .f32⟩ : BufTy).Contents (Elt F) → (⟨S1x20, .f32⟩ : BufTy).Contents (Elt F)),
    binary main_v309 main_v310 main_v311 (addf : (⟨S1x20, .f32⟩ : BufTy).Contents (Elt F) → (⟨S1x20, .f32⟩ : BufTy).Contents (Elt F) → (⟨S1x20, .f32⟩ : BufTy).Contents (Elt F)),
    unary main_v226 main_v312 (broadcastInDim S1x20 ![] bcast_S_S1x20 : (⟨S_, .f32⟩ : BufTy).Contents (Elt F) → (⟨S1x20, .f32⟩ : BufTy).Contents (Elt F)),
    binary main_v312 main_v34 main_v313 (mulf : (⟨S1x20, .f32⟩ : BufTy).Contents (Elt F) → (⟨S1x20, .f32⟩ : BufTy).Contents (Elt F) → (⟨S1x20, .f32⟩ : BufTy).Contents (Elt F)),
    nullary main_cst_44 (constant S_ .f32 0x3F800000#32),
    binary main_cst_44 main_v226 main_v314 (subf : (⟨S_, .f32⟩ : BufTy).Contents (Elt F) → (⟨S_, .f32⟩ : BufTy).Contents (Elt F) → (⟨S_, .f32⟩ : BufTy).Contents (Elt F)),
    unary main_v314 main_v315 (broadcastInDim S1x20 ![] bcast_S_S1x20 : (⟨S_, .f32⟩ : BufTy).Contents (Elt F) → (⟨S1x20, .f32⟩ : BufTy).Contents (Elt F)),
    binary main_v315 main_v311 main_v316 (mulf : (⟨S1x20, .f32⟩ : BufTy).Contents (Elt F) → (⟨S1x20, .f32⟩ : BufTy).Contents (Elt F) → (⟨S1x20, .f32⟩ : BufTy).Contents (Elt F)),
    binary main_v313 main_v316 main_v317 (addf : (⟨S1x20, .f32⟩ : BufTy).Contents (Elt F) → (⟨S1x20, .f32⟩ : BufTy).Contents (Elt F) → (⟨S1x20, .f32⟩ : BufTy).Contents (Elt F)) ]

/-- Operations 429 to 437 of @main (9 of them), the last writing `main_v325`. -/
abbrev rG : List (HloOp τ sig (Elt F)) :=
  [ unary main_v218 main_v318 ((transpose S1000000x1 [1, 0] · transposes_S1x1000000_S1000000x1_1_0) : (⟨S1x1000000, .f32⟩ : BufTy).Contents (Elt F) → (⟨S1000000x1, .f32⟩ : BufTy).Contents (Elt F)),
    binary main_v318 main_v30 main_v319 ((fun l r => Host.dotGeneral dot_S1000000x1_S1x20_S1000000x20_1_0_0_1_n_n none l r) : (⟨S1000000x1, .f32⟩ : BufTy).Contents (Elt F) → (⟨S1x20, .f32⟩ : BufTy).Contents (Elt F) → (⟨S1000000x20, .f32⟩ : BufTy).Contents (Elt F)),
    nullary main_cst_45 (constant S_ .f32 0x3F800000#32),
    unary main_cst_45 main_v320 (broadcastInDim S1000000x20 ![] bcast_S_S1000000x20 : (⟨S_, .f32⟩ : BufTy).Contents (Elt F) → (⟨S1000000x20, .f32⟩ : BufTy).Contents (Elt F)),
    binary main_v320 main_v319 main_v321 (subf : (⟨S1000000x20, .f32⟩ : BufTy).Contents (Elt F) → (⟨S1000000x20, .f32⟩ : BufTy).Contents (Elt F) → (⟨S1000000x20, .f32⟩ : BufTy).Contents (Elt F)),
    binary main_arg3 main_v321 main_v322 (mulf : (⟨S1000000x20, .f32⟩ : BufTy).Contents (Elt F) → (⟨S1000000x20, .f32⟩ : BufTy).Contents (Elt F) → (⟨S1000000x20, .f32⟩ : BufTy).Contents (Elt F)),
    unary main_v218 main_v323 ((transpose S1000000x1 [1, 0] · transposes_S1x1000000_S1000000x1_1_0) : (⟨S1x1000000, .f32⟩ : BufTy).Contents (Elt F) → (⟨S1000000x1, .f32⟩ : BufTy).Contents (Elt F)),
    binary main_v323 main_v317 main_v324 ((fun l r => Host.dotGeneral dot_S1000000x1_S1x20_S1000000x20_1_0_0_1_n_n none l r) : (⟨S1000000x1, .f32⟩ : BufTy).Contents (Elt F) → (⟨S1x20, .f32⟩ : BufTy).Contents (Elt F) → (⟨S1000000x20, .f32⟩ : BufTy).Contents (Elt F)),
    binary main_v322 main_v324 main_v325 (addf : (⟨S1000000x20, .f32⟩ : BufTy).Contents (Elt F) → (⟨S1000000x20, .f32⟩ : BufTy).Contents (Elt F) → (⟨S1000000x20, .f32⟩ : BufTy).Contents (Elt F)) ]

end Cert.ReferenceIdeal.Blocks

end
-- ==== Proof.Ref.Writes.lean ====
/- Per block of the reference's operations: each operation touches device buffers only, allocates nothing and writes its own
   buffer of the block's list; no argument of @main is in a list. -/
import proofs.«147285_j27152783245914_1_alg».proof.Proof.RefOps
import Idealize.ShloMosaic.Lib.StableHlo.Run

set_option Elab.async false

noncomputable section

namespace Cert.ReferenceIdeal.Hand

open Cert.ReferenceIdeal Cert.ReferenceIdeal.Gen Cert.ReferenceIdeal.Blocks Idealize.ShloMosaic Idealize.ShloMosaic.TcCoe Idealize.SL.Sem Idealize.ShloMosaic.StableHlo

variable {F : FTy → Type} [FloatOps F]

theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30]

set_option maxRecDepth 8192 in
theorem rA1_sub : (rA1 : List (HloOp τ sig (Elt F))).Forall fun op => op.bufs ⊆ tcRefs τ sig :=
  ⟨unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., reshape_bufs_sub .., unary_bufs_sub .., unary_bufs_sub .., reshape_bufs_sub .., unary_bufs_sub .., unary_bufs_sub .., reshape_bufs_sub .., unary_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., unary_bufs_sub .., unary_bufs_sub .., reshape_bufs_sub .., unary_bufs_sub .., unary_bufs_sub .., unary_bufs_sub .., reshape_bufs_sub .., unary_bufs_sub .., unary_bufs_sub .., nullary_bufs_sub ..⟩

set_option maxRecDepth 8192 in
theorem rA1_fresh : (rA1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev rA1_W : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_cst, main_v27, main_v28, main_cst_0, main_v29, main_v30, main_v31, main_v32, main_v33, main_v34, main_v35, main_v36, main_v37, main_v38, main_v39, main_v40, main_v41, main_v42, main_cst_1]

set_option maxRecDepth 8192 in
theorem rA1_writes : (rA1 : List (HloOp τ sig (Elt F))).Forall fun op => op.writes ⊆ (rA1_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

theorem rA1_args : ∀ r ∈ args, r ∉ rA1_W := by decide

set_option maxRecDepth 8192 in
theorem rA2_sub : (rA2 : List (HloOp τ sig (Elt F))).Forall fun op => op.bufs ⊆ tcRefs τ sig :=
  ⟨binary_bufs_sub .., nullary_bufs_sub .., binary_bufs_sub .., unary_bufs_sub .., reshape_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., nullary_bufs_sub .., binary_bufs_sub .., binary_bufs_sub .., binary_bufs_sub .., binary_bufs_sub .., unary_bufs_sub .., unary_bufs_sub .., unary_bufs_sub .., unary_bufs_sub .., binary_bufs_sub .., ternary_bufs_sub .., nullary_bufs_sub .., binary_bufs_sub .., unary_bufs_sub .., reshape_bufs_sub .., nullary_bufs_sub .., binary_bufs_sub .., binary_bufs_sub .., binary_bufs_sub .., binary_bufs_sub .., unary_bufs_sub .., unary_bufs_sub .., unary_bufs_sub .., unary_bufs_sub .., binary_bufs_sub .., ternary_bufs_sub ..⟩

set_option maxRecDepth 8192 in
theorem rA2_fresh : (rA2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev rA2_W : List (Ref sig .tc) :=
  [main_v43, main_cst_2, main_v44, main_v45, main_v46, main_cst_3, main_v47, main_cst_4, main_v48, main_v49, main_v50, main_v51, main_v52, main_cst_5, main_v53, main_v54, main_v55, main_v56, main_v57, main_v58, main_call0_cst, main_call0_v0, main_call0_v1, main_call0_v2, main_call0_v3, main_call0_v4, main_call0_v5, main_call0_v6, main_call0_v7, main_call0_v8, main_v59, main_cst_6, main_v60, main_v61, main_v62, main_call1_cst, main_call1_v0, main_call1_v1, main_call1_v2, main_call1_v3, main_call1_v4, main_call1_v5, main_call1_v6, main_call1_v7, main_call1_v8, main_v63]

set_option maxRecDepth 8192 in
theorem rA2_writes : (rA2 : List (HloOp τ sig (Elt F))).Forall fun op => op.writes ⊆ (rA2_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

theorem rA2_args : ∀ r ∈ args, r ∉ rA2_W := by decide

set_option maxRecDepth 8192 in
theorem rB1_sub : (rB1 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., reshape_bufs_sub .., binary_bufs_sub .., nullary_bufs_sub .., binary_bufs_sub .., unary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., binary_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., binary_bufs_sub .., unary_bufs_sub .., binary_bufs_sub .., unary_bufs_sub .., unary_bufs_sub ..⟩

set_option maxRecDepth 8192 in
theorem rB1_fresh : (rB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev rB1_W : List (Ref sig .tc) :=
  [main_cst_7, main_v64, main_v65, main_cst_8, main_v66, main_v67, main_v68, main_v69, main_v70, main_call2_v0, main_call2_cst, main_call2_v1, main_v71, main_cst_9, main_v72, main_v73, main_call3_v0, main_call3_cst, main_call3_v1, main_v74, main_cst_10, main_v75, main_v76, main_v77, main_v78, main_v79, main_v80, main_v81, main_cst_11, main_v82, main_cst_12, main_v83, main_v84, main_v85, main_v86, main_v87, main_cst_13, main_v88, main_v89, main_v90, main_v91, main_v92, main_v93, main_cst_14, main_v94, main_v95, main_v96, main_v97, main_v98, main_v99, main_v100]

set_option maxRecDepth 8192 in
theorem rB1_writes : (rB1 : List (HloOp τ sig (Elt F))).Forall fun op => op.writes ⊆ (rB1_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

theorem rB1_args : ∀ r ∈ args, r ∉ rB1_W := by decide

set_option maxRecDepth 8192 in
theorem rB2_sub : (rB2 : List (HloOp τ sig (Elt F))).Forall fun op => op.bufs ⊆ tcRefs τ sig :=
  ⟨nary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub ..⟩

set_option maxRecDepth 8192 in
theorem rB2_fresh : (rB2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

abbrev rB2_W : List (Ref sig .tc) :=
  [main_v101, main_v102, main_v103, main_v104, main_v105, main_v106, main_v107, main_v108, main_v109, main_v110, main_v111, main_v112, main_v113, main_v114, main_v115, main_v116, main_v117, main_v118, main_v119, main_v120, main_cst_15, main_v121, main_v122, main_cst_16, main_v123, main_v124, main_v125, main_v126]

set_option maxRecDepth 8192 in
theorem rB2_writes : (rB2 : List (HloOp τ sig (Elt F))).Forall fun op => op.writes ⊆ (rB2_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

theorem rB2_args : ∀ r ∈ args, r ∉ rB2_W := by decide

set_option maxRecDepth 8192 in
theorem rC1_sub : (rC1 : List (HloOp τ sig (Elt F))).Forall fun op => op.bufs ⊆ tcRefs τ sig :=
  ⟨unary_bufs_sub .., reshape_bufs_sub .., unary_bufs_sub .., unary_bufs_sub .., unary_bufs_sub .., reshape_bufs_sub .., unary_bufs_sub .., unary_bufs_sub .., nullary_bufs_sub .., binary_bufs_sub .., nullary_bufs_sub .., binary_bufs_sub .., unary_bufs_sub .., reshape_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub ..⟩

set_option maxRecDepth 8192 in
theorem rC1_fresh : (rC1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

abbrev rC1_W : List (Ref sig .tc) :=
  [main_v127, main_v128, main_v129, main_v130, main_v131, main_v132, main_v133, main_v134, main_cst_17, main_v135, main_cst_18, main_v136, main_v137, main_v138, main_cst_19, main_v139, main_cst_20, main_v140, main_v141, main_v142, main_v143, main_v144, main_cst_21, main_v145, main_v146, main_v147, main_v148, main_v149]

set_option maxRecDepth 8192 in
theorem rC1_writes : (rC1 : List (HloOp τ sig (Elt F))).Forall fun op => op.writes ⊆ (rC1_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

theorem rC1_args : ∀ r ∈ args, r ∉ rC1_W := by decide

set_option maxRecDepth 8192 in
theorem rC2_sub : (rC2 : List (HloOp τ sig (Elt F))).Forall fun op => op.bufs ⊆ tcRefs τ sig :=
  ⟨reshape_bufs_sub .., nullary_bufs_sub .., binary_bufs_sub .., binary_bufs_sub .., binary_bufs_sub .., binary_bufs_sub .., unary_bufs_sub .., unary_bufs_sub .., unary_bufs_sub .., unary_bufs_sub .., binary_bufs_sub .., ternary_bufs_sub .., nullary_bufs_sub .., binary_bufs_sub .., unary_bufs_sub .., reshape_bufs_sub .., nullary_bufs_sub .., binary_bufs_sub .., binary_bufs_sub .., binary_bufs_sub .., binary_bufs_sub .., unary_bufs_sub .., unary_bufs_sub .., unary_bufs_sub .., unary_bufs_sub .., binary_bufs_sub .., ternary_bufs_sub ..⟩

set_option maxRecDepth 8192 in
theorem rC2_fresh : (rC2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

abbrev rC2_W : List (Ref sig .tc) :=
  [main_v150, main_call4_cst, main_call4_v0, main_call4_v1, main_call4_v2, main_call4_v3, main_call4_v4, main_call4_v5, main_call4_v6, main_call4_v7, main_call4_v8, main_v151, main_cst_22, main_v152, main_v153, main_v154, main_call5_cst, main_call5_v0, main_call5_v1, main_call5_v2, main_call5_v3, main_call5_v4, main_call5_v5, main_call5_v6, main_call5_v7, main_call5_v8, main_v155]

set_option maxRecDepth 8192 in
theorem rC2_writes : (rC2 : List (HloOp τ sig (Elt F))).Forall fun op => op.writes ⊆ (rC2_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

theorem rC2_args : ∀ r ∈ args, r ∉ rC2_W := by decide

set_option maxRecDepth 8192 in
theorem rD1_sub : (rD1 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., reshape_bufs_sub .., binary_bufs_sub .., nullary_bufs_sub .., binary_bufs_sub .., unary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., binary_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., binary_bufs_sub .., unary_bufs_sub .., binary_bufs_sub .., unary_bufs_sub .., unary_bufs_sub ..⟩

set_option maxRecDepth 8192 in
theorem rD1_fresh : (rD1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev rD1_W : List (Ref sig .tc) :=
  [main_cst_23, main_v156, main_v157, main_cst_24, main_v158, main_v159, main_v160, main_v161, main_v162, main_call6_v0, main_call6_cst, main_call6_v1, main_v163, main_cst_25, main_v164, main_v165, main_call7_v0, main_call7_cst, main_call7_v1, main_v166, main_cst_26, main_v167, main_v168, main_v169, main_v170, main_v171, main_v172, main_v173, main_cst_27, main_v174, main_cst_28, main_v175, main_v176, main_v177, main_v178, main_v179, main_cst_29, main_v180, main_v181, main_v182, main_v183, main_v184, main_v185, main_cst_30, main_v186, main_v187, main_v188, main_v189, main_v190, main_v191, main_v192]

set_option maxRecDepth 8192 in
theorem rD1_writes : (rD1 : List (HloOp τ sig (Elt F))).Forall fun op => op.writes ⊆ (rD1_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

theorem rD1_args : ∀ r ∈ args, r ∉ rD1_W := by decide

set_option maxRecDepth 8192 in
theorem rD2_sub : (rD2 : List (HloOp τ sig (Elt F))).Forall fun op => op.bufs ⊆ tcRefs τ sig :=
  ⟨nary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub ..⟩

set_option maxRecDepth 8192 in
theorem rD2_fresh : (rD2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

abbrev rD2_W : List (Ref sig .tc) :=
  [main_v193, main_v194, main_v195, main_v196, main_v197, main_v198, main_v199, main_v200, main_v201, main_v202, main_v203, main_v204, main_v205, main_v206, main_v207, main_v208, main_v209, main_v210, main_v211, main_v212, main_cst_31, main_v213, main_v214, main_cst_32, main_v215, main_v216, main_v217, main_v218]

set_option maxRecDepth 8192 in
theorem rD2_writes : (rD2 : List (HloOp τ sig (Elt F))).Forall fun op => op.writes ⊆ (rD2_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

theorem rD2_args : ∀ r ∈ args, r ∉ rD2_W := by decide

set_option maxRecDepth 8192 in
theorem rE_sub : (rE : List (HloOp τ sig (Elt F))).Forall fun op => op.bufs ⊆ tcRefs τ sig :=
  binary_bufs_sub ..

set_option maxRecDepth 8192 in
theorem rE_fresh : (rE : List (HloOp τ sig (Elt F))).Forall fun op => op.fresh = ∅ :=
  rfl

abbrev rE_W : List (Ref sig .tc) :=
  [main_v219]

set_option maxRecDepth 8192 in
theorem rE_writes : (rE : List (HloOp τ sig (Elt F))).Forall fun op => op.writes ⊆ (rE_W.map (Proc.devRef (τ := τ) .tc)).toFinset :=
  single_sub_of_mem (by decide)

theorem rE_args : ∀ r ∈ args, r ∉ rE_W := by decide

set_option maxRecDepth 8192 in
theorem rF1_sub : (rF1 : List (HloOp τ sig (Elt F))).Forall fun op => op.bufs ⊆ tcRefs τ sig :=
  ⟨binary_bufs_sub .., unary_bufs_sub .., reshape_bufs_sub .., unary_bufs_sub .., unary_bufs_sub .., nullary_bufs_sub .., binary_bufs_sub .., nullary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub ..⟩

set_option maxRecDepth 8192 in
theorem rF1_fresh : (rF1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev rF1_W : List (Ref sig .tc) :=
  [main_v220, main_v221, main_v222, main_v223, main_v224, main_cst_33, main_v225, main_cst_34, main_v226, main_v227, main_cst_35, main_v228, main_cst_36, main_v229, main_v230, main_v231, main_v232, main_v233, main_v234, main_cst_37, main_v235, main_v236, main_v237, main_v238, main_v239, main_v240, main_v241, main_v242, main_call8_cst, main_call8_v0, main_v243, main_v244, main_v245, main_v246, main_v247, main_call9_cst, main_call9_v0, main_v248, main_v249, main_v250, main_v251]

set_option maxRecDepth 8192 in
theorem rF1_writes : (rF1 : List (HloOp τ sig (Elt F))).Forall fun op => op.writes ⊆ (rF1_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

theorem rF1_args : ∀ r ∈ args, r ∉ rF1_W := by decide

set_option maxRecDepth 8192 in
theorem rF2_sub : (rF2 : List (HloOp τ sig (Elt F))).Forall fun op => op.bufs ⊆ tcRefs τ sig :=
  ⟨binary_bufs_sub .., nullary_bufs_sub .., unary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub ..⟩

set_option maxRecDepth 8192 in
theorem rF2_fresh : (rF2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev rF2_W : List (Ref sig .tc) :=
  [main_v252, main_call10_cst, main_call10_v0, main_v253, main_v254, main_v255, main_v256, main_v257, main_cst_38, main_v258, main_cst_39, main_v259, main_v260, main_v261, main_v262, main_v263, main_v264, main_cst_40, main_v265, main_v266, main_v267, main_v268, main_v269, main_v270, main_v271, main_v272, main_call11_cst, main_call11_v0, main_v273, main_v274, main_v275, main_v276, main_v277, main_call12_cst, main_call12_v0, main_v278, main_v279, main_v280, main_v281, main_v282, main_call13_cst]

set_option maxRecDepth 8192 in
theorem rF2_writes : (rF2 : List (HloOp τ sig (Elt F))).Forall fun op => op.writes ⊆ (rF2_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

theorem rF2_args : ∀ r ∈ args, r ∉ rF2_W := by decide

set_option maxRecDepth 8192 in
theorem rF3_sub : (rF3 : List (HloOp τ sig (Elt F))).Forall fun op => op.bufs ⊆ tcRefs τ sig :=
  ⟨unary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., binary_bufs_sub .., unary_bufs_sub .., binary_bufs_sub .., unary_bufs_sub .., binary_bufs_sub .., nullary_bufs_sub .., binary_bufs_sub .., unary_bufs_sub .., binary_bufs_sub .., binary_bufs_sub ..⟩

set_option maxRecDepth 8192 in
theorem rF3_fresh : (rF3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev rF3_W : List (Ref sig .tc) :=
  [main_call13_v0, main_v283, main_v284, main_v285, main_v286, main_v287, main_cst_41, main_v288, main_cst_42, main_v289, main_v290, main_v291, main_v292, main_v293, main_v294, main_cst_43, main_v295, main_v296, main_v297, main_v298, main_v299, main_v300, main_v301, main_v302, main_v303, main_v304, main_v305, main_v306, main_v307, main_v308, main_v309, main_v310, main_v311, main_v312, main_v313, main_cst_44, main_v314, main_v315, main_v316, main_v317]

set_option maxRecDepth 8192 in
theorem rF3_writes : (rF3 : List (HloOp τ sig (Elt F))).Forall fun op => op.writes ⊆ (rF3_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

theorem rF3_args : ∀ r ∈ args, r ∉ rF3_W := by decide

set_option maxRecDepth 8192 in
theorem rG_sub : (rG : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., binary_bufs_sub .., binary_bufs_sub ..⟩

set_option maxRecDepth 8192 in
theorem rG_fresh : (rG : List (HloOp τ sig (Elt F))).Forall fun op => op.fresh = ∅ :=
  ⟨rfl, rfl, rfl, rfl, rfl, rfl, rfl, rfl, rfl⟩

abbrev rG_W : List (Ref sig .tc) :=
  [main_v318, main_v319, main_cst_45, main_v320, main_v321, main_v322, main_v323, main_v324, main_v325]

set_option maxRecDepth 8192 in
theorem rG_writes : (rG : List (HloOp τ sig (Elt F))).Forall fun op => op.writes ⊆ (rG_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

theorem rG_args : ∀ r ∈ args, r ∉ rG_W := by decide

end Cert.ReferenceIdeal.Hand

end
-- ==== Proof.Ref.Run.lean ====
/- The reference's run: thirteen blocks of host operations in a row, none writing an argument. -/
import proofs.«147285_j27152783245914_1_alg».proof.Proof.Ref.Writes
import Idealize.ShloMosaic.Lib.StableHlo.Run
import Idealize.ShloMosaic.Lib.Pipeline.Frame
import Idealize.ShloMosaic.Lib.Pipeline.Regions

noncomputable section

namespace Cert.ReferenceIdeal.Hand

open Cert.ReferenceIdeal Cert.ReferenceIdeal.Gen Cert.ReferenceIdeal.Blocks Idealize.ShloMosaic Idealize.ShloMosaic.TcCoe Idealize.SL.Sem Idealize.ShloMosaic.StableHlo

variable {F : FTy → Type} [FloatOps F]

abbrev ops : List (HloOp τ sig (Elt F)) :=
  rA1 ++ rA2 ++ rB1 ++ rB2 ++ rC1 ++ rC2 ++ rD1 ++ rD2 ++ rE ++ rF1 ++ rF2 ++ rF3 ++ rG

theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem kept_app {l₁ l₂ : List (HloOp τ sig (Elt F))} {b : DevRef τ sig}
    (h₁ : ∀ V : Valuation τ sig (Elt F), after l₁ V b = V b) (h₂ : ∀ V : Valuation τ sig (Elt F), after l₂ V b = V b)
    (V : Valuation τ sig (Elt F)) : after (l₁ ++ l₂) V b = V b := by
  rw [after_append, h₂, h₁]

theorem ops_sub : (ops : List (HloOp τ sig (Elt F))).Forall fun op => op.bufs ⊆ tcRefs τ sig :=
  forall_app (forall_app (forall_app (forall_app (forall_app (forall_app (forall_app (forall_app (forall_app (forall_app (forall_app (forall_app (rA1_sub) rA2_sub) rB1_sub) rB2_sub) rC1_sub) rC2_sub) rD1_sub) rD2_sub) rE_sub) rF1_sub) rF2_sub) rF3_sub) rG_sub

theorem ops_fresh : (ops : List (HloOp τ sig (Elt F))).Forall fun op => op.fresh = ∅ :=
  forall_app (forall_app (forall_app (forall_app (forall_app (forall_app (forall_app (forall_app (forall_app (forall_app (forall_app (forall_app (rA1_fresh) rA2_fresh) rB1_fresh) rB2_fresh) rC1_fresh) rC2_fresh) rD1_fresh) rD2_fresh) rE_fresh) rF1_fresh) rF2_fresh) rF3_fresh) rG_fresh

theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

theorem arg_kept (V : Valuation τ sig (Elt F)) (r : Ref sig .tc) (h : r ∈ args) :
    after ops V (Proc.devRef .tc r) = V (Proc.devRef .tc r) :=
  kept_app (kept_app (kept_app (kept_app (kept_app (kept_app (kept_app (kept_app (kept_app (kept_app (kept_app (kept_app ((fun V => after_of_writes_sub rA1 V rA1_writes (rA1_args r h))) (fun V => after_of_writes_sub rA2 V rA2_writes (rA2_args r h))) (fun V => after_of_writes_sub rB1 V rB1_writes (rB1_args r h))) (fun V => after_of_writes_sub rB2 V rB2_writes (rB2_args r h))) (fun V => after_of_writes_sub rC1 V rC1_writes (rC1_args r h))) (fun V => after_of_writes_sub rC2 V rC2_writes (rC2_args r h))) (fun V => after_of_writes_sub rD1 V rD1_writes (rD1_args r h))) (fun V => after_of_writes_sub rD2 V rD2_writes (rD2_args r h))) (fun V => after_of_writes_sub rE V rE_writes (rE_args r h))) (fun V => after_of_writes_sub rF1 V rF1_writes (rF1_args r h))) (fun V => after_of_writes_sub rF2 V rF2_writes (rF2_args r h))) (fun V => after_of_writes_sub rF3 V rF3_writes (rF3_args r h))) (fun V => after_of_writes_sub rG V rG_writes (rG_args r h)) V

theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30) :=
  (θ_run defs _ _).mono (fun _ h c => ⟨(h c main_arg0).trans (arg_kept _ main_arg0 (by decide)),
      (h c main_arg1).trans (arg_kept _ main_arg1 (by decide)),
      (h c main_arg2).trans (arg_kept _ main_arg2 (by decide)),
      (h c main_arg3).trans (arg_kept _ main_arg3 (by decide)),
      (h c main_arg4).trans (arg_kept _ main_arg4 (by decide)),
      (h c main_arg5).trans (arg_kept _ main_arg5 (by decide)),
      (h c main_arg6).trans (arg_kept _ main_arg6 (by decide)),
      (h c main_arg7).trans (arg_kept _ main_arg7 (by decide)),
      (h c main_arg8).trans (arg_kept _ main_arg8 (by decide)),
      (h c main_arg9).trans (arg_kept _ main_arg9 (by decide)),
      (h c main_arg10).trans (arg_kept _ main_arg10 (by decide)),
      (h c main_arg11).trans (arg_kept _ main_arg11 (by decide)),
      (h c main_arg12).trans (arg_kept _ main_arg12 (by decide)),
      (h c main_arg13).trans (arg_kept _ main_arg13 (by decide)),
      (h c main_arg14).trans (arg_kept _ main_arg14 (by decide)),
      (h c main_arg15).trans (arg_kept _ main_arg15 (by decide)),
      (h c main_arg16).trans (arg_kept _ main_arg16 (by decide)),
      (h c main_arg17).trans (arg_kept _ main_arg17 (by decide)),
      (h c main_arg18).trans (arg_kept _ main_arg18 (by decide)),
      (h c main_arg19).trans (arg_kept _ main_arg19 (by decide)),
      (h c main_arg20).trans (arg_kept _ main_arg20 (by decide)),
      (h c main_arg21).trans (arg_kept _ main_arg21 (by decide)),
      (h c main_arg22).trans (arg_kept _ main_arg22 (by decide)),
      (h c main_arg23).trans (arg_kept _ main_arg23 (by decide)),
      (h c main_arg24).trans (arg_kept _ main_arg24 (by decide)),
      (h c main_arg25).trans (arg_kept _ main_arg25 (by decide)),
      (h c main_arg26).trans (arg_kept _ main_arg26 (by decide)),
      (h c main_arg27).trans (arg_kept _ main_arg27 (by decide)),
      (h c main_arg28).trans (arg_kept _ main_arg28 (by decide)),
      (h c main_arg29).trans (arg_kept _ main_arg29 (by decide)),
      (h c main_arg30).trans (arg_kept _ main_arg30 (by decide))⟩)
    (run m ρ)

end Cert.ReferenceIdeal.Hand

end
-- ==== Proof.Asm.Setup.lean ====
/- The setting of the comparison: a launch memory for each idealized program, the two agreeing on the arguments. -/
import proofs.«147285_j27152783245914_1_alg».proof.Proof.KI.Fold
import proofs.«147285_j27152783245914_1_alg».proof.Proof.KI.Regions
import proofs.«147285_j27152783245914_1_alg».proof.Proof.RefOps
import Idealize.ShloMosaic.Lib.StableHlo.Run
import Idealize.ShloMosaic.PureOps.Ideal

noncomputable section

namespace Cert.Asm

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

abbrev refLaunch (c : Dev Cert.KernelIdeal.nD) : Valuation Cert.ReferenceIdeal.τ Cert.ReferenceIdeal.sig (Elt Ideal) := launchContents m' c

abbrev D0 : Cert.KernelIdeal.Hand.Region0 Ideal := Cert.KernelIdeal.Hand.region0
abbrev D1 : Cert.KernelIdeal.Hand.Region1 Ideal := Cert.KernelIdeal.Hand.region1
abbrev D2 : Cert.KernelIdeal.Hand.Region2 Ideal := Cert.KernelIdeal.Hand.region2

end Cert.Asm

end
-- ==== Proof.KI.Kept.lean ====
/- Buffers no item writes between two boundaries of the fold hold at the later what they held at the earlier. -/
import proofs.«147285_j27152783245914_1_alg».proof.Proof.Gen.KernelIdeal.Launch
import proofs.«147285_j27152783245914_1_alg».proof.Proof.Gen.KernelIdeal.Points
import proofs.«147285_j27152783245914_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (D0 : Region0 F) (D1 : Region1 F) (D2 : Region2 F)

theorem keep_v38_4_8 (c : Dev nD) : W8 m ρ c (Proc.devRef .tc main_v38) = W4 m ρ c (Proc.devRef .tc main_v38) :=
  (W8_kept m ρ c main_v38 (by decide)).trans <|
  (W7_kept m ρ c main_v38 (by decide)).trans <|
  (W6_kept m ρ c main_v38 (by decide)).trans <|
  (W5_kept m ρ c main_v38 (by decide))
theorem keep_v63_4_10 (c : Dev nD) : W10 m ρ D0 c (Proc.devRef .tc main_v63) = W4 m ρ c (Proc.devRef .tc main_v63) :=
  (W10_of_ne m ρ D0 c main_v63 (by decide)).trans <|
  (W9_kept m ρ c main_v63 (by decide)).trans <|
  (W8_kept m ρ c main_v63 (by decide)).trans <|
  (W7_kept m ρ c main_v63 (by decide)).trans <|
  (W6_kept m ρ c main_v63 (by decide)).trans <|
  (W5_kept m ρ c main_v63 (by decide))
theorem keep_v44_4_10 (c : Dev nD) : W10 m ρ D0 c (Proc.devRef .tc main_v44) = W4 m ρ c (Proc.devRef .tc main_v44) :=
  (W10_of_ne m ρ D0 c main_v44 (by decide)).trans <|
  (W9_kept m ρ c main_v44 (by decide)).trans <|
  (W8_kept m ρ c main_v44 (by decide)).trans <|
  (W7_kept m ρ c main_v44 (by decide)).trans <|
  (W6_kept m ρ c main_v44 (by decide)).trans <|
  (W5_kept m ρ c main_v44 (by decide))
theorem keep_v56_4_10 (c : Dev nD) : W10 m ρ D0 c (Proc.devRef .tc main_v56) = W4 m ρ c (Proc.devRef .tc main_v56) :=
  (W10_of_ne m ρ D0 c main_v56 (by decide)).trans <|
  (W9_kept m ρ c main_v56 (by decide)).trans <|
  (W8_kept m ρ c main_v56 (by decide)).trans <|
  (W7_kept m ρ c main_v56 (by decide)).trans <|
  (W6_kept m ρ c main_v56 (by decide)).trans <|
  (W5_kept m ρ c main_v56 (by decide))
theorem keep_v60_4_10 (c : Dev nD) : W10 m ρ D0 c (Proc.devRef .tc main_v60) = W4 m ρ c (Proc.devRef .tc main_v60) :=
  (W10_of_ne m ρ D0 c main_v60 (by decide)).trans <|
  (W9_kept m ρ c main_v60 (by decide)).trans <|
  (W8_kept m ρ c main_v60 (by decide)).trans <|
  (W7_kept m ρ c main_v60 (by decide)).trans <|
  (W6_kept m ρ c main_v60 (by decide)).trans <|
  (W5_kept m ρ c main_v60 (by decide))
theorem keep_v94_9_10 (c : Dev nD) : W10 m ρ D0 c (Proc.devRef .tc main_v94) = W9 m ρ c (Proc.devRef .tc main_v94) :=
  (W10_in m ρ D0 c 1 rfl)
theorem keep_v96_9_12 (c : Dev nD) : W12 m ρ D0 c (Proc.devRef .tc main_v96) = W9 m ρ c (Proc.devRef .tc main_v96) :=
  (W12_kept m ρ D0 c main_v96 (by decide)).trans <|
  (W11_kept m ρ D0 c main_v96 (by decide)).trans <|
  (W10_in m ρ D0 c 2 rfl)
theorem keep_v97_0_10_12 (c : Dev nD) : W12 m ρ D0 c (Proc.devRef .tc main_v97_0) = W10 m ρ D0 c (Proc.devRef .tc main_v97_0) :=
  (W12_kept m ρ D0 c main_v97_0 (by decide)).trans <|
  (W11_kept m ρ D0 c main_v97_0 (by decide))
theorem keep_v97_2_10_12 (c : Dev nD) : W12 m ρ D0 c (Proc.devRef .tc main_v97_2) = W10 m ρ D0 c (Proc.devRef .tc main_v97_2) :=
  (W12_kept m ρ D0 c main_v97_2 (by decide)).trans <|
  (W11_kept m ρ D0 c main_v97_2 (by decide))
theorem keep_v92_8_12 (c : Dev nD) : W12 m ρ D0 c (Proc.devRef .tc main_v92) = W8 m ρ c (Proc.devRef .tc main_v92) :=
  (W12_kept m ρ D0 c main_v92 (by decide)).trans <|
  (W11_kept m ρ D0 c main_v92 (by decide)).trans <|
  (W10_of_ne m ρ D0 c main_v92 (by decide)).trans <|
  (W9_kept m ρ c main_v92 (by decide))
theorem keep_v73_8_12 (c : Dev nD) : W12 m ρ D0 c (Proc.devRef .tc main_v73) = W8 m ρ c (Proc.devRef .tc main_v73) :=
  (W12_kept m ρ D0 c main_v73 (by decide)).trans <|
  (W11_kept m ρ D0 c main_v73 (by decide)).trans <|
  (W10_of_ne m ρ D0 c main_v73 (by decide)).trans <|
  (W9_kept m ρ c main_v73 (by decide))
theorem keep_v85_8_12 (c : Dev nD) : W12 m ρ D0 c (Proc.devRef .tc main_v85) = W8 m ρ c (Proc.devRef .tc main_v85) :=
  (W12_kept m ρ D0 c main_v85 (by decide)).trans <|
  (W11_kept m ρ D0 c main_v85 (by decide)).trans <|
  (W10_of_ne m ρ D0 c main_v85 (by decide)).trans <|
  (W9_kept m ρ c main_v85 (by decide))
theorem keep_v89_8_12 (c : Dev nD) : W12 m ρ D0 c (Proc.devRef .tc main_v89) = W8 m ρ c (Proc.devRef .tc main_v89) :=
  (W12_kept m ρ D0 c main_v89 (by decide)).trans <|
  (W11_kept m ρ D0 c main_v89 (by decide)).trans <|
  (W10_of_ne m ρ D0 c main_v89 (by decide)).trans <|
  (W9_kept m ρ c main_v89 (by decide))
theorem keep_v15_4_15 (c : Dev nD) : W15 m ρ D0 D1 c (Proc.devRef .tc main_v15) = W4 m ρ c (Proc.devRef .tc main_v15) :=
  (W15_of_ne m ρ D0 D1 c main_v15 (by decide)).trans <|
  (W14_kept m ρ D0 c main_v15 (by decide)).trans <|
  (W13_kept m ρ D0 c main_v15 (by decide)).trans <|
  (W12_kept m ρ D0 c main_v15 (by decide)).trans <|
  (W11_kept m ρ D0 c main_v15 (by decide)).trans <|
  (W10_of_ne m ρ D0 c main_v15 (by decide)).trans <|
  (W9_kept m ρ c main_v15 (by decide)).trans <|
  (W8_kept m ρ c main_v15 (by decide)).trans <|
  (W7_kept m ρ c main_v15 (by decide)).trans <|
  (W6_kept m ρ c main_v15 (by decide)).trans <|
  (W5_kept m ρ c main_v15 (by decide))
theorem keep_v34_4_15 (c : Dev nD) : W15 m ρ D0 D1 c (Proc.devRef .tc main_v34) = W4 m ρ c (Proc.devRef .tc main_v34) :=
  (W15_of_ne m ρ D0 D1 c main_v34 (by decide)).trans <|
  (W14_kept m ρ D0 c main_v34 (by decide)).trans <|
  (W13_kept m ρ D0 c main_v34 (by decide)).trans <|
  (W12_kept m ρ D0 c main_v34 (by decide)).trans <|
  (W11_kept m ρ D0 c main_v34 (by decide)).trans <|
  (W10_of_ne m ρ D0 c main_v34 (by decide)).trans <|
  (W9_kept m ρ c main_v34 (by decide)).trans <|
  (W8_kept m ρ c main_v34 (by decide)).trans <|
  (W7_kept m ρ c main_v34 (by decide)).trans <|
  (W6_kept m ρ c main_v34 (by decide)).trans <|
  (W5_kept m ρ c main_v34 (by decide))
theorem keep_v211_14_15 (c : Dev nD) : W15 m ρ D0 D1 c (Proc.devRef .tc main_v211) = W14 m ρ D0 c (Proc.devRef .tc main_v211) :=
  (W15_of_ne m ρ D0 D1 c main_v211 (by decide))
theorem keep_v30_4_28 (c : Dev nD) : W28 m ρ D0 D1 c (Proc.devRef .tc main_v30) = W4 m ρ c (Proc.devRef .tc main_v30) :=
  (W28_kept m ρ D0 D1 c main_v30 (by decide)).trans <|
  (W27_kept m ρ D0 D1 c main_v30 (by decide)).trans <|
  (W26_kept m ρ D0 D1 c main_v30 (by decide)).trans <|
  (W25_kept m ρ D0 D1 c main_v30 (by decide)).trans <|
  (W24_kept m ρ D0 D1 c main_v30 (by decide)).trans <|
  (W23_kept m ρ D0 D1 c main_v30 (by decide)).trans <|
  (W22_kept m ρ D0 D1 c main_v30 (by decide)).trans <|
  (W21_kept m ρ D0 D1 c main_v30 (by decide)).trans <|
  (W20_kept m ρ D0 D1 c main_v30 (by decide)).trans <|
  (W19_kept m ρ D0 D1 c main_v30 (by decide)).trans <|
  (W18_kept m ρ D0 D1 c main_v30 (by decide)).trans <|
  (W17_kept m ρ D0 D1 c main_v30 (by decide)).trans <|
  (W16_kept m ρ D0 D1 c main_v30 (by decide)).trans <|
  (W15_of_ne m ρ D0 D1 c main_v30 (by decide)).trans <|
  (W14_kept m ρ D0 c main_v30 (by decide)).trans <|
  (W13_kept m ρ D0 c main_v30 (by decide)).trans <|
  (W12_kept m ρ D0 c main_v30 (by decide)).trans <|
  (W11_kept m ρ D0 c main_v30 (by decide)).trans <|
  (W10_of_ne m ρ D0 c main_v30 (by decide)).trans <|
  (W9_kept m ρ c main_v30 (by decide)).trans <|
  (W8_kept m ρ c main_v30 (by decide)).trans <|
  (W7_kept m ρ c main_v30 (by decide)).trans <|
  (W6_kept m ρ c main_v30 (by decide)).trans <|
  (W5_kept m ρ c main_v30 (by decide))
theorem keep_v301_28_29 (c : Dev nD) : W29 m ρ D0 D1 D2 c (Proc.devRef .tc main_v301) = W28 m ρ D0 D1 c (Proc.devRef .tc main_v301) :=
  (W29_of_ne m ρ D0 D1 D2 c main_v301 (by decide))
theorem keep_v154_12_29 (c : Dev nD) : W29 m ρ D0 D1 D2 c (Proc.devRef .tc main_v154) = W12 m ρ D0 c (Proc.devRef .tc main_v154) :=
  (W29_of_ne m ρ D0 D1 D2 c main_v154 (by decide)).trans <|
  (W28_kept m ρ D0 D1 c main_v154 (by decide)).trans <|
  (W27_kept m ρ D0 D1 c main_v154 (by decide)).trans <|
  (W26_kept m ρ D0 D1 c main_v154 (by decide)).trans <|
  (W25_kept m ρ D0 D1 c main_v154 (by decide)).trans <|
  (W24_kept m ρ D0 D1 c main_v154 (by decide)).trans <|
  (W23_kept m ρ D0 D1 c main_v154 (by decide)).trans <|
  (W22_kept m ρ D0 D1 c main_v154 (by decide)).trans <|
  (W21_kept m ρ D0 D1 c main_v154 (by decide)).trans <|
  (W20_kept m ρ D0 D1 c main_v154 (by decide)).trans <|
  (W19_kept m ρ D0 D1 c main_v154 (by decide)).trans <|
  (W18_kept m ρ D0 D1 c main_v154 (by decide)).trans <|
  (W17_kept m ρ D0 D1 c main_v154 (by decide)).trans <|
  (W16_kept m ρ D0 D1 c main_v154 (by decide)).trans <|
  (W15_of_ne m ρ D0 D1 c main_v154 (by decide)).trans <|
  (W14_kept m ρ D0 c main_v154 (by decide)).trans <|
  (W13_kept m ρ D0 c main_v154 (by decide))
theorem keep_v211_14_29 (c : Dev nD) : W29 m ρ D0 D1 D2 c (Proc.devRef .tc main_v211) = W14 m ρ D0 c (Proc.devRef .tc main_v211) :=
  (W29_of_ne m ρ D0 D1 D2 c main_v211 (by decide)).trans <|
  (W28_kept m ρ D0 D1 c main_v211 (by decide)).trans <|
  (W27_kept m ρ D0 D1 c main_v211 (by decide)).trans <|
  (W26_kept m ρ D0 D1 c main_v211 (by decide)).trans <|
  (W25_kept m ρ D0 D1 c main_v211 (by decide)).trans <|
  (W24_kept m ρ D0 D1 c main_v211 (by decide)).trans <|
  (W23_kept m ρ D0 D1 c main_v211 (by decide)).trans <|
  (W22_kept m ρ D0 D1 c main_v211 (by decide)).trans <|
  (W21_kept m ρ D0 D1 c main_v211 (by decide)).trans <|
  (W20_kept m ρ D0 D1 c main_v211 (by decide)).trans <|
  (W19_kept m ρ D0 D1 c main_v211 (by decide)).trans <|
  (W18_kept m ρ D0 D1 c main_v211 (by decide)).trans <|
  (W17_kept m ρ D0 D1 c main_v211 (by decide)).trans <|
  (W16_kept m ρ D0 D1 c main_v211 (by decide)).trans <|
  (W15_of_ne m ρ D0 D1 c main_v211 (by decide))
theorem keep_v213_15_29 (c : Dev nD) : W29 m ρ D0 D1 D2 c (Proc.devRef .tc main_v213) = W15 m ρ D0 D1 c (Proc.devRef .tc main_v213) :=
  (W29_of_ne m ρ D0 D1 D2 c main_v213 (by decide)).trans <|
  (W28_kept m ρ D0 D1 c main_v213 (by decide)).trans <|
  (W27_kept m ρ D0 D1 c main_v213 (by decide)).trans <|
  (W26_kept m ρ D0 D1 c main_v213 (by decide)).trans <|
  (W25_kept m ρ D0 D1 c main_v213 (by decide)).trans <|
  (W24_kept m ρ D0 D1 c main_v213 (by decide)).trans <|
  (W23_kept m ρ D0 D1 c main_v213 (by decide)).trans <|
  (W22_kept m ρ D0 D1 c main_v213 (by decide)).trans <|
  (W21_kept m ρ D0 D1 c main_v213 (by decide)).trans <|
  (W20_kept m ρ D0 D1 c main_v213 (by decide)).trans <|
  (W19_kept m ρ D0 D1 c main_v213 (by decide)).trans <|
  (W18_kept m ρ D0 D1 c main_v213 (by decide)).trans <|
  (W17_kept m ρ D0 D1 c main_v213 (by decide)).trans <|
  (W16_kept m ρ D0 D1 c main_v213 (by decide))
theorem keep_arg3_0_9 (c : Dev nD) : W9 m ρ c (Proc.devRef .tc main_arg3) = W0 m ρ c (Proc.devRef .tc main_arg3) :=
  (W9_kept m ρ c main_arg3 (by decide)).trans <|
  (W8_kept m ρ c main_arg3 (by decide)).trans <|
  (W7_kept m ρ c main_arg3 (by decide)).trans <|
  (W6_kept m ρ c main_arg3 (by decide)).trans <|
  (W5_kept m ρ c main_arg3 (by decide)).trans <|
  (W4_kept m ρ c main_arg3 (by decide)).trans <|
  (W3_kept m ρ c main_arg3 (by decide)).trans <|
  (W2_kept m ρ c main_arg3 (by decide)).trans <|
  (W1_kept m ρ c main_arg3 (by decide))
theorem keep_arg1_0_10 (c : Dev nD) : W10 m ρ D0 c (Proc.devRef .tc main_arg1) = W0 m ρ c (Proc.devRef .tc main_arg1) :=
  (W10_of_ne m ρ D0 c main_arg1 (by decide)).trans <|
  (W9_kept m ρ c main_arg1 (by decide)).trans <|
  (W8_kept m ρ c main_arg1 (by decide)).trans <|
  (W7_kept m ρ c main_arg1 (by decide)).trans <|
  (W6_kept m ρ c main_arg1 (by decide)).trans <|
  (W5_kept m ρ c main_arg1 (by decide)).trans <|
  (W4_kept m ρ c main_arg1 (by decide)).trans <|
  (W3_kept m ρ c main_arg1 (by decide)).trans <|
  (W2_kept m ρ c main_arg1 (by decide)).trans <|
  (W1_kept m ρ c main_arg1 (by decide))
theorem keep_arg2_0_12 (c : Dev nD) : W12 m ρ D0 c (Proc.devRef .tc main_arg2) = W0 m ρ c (Proc.devRef .tc main_arg2) :=
  (W12_kept m ρ D0 c main_arg2 (by decide)).trans <|
  (W11_kept m ρ D0 c main_arg2 (by decide)).trans <|
  (W10_of_ne m ρ D0 c main_arg2 (by decide)).trans <|
  (W9_kept m ρ c main_arg2 (by decide)).trans <|
  (W8_kept m ρ c main_arg2 (by decide)).trans <|
  (W7_kept m ρ c main_arg2 (by decide)).trans <|
  (W6_kept m ρ c main_arg2 (by decide)).trans <|
  (W5_kept m ρ c main_arg2 (by decide)).trans <|
  (W4_kept m ρ c main_arg2 (by decide)).trans <|
  (W3_kept m ρ c main_arg2 (by decide)).trans <|
  (W2_kept m ρ c main_arg2 (by decide)).trans <|
  (W1_kept m ρ c main_arg2 (by decide))
theorem keep_arg3_0_14 (c : Dev nD) : W14 m ρ D0 c (Proc.devRef .tc main_arg3) = W0 m ρ c (Proc.devRef .tc main_arg3) :=
  (W14_kept m ρ D0 c main_arg3 (by decide)).trans <|
  (W13_kept m ρ D0 c main_arg3 (by decide)).trans <|
  (W12_kept m ρ D0 c main_arg3 (by decide)).trans <|
  (W11_kept m ρ D0 c main_arg3 (by decide)).trans <|
  (W10_in m ρ D0 c 0 rfl).trans <|
  (W9_kept m ρ c main_arg3 (by decide)).trans <|
  (W8_kept m ρ c main_arg3 (by decide)).trans <|
  (W7_kept m ρ c main_arg3 (by decide)).trans <|
  (W6_kept m ρ c main_arg3 (by decide)).trans <|
  (W5_kept m ρ c main_arg3 (by decide)).trans <|
  (W4_kept m ρ c main_arg3 (by decide)).trans <|
  (W3_kept m ρ c main_arg3 (by decide)).trans <|
  (W2_kept m ρ c main_arg3 (by decide)).trans <|
  (W1_kept m ρ c main_arg3 (by decide))
theorem keep_arg4_0_15 (c : Dev nD) : W15 m ρ D0 D1 c (Proc.devRef .tc main_arg4) = W0 m ρ c (Proc.devRef .tc main_arg4) :=
  (W15_of_ne m ρ D0 D1 c main_arg4 (by decide)).trans <|
  (W14_kept m ρ D0 c main_arg4 (by decide)).trans <|
  (W13_kept m ρ D0 c main_arg4 (by decide)).trans <|
  (W12_kept m ρ D0 c main_arg4 (by decide)).trans <|
  (W11_kept m ρ D0 c main_arg4 (by decide)).trans <|
  (W10_of_ne m ρ D0 c main_arg4 (by decide)).trans <|
  (W9_kept m ρ c main_arg4 (by decide)).trans <|
  (W8_kept m ρ c main_arg4 (by decide)).trans <|
  (W7_kept m ρ c main_arg4 (by decide)).trans <|
  (W6_kept m ρ c main_arg4 (by decide)).trans <|
  (W5_kept m ρ c main_arg4 (by decide)).trans <|
  (W4_kept m ρ c main_arg4 (by decide)).trans <|
  (W3_kept m ρ c main_arg4 (by decide)).trans <|
  (W2_kept m ρ c main_arg4 (by decide)).trans <|
  (W1_kept m ρ c main_arg4 (by decide))
theorem keep_arg3_0_28 (c : Dev nD) : W28 m ρ D0 D1 c (Proc.devRef .tc main_arg3) = W0 m ρ c (Proc.devRef .tc main_arg3) :=
  (W28_kept m ρ D0 D1 c main_arg3 (by decide)).trans <|
  (W27_kept m ρ D0 D1 c main_arg3 (by decide)).trans <|
  (W26_kept m ρ D0 D1 c main_arg3 (by decide)).trans <|
  (W25_kept m ρ D0 D1 c main_arg3 (by decide)).trans <|
  (W24_kept m ρ D0 D1 c main_arg3 (by decide)).trans <|
  (W23_kept m ρ D0 D1 c main_arg3 (by decide)).trans <|
  (W22_kept m ρ D0 D1 c main_arg3 (by decide)).trans <|
  (W21_kept m ρ D0 D1 c main_arg3 (by decide)).trans <|
  (W20_kept m ρ D0 D1 c main_arg3 (by decide)).trans <|
  (W19_kept m ρ D0 D1 c main_arg3 (by decide)).trans <|
  (W18_kept m ρ D0 D1 c main_arg3 (by decide)).trans <|
  (W17_kept m ρ D0 D1 c main_arg3 (by decide)).trans <|
  (W16_kept m ρ D0 D1 c main_arg3 (by decide)).trans <|
  (W15_in m ρ D0 D1 c 0 rfl).trans <|
  (W14_kept m ρ D0 c main_arg3 (by decide)).trans <|
  (W13_kept m ρ D0 c main_arg3 (by decide)).trans <|
  (W12_kept m ρ D0 c main_arg3 (by decide)).trans <|
  (W11_kept m ρ D0 c main_arg3 (by decide)).trans <|
  (W10_in m ρ D0 c 0 rfl).trans <|
  (W9_kept m ρ c main_arg3 (by decide)).trans <|
  (W8_kept m ρ c main_arg3 (by decide)).trans <|
  (W7_kept m ρ c main_arg3 (by decide)).trans <|
  (W6_kept m ρ c main_arg3 (by decide)).trans <|
  (W5_kept m ρ c main_arg3 (by decide)).trans <|
  (W4_kept m ρ c main_arg3 (by decide)).trans <|
  (W3_kept m ρ c main_arg3 (by decide)).trans <|
  (W2_kept m ρ c main_arg3 (by decide)).trans <|
  (W1_kept m ρ c main_arg3 (by decide))
theorem keep_arg13_0_15 (c : Dev nD) : W15 m ρ D0 D1 c (Proc.devRef .tc main_arg13) = W0 m ρ c (Proc.devRef .tc main_arg13) :=
  (W15_of_ne m ρ D0 D1 c main_arg13 (by decide)).trans <|
  (W14_kept m ρ D0 c main_arg13 (by decide)).trans <|
  (W13_kept m ρ D0 c main_arg13 (by decide)).trans <|
  (W12_kept m ρ D0 c main_arg13 (by decide)).trans <|
  (W11_kept m ρ D0 c main_arg13 (by decide)).trans <|
  (W10_of_ne m ρ D0 c main_arg13 (by decide)).trans <|
  (W9_kept m ρ c main_arg13 (by decide)).trans <|
  (W8_kept m ρ c main_arg13 (by decide)).trans <|
  (W7_kept m ρ c main_arg13 (by decide)).trans <|
  (W6_kept m ρ c main_arg13 (by decide)).trans <|
  (W5_kept m ρ c main_arg13 (by decide)).trans <|
  (W4_kept m ρ c main_arg13 (by decide)).trans <|
  (W3_kept m ρ c main_arg13 (by decide)).trans <|
  (W2_kept m ρ c main_arg13 (by decide)).trans <|
  (W1_kept m ρ c main_arg13 (by decide))
theorem keep_arg14_0_15 (c : Dev nD) : W15 m ρ D0 D1 c (Proc.devRef .tc main_arg14) = W0 m ρ c (Proc.devRef .tc main_arg14) :=
  (W15_of_ne m ρ D0 D1 c main_arg14 (by decide)).trans <|
  (W14_kept m ρ D0 c main_arg14 (by decide)).trans <|
  (W13_kept m ρ D0 c main_arg14 (by decide)).trans <|
  (W12_kept m ρ D0 c main_arg14 (by decide)).trans <|
  (W11_kept m ρ D0 c main_arg14 (by decide)).trans <|
  (W10_of_ne m ρ D0 c main_arg14 (by decide)).trans <|
  (W9_kept m ρ c main_arg14 (by decide)).trans <|
  (W8_kept m ρ c main_arg14 (by decide)).trans <|
  (W7_kept m ρ c main_arg14 (by decide)).trans <|
  (W6_kept m ρ c main_arg14 (by decide)).trans <|
  (W5_kept m ρ c main_arg14 (by decide)).trans <|
  (W4_kept m ρ c main_arg14 (by decide)).trans <|
  (W3_kept m ρ c main_arg14 (by decide)).trans <|
  (W2_kept m ρ c main_arg14 (by decide)).trans <|
  (W1_kept m ρ c main_arg14 (by decide))
theorem keep_arg15_0_15 (c : Dev nD) : W15 m ρ D0 D1 c (Proc.devRef .tc main_arg15) = W0 m ρ c (Proc.devRef .tc main_arg15) :=
  (W15_of_ne m ρ D0 D1 c main_arg15 (by decide)).trans <|
  (W14_kept m ρ D0 c main_arg15 (by decide)).trans <|
  (W13_kept m ρ D0 c main_arg15 (by decide)).trans <|
  (W12_kept m ρ D0 c main_arg15 (by decide)).trans <|
  (W11_kept m ρ D0 c main_arg15 (by decide)).trans <|
  (W10_of_ne m ρ D0 c main_arg15 (by decide)).trans <|
  (W9_kept m ρ c main_arg15 (by decide)).trans <|
  (W8_kept m ρ c main_arg15 (by decide)).trans <|
  (W7_kept m ρ c main_arg15 (by decide)).trans <|
  (W6_kept m ρ c main_arg15 (by decide)).trans <|
  (W5_kept m ρ c main_arg15 (by decide)).trans <|
  (W4_kept m ρ c main_arg15 (by decide)).trans <|
  (W3_kept m ρ c main_arg15 (by decide)).trans <|
  (W2_kept m ρ c main_arg15 (by decide)).trans <|
  (W1_kept m ρ c main_arg15 (by decide))
theorem keep_arg16_0_15 (c : Dev nD) : W15 m ρ D0 D1 c (Proc.devRef .tc main_arg16) = W0 m ρ c (Proc.devRef .tc main_arg16) :=
  (W15_of_ne m ρ D0 D1 c main_arg16 (by decide)).trans <|
  (W14_kept m ρ D0 c main_arg16 (by decide)).trans <|
  (W13_kept m ρ D0 c main_arg16 (by decide)).trans <|
  (W12_kept m ρ D0 c main_arg16 (by decide)).trans <|
  (W11_kept m ρ D0 c main_arg16 (by decide)).trans <|
  (W10_of_ne m ρ D0 c main_arg16 (by decide)).trans <|
  (W9_kept m ρ c main_arg16 (by decide)).trans <|
  (W8_kept m ρ c main_arg16 (by decide)).trans <|
  (W7_kept m ρ c main_arg16 (by decide)).trans <|
  (W6_kept m ρ c main_arg16 (by decide)).trans <|
  (W5_kept m ρ c main_arg16 (by decide)).trans <|
  (W4_kept m ρ c main_arg16 (by decide)).trans <|
  (W3_kept m ρ c main_arg16 (by decide)).trans <|
  (W2_kept m ρ c main_arg16 (by decide)).trans <|
  (W1_kept m ρ c main_arg16 (by decide))
theorem keep_arg17_0_15 (c : Dev nD) : W15 m ρ D0 D1 c (Proc.devRef .tc main_arg17) = W0 m ρ c (Proc.devRef .tc main_arg17) :=
  (W15_of_ne m ρ D0 D1 c main_arg17 (by decide)).trans <|
  (W14_kept m ρ D0 c main_arg17 (by decide)).trans <|
  (W13_kept m ρ D0 c main_arg17 (by decide)).trans <|
  (W12_kept m ρ D0 c main_arg17 (by decide)).trans <|
  (W11_kept m ρ D0 c main_arg17 (by decide)).trans <|
  (W10_of_ne m ρ D0 c main_arg17 (by decide)).trans <|
  (W9_kept m ρ c main_arg17 (by decide)).trans <|
  (W8_kept m ρ c main_arg17 (by decide)).trans <|
  (W7_kept m ρ c main_arg17 (by decide)).trans <|
  (W6_kept m ρ c main_arg17 (by decide)).trans <|
  (W5_kept m ρ c main_arg17 (by decide)).trans <|
  (W4_kept m ρ c main_arg17 (by decide)).trans <|
  (W3_kept m ρ c main_arg17 (by decide)).trans <|
  (W2_kept m ρ c main_arg17 (by decide)).trans <|
  (W1_kept m ρ c main_arg17 (by decide))
theorem keep_arg18_0_15 (c : Dev nD) : W15 m ρ D0 D1 c (Proc.devRef .tc main_arg18) = W0 m ρ c (Proc.devRef .tc main_arg18) :=
  (W15_of_ne m ρ D0 D1 c main_arg18 (by decide)).trans <|
  (W14_kept m ρ D0 c main_arg18 (by decide)).trans <|
  (W13_kept m ρ D0 c main_arg18 (by decide)).trans <|
  (W12_kept m ρ D0 c main_arg18 (by decide)).trans <|
  (W11_kept m ρ D0 c main_arg18 (by decide)).trans <|
  (W10_of_ne m ρ D0 c main_arg18 (by decide)).trans <|
  (W9_kept m ρ c main_arg18 (by decide)).trans <|
  (W8_kept m ρ c main_arg18 (by decide)).trans <|
  (W7_kept m ρ c main_arg18 (by decide)).trans <|
  (W6_kept m ρ c main_arg18 (by decide)).trans <|
  (W5_kept m ρ c main_arg18 (by decide)).trans <|
  (W4_kept m ρ c main_arg18 (by decide)).trans <|
  (W3_kept m ρ c main_arg18 (by decide)).trans <|
  (W2_kept m ρ c main_arg18 (by decide)).trans <|
  (W1_kept m ρ c main_arg18 (by decide))
theorem keep_arg19_0_15 (c : Dev nD) : W15 m ρ D0 D1 c (Proc.devRef .tc main_arg19) = W0 m ρ c (Proc.devRef .tc main_arg19) :=
  (W15_of_ne m ρ D0 D1 c main_arg19 (by decide)).trans <|
  (W14_kept m ρ D0 c main_arg19 (by decide)).trans <|
  (W13_kept m ρ D0 c main_arg19 (by decide)).trans <|
  (W12_kept m ρ D0 c main_arg19 (by decide)).trans <|
  (W11_kept m ρ D0 c main_arg19 (by decide)).trans <|
  (W10_of_ne m ρ D0 c main_arg19 (by decide)).trans <|
  (W9_kept m ρ c main_arg19 (by decide)).trans <|
  (W8_kept m ρ c main_arg19 (by decide)).trans <|
  (W7_kept m ρ c main_arg19 (by decide)).trans <|
  (W6_kept m ρ c main_arg19 (by decide)).trans <|
  (W5_kept m ρ c main_arg19 (by decide)).trans <|
  (W4_kept m ρ c main_arg19 (by decide)).trans <|
  (W3_kept m ρ c main_arg19 (by decide)).trans <|
  (W2_kept m ρ c main_arg19 (by decide)).trans <|
  (W1_kept m ρ c main_arg19 (by decide))
theorem keep_arg20_0_15 (c : Dev nD) : W15 m ρ D0 D1 c (Proc.devRef .tc main_arg20) = W0 m ρ c (Proc.devRef .tc main_arg20) :=
  (W15_of_ne m ρ D0 D1 c main_arg20 (by decide)).trans <|
  (W14_kept m ρ D0 c main_arg20 (by decide)).trans <|
  (W13_kept m ρ D0 c main_arg20 (by decide)).trans <|
  (W12_kept m ρ D0 c main_arg20 (by decide)).trans <|
  (W11_kept m ρ D0 c main_arg20 (by decide)).trans <|
  (W10_of_ne m ρ D0 c main_arg20 (by decide)).trans <|
  (W9_kept m ρ c main_arg20 (by decide)).trans <|
  (W8_kept m ρ c main_arg20 (by decide)).trans <|
  (W7_kept m ρ c main_arg20 (by decide)).trans <|
  (W6_kept m ρ c main_arg20 (by decide)).trans <|
  (W5_kept m ρ c main_arg20 (by decide)).trans <|
  (W4_kept m ρ c main_arg20 (by decide)).trans <|
  (W3_kept m ρ c main_arg20 (by decide)).trans <|
  (W2_kept m ρ c main_arg20 (by decide)).trans <|
  (W1_kept m ρ c main_arg20 (by decide))
theorem keep_arg21_0_15 (c : Dev nD) : W15 m ρ D0 D1 c (Proc.devRef .tc main_arg21) = W0 m ρ c (Proc.devRef .tc main_arg21) :=
  (W15_of_ne m ρ D0 D1 c main_arg21 (by decide)).trans <|
  (W14_kept m ρ D0 c main_arg21 (by decide)).trans <|
  (W13_kept m ρ D0 c main_arg21 (by decide)).trans <|
  (W12_kept m ρ D0 c main_arg21 (by decide)).trans <|
  (W11_kept m ρ D0 c main_arg21 (by decide)).trans <|
  (W10_of_ne m ρ D0 c main_arg21 (by decide)).trans <|
  (W9_kept m ρ c main_arg21 (by decide)).trans <|
  (W8_kept m ρ c main_arg21 (by decide)).trans <|
  (W7_kept m ρ c main_arg21 (by decide)).trans <|
  (W6_kept m ρ c main_arg21 (by decide)).trans <|
  (W5_kept m ρ c main_arg21 (by decide)).trans <|
  (W4_kept m ρ c main_arg21 (by decide)).trans <|
  (W3_kept m ρ c main_arg21 (by decide)).trans <|
  (W2_kept m ρ c main_arg21 (by decide)).trans <|
  (W1_kept m ρ c main_arg21 (by decide))
theorem keep_arg22_0_15 (c : Dev nD) : W15 m ρ D0 D1 c (Proc.devRef .tc main_arg22) = W0 m ρ c (Proc.devRef .tc main_arg22) :=
  (W15_of_ne m ρ D0 D1 c main_arg22 (by decide)).trans <|
  (W14_kept m ρ D0 c main_arg22 (by decide)).trans <|
  (W13_kept m ρ D0 c main_arg22 (by decide)).trans <|
  (W12_kept m ρ D0 c main_arg22 (by decide)).trans <|
  (W11_kept m ρ D0 c main_arg22 (by decide)).trans <|
  (W10_of_ne m ρ D0 c main_arg22 (by decide)).trans <|
  (W9_kept m ρ c main_arg22 (by decide)).trans <|
  (W8_kept m ρ c main_arg22 (by decide)).trans <|
  (W7_kept m ρ c main_arg22 (by decide)).trans <|
  (W6_kept m ρ c main_arg22 (by decide)).trans <|
  (W5_kept m ρ c main_arg22 (by decide)).trans <|
  (W4_kept m ρ c main_arg22 (by decide)).trans <|
  (W3_kept m ρ c main_arg22 (by decide)).trans <|
  (W2_kept m ρ c main_arg22 (by decide)).trans <|
  (W1_kept m ρ c main_arg22 (by decide))
theorem keep_arg23_0_15 (c : Dev nD) : W15 m ρ D0 D1 c (Proc.devRef .tc main_arg23) = W0 m ρ c (Proc.devRef .tc main_arg23) :=
  (W15_of_ne m ρ D0 D1 c main_arg23 (by decide)).trans <|
  (W14_kept m ρ D0 c main_arg23 (by decide)).trans <|
  (W13_kept m ρ D0 c main_arg23 (by decide)).trans <|
  (W12_kept m ρ D0 c main_arg23 (by decide)).trans <|
  (W11_kept m ρ D0 c main_arg23 (by decide)).trans <|
  (W10_of_ne m ρ D0 c main_arg23 (by decide)).trans <|
  (W9_kept m ρ c main_arg23 (by decide)).trans <|
  (W8_kept m ρ c main_arg23 (by decide)).trans <|
  (W7_kept m ρ c main_arg23 (by decide)).trans <|
  (W6_kept m ρ c main_arg23 (by decide)).trans <|
  (W5_kept m ρ c main_arg23 (by decide)).trans <|
  (W4_kept m ρ c main_arg23 (by decide)).trans <|
  (W3_kept m ρ c main_arg23 (by decide)).trans <|
  (W2_kept m ρ c main_arg23 (by decide)).trans <|
  (W1_kept m ρ c main_arg23 (by decide))
theorem keep_arg24_0_15 (c : Dev nD) : W15 m ρ D0 D1 c (Proc.devRef .tc main_arg24) = W0 m ρ c (Proc.devRef .tc main_arg24) :=
  (W15_of_ne m ρ D0 D1 c main_arg24 (by decide)).trans <|
  (W14_kept m ρ D0 c main_arg24 (by decide)).trans <|
  (W13_kept m ρ D0 c main_arg24 (by decide)).trans <|
  (W12_kept m ρ D0 c main_arg24 (by decide)).trans <|
  (W11_kept m ρ D0 c main_arg24 (by decide)).trans <|
  (W10_of_ne m ρ D0 c main_arg24 (by decide)).trans <|
  (W9_kept m ρ c main_arg24 (by decide)).trans <|
  (W8_kept m ρ c main_arg24 (by decide)).trans <|
  (W7_kept m ρ c main_arg24 (by decide)).trans <|
  (W6_kept m ρ c main_arg24 (by decide)).trans <|
  (W5_kept m ρ c main_arg24 (by decide)).trans <|
  (W4_kept m ρ c main_arg24 (by decide)).trans <|
  (W3_kept m ρ c main_arg24 (by decide)).trans <|
  (W2_kept m ρ c main_arg24 (by decide)).trans <|
  (W1_kept m ρ c main_arg24 (by decide))
theorem keep_arg25_0_15 (c : Dev nD) : W15 m ρ D0 D1 c (Proc.devRef .tc main_arg25) = W0 m ρ c (Proc.devRef .tc main_arg25) :=
  (W15_of_ne m ρ D0 D1 c main_arg25 (by decide)).trans <|
  (W14_kept m ρ D0 c main_arg25 (by decide)).trans <|
  (W13_kept m ρ D0 c main_arg25 (by decide)).trans <|
  (W12_kept m ρ D0 c main_arg25 (by decide)).trans <|
  (W11_kept m ρ D0 c main_arg25 (by decide)).trans <|
  (W10_of_ne m ρ D0 c main_arg25 (by decide)).trans <|
  (W9_kept m ρ c main_arg25 (by decide)).trans <|
  (W8_kept m ρ c main_arg25 (by decide)).trans <|
  (W7_kept m ρ c main_arg25 (by decide)).trans <|
  (W6_kept m ρ c main_arg25 (by decide)).trans <|
  (W5_kept m ρ c main_arg25 (by decide)).trans <|
  (W4_kept m ρ c main_arg25 (by decide)).trans <|
  (W3_kept m ρ c main_arg25 (by decide)).trans <|
  (W2_kept m ρ c main_arg25 (by decide)).trans <|
  (W1_kept m ρ c main_arg25 (by decide))
theorem keep_arg26_0_15 (c : Dev nD) : W15 m ρ D0 D1 c (Proc.devRef .tc main_arg26) = W0 m ρ c (Proc.devRef .tc main_arg26) :=
  (W15_of_ne m ρ D0 D1 c main_arg26 (by decide)).trans <|
  (W14_kept m ρ D0 c main_arg26 (by decide)).trans <|
  (W13_kept m ρ D0 c main_arg26 (by decide)).trans <|
  (W12_kept m ρ D0 c main_arg26 (by decide)).trans <|
  (W11_kept m ρ D0 c main_arg26 (by decide)).trans <|
  (W10_of_ne m ρ D0 c main_arg26 (by decide)).trans <|
  (W9_kept m ρ c main_arg26 (by decide)).trans <|
  (W8_kept m ρ c main_arg26 (by decide)).trans <|
  (W7_kept m ρ c main_arg26 (by decide)).trans <|
  (W6_kept m ρ c main_arg26 (by decide)).trans <|
  (W5_kept m ρ c main_arg26 (by decide)).trans <|
  (W4_kept m ρ c main_arg26 (by decide)).trans <|
  (W3_kept m ρ c main_arg26 (by decide)).trans <|
  (W2_kept m ρ c main_arg26 (by decide)).trans <|
  (W1_kept m ρ c main_arg26 (by decide))
theorem keep_arg27_0_15 (c : Dev nD) : W15 m ρ D0 D1 c (Proc.devRef .tc main_arg27) = W0 m ρ c (Proc.devRef .tc main_arg27) :=
  (W15_of_ne m ρ D0 D1 c main_arg27 (by decide)).trans <|
  (W14_kept m ρ D0 c main_arg27 (by decide)).trans <|
  (W13_kept m ρ D0 c main_arg27 (by decide)).trans <|
  (W12_kept m ρ D0 c main_arg27 (by decide)).trans <|
  (W11_kept m ρ D0 c main_arg27 (by decide)).trans <|
  (W10_of_ne m ρ D0 c main_arg27 (by decide)).trans <|
  (W9_kept m ρ c main_arg27 (by decide)).trans <|
  (W8_kept m ρ c main_arg27 (by decide)).trans <|
  (W7_kept m ρ c main_arg27 (by decide)).trans <|
  (W6_kept m ρ c main_arg27 (by decide)).trans <|
  (W5_kept m ρ c main_arg27 (by decide)).trans <|
  (W4_kept m ρ c main_arg27 (by decide)).trans <|
  (W3_kept m ρ c main_arg27 (by decide)).trans <|
  (W2_kept m ρ c main_arg27 (by decide)).trans <|
  (W1_kept m ρ c main_arg27 (by decide))
theorem keep_arg28_0_15 (c : Dev nD) : W15 m ρ D0 D1 c (Proc.devRef .tc main_arg28) = W0 m ρ c (Proc.devRef .tc main_arg28) :=
  (W15_of_ne m ρ D0 D1 c main_arg28 (by decide)).trans <|
  (W14_kept m ρ D0 c main_arg28 (by decide)).trans <|
  (W13_kept m ρ D0 c main_arg28 (by decide)).trans <|
  (W12_kept m ρ D0 c main_arg28 (by decide)).trans <|
  (W11_kept m ρ D0 c main_arg28 (by decide)).trans <|
  (W10_of_ne m ρ D0 c main_arg28 (by decide)).trans <|
  (W9_kept m ρ c main_arg28 (by decide)).trans <|
  (W8_kept m ρ c main_arg28 (by decide)).trans <|
  (W7_kept m ρ c main_arg28 (by decide)).trans <|
  (W6_kept m ρ c main_arg28 (by decide)).trans <|
  (W5_kept m ρ c main_arg28 (by decide)).trans <|
  (W4_kept m ρ c main_arg28 (by decide)).trans <|
  (W3_kept m ρ c main_arg28 (by decide)).trans <|
  (W2_kept m ρ c main_arg28 (by decide)).trans <|
  (W1_kept m ρ c main_arg28 (by decide))
theorem keep_arg29_0_15 (c : Dev nD) : W15 m ρ D0 D1 c (Proc.devRef .tc main_arg29) = W0 m ρ c (Proc.devRef .tc main_arg29) :=
  (W15_of_ne m ρ D0 D1 c main_arg29 (by decide)).trans <|
  (W14_kept m ρ D0 c main_arg29 (by decide)).trans <|
  (W13_kept m ρ D0 c main_arg29 (by decide)).trans <|
  (W12_kept m ρ D0 c main_arg29 (by decide)).trans <|
  (W11_kept m ρ D0 c main_arg29 (by decide)).trans <|
  (W10_of_ne m ρ D0 c main_arg29 (by decide)).trans <|
  (W9_kept m ρ c main_arg29 (by decide)).trans <|
  (W8_kept m ρ c main_arg29 (by decide)).trans <|
  (W7_kept m ρ c main_arg29 (by decide)).trans <|
  (W6_kept m ρ c main_arg29 (by decide)).trans <|
  (W5_kept m ρ c main_arg29 (by decide)).trans <|
  (W4_kept m ρ c main_arg29 (by decide)).trans <|
  (W3_kept m ρ c main_arg29 (by decide)).trans <|
  (W2_kept m ρ c main_arg29 (by decide)).trans <|
  (W1_kept m ρ c main_arg29 (by decide))
theorem keep_arg30_0_15 (c : Dev nD) : W15 m ρ D0 D1 c (Proc.devRef .tc main_arg30) = W0 m ρ c (Proc.devRef .tc main_arg30) :=
  (W15_of_ne m ρ D0 D1 c main_arg30 (by decide)).trans <|
  (W14_kept m ρ D0 c main_arg30 (by decide)).trans <|
  (W13_kept m ρ D0 c main_arg30 (by decide)).trans <|
  (W12_kept m ρ D0 c main_arg30 (by decide)).trans <|
  (W11_kept m ρ D0 c main_arg30 (by decide)).trans <|
  (W10_of_ne m ρ D0 c main_arg30 (by decide)).trans <|
  (W9_kept m ρ c main_arg30 (by decide)).trans <|
  (W8_kept m ρ c main_arg30 (by decide)).trans <|
  (W7_kept m ρ c main_arg30 (by decide)).trans <|
  (W6_kept m ρ c main_arg30 (by decide)).trans <|
  (W5_kept m ρ c main_arg30 (by decide)).trans <|
  (W4_kept m ρ c main_arg30 (by decide)).trans <|
  (W3_kept m ρ c main_arg30 (by decide)).trans <|
  (W2_kept m ρ c main_arg30 (by decide)).trans <|
  (W1_kept m ρ c main_arg30 (by decide))

end Cert.KernelIdeal.Hand

end
-- ==== Proof.Passes.lean ====
/- The three passes over the memory matrix as functions of whole arrays over the extended reals. -/
import Idealize.ShloMosaic.PureOps.Ideal
import Idealize.ShloMosaic.Lib.ValueIdx

noncomputable section

namespace Cert.Passes

open Idealize.ShloMosaic

def eps : EReal := Ideal.ofBits .f32 0x24E69595#32
def one : EReal := Ideal.ofBits .f32 0x3F800000#32

def rowNorm (M : Fin 1000000 → Fin 20 → EReal) (i : Fin 1000000) : EReal :=
  Ideal.sqrt (∑ j : Fin 20, (M i j + eps) * (M i j + eps))

def rowDot (M : Fin 1000000 → Fin 20 → EReal) (k : Fin 20 → EReal) (i : Fin 1000000) : EReal :=
  ∑ j : Fin 20, (M i j + eps) * k j

def weightedSum (M : Fin 1000000 → Fin 20 → EReal) (w : Fin 1000000 → EReal) (j : Fin 20) : EReal :=
  ∑ i : Fin 1000000, M i j * w i

def eraseAdd (M : Fin 1000000 → Fin 20 → EReal) (w : Fin 1000000 → EReal) (e a : Fin 20 → EReal)
    (i : Fin 1000000) (j : Fin 20) : EReal :=
  M i j * (one - w i * e j) + w i * a j

end Cert.Passes

end
-- ==== Proof.KI.AddrValue.lean ====
/- The value of the first pass over the extended reals: three columns of row sums. -/
import proofs.«147285_j27152783245914_1_alg».proof.Proof.KI.AddrBody
import proofs.«147285_j27152783245914_1_alg».proof.Proof.Passes
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

theorem shifted_apply0 (x : Vec Ideal S5000x20 .f32) (r : Fin 5000) (j : Fin 20) :
    k0_pay1 x (ix2 r j) = x (ix2 r j) + Cert.Passes.eps := rfl

theorem rowSum_apply0 (v : FVec Ideal S5000x20 .f32) (hφ : FKind.Formats .f32)
    (hacc : (0x00000000#32 : BitVec 32) = FKind.add.neutral .f32 hφ) (r : Fin 5000) :
    multiReduction .add [1] S5000 v 0x00000000#32 reduces_S5000x20_S5000 hφ hacc (ix1 r) = ∑ j : Fin 20, v (ix2 r j) :=
  (Ideal.multiReduction_add_single v 0x00000000#32 reduces_S5000x20_S5000 hφ hacc (ix1 r)).trans
    (Finset.sum_congr rfl fun j _ => congrArg v (funext fun a => match a with | ⟨0, _⟩ => rfl | ⟨1, _⟩ => rfl))

theorem asColumn_apply0 (v : FVec Ideal S5000 .f32) (r : Fin 5000) :
    shapeCast S5000x1 v shapeCasts_S5000_S5000x1 (ix2 r (0 : Fin 1)) = v (ix1 r) :=
  shapeCast_apply v shapeCasts_S5000_S5000x1 (ix2 r (0 : Fin 1)) (ix1 r) (by
    rw [Shape.rowMajor_val_one, Shape.rowMajor_val_two]
    show r.val = r.val * 1 + 0
    omega)

theorem keyCast_apply0 (k : Vec Ideal S1x20 .f32) (j : Fin 20) :
    shapeCast S1x20 k shapeCasts_S1x20_S1x20 (ix2 (0 : Fin 1) j) = k (ix2 (0 : Fin 1) j) :=
  shapeCast_apply k shapeCasts_S1x20_S1x20 _ _ rfl

theorem pay_norm_apply0 (x : Vec Ideal S5000x20 .f32) (r : Fin 5000) :
    k0_pay2 x (ix2 r (0 : Fin 1)) = Ideal.sqrt (∑ j : Fin 20, (x (ix2 r j) + Cert.Passes.eps) * (x (ix2 r j) + Cert.Passes.eps)) := by
  unfold k0_pay2
  show Ideal.sqrt (shapeCast S5000x1 _ shapeCasts_S5000_S5000x1 (ix2 r (0 : Fin 1))) = _
  refine congrArg Ideal.sqrt ?_
  refine (asColumn_apply0 _ r).trans ?_
  refine (rowSum_apply0 _ _ _ r).trans ?_
  rfl

theorem pay_dotR_apply0 (x : Vec Ideal S5000x20 .f32) (k : Vec Ideal S1x20 .f32) (r : Fin 5000) :
    k0_pay3 x k (ix2 r (0 : Fin 1)) = ∑ j : Fin 20, (x (ix2 r j) + Cert.Passes.eps) * k (ix2 (0 : Fin 1) j) := by
  unfold k0_pay3
  refine (asColumn_apply0 _ r).trans ?_
  refine (rowSum_apply0 _ _ _ r).trans ?_
  refine Finset.sum_congr rfl fun j _ => ?_
  show k0_pay1 x (ix2 r j) * broadcastTo S5000x20 (shapeCast S1x20 k shapeCasts_S1x20_S1x20) broadcasts_S1x20_S5000x20 (ix2 r j) = _
  refine congrArg (fun z => (x (ix2 r j) + Cert.Passes.eps) * z) ?_
  exact (broadcastTo_1b_ab_apply _ broadcasts_S1x20_S5000x20 r j).trans (keyCast_apply0 k j)

theorem pay_dotW_apply0 (x : Vec Ideal S5000x20 .f32) (k : Vec Ideal S1x20 .f32) (r : Fin 5000) :
    k0_pay4 x k (ix2 r (0 : Fin 1)) = ∑ j : Fin 20, (x (ix2 r j) + Cert.Passes.eps) * k (ix2 (0 : Fin 1) j) := by
  unfold k0_pay4
  refine (asColumn_apply0 _ r).trans ?_
  refine (rowSum_apply0 _ _ _ r).trans ?_
  refine Finset.sum_congr rfl fun j _ => ?_
  show k0_pay1 x (ix2 r j) * broadcastTo S5000x20 (shapeCast S1x20 k shapeCasts_S1x20_S1x20) broadcasts_S1x20_S5000x20 (ix2 r j) = _
  refine congrArg (fun z => (x (ix2 r j) + Cert.Passes.eps) * z) ?_
  exact (broadcastTo_1b_ab_apply _ broadcasts_S1x20_S5000x20 r j).trans (keyCast_apply0 k j)

variable (V : (c : Dev nD) → (b : Ref sig .tc) → Buf (Elt Ideal) ((c : Thread nD τ).loc b))

theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

def rowAt0 (t : Fin cfg0.N) (r : Fin 5000) : Fin 1000000 :=
  ⟨t.val * 5000 + r.val, by
    have ht : t.val < 200 := (N_0 : grid0.N = 200) ▸ t.isLt
    have hr := r.isLt
    omega⟩

theorem col_idx0 (y : S5000x1.Idx) : ∃ r : Fin 5000, y = ix2 r (0 : Fin 1) :=
  ⟨y 0, funext fun a => match a with
    | ⟨0, _⟩ => rfl
    | ⟨1, _⟩ => Fin.ext (by have h : (y 1).val < 1 := (y 1).isLt; show (y 1).val = 0; omega)⟩

theorem tile_read0 (c : Dev nD) (t : Fin cfg0.N) (r : Fin 5000) (j : Fin 20) :
    (iblk0 V c 0 t : Vec Ideal S5000x20 .f32) (ix2 r j) = (V c main_arg3 : S1000000x20.Idx → Elt Ideal .f32) (ix2 (rowAt0 t r) j) := by
  obtain ⟨e0, e1, -⟩ := index_facts0 t
  unfold iblk0
  rw [View.read_apply]
  show V c main_arg3 _ = V c main_arg3 _
  congr 1
  funext a
  apply Fin.ext
  match a with
  | ⟨0, _⟩ => show win0_0.index t 0 * 5000 + 1 * r.val = t.val * 5000 + r.val; rw [e0]; omega
  | ⟨1, _⟩ => show win0_0.index t 1 * 20 + 1 * j.val = j.val; rw [e1]; omega

theorem keyR_read0 (c : Dev nD) (t : Fin cfg0.N) (j : Fin 20) :
    (iblk0 V c 1 t : Vec Ideal S1x20 .f32) (ix2 (0 : Fin 1) j) = (V c main_v94 : S1x20.Idx → Elt Ideal .f32) (ix2 (0 : Fin 1) j) := by
  obtain ⟨-, -, e2, e3, -⟩ := index_facts0 t
  unfold iblk0
  rw [View.read_apply]
  show V c main_v94 _ = V c main_v94 _
  congr 1
  funext a
  apply Fin.ext
  match a with
  | ⟨0, _⟩ => show win0_1.index t 0 * 1 + 1 * 0 = 0; rw [e2]
  | ⟨1, _⟩ => show win0_1.index t 1 * 20 + 1 * j.val = j.val; rw [e3]; omega

theorem keyW_read0 (c : Dev nD) (t : Fin cfg0.N) (j : Fin 20) :
    (iblk0 V c 2 t : Vec Ideal S1x20 .f32) (ix2 (0 : Fin 1) j) = (V c main_v96 : S1x20.Idx → Elt Ideal .f32) (ix2 (0 : Fin 1) j) := by
  obtain ⟨-, -, -, -, e4, e5, -⟩ := index_facts0 t
  unfold iblk0
  rw [View.read_apply]
  show V c main_v96 _ = V c main_v96 _
  congr 1
  funext a
  apply Fin.ext
  match a with
  | ⟨0, _⟩ => show win0_2.index t 0 * 1 + 1 * 0 = 0; rw [e4]
  | ⟨1, _⟩ => show win0_2.index t 1 * 20 + 1 * j.val = j.val; rw [e5]; omega

theorem col_emb0_3 (t : Fin cfg0.N) (r : Fin 5000) :
    ((cfg0.win 3).blk t).view.emb (ix2 r (0 : Fin 1)) = (ix2 (rowAt0 t r) (0 : Fin 1) : S1000000x1.Idx) := by
  obtain ⟨-, -, -, -, -, -, e6, e7, -⟩ := index_facts0 t
  funext a
  apply Fin.ext
  match a with
  | ⟨0, _⟩ => show win0_3.index t 0 * 5000 + 1 * r.val = t.val * 5000 + r.val; rw [e6]; omega
  | ⟨1, _⟩ => show win0_3.index t 1 * 1 + 1 * 0 = 0; rw [e7]

theorem col_emb0_4 (t : Fin cfg0.N) (r : Fin 5000) :
    ((cfg0.win 4).blk t).view.emb (ix2 r (0 : Fin 1)) = (ix2 (rowAt0 t r) (0 : Fin 1) : S1000000x1.Idx) := by
  obtain ⟨-, -, -, -, -, -, -, -, e8, e9, -⟩ := index_facts0 t
  funext a
  apply Fin.ext
  match a with
  | ⟨0, _⟩ => show win0_4.index t 0 * 5000 + 1 * r.val = t.val * 5000 + r.val; rw [e8]; omega
  | ⟨1, _⟩ => show win0_4.index t 1 * 1 + 1 * 0 = 0; rw [e9]

theorem col_emb0_5 (t : Fin cfg0.N) (r : Fin 5000) :
    ((cfg0.win 5).blk t).view.emb (ix2 r (0 : Fin 1)) = (ix2 (rowAt0 t r) (0 : Fin 1) : S1000000x1.Idx) := by
  obtain ⟨-, -, -, -, -, -, -, -, -, -, e10, e11⟩ := index_facts0 t
  funext a
  apply Fin.ext
  match a with
  | ⟨0, _⟩ => show win0_5.index t 0 * 5000 + 1 * r.val = t.val * 5000 + r.val; rw [e10]; omega
  | ⟨1, _⟩ => show win0_5.index t 1 * 1 + 1 * 0 = 0; rw [e11]

theorem row_split0 (i : S1000000x1.Idx) : ∃ (t : Fin cfg0.N) (r : Fin 5000), i = (ix2 (rowAt0 t r) (0 : Fin 1) : S1000000x1.Idx) := by
  have h0 : (i 0).val < 1000000 := (i 0).isLt
  have h1 : (i 1).val < 1 := (i 1).isLt
  refine ⟨⟨(i 0).val / 5000, by rw [show cfg0.N = 200 from N_0]; omega⟩, ⟨(i 0).val % 5000, Nat.mod_lt _ (by decide)⟩, ?_⟩
  funext a
  apply Fin.ext
  match a with
  | ⟨0, _⟩ => show (i 0).val = (i 0).val / 5000 * 5000 + (i 0).val % 5000; omega
  | ⟨1, _⟩ => show (i 1).val = 0; omega

abbrev memArr0 (c : Dev nD) : Fin 1000000 → Fin 20 → EReal := fun i j => V c main_arg3 (ix2 i j)
abbrev keyRArr0 (c : Dev nD) : Fin 20 → EReal := fun j => V c main_v94 (ix2 (0 : Fin 1) j)
abbrev keyWArr0 (c : Dev nD) : Fin 20 → EReal := fun j => V c main_v96 (ix2 (0 : Fin 1) j)

def normArr0 (c : Dev nD) : S1000000x1.Idx → Elt Ideal .f32 := fun i => Cert.Passes.rowNorm (memArr0 V c) (i 0)
def dotRArr0 (c : Dev nD) : S1000000x1.Idx → Elt Ideal .f32 := fun i => Cert.Passes.rowDot (memArr0 V c) (keyRArr0 V c) (i 0)
def dotWArr0 (c : Dev nD) : S1000000x1.Idx → Elt Ideal .f32 := fun i => Cert.Passes.rowDot (memArr0 V c) (keyWArr0 V c) (i 0)

theorem zeros0 : (![0, 0] : Fin 2 → Nat) = fun _ => 0 := funext fun a => by fin_cases a <;> rfl

theorem norm_flushed0 (c : Dev nD) (t : Fin cfg0.N) :
    (dat0 V c).flushed 3 t = ((cfg0.win 3).blk t).view.read (Elt Ideal) (normArr0 V c) := by
  show (cfg0.win 3).cut (grid0.coords t) ((dat0 V c).after 3 t) = _
  rw [after0_3]
  unfold normCol0
  rw [View.canon_unit_zero zeros0]
  simp only [View.ld_unit_zero (S := S5000x20) zeros0]
  funext y
  obtain ⟨r, rfl⟩ := col_idx0 y
  show k0_pay2 (iblk0 V c 0 t) (ix2 r (0 : Fin 1)) = normArr0 V c (((cfg0.win 3).blk t).view.emb (ix2 r (0 : Fin 1)))
  refine (pay_norm_apply0 _ r).trans ?_
  refine Eq.trans ?_ (congrArg (normArr0 V c) (col_emb0_3 t r)).symm
  show _ = Cert.Passes.rowNorm (memArr0 V c) (rowAt0 t r)
  unfold Cert.Passes.rowNorm
  refine congrArg Ideal.sqrt (Finset.sum_congr rfl fun j _ => ?_)
  rw [tile_read0 V c t r j]

theorem dotR_flushed0 (c : Dev nD) (t : Fin cfg0.N) :
    (dat0 V c).flushed 4 t = ((cfg0.win 4).blk t).view.read (Elt Ideal) (dotRArr0 V c) := by
  show (cfg0.win 4).cut (grid0.coords t) ((dat0 V c).after 4 t) = _
  rw [after0_4]
  unfold dotColR0
  rw [View.canon_unit_zero zeros0]
  simp only [View.ld_unit_zero (S := S5000x20) zeros0, View.ld_unit_zero (S := S1x20) zeros0]
  funext y
  obtain ⟨r, rfl⟩ := col_idx0 y
  show k0_pay3 (iblk0 V c 0 t) (iblk0 V c 1 t) (ix2 r (0 : Fin 1)) = dotRArr0 V c (((cfg0.win 4).blk t).view.emb (ix2 r (0 : Fin 1)))
  refine (pay_dotR_apply0 _ _ r).trans ?_
  refine Eq.trans ?_ (congrArg (dotRArr0 V c) (col_emb0_4 t r)).symm
  show _ = Cert.Passes.rowDot (memArr0 V c) (keyRArr0 V c) (rowAt0 t r)
  unfold Cert.Passes.rowDot
  refine Finset.sum_congr rfl fun j _ => ?_
  rw [tile_read0 V c t r j, keyR_read0 V c t j]

theorem dotW_flushed0 (c : Dev nD) (t : Fin cfg0.N) :
    (dat0 V c).flushed 5 t = ((cfg0.win 5).blk t).view.read (Elt Ideal) (dotWArr0 V c) := by
  show (cfg0.win 5).cut (grid0.coords t) ((dat0 V c).after 5 t) = _
  rw [after0_5]
  unfold dotColW0
  rw [View.canon_unit_zero zeros0]
  simp only [View.ld_unit_zero (S := S5000x20) zeros0, View.ld_unit_zero (S := S1x20) zeros0]
  funext y
  obtain ⟨r, rfl⟩ := col_idx0 y
  show k0_pay4 (iblk0 V c 0 t) (iblk0 V c 2 t) (ix2 r (0 : Fin 1)) = dotWArr0 V c (((cfg0.win 5).blk t).view.emb (ix2 r (0 : Fin 1)))
  refine (pay_dotW_apply0 _ _ r).trans ?_
  refine Eq.trans ?_ (congrArg (dotWArr0 V c) (col_emb0_5 t r)).symm
  show _ = Cert.Passes.rowDot (memArr0 V c) (keyWArr0 V c) (rowAt0 t r)
  unfold Cert.Passes.rowDot
  refine Finset.sum_congr rfl fun j _ => ?_
  rw [tile_read0 V c t r j, keyW_read0 V c t j]

theorem col_cover0_3 (i : S1000000x1.Idx) : ∃ t : Fin cfg0.N, (cfg0.win 3).flush t = true ∧ i ∈ ((cfg0.win 3).blk t).view.set := by
  obtain ⟨t, r, rfl⟩ := row_split0 i
  refine ⟨t, flush0_3 t, ?_⟩
  have hm := ((cfg0.win 3).blk t).view.emb_mem_set (ix2 r (0 : Fin 1))
  rw [col_emb0_3] at hm
  exact hm

theorem col_cover0_4 (i : S1000000x1.Idx) : ∃ t : Fin cfg0.N, (cfg0.win 4).flush t = true ∧ i ∈ ((cfg0.win 4).blk t).view.set := by
  obtain ⟨t, r, rfl⟩ := row_split0 i
  refine ⟨t, flush0_4 t, ?_⟩
  have hm := ((cfg0.win 4).blk t).view.emb_mem_set (ix2 r (0 : Fin 1))
  rw [col_emb0_4] at hm
  exact hm

theorem col_cover0_5 (i : S1000000x1.Idx) : ∃ t : Fin cfg0.N, (cfg0.win 5).flush t = true ∧ i ∈ ((cfg0.win 5).blk t).view.set := by
  obtain ⟨t, r, rfl⟩ := row_split0 i
  refine ⟨t, flush0_5 t, ?_⟩
  have hm := ((cfg0.win 5).blk t).view.emb_mem_set (ix2 r (0 : Fin 1))
  rw [col_emb0_5] at hm
  exact hm

theorem rowNorm_value (c : Dev nD) (i : Fin 1000000) :
    (dat0 V c).arrAt 3 cfg0.N (ValueIdx.ix2 i (0 : Fin 1)) = Cert.Passes.rowNorm (fun i j => V c main_arg3 (ValueIdx.ix2 i j)) i :=
  congrFun ((dat0 V c).arrAt_eq_of_cover 3 (normArr0 V c) (fun t _ => norm_flushed0 V c t) col_cover0_3) (ix2 i (0 : Fin 1))

theorem rowDotR_value (c : Dev nD) (i : Fin 1000000) :
    (dat0 V c).arrAt 4 cfg0.N (ValueIdx.ix2 i (0 : Fin 1)) = Cert.Passes.rowDot (fun i j => V c main_arg3 (ValueIdx.ix2 i j)) (fun j => V c main_v94 (ValueIdx.ix2 (0 : Fin 1) j)) i :=
  congrFun ((dat0 V c).arrAt_eq_of_cover 4 (dotRArr0 V c) (fun t _ => dotR_flushed0 V c t) col_cover0_4) (ix2 i (0 : Fin 1))

theorem rowDotW_value (c : Dev nD) (i : Fin 1000000) :
    (dat0 V c).arrAt 5 cfg0.N (ValueIdx.ix2 i (0 : Fin 1)) = Cert.Passes.rowDot (fun i j => V c main_arg3 (ValueIdx.ix2 i j)) (fun j => V c main_v96 (ValueIdx.ix2 (0 : Fin 1) j)) i :=
  congrFun ((dat0 V c).arrAt_eq_of_cover 5 (dotWArr0 V c) (fun t _ => dotW_flushed0 V c t) col_cover0_5) (ix2 i (0 : Fin 1))

end Cert.KernelIdeal.Hand

end
-- ==== Proof.Bridge.KeyShift.lean ====
/- Adding eps to a key, and equality of arrays entry by entry. -/
import proofs.«147285_j27152783245914_1_alg».proof.Proof.Gen.KernelIdeal.Launch
import proofs.«147285_j27152783245914_1_alg».proof.Proof.Passes
import Idealize.ShloMosaic.Lib.StableHlo.Run
import Idealize.ShloMosaic.Lib.ValueIdx
import Idealize.ShloMosaic.Lib.Pipeline.Value

noncomputable section

namespace Cert.Bridge

open Cert.KernelIdeal Cert.KernelIdeal.Gen Idealize.ShloMosaic Idealize.ShloMosaic.TcCoe Idealize.SL.Sem
  Idealize.ShloMosaic.StableHlo Idealize.ShloMosaic.ValueIdx

theorem ext_matrix {f g : FVec Ideal ⟨2, ![1000000, 20]⟩ .f32}
    (h : ∀ (i : Fin 1000000) (j : Fin 20), f (ix2 i j) = g (ix2 i j)) : f = g := by
  funext x
  exact (congrArg f (eq_ix2 x)).trans ((h _ _).trans (congrArg g (eq_ix2 x)).symm)

theorem idx_row {n : Nat} (x : (⟨2, ![1, n]⟩ : Shape).Idx) : x = ix2 (0 : Fin 1) (x 1) :=
  (eq_ix2 x).trans (congrArg (fun a : Fin 1 => ix2 a (x 1)) (Subsingleton.elim _ _))

theorem idx_column {n : Nat} (x : (⟨2, ![n, 1]⟩ : Shape).Idx) : x = ix2 (x 0) (0 : Fin 1) :=
  (eq_ix2 x).trans (congrArg (fun a : Fin 1 => ix2 (x 0) a) (Subsingleton.elim _ _))

theorem ext_row20 {f g : FVec Ideal ⟨2, ![1, 20]⟩ .f32} (h : ∀ j : Fin 20, f (ix2 0 j) = g (ix2 0 j)) : f = g := by
  funext x
  exact (congrArg f (idx_row x)).trans ((h _).trans (congrArg g (idx_row x)).symm)

theorem ext_column {f g : FVec Ideal ⟨2, ![1000000, 1]⟩ .f32} (h : ∀ i : Fin 1000000, f (ix2 i 0) = g (ix2 i 0)) : f = g := by
  funext x
  exact (congrArg f (idx_column x)).trans ((h _).trans (congrArg g (idx_column x)).symm)

theorem ext_rowN {f g : FVec Ideal ⟨2, ![1, 1000000]⟩ .f32} (h : ∀ i : Fin 1000000, f (ix2 0 i) = g (ix2 0 i)) : f = g := by
  funext x
  exact (congrArg f (idx_row x)).trans ((h _).trans (congrArg g (idx_row x)).symm)

theorem epsRow_apply (j : Fin 20) :
    broadcastInDim S1x20 ![] bcast_S_S1x20 (constant (F := Ideal) S_ .f32 0x24E69595#32) (ix2 0 j) = Cert.Passes.eps :=
  (broadcastInDim_apply _ bcast_S_S1x20 _ (ix2 0 j) ix0 fun a => a.elim0).trans rfl

theorem keyR_after (V : Valuation τ sig (Elt Ideal)) :
    after (hostOps0_8 (F := Ideal)) V (Proc.devRef .tc main_v94)
      = addf (φ := .f32) (V (Proc.devRef .tc main_v38) : FVec Ideal S1x20 .f32)
          (broadcastInDim S1x20 ![] bcast_S_S1x20 (constant (F := Ideal) S_ .f32 0x24E69595#32)) := by
  after_results

theorem keyW_after (V : Valuation τ sig (Elt Ideal)) :
    after (hostOps0_8 (F := Ideal)) V (Proc.devRef .tc main_v96)
      = addf (φ := .f32) (V (Proc.devRef .tc main_v67) : FVec Ideal S1x20 .f32)
          (broadcastInDim S1x20 ![] bcast_S_S1x20 (constant (F := Ideal) S_ .f32 0x24E69595#32)) := by
  after_results

theorem keyR_shift (V : Valuation τ sig (Elt Ideal)) (j : Fin 20) :
    (after (hostOps0_8 (F := Ideal)) V (Proc.devRef .tc main_v94) : FVec Ideal S1x20 .f32) (ix2 0 j)
      = @HAdd.hAdd EReal EReal EReal instHAdd ((V (Proc.devRef .tc main_v38) : FVec Ideal S1x20 .f32) (ix2 0 j)) Cert.Passes.eps := by
  rw [keyR_after, addf_apply, epsRow_apply]

theorem keyW_shift (V : Valuation τ sig (Elt Ideal)) (j : Fin 20) :
    (after (hostOps0_8 (F := Ideal)) V (Proc.devRef .tc main_v96) : FVec Ideal S1x20 .f32) (ix2 0 j)
      = @HAdd.hAdd EReal EReal EReal instHAdd ((V (Proc.devRef .tc main_v67) : FVec Ideal S1x20 .f32) (ix2 0 j)) Cert.Passes.eps := by
  rw [keyW_after, addf_apply, epsRow_apply]

end Cert.Bridge

end
-- ==== Proof.Bridge.RefFold.lean ====
/- The reference's 437 operations in a row are the fold of its thirteen blocks. -/
import proofs.«147285_j27152783245914_1_alg».proof.Proof.Ref.Run
import Idealize.ShloMosaic.Lib.StableHlo.Run
import Idealize.ShloMosaic.Lib.Pipeline.Frame

noncomputable section

namespace Cert.Bridge

open Cert.ReferenceIdeal Cert.ReferenceIdeal.Gen Cert.ReferenceIdeal.Blocks Cert.ReferenceIdeal.Hand Idealize.ShloMosaic Idealize.ShloMosaic.TcCoe
  Idealize.SL.Sem Idealize.ShloMosaic.StableHlo

variable {F : FTy → Type} [FloatOps F]

abbrev RA (V' : Valuation τ sig (Elt F)) : Valuation τ sig (Elt F) := after rA2 (after rA1 V')
abbrev RB (V' : Valuation τ sig (Elt F)) : Valuation τ sig (Elt F) := after rB2 (after rB1 (RA V'))
abbrev RC (V' : Valuation τ sig (Elt F)) : Valuation τ sig (Elt F) := after rC2 (after rC1 (RB V'))
abbrev RD (V' : Valuation τ sig (Elt F)) : Valuation τ sig (Elt F) := after rD2 (after rD1 (RC V'))
abbrev RE (V' : Valuation τ sig (Elt F)) : Valuation τ sig (Elt F) := after rE (RD V')
abbrev RF (V' : Valuation τ sig (Elt F)) : Valuation τ sig (Elt F) := after rF3 (after rF2 (after rF1 (RE V')))
abbrev RG (V' : Valuation τ sig (Elt F)) : Valuation τ sig (Elt F) := after rG (RF V')

theorem ops_fold (V' : Valuation τ sig (Elt F)) : after (ops (F := F)) V' = RG V' := by
  simp only [ops, StableHlo.after_append]

theorem keep_A (V' : Valuation τ sig (Elt F)) {r : Ref sig .tc} (h1 : r ∉ rA1_W) (h2 : r ∉ rA2_W) :
    RA V' (Proc.devRef .tc r) = V' (Proc.devRef .tc r) :=
  (after_of_writes_sub rA2 _ rA2_writes h2).trans (after_of_writes_sub rA1 _ rA1_writes h1)

theorem keep_B (V' : Valuation τ sig (Elt F)) {r : Ref sig .tc} (h1 : r ∉ rB1_W) (h2 : r ∉ rB2_W) :
    RB V' (Proc.devRef .tc r) = RA V' (Proc.devRef .tc r) :=
  (after_of_writes_sub rB2 _ rB2_writes h2).trans (after_of_writes_sub rB1 _ rB1_writes h1)

theorem keep_C (V' : Valuation τ sig (Elt F)) {r : Ref sig .tc} (h1 : r ∉ rC1_W) (h2 : r ∉ rC2_W) :
    RC V' (Proc.devRef .tc r) = RB V' (Proc.devRef .tc r) :=
  (after_of_writes_sub rC2 _ rC2_writes h2).trans (after_of_writes_sub rC1 _ rC1_writes h1)

theorem keep_D (V' : Valuation τ sig (Elt F)) {r : Ref sig .tc} (h1 : r ∉ rD1_W) (h2 : r ∉ rD2_W) :
    RD V' (Proc.devRef .tc r) = RC V' (Proc.devRef .tc r) :=
  (after_of_writes_sub rD2 _ rD2_writes h2).trans (after_of_writes_sub rD1 _ rD1_writes h1)

theorem keep_E (V' : Valuation τ sig (Elt F)) {r : Ref sig .tc} (h : r ∉ rE_W) :
    RE V' (Proc.devRef .tc r) = RD V' (Proc.devRef .tc r) :=
  after_of_writes_sub rE _ rE_writes h

theorem keep_F (V' : Valuation τ sig (Elt F)) {r : Ref sig .tc} (h1 : r ∉ rF1_W) (h2 : r ∉ rF2_W) (h3 : r ∉ rF3_W) :
    RF V' (Proc.devRef .tc r) = RE V' (Proc.devRef .tc r) :=
  (after_of_writes_sub rF3 _ rF3_writes h3).trans
    ((after_of_writes_sub rF2 _ rF2_writes h2).trans (after_of_writes_sub rF1 _ rF1_writes h1))

theorem keep_G (V' : Valuation τ sig (Elt F)) {r : Ref sig .tc} (h : r ∉ rG_W) :
    RG V' (Proc.devRef .tc r) = RF V' (Proc.devRef .tc r) :=
  after_of_writes_sub rG _ rG_writes h

theorem kept_v21_B (V' : Valuation τ sig (Elt F)) : RB V' (Proc.devRef .tc main_v21) = RA V' (Proc.devRef .tc main_v21) :=
  keep_B V' (by decide) (by decide)

theorem kept_v126_D (V' : Valuation τ sig (Elt F)) : RD V' (Proc.devRef .tc main_v126) = RB V' (Proc.devRef .tc main_v126) :=
  (keep_D V' (by decide) (by decide)).trans (keep_C V' (by decide) (by decide))

theorem kept_v15_E (V' : Valuation τ sig (Elt F)) : RE V' (Proc.devRef .tc main_v15) = RA V' (Proc.devRef .tc main_v15) :=
  (keep_E V' (by decide)).trans ((keep_D V' (by decide) (by decide)).trans
    ((keep_C V' (by decide) (by decide)).trans (keep_B V' (by decide) (by decide))))

theorem kept_v34_E (V' : Valuation τ sig (Elt F)) : RE V' (Proc.devRef .tc main_v34) = RA V' (Proc.devRef .tc main_v34) :=
  (keep_E V' (by decide)).trans ((keep_D V' (by decide) (by decide)).trans
    ((keep_C V' (by decide) (by decide)).trans (keep_B V' (by decide) (by decide))))

theorem kept_v218_F (V' : Valuation τ sig (Elt F)) : RF V' (Proc.devRef .tc main_v218) = RD V' (Proc.devRef .tc main_v218) :=
  (keep_F V' (by decide) (by decide) (by decide)).trans (keep_E V' (by decide))

theorem kept_v30_F (V' : Valuation τ sig (Elt F)) : RF V' (Proc.devRef .tc main_v30) = RA V' (Proc.devRef .tc main_v30) :=
  (keep_F V' (by decide) (by decide) (by decide)).trans ((keep_E V' (by decide)).trans ((keep_D V' (by decide) (by decide)).trans
    ((keep_C V' (by decide) (by decide)).trans (keep_B V' (by decide) (by decide)))))

theorem kept_v307_G (V' : Valuation τ sig (Elt F)) : RG V' (Proc.devRef .tc main_v307) = RF V' (Proc.devRef .tc main_v307) :=
  keep_G V' (by decide)

theorem kept_v126_G (V' : Valuation τ sig (Elt F)) : RG V' (Proc.devRef .tc main_v126) = RB V' (Proc.devRef .tc main_v126) :=
  (keep_G V' (by decide)).trans ((keep_F V' (by decide) (by decide) (by decide)).trans
    ((keep_E V' (by decide)).trans (kept_v126_D V')))

theorem kept_v218_G (V' : Valuation τ sig (Elt F)) : RG V' (Proc.devRef .tc main_v218) = RD V' (Proc.devRef .tc main_v218) :=
  (keep_G V' (by decide)).trans (kept_v218_F V')

theorem kept_v219_G (V' : Valuation τ sig (Elt F)) : RG V' (Proc.devRef .tc main_v219) = RE V' (Proc.devRef .tc main_v219) :=
  (keep_G V' (by decide)).trans (keep_F V' (by decide) (by decide) (by decide))

theorem arg_RA (V' : Valuation τ sig (Elt F)) (r : Ref sig .tc) (hr : r ∈ args) : RA V' (Proc.devRef .tc r) = V' (Proc.devRef .tc r) :=
  keep_A V' (rA1_args r hr) (rA2_args r hr)

theorem arg_RB (V' : Valuation τ sig (Elt F)) (r : Ref sig .tc) (hr : r ∈ args) : RB V' (Proc.devRef .tc r) = V' (Proc.devRef .tc r) :=
  (keep_B V' (rB1_args r hr) (rB2_args r hr)).trans (arg_RA V' r hr)

theorem arg_RC (V' : Valuation τ sig (Elt F)) (r : Ref sig .tc) (hr : r ∈ args) : RC V' (Proc.devRef .tc r) = V' (Proc.devRef .tc r) :=
  (keep_C V' (rC1_args r hr) (rC2_args r hr)).trans (arg_RB V' r hr)

theorem arg_RD (V' : Valuation τ sig (Elt F)) (r : Ref sig .tc) (hr : r ∈ args) : RD V' (Proc.devRef .tc r) = V' (Proc.devRef .tc r) :=
  (keep_D V' (rD1_args r hr) (rD2_args r hr)).trans (arg_RC V' r hr)

theorem arg_RE (V' : Valuation τ sig (Elt F)) (r : Ref sig .tc) (hr : r ∈ args) : RE V' (Proc.devRef .tc r) = V' (Proc.devRef .tc r) :=
  (keep_E V' (rE_args r hr)).trans (arg_RD V' r hr)

theorem arg_RF (V' : Valuation τ sig (Elt F)) (r : Ref sig .tc) (hr : r ∈ args) : RF V' (Proc.devRef .tc r) = V' (Proc.devRef .tc r) :=
  (keep_F V' (rF1_args r hr) (rF2_args r hr) (rF3_args r hr)).trans (arg_RE V' r hr)

theorem arg_RG (V' : Valuation τ sig (Elt F)) (r : Ref sig .tc) (hr : r ∈ args) : RG V' (Proc.devRef .tc r) = V' (Proc.devRef .tc r) :=
  (keep_G V' (rG_args r hr)).trans (arg_RF V' r hr)

end Cert.Bridge

end
-- ==== Proof.Bridge.ControllerA.lean ====
/- The controller's outputs agree in the two programs: zeta and the write head's parameters. -/
import proofs.«147285_j27152783245914_1_alg».proof.Proof.Gen.KernelIdeal.Launch
import proofs.«147285_j27152783245914_1_alg».proof.Proof.RefOps
import Idealize.ShloMosaic.Lib.StableHlo.Run

noncomputable section

namespace Cert.Bridge

open Idealize.ShloMosaic Idealize.ShloMosaic.TcCoe Idealize.SL.Sem Idealize.ShloMosaic.StableHlo

variable {F : FTy → Type} [FloatOps F]

theorem controller_zeta (V : Valuation Cert.KernelIdeal.τ Cert.KernelIdeal.sig (Elt F)) (V' : Valuation Cert.ReferenceIdeal.τ Cert.ReferenceIdeal.sig (Elt F))
    (h0 : (V (Proc.devRef .tc Cert.KernelIdeal.main_arg0) : (⟨Cert.KernelIdeal.S1x14, .f32⟩ : BufTy).Contents (Elt F)) = V' (Proc.devRef .tc Cert.ReferenceIdeal.main_arg0))
    (h5 : (V (Proc.devRef .tc Cert.KernelIdeal.main_arg5) : (⟨Cert.KernelIdeal.S48x14, .f32⟩ : BufTy).Contents (Elt F)) = V' (Proc.devRef .tc Cert.ReferenceIdeal.main_arg5))
    (h6 : (V (Proc.devRef .tc Cert.KernelIdeal.main_arg6) : (⟨Cert.KernelIdeal.S48, .f32⟩ : BufTy).Contents (Elt F)) = V' (Proc.devRef .tc Cert.ReferenceIdeal.main_arg6))
    (h7 : (V (Proc.devRef .tc Cert.KernelIdeal.main_arg7) : (⟨Cert.KernelIdeal.S72x48, .f32⟩ : BufTy).Contents (Elt F)) = V' (Proc.devRef .tc Cert.ReferenceIdeal.main_arg7))
    (h8 : (V (Proc.devRef .tc Cert.KernelIdeal.main_arg8) : (⟨Cert.KernelIdeal.S72, .f32⟩ : BufTy).Contents (Elt F)) = V' (Proc.devRef .tc Cert.ReferenceIdeal.main_arg8))
    (h11 : (V (Proc.devRef .tc Cert.KernelIdeal.main_arg11) : (⟨Cert.KernelIdeal.S3x72, .f32⟩ : BufTy).Contents (Elt F)) = V' (Proc.devRef .tc Cert.ReferenceIdeal.main_arg11))
    (h12 : (V (Proc.devRef .tc Cert.KernelIdeal.main_arg12) : (⟨Cert.KernelIdeal.S3, .f32⟩ : BufTy).Contents (Elt F)) = V' (Proc.devRef .tc Cert.ReferenceIdeal.main_arg12)) :
    (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v15) : (⟨Cert.KernelIdeal.S1x3, .f32⟩ : BufTy).Contents (Elt F))
      = after Cert.ReferenceIdeal.Blocks.rA2 (after Cert.ReferenceIdeal.Blocks.rA1 V') (Proc.devRef .tc Cert.ReferenceIdeal.main_v15) := by
  after_results_simp
  rw [h0, h5, h6, h7, h8, h11, h12]
  rfl

theorem controller_wparams (V : Valuation Cert.KernelIdeal.τ Cert.KernelIdeal.sig (Elt F)) (V' : Valuation Cert.ReferenceIdeal.τ Cert.ReferenceIdeal.sig (Elt F))
    (h0 : (V (Proc.devRef .tc Cert.KernelIdeal.main_arg0) : (⟨Cert.KernelIdeal.S1x14, .f32⟩ : BufTy).Contents (Elt F)) = V' (Proc.devRef .tc Cert.ReferenceIdeal.main_arg0))
    (h5 : (V (Proc.devRef .tc Cert.KernelIdeal.main_arg5) : (⟨Cert.KernelIdeal.S48x14, .f32⟩ : BufTy).Contents (Elt F)) = V' (Proc.devRef .tc Cert.ReferenceIdeal.main_arg5))
    (h6 : (V (Proc.devRef .tc Cert.KernelIdeal.main_arg6) : (⟨Cert.KernelIdeal.S48, .f32⟩ : BufTy).Contents (Elt F)) = V' (Proc.devRef .tc Cert.ReferenceIdeal.main_arg6))
    (h7 : (V (Proc.devRef .tc Cert.KernelIdeal.main_arg7) : (⟨Cert.KernelIdeal.S72x48, .f32⟩ : BufTy).Contents (Elt F)) = V' (Proc.devRef .tc Cert.ReferenceIdeal.main_arg7))
    (h8 : (V (Proc.devRef .tc Cert.KernelIdeal.main_arg8) : (⟨Cert.KernelIdeal.S72, .f32⟩ : BufTy).Contents (Elt F)) = V' (Proc.devRef .tc Cert.ReferenceIdeal.main_arg8))
    (h9 : (V (Proc.devRef .tc Cert.KernelIdeal.main_arg9) : (⟨Cert.KernelIdeal.S92x72, .f32⟩ : BufTy).Contents (Elt F)) = V' (Proc.devRef .tc Cert.ReferenceIdeal.main_arg9))
    (h10 : (V (Proc.devRef .tc Cert.KernelIdeal.main_arg10) : (⟨Cert.KernelIdeal.S92, .f32⟩ : BufTy).Contents (Elt F)) = V' (Proc.devRef .tc Cert.ReferenceIdeal.main_arg10)) :
    (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v21) : (⟨Cert.KernelIdeal.S1x26, .f32⟩ : BufTy).Contents (Elt F))
      = after Cert.ReferenceIdeal.Blocks.rA2 (after Cert.ReferenceIdeal.Blocks.rA1 V') (Proc.devRef .tc Cert.ReferenceIdeal.main_v21) := by
  after_results_simp
  rw [h0, h5, h6, h7, h8, h9, h10]
  rfl

theorem controller_erase (V : Valuation Cert.KernelIdeal.τ Cert.KernelIdeal.sig (Elt F)) (V' : Valuation Cert.ReferenceIdeal.τ Cert.ReferenceIdeal.sig (Elt F))
    (h0 : (V (Proc.devRef .tc Cert.KernelIdeal.main_arg0) : (⟨Cert.KernelIdeal.S1x14, .f32⟩ : BufTy).Contents (Elt F)) = V' (Proc.devRef .tc Cert.ReferenceIdeal.main_arg0))
    (h5 : (V (Proc.devRef .tc Cert.KernelIdeal.main_arg5) : (⟨Cert.KernelIdeal.S48x14, .f32⟩ : BufTy).Contents (Elt F)) = V' (Proc.devRef .tc Cert.ReferenceIdeal.main_arg5))
    (h6 : (V (Proc.devRef .tc Cert.KernelIdeal.main_arg6) : (⟨Cert.KernelIdeal.S48, .f32⟩ : BufTy).Contents (Elt F)) = V' (Proc.devRef .tc Cert.ReferenceIdeal.main_arg6))
    (h7 : (V (Proc.devRef .tc Cert.KernelIdeal.main_arg7) : (⟨Cert.KernelIdeal.S72x48, .f32⟩ : BufTy).Contents (Elt F)) = V' (Proc.devRef .tc Cert.ReferenceIdeal.main_arg7))
    (h8 : (V (Proc.devRef .tc Cert.KernelIdeal.main_arg8) : (⟨Cert.KernelIdeal.S72, .f32⟩ : BufTy).Contents (Elt F)) = V' (Proc.devRef .tc Cert.ReferenceIdeal.main_arg8))
    (h9 : (V (Proc.devRef .tc Cert.KernelIdeal.main_arg9) : (⟨Cert.KernelIdeal.S92x72, .f32⟩ : BufTy).Contents (Elt F)) = V' (Proc.devRef .tc Cert.ReferenceIdeal.main_arg9))
    (h10 : (V (Proc.devRef .tc Cert.KernelIdeal.main_arg10) : (⟨Cert.KernelIdeal.S92, .f32⟩ : BufTy).Contents (Elt F)) = V' (Proc.devRef .tc Cert.ReferenceIdeal.main_arg10)) :
    (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v30) : (⟨Cert.KernelIdeal.S1x20, .f32⟩ : BufTy).Contents (Elt F))
      = after Cert.ReferenceIdeal.Blocks.rA2 (after Cert.ReferenceIdeal.Blocks.rA1 V') (Proc.devRef .tc Cert.ReferenceIdeal.main_v30) := by
  after_results_simp
  rw [h0, h5, h6, h7, h8, h9, h10]
  rfl

end Cert.Bridge
-- ==== Proof.Bridge.ControllerB.lean ====
/- The controller's outputs agree in the two programs: the add vector and the read head's key and strength. -/
import proofs.«147285_j27152783245914_1_alg».proof.Proof.Gen.KernelIdeal.Launch
import proofs.«147285_j27152783245914_1_alg».proof.Proof.RefOps
import Idealize.ShloMosaic.Lib.StableHlo.Run

noncomputable section

namespace Cert.Bridge

open Idealize.ShloMosaic Idealize.ShloMosaic.TcCoe Idealize.SL.Sem Idealize.ShloMosaic.StableHlo

variable {F : FTy → Type} [FloatOps F]

theorem controller_add (V : Valuation Cert.KernelIdeal.τ Cert.KernelIdeal.sig (Elt F)) (V' : Valuation Cert.ReferenceIdeal.τ Cert.ReferenceIdeal.sig (Elt F))
    (h0 : (V (Proc.devRef .tc Cert.KernelIdeal.main_arg0) : (⟨Cert.KernelIdeal.S1x14, .f32⟩ : BufTy).Contents (Elt F)) = V' (Proc.devRef .tc Cert.ReferenceIdeal.main_arg0))
    (h5 : (V (Proc.devRef .tc Cert.KernelIdeal.main_arg5) : (⟨Cert.KernelIdeal.S48x14, .f32⟩ : BufTy).Contents (Elt F)) = V' (Proc.devRef .tc Cert.ReferenceIdeal.main_arg5))
    (h6 : (V (Proc.devRef .tc Cert.KernelIdeal.main_arg6) : (⟨Cert.KernelIdeal.S48, .f32⟩ : BufTy).Contents (Elt F)) = V' (Proc.devRef .tc Cert.ReferenceIdeal.main_arg6))
    (h7 : (V (Proc.devRef .tc Cert.KernelIdeal.main_arg7) : (⟨Cert.KernelIdeal.S72x48, .f32⟩ : BufTy).Contents (Elt F)) = V' (Proc.devRef .tc Cert.ReferenceIdeal.main_arg7))
    (h8 : (V (Proc.devRef .tc Cert.KernelIdeal.main_arg8) : (⟨Cert.KernelIdeal.S72, .f32⟩ : BufTy).Contents (Elt F)) = V' (Proc.devRef .tc Cert.ReferenceIdeal.main_arg8))
    (h9 : (V (Proc.devRef .tc Cert.KernelIdeal.main_arg9) : (⟨Cert.KernelIdeal.S92x72, .f32⟩ : BufTy).Contents (Elt F)) = V' (Proc.devRef .tc Cert.ReferenceIdeal.main_arg9))
    (h10 : (V (Proc.devRef .tc Cert.KernelIdeal.main_arg10) : (⟨Cert.KernelIdeal.S92, .f32⟩ : BufTy).Contents (Elt F)) = V' (Proc.devRef .tc Cert.ReferenceIdeal.main_arg10)) :
    (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v34) : (⟨Cert.KernelIdeal.S1x20, .f32⟩ : BufTy).Contents (Elt F))
      = after Cert.ReferenceIdeal.Blocks.rA2 (after Cert.ReferenceIdeal.Blocks.rA1 V') (Proc.devRef .tc Cert.ReferenceIdeal.main_v34) := by
  after_results_simp
  rw [h0, h5, h6, h7, h8, h9, h10]
  rfl

theorem controller_kr (V : Valuation Cert.KernelIdeal.τ Cert.KernelIdeal.sig (Elt F)) (V' : Valuation Cert.ReferenceIdeal.τ Cert.ReferenceIdeal.sig (Elt F))
    (h0 : (V (Proc.devRef .tc Cert.KernelIdeal.main_arg0) : (⟨Cert.KernelIdeal.S1x14, .f32⟩ : BufTy).Contents (Elt F)) = V' (Proc.devRef .tc Cert.ReferenceIdeal.main_arg0))
    (h5 : (V (Proc.devRef .tc Cert.KernelIdeal.main_arg5) : (⟨Cert.KernelIdeal.S48x14, .f32⟩ : BufTy).Contents (Elt F)) = V' (Proc.devRef .tc Cert.ReferenceIdeal.main_arg5))
    (h6 : (V (Proc.devRef .tc Cert.KernelIdeal.main_arg6) : (⟨Cert.KernelIdeal.S48, .f32⟩ : BufTy).Contents (Elt F)) = V' (Proc.devRef .tc Cert.ReferenceIdeal.main_arg6))
    (h7 : (V (Proc.devRef .tc Cert.KernelIdeal.main_arg7) : (⟨Cert.KernelIdeal.S72x48, .f32⟩ : BufTy).Contents (Elt F)) = V' (Proc.devRef .tc Cert.ReferenceIdeal.main_arg7))
    (h8 : (V (Proc.devRef .tc Cert.KernelIdeal.main_arg8) : (⟨Cert.KernelIdeal.S72, .f32⟩ : BufTy).Contents (Elt F)) = V' (Proc.devRef .tc Cert.ReferenceIdeal.main_arg8))
    (h9 : (V (Proc.devRef .tc Cert.KernelIdeal.main_arg9) : (⟨Cert.KernelIdeal.S92x72, .f32⟩ : BufTy).Contents (Elt F)) = V' (Proc.devRef .tc Cert.ReferenceIdeal.main_arg9))
    (h10 : (V (Proc.devRef .tc Cert.KernelIdeal.main_arg10) : (⟨Cert.KernelIdeal.S92, .f32⟩ : BufTy).Contents (Elt F)) = V' (Proc.devRef .tc Cert.ReferenceIdeal.main_arg10)) :
    (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v38) : (⟨Cert.KernelIdeal.S1x20, .f32⟩ : BufTy).Contents (Elt F))
      = after Cert.ReferenceIdeal.Blocks.rA2 (after Cert.ReferenceIdeal.Blocks.rA1 V') (Proc.devRef .tc Cert.ReferenceIdeal.main_v38) := by
  after_results_simp
  rw [h0, h5, h6, h7, h8, h9, h10]
  rfl

theorem controller_gr (V : Valuation Cert.KernelIdeal.τ Cert.KernelIdeal.sig (Elt F)) (V' : Valuation Cert.ReferenceIdeal.τ Cert.ReferenceIdeal.sig (Elt F))
    (h0 : (V (Proc.devRef .tc Cert.KernelIdeal.main_arg0) : (⟨Cert.KernelIdeal.S1x14, .f32⟩ : BufTy).Contents (Elt F)) = V' (Proc.devRef .tc Cert.ReferenceIdeal.main_arg0))
    (h5 : (V (Proc.devRef .tc Cert.KernelIdeal.main_arg5) : (⟨Cert.KernelIdeal.S48x14, .f32⟩ : BufTy).Contents (Elt F)) = V' (Proc.devRef .tc Cert.ReferenceIdeal.main_arg5))
    (h6 : (V (Proc.devRef .tc Cert.KernelIdeal.main_arg6) : (⟨Cert.KernelIdeal.S48, .f32⟩ : BufTy).Contents (Elt F)) = V' (Proc.devRef .tc Cert.ReferenceIdeal.main_arg6))
    (h7 : (V (Proc.devRef .tc Cert.KernelIdeal.main_arg7) : (⟨Cert.KernelIdeal.S72x48, .f32⟩ : BufTy).Contents (Elt F)) = V' (Proc.devRef .tc Cert.ReferenceIdeal.main_arg7))
    (h8 : (V (Proc.devRef .tc Cert.KernelIdeal.main_arg8) : (⟨Cert.KernelIdeal.S72, .f32⟩ : BufTy).Contents (Elt F)) = V' (Proc.devRef .tc Cert.ReferenceIdeal.main_arg8))
    (h9 : (V (Proc.devRef .tc Cert.KernelIdeal.main_arg9) : (⟨Cert.KernelIdeal.S92x72, .f32⟩ : BufTy).Contents (Elt F)) = V' (Proc.devRef .tc Cert.ReferenceIdeal.main_arg9))
    (h10 : (V (Proc.devRef .tc Cert.KernelIdeal.main_arg10) : (⟨Cert.KernelIdeal.S92, .f32⟩ : BufTy).Contents (Elt F)) = V' (Proc.devRef .tc Cert.ReferenceIdeal.main_arg10)) :
    (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v44) : (⟨Cert.KernelIdeal.S_, .f32⟩ : BufTy).Contents (Elt F))
      = after Cert.ReferenceIdeal.Blocks.rA2 (after Cert.ReferenceIdeal.Blocks.rA1 V') (Proc.devRef .tc Cert.ReferenceIdeal.main_v44) := by
  after_results_simp
  rw [h0, h5, h6, h7, h8, h9, h10]
  rfl

end Cert.Bridge
-- ==== Proof.Bridge.ControllerC.lean ====
/- The controller's outputs agree in the two programs: the read head's shift and sharpening. -/
import proofs.«147285_j27152783245914_1_alg».proof.Proof.Gen.KernelIdeal.Launch
import proofs.«147285_j27152783245914_1_alg».proof.Proof.RefOps
import Idealize.ShloMosaic.Lib.StableHlo.Run

noncomputable section

namespace Cert.Bridge

open Idealize.ShloMosaic Idealize.ShloMosaic.TcCoe Idealize.SL.Sem Idealize.ShloMosaic.StableHlo

variable {F : FTy → Type} [FloatOps F]

theorem controller_sr (V : Valuation Cert.KernelIdeal.τ Cert.KernelIdeal.sig (Elt F)) (V' : Valuation Cert.ReferenceIdeal.τ Cert.ReferenceIdeal.sig (Elt F))
    (h0 : (V (Proc.devRef .tc Cert.KernelIdeal.main_arg0) : (⟨Cert.KernelIdeal.S1x14, .f32⟩ : BufTy).Contents (Elt F)) = V' (Proc.devRef .tc Cert.ReferenceIdeal.main_arg0))
    (h5 : (V (Proc.devRef .tc Cert.KernelIdeal.main_arg5) : (⟨Cert.KernelIdeal.S48x14, .f32⟩ : BufTy).Contents (Elt F)) = V' (Proc.devRef .tc Cert.ReferenceIdeal.main_arg5))
    (h6 : (V (Proc.devRef .tc Cert.KernelIdeal.main_arg6) : (⟨Cert.KernelIdeal.S48, .f32⟩ : BufTy).Contents (Elt F)) = V' (Proc.devRef .tc Cert.ReferenceIdeal.main_arg6))
    (h7 : (V (Proc.devRef .tc Cert.KernelIdeal.main_arg7) : (⟨Cert.KernelIdeal.S72x48, .f32⟩ : BufTy).Contents (Elt F)) = V' (Proc.devRef .tc Cert.ReferenceIdeal.main_arg7))
    (h8 : (V (Proc.devRef .tc Cert.KernelIdeal.main_arg8) : (⟨Cert.KernelIdeal.S72, .f32⟩ : BufTy).Contents (Elt F)) = V' (Proc.devRef .tc Cert.ReferenceIdeal.main_arg8))
    (h9 : (V (Proc.devRef .tc Cert.KernelIdeal.main_arg9) : (⟨Cert.KernelIdeal.S92x72, .f32⟩ : BufTy).Contents (Elt F)) = V' (Proc.devRef .tc Cert.ReferenceIdeal.main_arg9))
    (h10 : (V (Proc.devRef .tc Cert.KernelIdeal.main_arg10) : (⟨Cert.KernelIdeal.S92, .f32⟩ : BufTy).Contents (Elt F)) = V' (Proc.devRef .tc Cert.ReferenceIdeal.main_arg10)) :
    (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v56) : (⟨Cert.KernelIdeal.S3, .f32⟩ : BufTy).Contents (Elt F))
      = after Cert.ReferenceIdeal.Blocks.rA2 (after Cert.ReferenceIdeal.Blocks.rA1 V') (Proc.devRef .tc Cert.ReferenceIdeal.main_v56) := by
  after_results_simp
  rw [h0, h5, h6, h7, h8, h9, h10]
  rfl

theorem controller_gammar (V : Valuation Cert.KernelIdeal.τ Cert.KernelIdeal.sig (Elt F)) (V' : Valuation Cert.ReferenceIdeal.τ Cert.ReferenceIdeal.sig (Elt F))
    (h0 : (V (Proc.devRef .tc Cert.KernelIdeal.main_arg0) : (⟨Cert.KernelIdeal.S1x14, .f32⟩ : BufTy).Contents (Elt F)) = V' (Proc.devRef .tc Cert.ReferenceIdeal.main_arg0))
    (h5 : (V (Proc.devRef .tc Cert.KernelIdeal.main_arg5) : (⟨Cert.KernelIdeal.S48x14, .f32⟩ : BufTy).Contents (Elt F)) = V' (Proc.devRef .tc Cert.ReferenceIdeal.main_arg5))
    (h6 : (V (Proc.devRef .tc Cert.KernelIdeal.main_arg6) : (⟨Cert.KernelIdeal.S48, .f32⟩ : BufTy).Contents (Elt F)) = V' (Proc.devRef .tc Cert.ReferenceIdeal.main_arg6))
    (h7 : (V (Proc.devRef .tc Cert.KernelIdeal.main_arg7) : (⟨Cert.KernelIdeal.S72x48, .f32⟩ : BufTy).Contents (Elt F)) = V' (Proc.devRef .tc Cert.ReferenceIdeal.main_arg7))
    (h8 : (V (Proc.devRef .tc Cert.KernelIdeal.main_arg8) : (⟨Cert.KernelIdeal.S72, .f32⟩ : BufTy).Contents (Elt F)) = V' (Proc.devRef .tc Cert.ReferenceIdeal.main_arg8))
    (h9 : (V (Proc.devRef .tc Cert.KernelIdeal.main_arg9) : (⟨Cert.KernelIdeal.S92x72, .f32⟩ : BufTy).Contents (Elt F)) = V' (Proc.devRef .tc Cert.ReferenceIdeal.main_arg9))
    (h10 : (V (Proc.devRef .tc Cert.KernelIdeal.main_arg10) : (⟨Cert.KernelIdeal.S92, .f32⟩ : BufTy).Contents (Elt F)) = V' (Proc.devRef .tc Cert.ReferenceIdeal.main_arg10)) :
    (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v60) : (⟨Cert.KernelIdeal.S_, .f32⟩ : BufTy).Contents (Elt F))
      = after Cert.ReferenceIdeal.Blocks.rA2 (after Cert.ReferenceIdeal.Blocks.rA1 V') (Proc.devRef .tc Cert.ReferenceIdeal.main_v60) := by
  after_results_simp
  rw [h0, h5, h6, h7, h8, h9, h10]
  rfl

theorem controller_betar (V : Valuation Cert.KernelIdeal.τ Cert.KernelIdeal.sig (Elt F)) (V' : Valuation Cert.ReferenceIdeal.τ Cert.ReferenceIdeal.sig (Elt F))
    (h0 : (V (Proc.devRef .tc Cert.KernelIdeal.main_arg0) : (⟨Cert.KernelIdeal.S1x14, .f32⟩ : BufTy).Contents (Elt F)) = V' (Proc.devRef .tc Cert.ReferenceIdeal.main_arg0))
    (h5 : (V (Proc.devRef .tc Cert.KernelIdeal.main_arg5) : (⟨Cert.KernelIdeal.S48x14, .f32⟩ : BufTy).Contents (Elt F)) = V' (Proc.devRef .tc Cert.ReferenceIdeal.main_arg5))
    (h6 : (V (Proc.devRef .tc Cert.KernelIdeal.main_arg6) : (⟨Cert.KernelIdeal.S48, .f32⟩ : BufTy).Contents (Elt F)) = V' (Proc.devRef .tc Cert.ReferenceIdeal.main_arg6))
    (h7 : (V (Proc.devRef .tc Cert.KernelIdeal.main_arg7) : (⟨Cert.KernelIdeal.S72x48, .f32⟩ : BufTy).Contents (Elt F)) = V' (Proc.devRef .tc Cert.ReferenceIdeal.main_arg7))
    (h8 : (V (Proc.devRef .tc Cert.KernelIdeal.main_arg8) : (⟨Cert.KernelIdeal.S72, .f32⟩ : BufTy).Contents (Elt F)) = V' (Proc.devRef .tc Cert.ReferenceIdeal.main_arg8))
    (h9 : (V (Proc.devRef .tc Cert.KernelIdeal.main_arg9) : (⟨Cert.KernelIdeal.S92x72, .f32⟩ : BufTy).Contents (Elt F)) = V' (Proc.devRef .tc Cert.ReferenceIdeal.main_arg9))
    (h10 : (V (Proc.devRef .tc Cert.KernelIdeal.main_arg10) : (⟨Cert.KernelIdeal.S92, .f32⟩ : BufTy).Contents (Elt F)) = V' (Proc.devRef .tc Cert.ReferenceIdeal.main_arg10)) :
    (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v63) : (⟨Cert.KernelIdeal.S_, .f32⟩ : BufTy).Contents (Elt F))
      = after Cert.ReferenceIdeal.Blocks.rA2 (after Cert.ReferenceIdeal.Blocks.rA1 V') (Proc.devRef .tc Cert.ReferenceIdeal.main_v63) := by
  after_results_simp
  rw [h0, h5, h6, h7, h8, h9, h10]
  rfl

end Cert.Bridge
-- ==== Proof.Bridge.Controller.lean ====
/- The controller network and the read head's parameters are the same computation in the two programs. -/
import proofs.«147285_j27152783245914_1_alg».proof.Proof.Bridge.ControllerA
import proofs.«147285_j27152783245914_1_alg».proof.Proof.Bridge.ControllerB
import proofs.«147285_j27152783245914_1_alg».proof.Proof.Bridge.ControllerC

noncomputable section

namespace Cert.Bridge

open Idealize.ShloMosaic Idealize.ShloMosaic.TcCoe Idealize.SL.Sem Idealize.ShloMosaic.StableHlo

variable {F : FTy → Type} [FloatOps F]

theorem controller_same (V : Valuation Cert.KernelIdeal.τ Cert.KernelIdeal.sig (Elt F)) (V' : Valuation Cert.ReferenceIdeal.τ Cert.ReferenceIdeal.sig (Elt F))
    (h0 : (V (Proc.devRef .tc Cert.KernelIdeal.main_arg0) : (⟨Cert.KernelIdeal.S1x14, .f32⟩ : BufTy).Contents (Elt F)) = V' (Proc.devRef .tc Cert.ReferenceIdeal.main_arg0))
    (h5 : (V (Proc.devRef .tc Cert.KernelIdeal.main_arg5) : (⟨Cert.KernelIdeal.S48x14, .f32⟩ : BufTy).Contents (Elt F)) = V' (Proc.devRef .tc Cert.ReferenceIdeal.main_arg5))
    (h6 : (V (Proc.devRef .tc Cert.KernelIdeal.main_arg6) : (⟨Cert.KernelIdeal.S48, .f32⟩ : BufTy).Contents (Elt F)) = V' (Proc.devRef .tc Cert.ReferenceIdeal.main_arg6))
    (h7 : (V (Proc.devRef .tc Cert.KernelIdeal.main_arg7) : (⟨Cert.KernelIdeal.S72x48, .f32⟩ : BufTy).Contents (Elt F)) = V' (Proc.devRef .tc Cert.ReferenceIdeal.main_arg7))
    (h8 : (V (Proc.devRef .tc Cert.KernelIdeal.main_arg8) : (⟨Cert.KernelIdeal.S72, .f32⟩ : BufTy).Contents (Elt F)) = V' (Proc.devRef .tc Cert.ReferenceIdeal.main_arg8))
    (h9 : (V (Proc.devRef .tc Cert.KernelIdeal.main_arg9) : (⟨Cert.KernelIdeal.S92x72, .f32⟩ : BufTy).Contents (Elt F)) = V' (Proc.devRef .tc Cert.ReferenceIdeal.main_arg9))
    (h10 : (V (Proc.devRef .tc Cert.KernelIdeal.main_arg10) : (⟨Cert.KernelIdeal.S92, .f32⟩ : BufTy).Contents (Elt F)) = V' (Proc.devRef .tc Cert.ReferenceIdeal.main_arg10))
    (h11 : (V (Proc.devRef .tc Cert.KernelIdeal.main_arg11) : (⟨Cert.KernelIdeal.S3x72, .f32⟩ : BufTy).Contents (Elt F)) = V' (Proc.devRef .tc Cert.ReferenceIdeal.main_arg11))
    (h12 : (V (Proc.devRef .tc Cert.KernelIdeal.main_arg12) : (⟨Cert.KernelIdeal.S3, .f32⟩ : BufTy).Contents (Elt F)) = V' (Proc.devRef .tc Cert.ReferenceIdeal.main_arg12)) :
      (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v15) : (⟨Cert.KernelIdeal.S1x3, .f32⟩ : BufTy).Contents (Elt F))
        = after Cert.ReferenceIdeal.Blocks.rA2 (after Cert.ReferenceIdeal.Blocks.rA1 V') (Proc.devRef .tc Cert.ReferenceIdeal.main_v15) ∧
      (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v21) : (⟨Cert.KernelIdeal.S1x26, .f32⟩ : BufTy).Contents (Elt F))
        = after Cert.ReferenceIdeal.Blocks.rA2 (after Cert.ReferenceIdeal.Blocks.rA1 V') (Proc.devRef .tc Cert.ReferenceIdeal.main_v21) ∧
      (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v30) : (⟨Cert.KernelIdeal.S1x20, .f32⟩ : BufTy).Contents (Elt F))
        = after Cert.ReferenceIdeal.Blocks.rA2 (after Cert.ReferenceIdeal.Blocks.rA1 V') (Proc.devRef .tc Cert.ReferenceIdeal.main_v30) ∧
      (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v34) : (⟨Cert.KernelIdeal.S1x20, .f32⟩ : BufTy).Contents (Elt F))
        = after Cert.ReferenceIdeal.Blocks.rA2 (after Cert.ReferenceIdeal.Blocks.rA1 V') (Proc.devRef .tc Cert.ReferenceIdeal.main_v34) ∧
      (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v38) : (⟨Cert.KernelIdeal.S1x20, .f32⟩ : BufTy).Contents (Elt F))
        = after Cert.ReferenceIdeal.Blocks.rA2 (after Cert.ReferenceIdeal.Blocks.rA1 V') (Proc.devRef .tc Cert.ReferenceIdeal.main_v38) ∧
      (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v44) : (⟨Cert.KernelIdeal.S_, .f32⟩ : BufTy).Contents (Elt F))
        = after Cert.ReferenceIdeal.Blocks.rA2 (after Cert.ReferenceIdeal.Blocks.rA1 V') (Proc.devRef .tc Cert.ReferenceIdeal.main_v44) ∧
      (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v56) : (⟨Cert.KernelIdeal.S3, .f32⟩ : BufTy).Contents (Elt F))
        = after Cert.ReferenceIdeal.Blocks.rA2 (after Cert.ReferenceIdeal.Blocks.rA1 V') (Proc.devRef .tc Cert.ReferenceIdeal.main_v56) ∧
      (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v60) : (⟨Cert.KernelIdeal.S_, .f32⟩ : BufTy).Contents (Elt F))
        = after Cert.ReferenceIdeal.Blocks.rA2 (after Cert.ReferenceIdeal.Blocks.rA1 V') (Proc.devRef .tc Cert.ReferenceIdeal.main_v60) ∧
      (after Cert.KernelIdeal.Gen.hostOps0_3 (after Cert.KernelIdeal.Gen.hostOps0_2 (after Cert.KernelIdeal.Gen.hostOps0_1 (after Cert.KernelIdeal.Gen.hostOps0 V))) (Proc.devRef .tc Cert.KernelIdeal.main_v63) : (⟨Cert.KernelIdeal.S_, .f32⟩ : BufTy).Contents (Elt F))
        = after Cert.ReferenceIdeal.Blocks.rA2 (after Cert.ReferenceIdeal.Blocks.rA1 V') (Proc.devRef .tc Cert.ReferenceIdeal.main_v63) :=
  ⟨controller_zeta V V' h0 h5 h6 h7 h8 h11 h12,
   controller_wparams V V' h0 h5 h6 h7 h8 h9 h10,
   controller_erase V V' h0 h5 h6 h7 h8 h9 h10,
   controller_add V V' h0 h5 h6 h7 h8 h9 h10,
   controller_kr V V' h0 h5 h6 h7 h8 h9 h10,
   controller_gr V V' h0 h5 h6 h7 h8 h9 h10,
   controller_sr V V' h0 h5 h6 h7 h8 h9 h10,
   controller_gammar V V' h0 h5 h6 h7 h8 h9 h10,
   controller_betar V V' h0 h5 h6 h7 h8 h9 h10⟩

end Cert.Bridge
-- ==== Proof.Bridge.WriteHead.lean ====
/- The write head's parameters are the same computation in the two programs. -/
import proofs.«147285_j27152783245914_1_alg».proof.Proof.Gen.KernelIdeal.Launch
import proofs.«147285_j27152783245914_1_alg».proof.Proof.RefOps
import Idealize.ShloMosaic.Lib.StableHlo.Run

noncomputable section

namespace Cert.Bridge

open Idealize.ShloMosaic Idealize.ShloMosaic.TcCoe Idealize.SL.Sem Idealize.ShloMosaic.StableHlo

variable {F : FTy → Type} [FloatOps F]

theorem writeHead_kw (V : Valuation Cert.KernelIdeal.τ Cert.KernelIdeal.sig (Elt F)) (V' : Valuation Cert.ReferenceIdeal.τ Cert.ReferenceIdeal.sig (Elt F))
    (h : (V (Proc.devRef .tc Cert.KernelIdeal.main_v21) : (⟨Cert.KernelIdeal.S1x26, .f32⟩ : BufTy).Contents (Elt F)) = V' (Proc.devRef .tc Cert.ReferenceIdeal.main_v21)) :
    (after Cert.KernelIdeal.Gen.hostOps0_7 (after Cert.KernelIdeal.Gen.hostOps0_6 (after Cert.KernelIdeal.Gen.hostOps0_5 (after Cert.KernelIdeal.Gen.hostOps0_4 V))) (Proc.devRef .tc Cert.KernelIdeal.main_v67) : (⟨Cert.KernelIdeal.S1x20, .f32⟩ : BufTy).Contents (Elt F))
      = after Cert.ReferenceIdeal.Blocks.rC2 (after Cert.ReferenceIdeal.Blocks.rC1 V') (Proc.devRef .tc Cert.ReferenceIdeal.main_v130) := by
  after_results_simp
  rw [h]
  rfl

theorem writeHead_gw (V : Valuation Cert.KernelIdeal.τ Cert.KernelIdeal.sig (Elt F)) (V' : Valuation Cert.ReferenceIdeal.τ Cert.ReferenceIdeal.sig (Elt F))
    (h : (V (Proc.devRef .tc Cert.KernelIdeal.main_v21) : (⟨Cert.KernelIdeal.S1x26, .f32⟩ : BufTy).Contents (Elt F)) = V' (Proc.devRef .tc Cert.ReferenceIdeal.main_v21)) :
    (after Cert.KernelIdeal.Gen.hostOps0_7 (after Cert.KernelIdeal.Gen.hostOps0_6 (after Cert.KernelIdeal.Gen.hostOps0_5 (after Cert.KernelIdeal.Gen.hostOps0_4 V))) (Proc.devRef .tc Cert.KernelIdeal.main_v73) : (⟨Cert.KernelIdeal.S_, .f32⟩ : BufTy).Contents (Elt F))
      = after Cert.ReferenceIdeal.Blocks.rC2 (after Cert.ReferenceIdeal.Blocks.rC1 V') (Proc.devRef .tc Cert.ReferenceIdeal.main_v136) := by
  after_results_simp
  rw [h]
  rfl

theorem writeHead_sw (V : Valuation Cert.KernelIdeal.τ Cert.KernelIdeal.sig (Elt F)) (V' : Valuation Cert.ReferenceIdeal.τ Cert.ReferenceIdeal.sig (Elt F))
    (h : (V (Proc.devRef .tc Cert.KernelIdeal.main_v21) : (⟨Cert.KernelIdeal.S1x26, .f32⟩ : BufTy).Contents (Elt F)) = V' (Proc.devRef .tc Cert.ReferenceIdeal.main_v21)) :
    (after Cert.KernelIdeal.Gen.hostOps0_7 (after Cert.KernelIdeal.Gen.hostOps0_6 (after Cert.KernelIdeal.Gen.hostOps0_5 (after Cert.KernelIdeal.Gen.hostOps0_4 V))) (Proc.devRef .tc Cert.KernelIdeal.main_v85) : (⟨Cert.KernelIdeal.S3, .f32⟩ : BufTy).Contents (Elt F))
      = after Cert.ReferenceIdeal.Blocks.rC2 (after Cert.ReferenceIdeal.Blocks.rC1 V') (Proc.devRef .tc Cert.ReferenceIdeal.main_v148) := by
  after_results_simp
  rw [h]
  rfl

theorem writeHead_gammaw (V : Valuation Cert.KernelIdeal.τ Cert.KernelIdeal.sig (Elt F)) (V' : Valuation Cert.ReferenceIdeal.τ Cert.ReferenceIdeal.sig (Elt F))
    (h : (V (Proc.devRef .tc Cert.KernelIdeal.main_v21) : (⟨Cert.KernelIdeal.S1x26, .f32⟩ : BufTy).Contents (Elt F)) = V' (Proc.devRef .tc Cert.ReferenceIdeal.main_v21)) :
    (after Cert.KernelIdeal.Gen.hostOps0_7 (after Cert.KernelIdeal.Gen.hostOps0_6 (after Cert.KernelIdeal.Gen.hostOps0_5 (after Cert.KernelIdeal.Gen.hostOps0_4 V))) (Proc.devRef .tc Cert.KernelIdeal.main_v89) : (⟨Cert.KernelIdeal.S_, .f32⟩ : BufTy).Contents (Elt F))
      = after Cert.ReferenceIdeal.Blocks.rC2 (after Cert.ReferenceIdeal.Blocks.rC1 V') (Proc.devRef .tc Cert.ReferenceIdeal.main_v152) := by
  after_results_simp
  rw [h]
  rfl

theorem writeHead_betaw (V : Valuation Cert.KernelIdeal.τ Cert.KernelIdeal.sig (Elt F)) (V' : Valuation Cert.ReferenceIdeal.τ Cert.ReferenceIdeal.sig (Elt F))
    (h : (V (Proc.devRef .tc Cert.KernelIdeal.main_v21) : (⟨Cert.KernelIdeal.S1x26, .f32⟩ : BufTy).Contents (Elt F)) = V' (Proc.devRef .tc Cert.ReferenceIdeal.main_v21)) :
    (after Cert.KernelIdeal.Gen.hostOps0_7 (after Cert.KernelIdeal.Gen.hostOps0_6 (after Cert.KernelIdeal.Gen.hostOps0_5 (after Cert.KernelIdeal.Gen.hostOps0_4 V))) (Proc.devRef .tc Cert.KernelIdeal.main_v92) : (⟨Cert.KernelIdeal.S_, .f32⟩ : BufTy).Contents (Elt F))
      = after Cert.ReferenceIdeal.Blocks.rC2 (after Cert.ReferenceIdeal.Blocks.rC1 V') (Proc.devRef .tc Cert.ReferenceIdeal.main_v155) := by
  after_results_simp
  rw [h]
  rfl

theorem writeHead_same (V : Valuation Cert.KernelIdeal.τ Cert.KernelIdeal.sig (Elt F)) (V' : Valuation Cert.ReferenceIdeal.τ Cert.ReferenceIdeal.sig (Elt F))
    (h : (V (Proc.devRef .tc Cert.KernelIdeal.main_v21) : (⟨Cert.KernelIdeal.S1x26, .f32⟩ : BufTy).Contents (Elt F)) = V' (Proc.devRef .tc Cert.ReferenceIdeal.main_v21)) :
      (after Cert.KernelIdeal.Gen.hostOps0_7 (after Cert.KernelIdeal.Gen.hostOps0_6 (after Cert.KernelIdeal.Gen.hostOps0_5 (after Cert.KernelIdeal.Gen.hostOps0_4 V))) (Proc.devRef .tc Cert.KernelIdeal.main_v67) : (⟨Cert.KernelIdeal.S1x20, .f32⟩ : BufTy).Contents (Elt F))
        = after Cert.ReferenceIdeal.Blocks.rC2 (after Cert.ReferenceIdeal.Blocks.rC1 V') (Proc.devRef .tc Cert.ReferenceIdeal.main_v130) ∧
      (after Cert.KernelIdeal.Gen.hostOps0_7 (after Cert.KernelIdeal.Gen.hostOps0_6 (after Cert.KernelIdeal.Gen.hostOps0_5 (after Cert.KernelIdeal.Gen.hostOps0_4 V))) (Proc.devRef .tc Cert.KernelIdeal.main_v73) : (⟨Cert.KernelIdeal.S_, .f32⟩ : BufTy).Contents (Elt F))
        = after Cert.ReferenceIdeal.Blocks.rC2 (after Cert.ReferenceIdeal.Blocks.rC1 V') (Proc.devRef .tc Cert.ReferenceIdeal.main_v136) ∧
      (after Cert.KernelIdeal.Gen.hostOps0_7 (after Cert.KernelIdeal.Gen.hostOps0_6 (after Cert.KernelIdeal.Gen.hostOps0_5 (after Cert.KernelIdeal.Gen.hostOps0_4 V))) (Proc.devRef .tc Cert.KernelIdeal.main_v85) : (⟨Cert.KernelIdeal.S3, .f32⟩ : BufTy).Contents (Elt F))
        = after Cert.ReferenceIdeal.Blocks.rC2 (after Cert.ReferenceIdeal.Blocks.rC1 V') (Proc.devRef .tc Cert.ReferenceIdeal.main_v148) ∧
      (after Cert.KernelIdeal.Gen.hostOps0_7 (after Cert.KernelIdeal.Gen.hostOps0_6 (after Cert.KernelIdeal.Gen.hostOps0_5 (after Cert.KernelIdeal.Gen.hostOps0_4 V))) (Proc.devRef .tc Cert.KernelIdeal.main_v89) : (⟨Cert.KernelIdeal.S_, .f32⟩ : BufTy).Contents (Elt F))
        = after Cert.ReferenceIdeal.Blocks.rC2 (after Cert.ReferenceIdeal.Blocks.rC1 V') (Proc.devRef .tc Cert.ReferenceIdeal.main_v152) ∧
      (after Cert.KernelIdeal.Gen.hostOps0_7 (after Cert.KernelIdeal.Gen.hostOps0_6 (after Cert.KernelIdeal.Gen.hostOps0_5 (after Cert.KernelIdeal.Gen.hostOps0_4 V))) (Proc.devRef .tc Cert.KernelIdeal.main_v92) : (⟨Cert.KernelIdeal.S_, .f32⟩ : BufTy).Contents (Elt F))
        = after Cert.ReferenceIdeal.Blocks.rC2 (after Cert.ReferenceIdeal.Blocks.rC1 V') (Proc.devRef .tc Cert.ReferenceIdeal.main_v155) :=
  ⟨writeHead_kw V V' h, writeHead_gw V V' h, writeHead_sw V V' h, writeHead_gammaw V V' h, writeHead_betaw V V' h⟩

end Cert.Bridge
-- ==== Proof.Bridge.AddressStages.lean ====
/- Content addressing of 1000000 rows by a key, stage by stage, in the two spellings the programs use. -/
import proofs.«147285_j27152783245914_1_alg».proof.Proof.Gen.KernelIdeal
import proofs.«147285_j27152783245914_1_alg».proof.Proof.Gen.ReferenceIdeal
import proofs.«147285_j27152783245914_1_alg».proof.Proof.Passes
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.Bridge

open Idealize.ShloMosaic Idealize.SL.Sem Idealize.ShloMosaic.ValueIdx

abbrev RowC (F : FTy → Type) := (⟨Cert.KernelIdeal.S1x1000000, .f32⟩ : BufTy).Contents (Elt F)
abbrev ColC (F : FTy → Type) := (⟨Cert.KernelIdeal.S1000000x1, .f32⟩ : BufTy).Contents (Elt F)
abbrev VecC (F : FTy → Type) := (⟨Cert.ReferenceIdeal.S1000000, .f32⟩ : BufTy).Contents (Elt F)
abbrev MemC (F : FTy → Type) := (⟨Cert.ReferenceIdeal.S1000000x20, .f32⟩ : BufTy).Contents (Elt F)
abbrev KeyC (F : FTy → Type) := (⟨Cert.KernelIdeal.S1x20, .f32⟩ : BufTy).Contents (Elt F)
abbrev OneC (F : FTy → Type) := (⟨Cert.KernelIdeal.S1, .f32⟩ : BufTy).Contents (Elt F)
abbrev EndC (F : FTy → Type) := (⟨Cert.KernelIdeal.S1x1, .f32⟩ : BufTy).Contents (Elt F)
abbrev TapC (F : FTy → Type) := (⟨Cert.KernelIdeal.S3, .f32⟩ : BufTy).Contents (Elt F)
abbrev ScalC (F : FTy → Type) := (⟨Cert.KernelIdeal.S_, .f32⟩ : BufTy).Contents (Elt F)

section Tail
variable {F : FTy → Type} [FloatOps F]
open Cert.KernelIdeal Cert.KernelIdeal.Gen

def tapRow (s : TapC F) (off : Nat) (h : S3.Slices ![off] S1) : RowC F :=
  broadcastInDim S1x1000000 ![] bcast_S_S1x1000000 (shapeCast S_ (extractStridedSlice S1 ![off] s h) shapeCasts_S1_S_)

def shift3 (a : EndC F) (w : RowC F) (b : EndC F) (s : TapC F) : RowC F :=
  addf (addf
      (mulf (tapRow s 0 slices_S3_S1_0)
        (extractStridedSlice S1x1000000 ![0, 0]
          (concatenate S1x1000002 1 [⟨S1x1, a⟩, ⟨S1x1000000, w⟩, ⟨S1x1, b⟩] concatenates_S1x1_S1x1000000_S1x1_S1x1000002_d1)
          slices_S1x1000002_S1x1000000_0_0))
      (mulf (tapRow s 1 slices_S3_S1_1)
        (extractStridedSlice S1x1000000 ![0, 1]
          (concatenate S1x1000002 1 [⟨S1x1, a⟩, ⟨S1x1000000, w⟩, ⟨S1x1, b⟩] concatenates_S1x1_S1x1000000_S1x1_S1x1000002_d1)
          slices_S1x1000002_S1x1000000_0_1)))
    (mulf (tapRow s 2 slices_S3_S1_2)
      (extractStridedSlice S1x1000000 ![0, 2]
        (concatenate S1x1000002 1 [⟨S1x1, a⟩, ⟨S1x1000000, w⟩, ⟨S1x1, b⟩] concatenates_S1x1_S1x1000000_S1x1_S1x1000002_d1)
        slices_S1x1000002_S1x1000000_0_2))

def sharpen (x : RowC F) (γ : ScalC F) : RowC F :=
  Host.divf (Host.powf x (broadcastInDim S1x1000000 ![] bcast_S_S1x1000000 γ))
    (broadcastInDim S1x1000000 ![0, 1] bcast_S1x1_S1x1000000_0_1
      (addf
        (broadcastInDim S1x1 ![0] bcast_S1_S1x1_0
          (Host.reduceAdd (Host.powf x (broadcastInDim S1x1000000 ![] bcast_S_S1x1000000 γ)) (constant S_ .f32 0x00000000#32)
            reducesTo_S1x1000000_S1_d1 h_S_))
        (broadcastInDim S1x1 ![] bcast_S_S1x1 (constant S_ .f32 0x24E69595#32))))

def shiftSharpen (a : EndC F) (w : RowC F) (b : EndC F) (s : TapC F) (γ : ScalC F) : RowC F :=
  sharpen (shift3 a w b s) γ

def lastEnd (w : RowC F) : EndC F := extractStridedSlice S1x1 ![0, 999999] w slices_S1x1000000_S1x1_0_999999
def firstEnd (w : RowC F) : EndC F := extractStridedSlice S1x1 ![0, 0] w slices_S1x1000000_S1x1_0_0

end Tail

section FromColumns
variable {F : FTy → Type} [FloatOps F]
open Cert.KernelIdeal Cert.KernelIdeal.Gen

def keyNorm (ke : KeyC F) : OneC F :=
  Host.sqrt (Host.reduceAdd (mulf ke ke) (constant S_ .f32 0x00000000#32) reducesTo_S1x20_S1_d1 h_S_)

def scoreCol (rn num : ColC F) (nk : OneC F) (β : ScalC F) : ColC F :=
  mulf
    (Host.divf num
      (mulf
        (maximumf rn (broadcastInDim S1000000x1 ![] bcast_S_S1000000x1 (constant S_ .f32 0x322BCC77#32)))
        (broadcastInDim S1000000x1 ![0, 1] bcast_S1x1_S1000000x1_0_1
          (broadcastInDim S1x1 ![1] bcast_S1_S1x1_1
            (maximumf nk (broadcastInDim S1 ![] bcast_S_S1 (constant S_ .f32 0x322BCC77#32)))))))
    (broadcastInDim S1000000x1 ![] bcast_S_S1000000x1 β)

def rowMax (x : RowC F) : RowC F :=
  broadcastInDim S1x1000000 ![0, 1] bcast_S1x1_S1x1000000_0_1
    (broadcastInDim S1x1 ![0] bcast_S1_S1x1_0
      (maximumf (broadcastInDim S1 ![] bcast_S_S1 (constant S_ .f32 0xFF800000#32))
        (Host.reduce FloatOps.maximumf x (constant S_ .f32 0xFF800000#32) reducesTo_S1x1000000_S1_d1 h_S_)))

def softmaxRow (x : RowC F) : RowC F :=
  Host.divf (Host.exp (subf x (rowMax x)))
    (broadcastInDim S1x1000000 ![0, 1] bcast_S1x1_S1x1000000_0_1
      (broadcastInDim S1x1 ![0] bcast_S1_S1x1_0
        (Host.reduceAdd (Host.exp (subf x (rowMax x))) (constant S_ .f32 0x00000000#32) reducesTo_S1x1000000_S1_d1 h_S_)))

def gateRow (g : ScalC F) (c prev : RowC F) : RowC F :=
  addf (mulf (broadcastInDim S1x1000000 ![] bcast_S_S1x1000000 g) c)
    (mulf (broadcastInDim S1x1000000 ![] bcast_S_S1x1000000 (subf (constant S_ .f32 0x3F800000#32) g)) prev)

def gateOfCols (rn num : ColC F) (ke : KeyC F) (β g : ScalC F) (prev : RowC F) : RowC F :=
  gateRow g (softmaxRow (shapeCast S1x1000000 (scoreCol rn num (keyNorm ke) β) shapeCasts_S1000000x1_S1x1000000)) prev

end FromColumns

section FromMemory
variable {F : FTy → Type} [FloatOps F]
open Cert.ReferenceIdeal Cert.ReferenceIdeal.Gen

def shiftMem (M : MemC F) : MemC F :=
  addf M (broadcastInDim S1000000x20 ![] bcast_S_S1000000x20 (constant S_ .f32 0x24E69595#32))
def shiftKey (k : KeyC F) : KeyC F :=
  addf k (broadcastInDim S1x20 ![] bcast_S_S1x20 (constant S_ .f32 0x24E69595#32))
def dotRows (Me : MemC F) (ke : KeyC F) : VecC F :=
  shapeCast S1000000
    (Host.dotGeneral dot_S1000000x20_S20x1_S1000000x1_1_0_0_1_n_n none Me (transpose S20x1 [1, 0] ke transposes_S1x20_S20x1_1_0))
    shapeCasts_S1000000x1_S1000000
def normRows (Me : MemC F) : VecC F :=
  Host.sqrt (Host.reduceAdd (mulf Me Me) (constant S_ .f32 0x00000000#32) reducesTo_S1000000x20_S1000000_d1 h_S_)

def scoreVec (nv dv : VecC F) (nk : OneC F) (β : ScalC F) : VecC F :=
  mulf
    (Host.divf dv
      (mulf
        (maximumf nv (broadcastInDim S1000000 ![] bcast_S_S1000000 (constant S_ .f32 0x322BCC77#32)))
        (broadcastInDim S1000000 ![0] bcast_S1_S1000000_0
          (maximumf nk (broadcastInDim S1 ![] bcast_S_S1 (constant S_ .f32 0x322BCC77#32))))))
    (broadcastInDim S1000000 ![] bcast_S_S1000000 β)

def vecMax (x : VecC F) : VecC F :=
  broadcastInDim S1000000 ![0] bcast_S1_S1000000_0
    (broadcastInDim S1 ![] bcast_S_S1
      (maximumf (constant S_ .f32 0xFF800000#32)
        (Host.reduce FloatOps.maximumf x (constant S_ .f32 0xFF800000#32) reducesTo_S1000000_S_d0 h_S_)))

def softmaxVec (x : VecC F) : VecC F :=
  Host.divf (Host.exp (subf x (vecMax x)))
    (broadcastInDim S1000000 ![0] bcast_S1_S1000000_0
      (broadcastInDim S1 ![] bcast_S_S1
        (Host.reduceAdd (Host.exp (subf x (vecMax x))) (constant S_ .f32 0x00000000#32) reducesTo_S1000000_S_d0 h_S_)))

def gateOfMem (M : MemC F) (k : KeyC F) (β g : ScalC F) (prev : RowC F) : RowC F :=
  addf
    (broadcastInDim S1x1000000 ![1] bcast_S1000000_S1x1000000_1
      (mulf (broadcastInDim S1000000 ![] bcast_S_S1000000 g)
        (softmaxVec (scoreVec (normRows (shiftMem M)) (dotRows (shiftMem M) (shiftKey k)) (keyNorm (shiftKey k)) β))))
    (mulf (broadcastInDim S1x1000000 ![] bcast_S_S1x1000000 (subf (constant S_ .f32 0x3F800000#32) g)) prev)

end FromMemory

abbrev keyAt (x : KeyC Ideal) (c : Fin 20) : EReal := x (ix2 (0 : Fin 1) c)
abbrev colAt (x : ColC Ideal) (i : Fin 1000000) : EReal := x (ix2 i (0 : Fin 1))
abbrev memAt (x : MemC Ideal) (i : Fin 1000000) (c : Fin 20) : EReal := x (ix2 i c)
abbrev rowAt (x : RowC Ideal) (i : Fin 1000000) : EReal := x (ix2 (0 : Fin 1) i)

end Cert.Bridge

end
-- ==== Proof.Bridge.Addressing.lean ====
/- Content addressing on columns and on vectors with the same entries agree over the extended reals. -/
import proofs.«147285_j27152783245914_1_alg».proof.Proof.Bridge.AddressStages
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.Bridge

open Idealize.ShloMosaic Idealize.SL.Sem Idealize.ShloMosaic.ValueIdx

section Reads
variable {α : Type}

theorem bcast_unit_apply {s t : Shape} (dims : Fin s.rank → Fin t.rank) (h : s.BroadcastsInDim t dims) (x : s.Idx → α)
    (hs : ∀ a, s.size a = 1) (j : t.Idx) (k : s.Idx) : broadcastInDim t dims h x j = x k :=
  broadcastInDim_apply dims h x j k fun a => by
    rw [if_pos (hs a)]; have := (k a).isLt; have := hs a; omega

theorem unit_S_ : ∀ a : Fin Cert.KernelIdeal.S_.rank, Cert.KernelIdeal.S_.size a = 1 := fun a => a.elim0
theorem unit_S1 : ∀ a : Fin Cert.KernelIdeal.S1.rank, Cert.KernelIdeal.S1.size a = 1 :=
  fun a => match a with | ⟨0, _⟩ => rfl
theorem unit_S1x1 : ∀ a : Fin Cert.KernelIdeal.S1x1.rank, Cert.KernelIdeal.S1x1.size a = 1 :=
  fun a => match a with | ⟨0, _⟩ => rfl | ⟨1, _⟩ => rfl

theorem bcast_vec_row_apply
    (h : Cert.ReferenceIdeal.S1000000.BroadcastsInDim Cert.KernelIdeal.S1x1000000 (![1] : Fin 1 → Fin Cert.KernelIdeal.S1x1000000.rank))
    (x : Cert.ReferenceIdeal.S1000000.Idx → α) (u : Fin 1) (i : Fin 1000000) :
    broadcastInDim Cert.KernelIdeal.S1x1000000 ![1] h x (ix2 u i) = x (ix1 i) :=
  broadcastInDim_apply _ h x _ _ fun a => match a with
    | ⟨0, _⟩ => by
      rw [if_neg (by show ¬ (1000000 : ℕ) = 1; decide)]; rfl

theorem cast_col_row_apply (h : Cert.KernelIdeal.S1000000x1.ShapeCasts Cert.KernelIdeal.S1x1000000)
    (x : Cert.KernelIdeal.S1000000x1.Idx → α) (u : Fin 1) (i : Fin 1000000) :
    shapeCast Cert.KernelIdeal.S1x1000000 x h (ix2 u i) = x (ix2 i (0 : Fin 1)) :=
  shapeCast_apply x h _ _ (by
    have hu : u.val = 0 := by omega
    rw [Shape.rowMajor_val_two, Shape.rowMajor_val_two]
    show i.val * 1 + 0 = u.val * 1000000 + i.val
    rw [hu]; omega)

theorem cast_col_vec_apply (h : Cert.ReferenceIdeal.S1000000x1.ShapeCasts Cert.ReferenceIdeal.S1000000)
    (x : Cert.ReferenceIdeal.S1000000x1.Idx → α) (i : Fin 1000000) :
    shapeCast Cert.ReferenceIdeal.S1000000 x h (ix1 i) = x (ix2 i (0 : Fin 1)) :=
  shapeCast_apply x h _ _ (by
    rw [Shape.rowMajor_val_two, Shape.rowMajor_val_one]
    show i.val * 1 + 0 = i.val
    omega)

end Reads

section Reductions
open Cert.KernelIdeal Cert.KernelIdeal.Gen

theorem reduces_row : S1x1000000.Reduces [1] S1 := by decide
theorem reduces_key : S1x20.Reduces [1] S1 := by decide

theorem lift_row (j : S1.Idx) (k : Fin 1000000) : reduces_row.lift j k = ix2 (0 : Fin 1) k :=
  Shape.idx_ext₂ (by have h : (j 0).val < 1 := (j 0).isLt; show (j 0).val = 0; omega) rfl

theorem lift_key (j : S1.Idx) (c : Fin 20) : reduces_key.lift j c = ix2 (0 : Fin 1) c :=
  Shape.idx_ext₂ (by have h : (j 0).val < 1 := (j 0).isLt; show (j 0).val = 0; omega) rfl

theorem rowSum_apply (x : RowC Ideal) (init : ScalC Ideal) (j : S1.Idx) :
    Host.reduceAdd (F := Ideal) (φ := .f32) x init reducesTo_S1x1000000_S1_d1 h_S_ j = init ix0 + ∑ k : Fin 1000000, x (ix2 (0 : Fin 1) k) := by
  refine (Ideal.hostReduceAdd_single reducesTo_S1x1000000_S1_d1 reduces_row x (init (Shape.Idx.first h_S_)) j).trans ?_
  rw [eq_ix0 (Shape.Idx.first h_S_)]
  exact congrArg (init ix0 + ·) (Finset.sum_congr rfl fun k _ => congrArg x (lift_row j k))

theorem keySum_apply (x : KeyC Ideal) (init : ScalC Ideal) (j : S1.Idx) :
    Host.reduceAdd (F := Ideal) (φ := .f32) x init reducesTo_S1x20_S1_d1 h_S_ j = init ix0 + ∑ c : Fin 20, x (ix2 (0 : Fin 1) c) := by
  refine (Ideal.hostReduceAdd_single reducesTo_S1x20_S1_d1 reduces_key x (init (Shape.Idx.first h_S_)) j).trans ?_
  rw [eq_ix0 (Shape.Idx.first h_S_)]
  exact congrArg (init ix0 + ·) (Finset.sum_congr rfl fun k _ => congrArg x (lift_key j k))

theorem rowFold_apply (x : RowC Ideal) (init : ScalC Ideal) (j : S1.Idx) :
    Host.reduce (FloatOps.maximumf (F := Ideal) (φ := .f32)) x init reducesTo_S1x1000000_S1_d1 h_S_ j
      = (Finset.univ : Finset (Fin 1000000)).fold (FloatOps.maximumf (F := Ideal) (φ := .f32)) (init ix0)
          (fun k => x (ix2 (0 : Fin 1) k)) := by
  refine (Host.reduce_eq_fold_single (FloatOps.maximumf (F := Ideal) (φ := .f32)) x init reducesTo_S1x1000000_S1_d1 reduces_row h_S_ j).trans ?_
  rw [eq_ix0 (Shape.Idx.first h_S_)]
  exact congrArg (fun f => Finset.fold (FloatOps.maximumf (F := Ideal) (φ := .f32)) (init ix0) f Finset.univ)
    (funext fun k => congrArg x (lift_row j k))

end Reductions

section ReductionsVec
open Cert.ReferenceIdeal Cert.ReferenceIdeal.Gen

theorem reduces_mem : S1000000x20.Reduces [1] S1000000 := by decide

theorem lift_mem (i : Fin 1000000) (c : Fin 20) : reduces_mem.lift (ix1 i) c = ix2 i c :=
  Shape.idx_ext₂ rfl rfl

def vecIdx : S1000000.Idx ≃ Fin 1000000 where
  toFun i := i 0
  invFun k := ix1 k
  left_inv i := (eq_ix1 i).symm
  right_inv _ := rfl

theorem vecSum_apply (x : VecC Ideal) (init : ScalC Ideal) (j : S_.Idx) :
    Host.reduceAdd (F := Ideal) (φ := .f32) x init reducesTo_S1000000_S_d0 h_S_ j = init ix0 + ∑ k : Fin 1000000, x (ix1 k) := by
  refine (Ideal.hostReduceAdd_total reducesTo_S1000000_S_d0 (fun b => b.elim0) x (init (Shape.Idx.first h_S_)) j).trans ?_
  rw [eq_ix0 (Shape.Idx.first h_S_)]
  exact congrArg (init ix0 + ·) (Fintype.sum_equiv vecIdx _ _ fun i => congrArg x (eq_ix1 i))

theorem vecFold_apply (x : VecC Ideal) (init : ScalC Ideal) (j : S_.Idx) :
    Host.reduce (FloatOps.maximumf (F := Ideal) (φ := .f32)) x init reducesTo_S1000000_S_d0 h_S_ j
      = (Finset.univ : Finset (Fin 1000000)).fold (FloatOps.maximumf (F := Ideal) (φ := .f32)) (init ix0)
          (fun k => x (ix1 k)) := by
  refine (Host.reduce_eq_fold (FloatOps.maximumf (F := Ideal) (φ := .f32)) x init reducesTo_S1000000_S_d0 h_S_ j).trans ?_
  rw [eq_ix0 (Shape.Idx.first h_S_), Finset.filter_true_of_mem (fun i _ => funext fun b => b.elim0)]
  rw [← Finset.map_univ_equiv vecIdx.symm, Finset.fold_map]
  rfl

theorem memSum_apply (x : MemC Ideal) (init : ScalC Ideal) (i : Fin 1000000) :
    Host.reduceAdd (F := Ideal) (φ := .f32) x init reducesTo_S1000000x20_S1000000_d1 h_S_ (ix1 i) = init ix0 + ∑ c : Fin 20, x (ix2 i c) := by
  refine (Ideal.hostReduceAdd_single reducesTo_S1000000x20_S1000000_d1 reduces_mem x (init (Shape.Idx.first h_S_)) (ix1 i)).trans ?_
  rw [eq_ix0 (Shape.Idx.first h_S_)]
  exact congrArg (init ix0 + ·) (Finset.sum_congr rfl fun c _ => congrArg x (lift_mem i c))

end ReductionsVec

theorem hostExp_apply {s : Shape} (x : FVec Ideal s .f32) (i : s.Idx) : Host.exp x i = Ideal.exp (x i) := rfl
theorem hostSqrt_apply {s : Shape} (x : FVec Ideal s .f32) (i : s.Idx) : Host.sqrt x i = Ideal.sqrt (x i) := rfl

def scoreAt (num rn nk β : EReal) : EReal :=
  Ideal.div num (max rn (Ideal.ofBits .f32 0x322BCC77#32) * max nk (Ideal.ofBits .f32 0x322BCC77#32)) * β

def maxOf (sc : Fin 1000000 → EReal) : EReal :=
  max (Ideal.ofBits .f32 0xFF800000#32)
    ((Finset.univ : Finset (Fin 1000000)).fold (FloatOps.maximumf (F := Ideal) (φ := .f32)) (Ideal.ofBits .f32 0xFF800000#32) sc)

def softmaxAt (sc : Fin 1000000 → EReal) (i : Fin 1000000) : EReal :=
  Ideal.div (Ideal.exp (sc i - maxOf sc))
    (Ideal.ofBits .f32 0x00000000#32 + ∑ k : Fin 1000000, Ideal.exp (sc k - maxOf sc))

def gateAt (g c prev : EReal) : EReal := g * c + (Ideal.ofBits .f32 0x3F800000#32 - g) * prev

def keySq (ke : KeyC Ideal) : EReal :=
  Ideal.ofBits .f32 0x00000000#32 + ∑ c : Fin 20, ke (ix2 (0 : Fin 1) c) * ke (ix2 (0 : Fin 1) c)

section StagesK
open Cert.KernelIdeal Cert.KernelIdeal.Gen

theorem keyNorm_apply (ke : KeyC Ideal) (j : S1.Idx) : keyNorm ke j = Ideal.sqrt (keySq ke) := by
  unfold keyNorm keySq
  rw [hostSqrt_apply, keySum_apply, constant_apply]
  simp only [mulf_apply]

theorem scoreCol_apply (rn num : ColC Ideal) (nk : OneC Ideal) (β : ScalC Ideal) (i : Fin 1000000) :
    scoreCol rn num nk β (ix2 i (0 : Fin 1))
      = scoreAt (num (ix2 i (0 : Fin 1))) (rn (ix2 i (0 : Fin 1))) (nk (ix1 (0 : Fin 1))) (β ix0) := by
  unfold scoreCol scoreAt
  rw [mulf_apply, hostDivf_apply, mulf_apply, maximumf_apply,
    bcast_unit_apply _ bcast_S_S1000000x1 β unit_S_ _ ix0,
    bcast_unit_apply _ bcast_S_S1000000x1 _ unit_S_ _ ix0,
    bcast_unit_apply _ bcast_S1x1_S1000000x1_0_1 _ unit_S1x1 _ (ix2 (0 : Fin 1) (0 : Fin 1)),
    bcast_unit_apply _ bcast_S1_S1x1_1 _ unit_S1 _ (ix1 (0 : Fin 1)), maximumf_apply,
    bcast_unit_apply _ bcast_S_S1 _ unit_S_ _ ix0, constant_apply]

theorem rowMax_apply (x : RowC Ideal) (j : S1x1000000.Idx) : rowMax x j = maxOf (fun k => x (ix2 (0 : Fin 1) k)) := by
  unfold rowMax maxOf
  rw [bcast_unit_apply _ bcast_S1x1_S1x1000000_0_1 _ unit_S1x1 _ (ix2 (0 : Fin 1) (0 : Fin 1)),
    bcast_unit_apply _ bcast_S1_S1x1_0 _ unit_S1 _ (ix1 (0 : Fin 1)), maximumf_apply,
    bcast_unit_apply _ bcast_S_S1 _ unit_S_ _ ix0, rowFold_apply, constant_apply]

theorem softmaxRow_apply (x : RowC Ideal) (u : Fin 1) (i : Fin 1000000) :
    softmaxRow x (ix2 u i) = softmaxAt (fun k => x (ix2 (0 : Fin 1) k)) i := by
  obtain rfl : u = 0 := Subsingleton.elim _ _
  unfold softmaxRow softmaxAt
  rw [hostDivf_apply, hostExp_apply, subf_apply, rowMax_apply,
    bcast_unit_apply _ bcast_S1x1_S1x1000000_0_1 _ unit_S1x1 _ (ix2 (0 : Fin 1) (0 : Fin 1)),
    bcast_unit_apply _ bcast_S1_S1x1_0 _ unit_S1 _ (ix1 (0 : Fin 1)), rowSum_apply, constant_apply]
  simp only [hostExp_apply, subf_apply, rowMax_apply]

theorem gateRow_apply (g : ScalC Ideal) (c prev : RowC Ideal) (j : S1x1000000.Idx) :
    gateRow g c prev j = gateAt (g ix0) (c j) (prev j) := by
  unfold gateRow gateAt
  rw [addf_apply, mulf_apply, mulf_apply,
    bcast_unit_apply _ bcast_S_S1x1000000 g unit_S_ _ ix0,
    bcast_unit_apply _ bcast_S_S1x1000000 _ unit_S_ _ ix0, subf_apply, constant_apply]

theorem gateOfCols_apply (rn num : ColC Ideal) (ke : KeyC Ideal) (β g : ScalC Ideal) (prev : RowC Ideal) (u : Fin 1) (i : Fin 1000000) :
    gateOfCols rn num ke β g prev (ix2 u i)
      = gateAt (g ix0)
          (softmaxAt (fun k => scoreAt (num (ix2 k (0 : Fin 1))) (rn (ix2 k (0 : Fin 1))) (Ideal.sqrt (keySq ke)) (β ix0)) i)
          (prev (ix2 u i)) := by
  unfold gateOfCols
  rw [gateRow_apply, softmaxRow_apply]
  refine congrArg (fun f => gateAt (g ix0) (softmaxAt f i) (prev (ix2 u i))) (funext fun k => ?_)
  rw [cast_col_row_apply, scoreCol_apply, keyNorm_apply]

end StagesK

section StagesR
open Cert.ReferenceIdeal Cert.ReferenceIdeal.Gen

theorem shiftMem_apply (M : MemC Ideal) (j : S1000000x20.Idx) : shiftMem M j = M j + Cert.Passes.eps := by
  unfold shiftMem
  rw [addf_apply, bcast_unit_apply _ bcast_S_S1000000x20 _ unit_S_ _ ix0, constant_apply]
  rfl

theorem shiftKey_apply (k : KeyC Ideal) (j : S1x20.Idx) : shiftKey k j = k j + Cert.Passes.eps := by
  unfold shiftKey
  rw [addf_apply, bcast_unit_apply _ bcast_S_S1x20 _ unit_S_ _ ix0, constant_apply]
  rfl

theorem dotRows_apply (Me : MemC Ideal) (ke : KeyC Ideal) (i : Fin 1000000) :
    dotRows Me ke (ix1 i) = ∑ c : Fin 20, Me (ix2 i c) * ke (ix2 (0 : Fin 1) c) := by
  unfold dotRows
  rw [cast_col_vec_apply]
  refine (Ideal.dotGeneral_apply dot_S1000000x20_S20x1_S1000000x1_1_0_0_1_n_n none .single Me _ (ix2 i (0 : Fin 1))).trans ?_
  refine Fintype.sum_equiv (contrEquiv1 dot_S1000000x20_S20x1_S1000000x1_1_0_0_1_n_n 20 rfl rfl) _ _ fun q => ?_
  have hl : dot_S1000000x20_S20x1_S1000000x1_1_0_0_1_n_n.lhsIdx (ix2 i (0 : Fin 1)) q
      = ix2 i (contrEquiv1 dot_S1000000x20_S20x1_S1000000x1_1_0_0_1_n_n 20 rfl rfl q) := Shape.idx_ext₂ rfl rfl
  have hr : dot_S1000000x20_S20x1_S1000000x1_1_0_0_1_n_n.rhsIdx (ix2 i (0 : Fin 1)) q
      = ix2 (contrEquiv1 dot_S1000000x20_S20x1_S1000000x1_1_0_0_1_n_n 20 rfl rfl q) (0 : Fin 1) := Shape.idx_ext₂ rfl rfl
  rw [hl, hr, transpose_ix2_apply]

theorem normRows_apply (Me : MemC Ideal) (i : Fin 1000000) :
    normRows Me (ix1 i) = Ideal.sqrt (Ideal.ofBits .f32 0x00000000#32 + ∑ c : Fin 20, Me (ix2 i c) * Me (ix2 i c)) := by
  unfold normRows
  rw [hostSqrt_apply, memSum_apply, constant_apply]
  simp only [mulf_apply]

theorem scoreVec_apply (nv dv : VecC Ideal) (nk : OneC Ideal) (β : ScalC Ideal) (i : Fin 1000000) :
    scoreVec nv dv nk β (ix1 i) = scoreAt (dv (ix1 i)) (nv (ix1 i)) (nk (ix1 (0 : Fin 1))) (β ix0) := by
  unfold scoreVec scoreAt
  rw [mulf_apply, hostDivf_apply, mulf_apply, maximumf_apply,
    bcast_unit_apply _ bcast_S_S1000000 β unit_S_ _ ix0,
    bcast_unit_apply _ bcast_S_S1000000 _ unit_S_ _ ix0,
    bcast_unit_apply _ bcast_S1_S1000000_0 _ unit_S1 _ (ix1 (0 : Fin 1)), maximumf_apply,
    bcast_unit_apply _ bcast_S_S1 _ unit_S_ _ ix0, constant_apply]

theorem vecMax_apply (x : VecC Ideal) (j : S1000000.Idx) : vecMax x j = maxOf (fun k => x (ix1 k)) := by
  unfold vecMax maxOf
  rw [bcast_unit_apply _ bcast_S1_S1000000_0 _ unit_S1 _ (ix1 (0 : Fin 1)),
    bcast_unit_apply _ bcast_S_S1 _ unit_S_ _ ix0, maximumf_apply, constant_apply, vecFold_apply, constant_apply]

theorem softmaxVec_apply (x : VecC Ideal) (i : Fin 1000000) :
    softmaxVec x (ix1 i) = softmaxAt (fun k => x (ix1 k)) i := by
  unfold softmaxVec softmaxAt
  rw [hostDivf_apply, hostExp_apply, subf_apply, vecMax_apply,
    bcast_unit_apply _ bcast_S1_S1000000_0 _ unit_S1 _ (ix1 (0 : Fin 1)),
    bcast_unit_apply _ bcast_S_S1 _ unit_S_ _ ix0, vecSum_apply, constant_apply]
  simp only [hostExp_apply, subf_apply, vecMax_apply]

theorem gateOfMem_apply (M : MemC Ideal) (k : KeyC Ideal) (β g : ScalC Ideal) (prev : RowC Ideal) (u : Fin 1) (i : Fin 1000000) :
    gateOfMem M k β g prev (ix2 u i)
      = gateAt (g ix0)
          (softmaxAt (fun r => scoreAt (∑ c : Fin 20, (M (ix2 r c) + Cert.Passes.eps) * (k (ix2 (0 : Fin 1) c) + Cert.Passes.eps))
              (Ideal.sqrt (Ideal.ofBits .f32 0x00000000#32 + ∑ c : Fin 20, (M (ix2 r c) + Cert.Passes.eps) * (M (ix2 r c) + Cert.Passes.eps)))
              (Ideal.sqrt (keySq (shiftKey k))) (β ix0)) i)
          (prev (ix2 u i)) := by
  unfold gateOfMem gateAt
  rw [addf_apply, bcast_vec_row_apply, mulf_apply, mulf_apply,
    bcast_unit_apply _ bcast_S_S1000000 _ unit_S_ _ ix0,
    bcast_unit_apply _ bcast_S_S1x1000000 _ unit_S_ _ ix0, subf_apply, constant_apply, softmaxVec_apply]
  refine congrArg (fun f => g ix0 * softmaxAt f i + (Ideal.ofBits .f32 0x3F800000#32 - g ix0) * prev (ix2 u i)) (funext fun r => ?_)
  rw [scoreVec_apply, dotRows_apply, normRows_apply, keyNorm_apply]
  simp only [shiftMem_apply, shiftKey_apply]

end StagesR

theorem gate_same (rn num : ColC Ideal) (ke : KeyC Ideal) (M : MemC Ideal) (k : KeyC Ideal) (β g : ScalC Ideal) (prev : RowC Ideal)
    (hke : ∀ c : Fin 20, keyAt ke c = keyAt k c + Cert.Passes.eps)
    (hrn : ∀ i : Fin 1000000, colAt rn i = Cert.Passes.rowNorm (memAt M) i)
    (hnum : ∀ i : Fin 1000000, colAt num i = Cert.Passes.rowDot (memAt M) (keyAt ke) i) :
    gateOfCols rn num ke β g prev = gateOfMem M k β g prev := by
  funext j
  obtain ⟨u, i, rfl⟩ : ∃ (u : Fin 1) (i : Fin 1000000), j = ix2 u i := ⟨j 0, j 1, eq_ix2 j⟩
  rw [gateOfCols_apply, gateOfMem_apply]
  have h3 : ∀ c : Fin 20, ke (ix2 (0 : Fin 1) c) = k (ix2 (0 : Fin 1) c) + Cert.Passes.eps := hke
  have hk : keySq ke = keySq (shiftKey k) := by
    unfold keySq
    refine congrArg (Ideal.ofBits .f32 0x00000000#32 + ·) (Finset.sum_congr rfl fun c _ => ?_)
    rw [shiftKey_apply, h3]
  refine congrArg (fun f => gateAt (g ix0) (softmaxAt f i) (prev (ix2 u i))) (funext fun r => ?_)
  have h1 : num (ix2 r (0 : Fin 1)) = ∑ c : Fin 20, (M (ix2 r c) + Cert.Passes.eps) * ke (ix2 (0 : Fin 1) c) := hnum r
  have h2 : rn (ix2 r (0 : Fin 1))
      = Ideal.sqrt (∑ c : Fin 20, (M (ix2 r c) + Cert.Passes.eps) * (M (ix2 r c) + Cert.Passes.eps)) := hrn r
  rw [h1, h2, hk, Ideal.ofBits_zero_f32, zero_add]
  simp only [h3]

end Cert.Bridge

end
-- ==== Proof.Bridge.AddressRead.lean ====
/- The read head's weighting: the host stretches after the first pass against the reference's blocks. -/
import proofs.«147285_j27152783245914_1_alg».proof.Proof.Gen.KernelIdeal.Launch
import proofs.«147285_j27152783245914_1_alg».proof.Proof.RefOps
import proofs.«147285_j27152783245914_1_alg».proof.Proof.Bridge.AddressStages
import proofs.«147285_j27152783245914_1_alg».proof.Proof.Bridge.Addressing
import Idealize.ShloMosaic.Lib.StableHlo.Run

noncomputable section

namespace Cert.Bridge

open Idealize.ShloMosaic Idealize.ShloMosaic.TcCoe Idealize.ShloMosaic.StableHlo Idealize.SL.Sem Idealize.ShloMosaic.ValueIdx

section Kernel
variable {F : FTy → Type} [FloatOps F]
open Cert.KernelIdeal Cert.KernelIdeal.Gen

abbrev kReadFront : List (HloOp τ sig (Elt F)) := (hostOps1_1 (F := F)).take 36
abbrev kReadTail : List (HloOp τ sig (Elt F)) := (hostOps1_1 (F := F)).drop 36

theorem kRead_cut : (hostOps1_1 : List (HloOp τ sig (Elt F))) = kReadFront ++ kReadTail :=
  (List.take_append_drop 36 _).symm

set_option maxHeartbeats 4000000 in
theorem kReadFront_gate (V : Valuation τ sig (Elt F)) :
    after kReadFront (after hostOps1 V) (Proc.devRef .tc main_v126)
      = gateOfCols (V (Proc.devRef .tc main_v97_0)) (V (Proc.devRef .tc main_v97_1)) (V (Proc.devRef .tc main_v94))
          (V (Proc.devRef .tc main_v63)) (V (Proc.devRef .tc main_v44)) (V (Proc.devRef .tc main_arg1)) := by
  rw [← StableHlo.after_append]
  simp only [kReadFront, hostOps1, hostOps1_1, List.take_succ_cons, List.take_zero, List.cons_append, List.nil_append]
  after_results_simp
  rfl

set_option maxHeartbeats 4000000 in
theorem kReadFront_last (V : Valuation τ sig (Elt F)) :
    after kReadFront (after hostOps1 V) (Proc.devRef .tc main_v127)
      = lastEnd (gateOfCols (V (Proc.devRef .tc main_v97_0)) (V (Proc.devRef .tc main_v97_1)) (V (Proc.devRef .tc main_v94))
          (V (Proc.devRef .tc main_v63)) (V (Proc.devRef .tc main_v44)) (V (Proc.devRef .tc main_arg1))) := by
  rw [← StableHlo.after_append]
  simp only [kReadFront, hostOps1, hostOps1_1, List.take_succ_cons, List.take_zero, List.cons_append, List.nil_append]
  after_results_simp
  rfl

set_option maxHeartbeats 4000000 in
theorem kReadFront_first (V : Valuation τ sig (Elt F)) :
    after kReadFront (after hostOps1 V) (Proc.devRef .tc main_v128)
      = firstEnd (gateOfCols (V (Proc.devRef .tc main_v97_0)) (V (Proc.devRef .tc main_v97_1)) (V (Proc.devRef .tc main_v94))
          (V (Proc.devRef .tc main_v63)) (V (Proc.devRef .tc main_v44)) (V (Proc.devRef .tc main_arg1))) := by
  rw [← StableHlo.after_append]
  simp only [kReadFront, hostOps1, hostOps1_1, List.take_succ_cons, List.take_zero, List.cons_append, List.nil_append]
  after_results_simp
  rfl

set_option maxHeartbeats 4000000 in
theorem kReadFront_taps (V : Valuation τ sig (Elt F)) :
    after kReadFront (after hostOps1 V) (Proc.devRef .tc main_v56) = V (Proc.devRef .tc main_v56) := by
  rw [← StableHlo.after_append]
  simp only [kReadFront, hostOps1, hostOps1_1, List.take_succ_cons, List.take_zero, List.cons_append, List.nil_append]
  after_results_simp

set_option maxHeartbeats 4000000 in
theorem kReadFront_power (V : Valuation τ sig (Elt F)) :
    after kReadFront (after hostOps1 V) (Proc.devRef .tc main_v60) = V (Proc.devRef .tc main_v60) := by
  rw [← StableHlo.after_append]
  simp only [kReadFront, hostOps1, hostOps1_1, List.take_succ_cons, List.take_zero, List.cons_append, List.nil_append]
  after_results_simp

set_option maxHeartbeats 4000000 in
theorem kReadTail_read (W : Valuation τ sig (Elt F)) :
    after kReadTail W (Proc.devRef .tc main_v154)
      = shiftSharpen (W (Proc.devRef .tc main_v127)) (W (Proc.devRef .tc main_v126)) (W (Proc.devRef .tc main_v128))
          (W (Proc.devRef .tc main_v56)) (W (Proc.devRef .tc main_v60)) := by
  simp only [kReadTail, hostOps1_1, List.drop_succ_cons, List.drop_zero]
  after_results_simp
  rfl

end Kernel

section Reference
variable {F : FTy → Type} [FloatOps F]
open Cert.ReferenceIdeal Cert.ReferenceIdeal.Gen Cert.ReferenceIdeal.Blocks

set_option maxHeartbeats 4000000 in
theorem rB1_gate (V' : Valuation τ sig (Elt F)) :
    after rB1 V' (Proc.devRef .tc main_v98)
      = gateOfMem (V' (Proc.devRef .tc main_arg3)) (V' (Proc.devRef .tc main_v38)) (V' (Proc.devRef .tc main_v63))
          (V' (Proc.devRef .tc main_v44)) (V' (Proc.devRef .tc main_arg1)) := by
  after_results_simp
  rfl

set_option maxHeartbeats 4000000 in
theorem rB1_last (V' : Valuation τ sig (Elt F)) :
    after rB1 V' (Proc.devRef .tc main_v99)
      = lastEnd (gateOfMem (V' (Proc.devRef .tc main_arg3)) (V' (Proc.devRef .tc main_v38)) (V' (Proc.devRef .tc main_v63))
          (V' (Proc.devRef .tc main_v44)) (V' (Proc.devRef .tc main_arg1))) := by
  after_results_simp
  rfl

set_option maxHeartbeats 4000000 in
theorem rB1_first (V' : Valuation τ sig (Elt F)) :
    after rB1 V' (Proc.devRef .tc main_v100)
      = firstEnd (gateOfMem (V' (Proc.devRef .tc main_arg3)) (V' (Proc.devRef .tc main_v38)) (V' (Proc.devRef .tc main_v63))
          (V' (Proc.devRef .tc main_v44)) (V' (Proc.devRef .tc main_arg1))) := by
  after_results_simp
  rfl

set_option maxHeartbeats 4000000 in
theorem rB1_taps (V' : Valuation τ sig (Elt F)) :
    after rB1 V' (Proc.devRef .tc main_v56) = V' (Proc.devRef .tc main_v56) := by
  after_results_simp

set_option maxHeartbeats 4000000 in
theorem rB1_power (V' : Valuation τ sig (Elt F)) :
    after rB1 V' (Proc.devRef .tc main_v60) = V' (Proc.devRef .tc main_v60) := by
  after_results_simp

set_option maxHeartbeats 4000000 in
theorem rB2_read (W' : Valuation τ sig (Elt F)) :
    (after rB2 W' (Proc.devRef .tc main_v126) : RowC F)
      = shiftSharpen (W' (Proc.devRef .tc main_v99)) (W' (Proc.devRef .tc main_v98)) (W' (Proc.devRef .tc main_v100))
          (W' (Proc.devRef .tc main_v56)) (W' (Proc.devRef .tc main_v60)) := by
  after_results_simp
  rfl

end Reference

theorem addressRead_same
    (V : Valuation Cert.KernelIdeal.τ Cert.KernelIdeal.sig (Elt Ideal))
    (V' : Valuation Cert.ReferenceIdeal.τ Cert.ReferenceIdeal.sig (Elt Ideal))
    (hke : ∀ c : Fin 20, keyAt (V (Proc.devRef .tc Cert.KernelIdeal.main_v94)) c
        = keyAt (V' (Proc.devRef .tc Cert.ReferenceIdeal.main_v38)) c + Cert.Passes.eps)
    (hrn : ∀ i : Fin 1000000, colAt (V (Proc.devRef .tc Cert.KernelIdeal.main_v97_0)) i
        = Cert.Passes.rowNorm (memAt (V' (Proc.devRef .tc Cert.ReferenceIdeal.main_arg3))) i)
    (hnum : ∀ i : Fin 1000000, colAt (V (Proc.devRef .tc Cert.KernelIdeal.main_v97_1)) i
        = Cert.Passes.rowDot (memAt (V' (Proc.devRef .tc Cert.ReferenceIdeal.main_arg3)))
            (keyAt (V (Proc.devRef .tc Cert.KernelIdeal.main_v94))) i)
    (hβ : (V (Proc.devRef .tc Cert.KernelIdeal.main_v63) : ScalC Ideal) = V' (Proc.devRef .tc Cert.ReferenceIdeal.main_v63))
    (hg : (V (Proc.devRef .tc Cert.KernelIdeal.main_v44) : ScalC Ideal) = V' (Proc.devRef .tc Cert.ReferenceIdeal.main_v44))
    (hprev : (V (Proc.devRef .tc Cert.KernelIdeal.main_arg1) : RowC Ideal) = V' (Proc.devRef .tc Cert.ReferenceIdeal.main_arg1))
    (hs : (V (Proc.devRef .tc Cert.KernelIdeal.main_v56) : TapC Ideal) = V' (Proc.devRef .tc Cert.ReferenceIdeal.main_v56))
    (hγ : (V (Proc.devRef .tc Cert.KernelIdeal.main_v60) : ScalC Ideal) = V' (Proc.devRef .tc Cert.ReferenceIdeal.main_v60)) :
    (after Cert.KernelIdeal.Gen.hostOps1_1 (after Cert.KernelIdeal.Gen.hostOps1 V) (Proc.devRef .tc Cert.KernelIdeal.main_v154) : RowC Ideal)
      = after Cert.ReferenceIdeal.Blocks.rB2 (after Cert.ReferenceIdeal.Blocks.rB1 V') (Proc.devRef .tc Cert.ReferenceIdeal.main_v126) := by
  rw [kRead_cut, StableHlo.after_append, kReadTail_read, rB2_read,
    kReadFront_gate, kReadFront_last, kReadFront_first, kReadFront_taps, kReadFront_power,
    rB1_gate, rB1_last, rB1_first, rB1_taps, rB1_power,
    gate_same _ _ _ (V' (Proc.devRef .tc Cert.ReferenceIdeal.main_arg3)) (V' (Proc.devRef .tc Cert.ReferenceIdeal.main_v38)) _ _ _ hke hrn hnum,
    hβ, hg, hprev, hs, hγ]

end Cert.Bridge

end
-- ==== Proof.Bridge.AddressWrite.lean ====
/- The write head's weighting, stage by stage as the read head's. -/
import proofs.«147285_j27152783245914_1_alg».proof.Proof.Gen.KernelIdeal.Launch
import proofs.«147285_j27152783245914_1_alg».proof.Proof.RefOps
import proofs.«147285_j27152783245914_1_alg».proof.Proof.Bridge.AddressStages
import proofs.«147285_j27152783245914_1_alg».proof.Proof.Bridge.Addressing
import Idealize.ShloMosaic.Lib.StableHlo.Run
import Idealize.ShloMosaic.Lib.Pipeline.Value

noncomputable section

namespace Cert.Bridge

open Idealize.ShloMosaic Idealize.ShloMosaic.TcCoe Idealize.ShloMosaic.StableHlo Idealize.SL.Sem Idealize.ShloMosaic.ValueIdx

section Kernel
variable {F : FTy → Type} [FloatOps F]
open Cert.KernelIdeal Cert.KernelIdeal.Gen

abbrev kWriteFront : List (HloOp τ sig (Elt F)) := (hostOps1_3 (F := F)).take 36
abbrev kWriteTail : List (HloOp τ sig (Elt F)) := (hostOps1_3 (F := F)).drop 36

theorem kWrite_cut : (hostOps1_3 : List (HloOp τ sig (Elt F))) = kWriteFront ++ kWriteTail :=
  (List.take_append_drop 36 _).symm

set_option maxHeartbeats 4000000 in
theorem kWriteFront_gate (V : Valuation τ sig (Elt F)) :
    after kWriteFront (after hostOps1_2 V) (Proc.devRef .tc main_v183)
      = gateOfCols (V (Proc.devRef .tc main_v97_0)) (V (Proc.devRef .tc main_v97_2)) (V (Proc.devRef .tc main_v96))
          (V (Proc.devRef .tc main_v92)) (V (Proc.devRef .tc main_v73)) (V (Proc.devRef .tc main_arg2)) := by
  rw [← StableHlo.after_append]
  simp only [kWriteFront, hostOps1_2, hostOps1_3, List.take_succ_cons, List.take_zero, List.cons_append, List.nil_append]
  after_results_simp
  rfl

set_option maxHeartbeats 4000000 in
theorem kWriteFront_last (V : Valuation τ sig (Elt F)) :
    after kWriteFront (after hostOps1_2 V) (Proc.devRef .tc main_v184)
      = lastEnd (gateOfCols (V (Proc.devRef .tc main_v97_0)) (V (Proc.devRef .tc main_v97_2)) (V (Proc.devRef .tc main_v96))
          (V (Proc.devRef .tc main_v92)) (V (Proc.devRef .tc main_v73)) (V (Proc.devRef .tc main_arg2))) := by
  rw [← StableHlo.after_append]
  simp only [kWriteFront, hostOps1_2, hostOps1_3, List.take_succ_cons, List.take_zero, List.cons_append, List.nil_append]
  after_results_simp
  rfl

set_option maxHeartbeats 4000000 in
theorem kWriteFront_first (V : Valuation τ sig (Elt F)) :
    after kWriteFront (after hostOps1_2 V) (Proc.devRef .tc main_v185)
      = firstEnd (gateOfCols (V (Proc.devRef .tc main_v97_0)) (V (Proc.devRef .tc main_v97_2)) (V (Proc.devRef .tc main_v96))
          (V (Proc.devRef .tc main_v92)) (V (Proc.devRef .tc main_v73)) (V (Proc.devRef .tc main_arg2))) := by
  rw [← StableHlo.after_append]
  simp only [kWriteFront, hostOps1_2, hostOps1_3, List.take_succ_cons, List.take_zero, List.cons_append, List.nil_append]
  after_results_simp
  rfl

set_option maxHeartbeats 4000000 in
theorem kWriteFront_taps (V : Valuation τ sig (Elt F)) :
    after kWriteFront (after hostOps1_2 V) (Proc.devRef .tc main_v85) = V (Proc.devRef .tc main_v85) := by
  rw [← StableHlo.after_append]
  simp only [kWriteFront, hostOps1_2, hostOps1_3, List.take_succ_cons, List.take_zero, List.cons_append, List.nil_append]
  after_results_simp

set_option maxHeartbeats 4000000 in
theorem kWriteFront_power (V : Valuation τ sig (Elt F)) :
    after kWriteFront (after hostOps1_2 V) (Proc.devRef .tc main_v89) = V (Proc.devRef .tc main_v89) := by
  rw [← StableHlo.after_append]
  simp only [kWriteFront, hostOps1_2, hostOps1_3, List.take_succ_cons, List.take_zero, List.cons_append, List.nil_append]
  after_results_simp

set_option maxHeartbeats 4000000 in
theorem kWriteTail_read (W : Valuation τ sig (Elt F)) :
    after kWriteTail W (Proc.devRef .tc main_v211)
      = shiftSharpen (W (Proc.devRef .tc main_v184)) (W (Proc.devRef .tc main_v183)) (W (Proc.devRef .tc main_v185))
          (W (Proc.devRef .tc main_v85)) (W (Proc.devRef .tc main_v89)) := by
  simp only [kWriteTail, hostOps1_3, List.drop_succ_cons, List.drop_zero]
  after_results_simp
  rfl

end Kernel

section Reference
variable {F : FTy → Type} [FloatOps F]
open Cert.ReferenceIdeal Cert.ReferenceIdeal.Gen Cert.ReferenceIdeal.Blocks

set_option maxHeartbeats 4000000 in
theorem rD1_gate (V' : Valuation τ sig (Elt F)) :
    after rD1 V' (Proc.devRef .tc main_v190)
      = gateOfMem (V' (Proc.devRef .tc main_arg3)) (V' (Proc.devRef .tc main_v130)) (V' (Proc.devRef .tc main_v155))
          (V' (Proc.devRef .tc main_v136)) (V' (Proc.devRef .tc main_arg2)) := by
  after_results_simp
  rfl

set_option maxHeartbeats 4000000 in
theorem rD1_last (V' : Valuation τ sig (Elt F)) :
    after rD1 V' (Proc.devRef .tc main_v191)
      = lastEnd (gateOfMem (V' (Proc.devRef .tc main_arg3)) (V' (Proc.devRef .tc main_v130)) (V' (Proc.devRef .tc main_v155))
          (V' (Proc.devRef .tc main_v136)) (V' (Proc.devRef .tc main_arg2))) := by
  after_results_simp
  rfl

set_option maxHeartbeats 4000000 in
theorem rD1_first (V' : Valuation τ sig (Elt F)) :
    after rD1 V' (Proc.devRef .tc main_v192)
      = firstEnd (gateOfMem (V' (Proc.devRef .tc main_arg3)) (V' (Proc.devRef .tc main_v130)) (V' (Proc.devRef .tc main_v155))
          (V' (Proc.devRef .tc main_v136)) (V' (Proc.devRef .tc main_arg2))) := by
  after_results_simp
  rfl

set_option maxHeartbeats 4000000 in
theorem rD1_taps (V' : Valuation τ sig (Elt F)) :
    after rD1 V' (Proc.devRef .tc main_v148) = V' (Proc.devRef .tc main_v148) := by
  after_results_simp

set_option maxHeartbeats 4000000 in
theorem rD1_power (V' : Valuation τ sig (Elt F)) :
    after rD1 V' (Proc.devRef .tc main_v152) = V' (Proc.devRef .tc main_v152) := by
  after_results_simp

set_option maxHeartbeats 4000000 in
theorem rD2_read (W' : Valuation τ sig (Elt F)) :
    (after rD2 W' (Proc.devRef .tc main_v218) : RowC F)
      = shiftSharpen (W' (Proc.devRef .tc main_v191)) (W' (Proc.devRef .tc main_v190)) (W' (Proc.devRef .tc main_v192))
          (W' (Proc.devRef .tc main_v148)) (W' (Proc.devRef .tc main_v152)) := by
  after_results_simp
  rfl

end Reference

theorem addressWrite_same
    (V : Valuation Cert.KernelIdeal.τ Cert.KernelIdeal.sig (Elt Ideal))
    (V' : Valuation Cert.ReferenceIdeal.τ Cert.ReferenceIdeal.sig (Elt Ideal))
    (hke : ∀ c : Fin 20, keyAt (V (Proc.devRef .tc Cert.KernelIdeal.main_v96)) c
        = keyAt (V' (Proc.devRef .tc Cert.ReferenceIdeal.main_v130)) c + Cert.Passes.eps)
    (hrn : ∀ i : Fin 1000000, colAt (V (Proc.devRef .tc Cert.KernelIdeal.main_v97_0)) i
        = Cert.Passes.rowNorm (memAt (V' (Proc.devRef .tc Cert.ReferenceIdeal.main_arg3))) i)
    (hnum : ∀ i : Fin 1000000, colAt (V (Proc.devRef .tc Cert.KernelIdeal.main_v97_2)) i
        = Cert.Passes.rowDot (memAt (V' (Proc.devRef .tc Cert.ReferenceIdeal.main_arg3)))
            (keyAt (V (Proc.devRef .tc Cert.KernelIdeal.main_v96))) i)
    (hβ : (V (Proc.devRef .tc Cert.KernelIdeal.main_v92) : ScalC Ideal) = V' (Proc.devRef .tc Cert.ReferenceIdeal.main_v155))
    (hg : (V (Proc.devRef .tc Cert.KernelIdeal.main_v73) : ScalC Ideal) = V' (Proc.devRef .tc Cert.ReferenceIdeal.main_v136))
    (hprev : (V (Proc.devRef .tc Cert.KernelIdeal.main_arg2) : RowC Ideal) = V' (Proc.devRef .tc Cert.ReferenceIdeal.main_arg2))
    (hs : (V (Proc.devRef .tc Cert.KernelIdeal.main_v85) : TapC Ideal) = V' (Proc.devRef .tc Cert.ReferenceIdeal.main_v148))
    (hγ : (V (Proc.devRef .tc Cert.KernelIdeal.main_v89) : ScalC Ideal) = V' (Proc.devRef .tc Cert.ReferenceIdeal.main_v152)) :
    (after Cert.KernelIdeal.Gen.hostOps1_3 (after Cert.KernelIdeal.Gen.hostOps1_2 V) (Proc.devRef .tc Cert.KernelIdeal.main_v211) : RowC Ideal)
      = after Cert.ReferenceIdeal.Blocks.rD2 (after Cert.ReferenceIdeal.Blocks.rD1 V') (Proc.devRef .tc Cert.ReferenceIdeal.main_v218) := by
  rw [kWrite_cut, StableHlo.after_append, kWriteTail_read, rD2_read,
    kWriteFront_gate, kWriteFront_last, kWriteFront_first, kWriteFront_taps, kWriteFront_power,
    rD1_gate, rD1_last, rD1_first, rD1_taps, rD1_power,
    gate_same _ _ _ (V' (Proc.devRef .tc Cert.ReferenceIdeal.main_arg3)) (V' (Proc.devRef .tc Cert.ReferenceIdeal.main_v130)) _ _ _ hke hrn hnum,
    hβ, hg, hprev, hs, hγ]

section Column
open Cert.KernelIdeal Cert.KernelIdeal.Gen

theorem cast_row_col_apply {α : Type} (h : S1x1000000.ShapeCasts S1000000x1) (x : S1x1000000.Idx → α) (i : Fin 1000000) (u : Fin 1) :
    shapeCast S1000000x1 x h (ix2 i u) = x (ix2 (0 : Fin 1) i) :=
  shapeCast_apply x h _ _ (by
    have hu : u.val = 0 := by omega
    rw [Shape.rowMajor_val_two, Shape.rowMajor_val_two]
    show 0 * 1000000 + i.val = i.val * 1 + u.val
    rw [hu]; omega)

set_option maxHeartbeats 4000000 in
theorem kWrite_col {F : FTy → Type} [FloatOps F] (V : Valuation τ sig (Elt F)) :
    after hostOps1_3 (after hostOps1_2 V) (Proc.devRef .tc main_v212)
      = shapeCast S1000000x1 (V (Proc.devRef .tc main_v154)) shapeCasts_S1x1000000_S1000000x1 := by
  rw [← StableHlo.after_append]
  simp only [hostOps1_2, hostOps1_3, List.cons_append, List.nil_append]
  after_results_simp
  rfl

end Column

theorem rwCol_read (V : Valuation Cert.KernelIdeal.τ Cert.KernelIdeal.sig (Elt Ideal)) (i : Fin 1000000) :
    colAt (after Cert.KernelIdeal.Gen.hostOps1_3 (after Cert.KernelIdeal.Gen.hostOps1_2 V) (Proc.devRef .tc Cert.KernelIdeal.main_v212)) i
      = rowAt (V (Proc.devRef .tc Cert.KernelIdeal.main_v154)) i := by
  rw [kWrite_col]
  exact cast_row_col_apply _ _ i (0 : Fin 1)

end Cert.Bridge

end
-- ==== Proof.Asm.Weights.lean ====
/- The two programs compute the same read and write weightings of the memory's rows. -/
import proofs.«147285_j27152783245914_1_alg».proof.Proof.Asm.Setup
import proofs.«147285_j27152783245914_1_alg».proof.Proof.KI.Kept
import proofs.«147285_j27152783245914_1_alg».proof.Proof.KI.AddrValue
import proofs.«147285_j27152783245914_1_alg».proof.Proof.Bridge.KeyShift
import proofs.«147285_j27152783245914_1_alg».proof.Proof.Bridge.RefFold
import proofs.«147285_j27152783245914_1_alg».proof.Proof.Bridge.Controller
import proofs.«147285_j27152783245914_1_alg».proof.Proof.Bridge.WriteHead
import proofs.«147285_j27152783245914_1_alg».proof.Proof.Bridge.AddressRead
import proofs.«147285_j27152783245914_1_alg».proof.Proof.Bridge.AddressWrite

noncomputable section

namespace Cert.Asm

open Idealize.ShloMosaic Idealize.ShloMosaic.TcCoe Idealize.SL.Sem Idealize.ShloMosaic.StableHlo Idealize.ShloMosaic.ValueIdx
open Cert.KernelIdeal.Hand Cert.Bridge

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

theorem agree0 (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (W0 m ρ c (Proc.devRef .tc Cert.KernelIdeal.main_arg0) : (⟨Cert.KernelIdeal.S1x14, .f32⟩ : BufTy).Contents (Elt Ideal))
      = refLaunch m' c (Proc.devRef .tc Cert.ReferenceIdeal.main_arg0) := h0.symm

theorem agree1 (c : Dev Cert.KernelIdeal.nD) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (W0 m ρ c (Proc.devRef .tc Cert.KernelIdeal.main_arg1) : (⟨Cert.KernelIdeal.S1x1000000, .f32⟩ : BufTy).Contents (Elt Ideal))
      = refLaunch m' c (Proc.devRef .tc Cert.ReferenceIdeal.main_arg1) := h1.symm

theorem agree2 (c : Dev Cert.KernelIdeal.nD) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (W0 m ρ c (Proc.devRef .tc Cert.KernelIdeal.main_arg2) : (⟨Cert.KernelIdeal.S1x1000000, .f32⟩ : BufTy).Contents (Elt Ideal))
      = refLaunch m' c (Proc.devRef .tc Cert.ReferenceIdeal.main_arg2) := h2.symm

theorem agree3 (c : Dev Cert.KernelIdeal.nD) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (W0 m ρ c (Proc.devRef .tc Cert.KernelIdeal.main_arg3) : (⟨Cert.KernelIdeal.S1000000x20, .f32⟩ : BufTy).Contents (Elt Ideal))
      = refLaunch m' c (Proc.devRef .tc Cert.ReferenceIdeal.main_arg3) := h3.symm

theorem agree5 (c : Dev Cert.KernelIdeal.nD) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (W0 m ρ c (Proc.devRef .tc Cert.KernelIdeal.main_arg5) : (⟨Cert.KernelIdeal.S48x14, .f32⟩ : BufTy).Contents (Elt Ideal))
      = refLaunch m' c (Proc.devRef .tc Cert.ReferenceIdeal.main_arg5) := h5.symm

theorem agree6 (c : Dev Cert.KernelIdeal.nD) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (W0 m ρ c (Proc.devRef .tc Cert.KernelIdeal.main_arg6) : (⟨Cert.KernelIdeal.S48, .f32⟩ : BufTy).Contents (Elt Ideal))
      = refLaunch m' c (Proc.devRef .tc Cert.ReferenceIdeal.main_arg6) := h6.symm

theorem agree7 (c : Dev Cert.KernelIdeal.nD) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (W0 m ρ c (Proc.devRef .tc Cert.KernelIdeal.main_arg7) : (⟨Cert.KernelIdeal.S72x48, .f32⟩ : BufTy).Contents (Elt Ideal))
      = refLaunch m' c (Proc.devRef .tc Cert.ReferenceIdeal.main_arg7) := h7.symm

theorem agree8 (c : Dev Cert.KernelIdeal.nD) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (W0 m ρ c (Proc.devRef .tc Cert.KernelIdeal.main_arg8) : (⟨Cert.KernelIdeal.S72, .f32⟩ : BufTy).Contents (Elt Ideal))
      = refLaunch m' c (Proc.devRef .tc Cert.ReferenceIdeal.main_arg8) := h8.symm

theorem agree9 (c : Dev Cert.KernelIdeal.nD) (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (W0 m ρ c (Proc.devRef .tc Cert.KernelIdeal.main_arg9) : (⟨Cert.KernelIdeal.S92x72, .f32⟩ : BufTy).Contents (Elt Ideal))
      = refLaunch m' c (Proc.devRef .tc Cert.ReferenceIdeal.main_arg9) := h9.symm

theorem agree10 (c : Dev Cert.KernelIdeal.nD) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W0 m ρ c (Proc.devRef .tc Cert.KernelIdeal.main_arg10) : (⟨Cert.KernelIdeal.S92, .f32⟩ : BufTy).Contents (Elt Ideal))
      = refLaunch m' c (Proc.devRef .tc Cert.ReferenceIdeal.main_arg10) := h10.symm

theorem agree11 (c : Dev Cert.KernelIdeal.nD) (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    (W0 m ρ c (Proc.devRef .tc Cert.KernelIdeal.main_arg11) : (⟨Cert.KernelIdeal.S3x72, .f32⟩ : BufTy).Contents (Elt Ideal))
      = refLaunch m' c (Proc.devRef .tc Cert.ReferenceIdeal.main_arg11) := h11.symm

theorem agree12 (c : Dev Cert.KernelIdeal.nD) (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (W0 m ρ c (Proc.devRef .tc Cert.KernelIdeal.main_arg12) : (⟨Cert.KernelIdeal.S3, .f32⟩ : BufTy).Contents (Elt Ideal))
      = refLaunch m' c (Proc.devRef .tc Cert.ReferenceIdeal.main_arg12) := h12.symm

theorem ctrl_v15 (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (W4 m ρ c (Proc.devRef .tc Cert.KernelIdeal.main_v15) : (⟨Cert.KernelIdeal.S1x3, .f32⟩ : BufTy).Contents (Elt Ideal))
      = RA (refLaunch m' c) (Proc.devRef .tc Cert.ReferenceIdeal.main_v15) :=
  controller_zeta (W0 m ρ c) (refLaunch m' c) (agree0 m ρ m' c h0) (agree5 m ρ m' c h5) (agree6 m ρ m' c h6) (agree7 m ρ m' c h7) (agree8 m ρ m' c h8) (agree11 m ρ m' c h11) (agree12 m ρ m' c h12)

theorem ctrl_v21 (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W4 m ρ c (Proc.devRef .tc Cert.KernelIdeal.main_v21) : (⟨Cert.KernelIdeal.S1x26, .f32⟩ : BufTy).Contents (Elt Ideal))
      = RA (refLaunch m' c) (Proc.devRef .tc Cert.ReferenceIdeal.main_v21) :=
  controller_wparams (W0 m ρ c) (refLaunch m' c) (agree0 m ρ m' c h0) (agree5 m ρ m' c h5) (agree6 m ρ m' c h6) (agree7 m ρ m' c h7) (agree8 m ρ m' c h8) (agree9 m ρ m' c h9) (agree10 m ρ m' c h10)

theorem ctrl_v30 (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W4 m ρ c (Proc.devRef .tc Cert.KernelIdeal.main_v30) : (⟨Cert.KernelIdeal.S1x20, .f32⟩ : BufTy).Contents (Elt Ideal))
      = RA (refLaunch m' c) (Proc.devRef .tc Cert.ReferenceIdeal.main_v30) :=
  controller_erase (W0 m ρ c) (refLaunch m' c) (agree0 m ρ m' c h0) (agree5 m ρ m' c h5) (agree6 m ρ m' c h6) (agree7 m ρ m' c h7) (agree8 m ρ m' c h8) (agree9 m ρ m' c h9) (agree10 m ρ m' c h10)

theorem ctrl_v34 (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W4 m ρ c (Proc.devRef .tc Cert.KernelIdeal.main_v34) : (⟨Cert.KernelIdeal.S1x20, .f32⟩ : BufTy).Contents (Elt Ideal))
      = RA (refLaunch m' c) (Proc.devRef .tc Cert.ReferenceIdeal.main_v34) :=
  controller_add (W0 m ρ c) (refLaunch m' c) (agree0 m ρ m' c h0) (agree5 m ρ m' c h5) (agree6 m ρ m' c h6) (agree7 m ρ m' c h7) (agree8 m ρ m' c h8) (agree9 m ρ m' c h9) (agree10 m ρ m' c h10)

theorem ctrl_v38 (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W4 m ρ c (Proc.devRef .tc Cert.KernelIdeal.main_v38) : (⟨Cert.KernelIdeal.S1x20, .f32⟩ : BufTy).Contents (Elt Ideal))
      = RA (refLaunch m' c) (Proc.devRef .tc Cert.ReferenceIdeal.main_v38) :=
  controller_kr (W0 m ρ c) (refLaunch m' c) (agree0 m ρ m' c h0) (agree5 m ρ m' c h5) (agree6 m ρ m' c h6) (agree7 m ρ m' c h7) (agree8 m ρ m' c h8) (agree9 m ρ m' c h9) (agree10 m ρ m' c h10)

theorem ctrl_v44 (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W4 m ρ c (Proc.devRef .tc Cert.KernelIdeal.main_v44) : (⟨Cert.KernelIdeal.S_, .f32⟩ : BufTy).Contents (Elt Ideal))
      = RA (refLaunch m' c) (Proc.devRef .tc Cert.ReferenceIdeal.main_v44) :=
  controller_gr (W0 m ρ c) (refLaunch m' c) (agree0 m ρ m' c h0) (agree5 m ρ m' c h5) (agree6 m ρ m' c h6) (agree7 m ρ m' c h7) (agree8 m ρ m' c h8) (agree9 m ρ m' c h9) (agree10 m ρ m' c h10)

theorem ctrl_v56 (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W4 m ρ c (Proc.devRef .tc Cert.KernelIdeal.main_v56) : (⟨Cert.KernelIdeal.S3, .f32⟩ : BufTy).Contents (Elt Ideal))
      = RA (refLaunch m' c) (Proc.devRef .tc Cert.ReferenceIdeal.main_v56) :=
  controller_sr (W0 m ρ c) (refLaunch m' c) (agree0 m ρ m' c h0) (agree5 m ρ m' c h5) (agree6 m ρ m' c h6) (agree7 m ρ m' c h7) (agree8 m ρ m' c h8) (agree9 m ρ m' c h9) (agree10 m ρ m' c h10)

theorem ctrl_v60 (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W4 m ρ c (Proc.devRef .tc Cert.KernelIdeal.main_v60) : (⟨Cert.KernelIdeal.S_, .f32⟩ : BufTy).Contents (Elt Ideal))
      = RA (refLaunch m' c) (Proc.devRef .tc Cert.ReferenceIdeal.main_v60) :=
  controller_gammar (W0 m ρ c) (refLaunch m' c) (agree0 m ρ m' c h0) (agree5 m ρ m' c h5) (agree6 m ρ m' c h6) (agree7 m ρ m' c h7) (agree8 m ρ m' c h8) (agree9 m ρ m' c h9) (agree10 m ρ m' c h10)

theorem ctrl_v63 (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W4 m ρ c (Proc.devRef .tc Cert.KernelIdeal.main_v63) : (⟨Cert.KernelIdeal.S_, .f32⟩ : BufTy).Contents (Elt Ideal))
      = RA (refLaunch m' c) (Proc.devRef .tc Cert.ReferenceIdeal.main_v63) :=
  controller_betar (W0 m ρ c) (refLaunch m' c) (agree0 m ρ m' c h0) (agree5 m ρ m' c h5) (agree6 m ρ m' c h6) (agree7 m ρ m' c h7) (agree8 m ρ m' c h8) (agree9 m ρ m' c h9) (agree10 m ρ m' c h10)

theorem wparams_same (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W4 m ρ c (Proc.devRef .tc Cert.KernelIdeal.main_v21) : (⟨Cert.KernelIdeal.S1x26, .f32⟩ : BufTy).Contents (Elt Ideal))
      = RB (refLaunch m' c) (Proc.devRef .tc Cert.ReferenceIdeal.main_v21) :=
  (ctrl_v21 m ρ m' c h0 h5 h6 h7 h8 h9 h10).trans (kept_v21_B (refLaunch m' c)).symm

theorem wh_k (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W8 m ρ c (Proc.devRef .tc Cert.KernelIdeal.main_v67) : (⟨Cert.KernelIdeal.S1x20, .f32⟩ : BufTy).Contents (Elt Ideal))
      = RC (refLaunch m' c) (Proc.devRef .tc Cert.ReferenceIdeal.main_v130) :=
  writeHead_kw (W4 m ρ c) (RB (refLaunch m' c)) (wparams_same m ρ m' c h0 h5 h6 h7 h8 h9 h10)

theorem wh_g (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W8 m ρ c (Proc.devRef .tc Cert.KernelIdeal.main_v73) : (⟨Cert.KernelIdeal.S_, .f32⟩ : BufTy).Contents (Elt Ideal))
      = RC (refLaunch m' c) (Proc.devRef .tc Cert.ReferenceIdeal.main_v136) :=
  writeHead_gw (W4 m ρ c) (RB (refLaunch m' c)) (wparams_same m ρ m' c h0 h5 h6 h7 h8 h9 h10)

theorem wh_s (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W8 m ρ c (Proc.devRef .tc Cert.KernelIdeal.main_v85) : (⟨Cert.KernelIdeal.S3, .f32⟩ : BufTy).Contents (Elt Ideal))
      = RC (refLaunch m' c) (Proc.devRef .tc Cert.ReferenceIdeal.main_v148) :=
  writeHead_sw (W4 m ρ c) (RB (refLaunch m' c)) (wparams_same m ρ m' c h0 h5 h6 h7 h8 h9 h10)

theorem wh_gamma (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W8 m ρ c (Proc.devRef .tc Cert.KernelIdeal.main_v89) : (⟨Cert.KernelIdeal.S_, .f32⟩ : BufTy).Contents (Elt Ideal))
      = RC (refLaunch m' c) (Proc.devRef .tc Cert.ReferenceIdeal.main_v152) :=
  writeHead_gammaw (W4 m ρ c) (RB (refLaunch m' c)) (wparams_same m ρ m' c h0 h5 h6 h7 h8 h9 h10)

theorem wh_beta (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W8 m ρ c (Proc.devRef .tc Cert.KernelIdeal.main_v92) : (⟨Cert.KernelIdeal.S_, .f32⟩ : BufTy).Contents (Elt Ideal))
      = RC (refLaunch m' c) (Proc.devRef .tc Cert.ReferenceIdeal.main_v155) :=
  writeHead_betaw (W4 m ρ c) (RB (refLaunch m' c)) (wparams_same m ρ m' c h0 h5 h6 h7 h8 h9 h10)

theorem mem_entry_RA (c : Dev Cert.KernelIdeal.nD) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (V9 m ρ c Cert.KernelIdeal.main_arg3 : MemC Ideal) = RA (refLaunch m' c) (Proc.devRef .tc Cert.ReferenceIdeal.main_arg3) :=
  (keep_arg3_0_9 m ρ c).trans ((agree3 m ρ m' c h3).trans (arg_RA (refLaunch m' c) Cert.ReferenceIdeal.main_arg3 (by decide)).symm)

theorem mem_entry_RC (c : Dev Cert.KernelIdeal.nD) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (V9 m ρ c Cert.KernelIdeal.main_arg3 : MemC Ideal) = RC (refLaunch m' c) (Proc.devRef .tc Cert.ReferenceIdeal.main_arg3) :=
  (keep_arg3_0_9 m ρ c).trans ((agree3 m ρ m' c h3).trans (arg_RC (refLaunch m' c) Cert.ReferenceIdeal.main_arg3 (by decide)).symm)

theorem norm_col (c : Dev Cert.KernelIdeal.nD) (M : MemC Ideal) (hM : (V9 m ρ c Cert.KernelIdeal.main_arg3 : MemC Ideal) = M) (i : Fin 1000000) :
    colAt (W10 m ρ D0 c (Proc.devRef .tc Cert.KernelIdeal.main_v97_0)) i = Cert.Passes.rowNorm (memAt M) i :=
  (congrFun (W10_arr m ρ D0 c 3) (ix2 i (0 : Fin 1))).trans
    ((rowNorm_value (V9 m ρ) c i).trans (congrArg (fun M : MemC Ideal => Cert.Passes.rowNorm (memAt M) i) hM))

theorem dotR_col (c : Dev Cert.KernelIdeal.nD) (M : MemC Ideal) (hM : (V9 m ρ c Cert.KernelIdeal.main_arg3 : MemC Ideal) = M)
    (k : KeyC Ideal) (hk : (W9 m ρ c (Proc.devRef .tc Cert.KernelIdeal.main_v94) : KeyC Ideal) = k) (i : Fin 1000000) :
    colAt (W10 m ρ D0 c (Proc.devRef .tc Cert.KernelIdeal.main_v97_1)) i = Cert.Passes.rowDot (memAt M) (keyAt k) i :=
  (congrFun (W10_arr m ρ D0 c 4) (ix2 i (0 : Fin 1))).trans
    ((rowDotR_value (V9 m ρ) c i).trans
      (congrArg₂ (fun (M : MemC Ideal) (k : KeyC Ideal) => Cert.Passes.rowDot (memAt M) (keyAt k) i) hM hk))

theorem dotW_col (c : Dev Cert.KernelIdeal.nD) (M : MemC Ideal) (hM : (V9 m ρ c Cert.KernelIdeal.main_arg3 : MemC Ideal) = M)
    (k : KeyC Ideal) (hk : (W9 m ρ c (Proc.devRef .tc Cert.KernelIdeal.main_v96) : KeyC Ideal) = k) (i : Fin 1000000) :
    colAt (W10 m ρ D0 c (Proc.devRef .tc Cert.KernelIdeal.main_v97_2)) i = Cert.Passes.rowDot (memAt M) (keyAt k) i :=
  (congrFun (W10_arr m ρ D0 c 5) (ix2 i (0 : Fin 1))).trans
    ((rowDotW_value (V9 m ρ) c i).trans
      (congrArg₂ (fun (M : MemC Ideal) (k : KeyC Ideal) => Cert.Passes.rowDot (memAt M) (keyAt k) i) hM hk))

theorem stage_rw_of (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (k38 : (W4 m ρ c (Proc.devRef .tc Cert.KernelIdeal.main_v38) : (⟨Cert.KernelIdeal.S1x20, .f32⟩ : BufTy).Contents (Elt Ideal)) = RA (refLaunch m' c) (Proc.devRef .tc Cert.ReferenceIdeal.main_v38))
    (k44 : (W4 m ρ c (Proc.devRef .tc Cert.KernelIdeal.main_v44) : (⟨Cert.KernelIdeal.S_, .f32⟩ : BufTy).Contents (Elt Ideal)) = RA (refLaunch m' c) (Proc.devRef .tc Cert.ReferenceIdeal.main_v44))
    (k56 : (W4 m ρ c (Proc.devRef .tc Cert.KernelIdeal.main_v56) : (⟨Cert.KernelIdeal.S3, .f32⟩ : BufTy).Contents (Elt Ideal)) = RA (refLaunch m' c) (Proc.devRef .tc Cert.ReferenceIdeal.main_v56))
    (k60 : (W4 m ρ c (Proc.devRef .tc Cert.KernelIdeal.main_v60) : (⟨Cert.KernelIdeal.S_, .f32⟩ : BufTy).Contents (Elt Ideal)) = RA (refLaunch m' c) (Proc.devRef .tc Cert.ReferenceIdeal.main_v60))
    (k63 : (W4 m ρ c (Proc.devRef .tc Cert.KernelIdeal.main_v63) : (⟨Cert.KernelIdeal.S_, .f32⟩ : BufTy).Contents (Elt Ideal)) = RA (refLaunch m' c) (Proc.devRef .tc Cert.ReferenceIdeal.main_v63)) :
    (W12 m ρ D0 c (Proc.devRef .tc Cert.KernelIdeal.main_v154) : RowC Ideal) = RB (refLaunch m' c) (Proc.devRef .tc Cert.ReferenceIdeal.main_v126) :=
  addressRead_same (W10 m ρ D0 c) (RA (refLaunch m' c))
    (fun j => (congrFun (keep_v94_9_10 m ρ D0 c) (ix2 (0 : Fin 1) j)).trans
      ((keyR_shift (W8 m ρ c) j).trans
        (congrArg (fun k : KeyC Ideal => keyAt k j + Cert.Passes.eps) ((keep_v38_4_8 m ρ c).trans k38))))
    (norm_col m ρ c _ (mem_entry_RA m ρ m' c h3))
    (dotR_col m ρ c _ (mem_entry_RA m ρ m' c h3) _ (keep_v94_9_10 m ρ D0 c).symm)
    ((keep_v63_4_10 m ρ D0 c).trans k63)
    ((keep_v44_4_10 m ρ D0 c).trans k44)
    ((keep_arg1_0_10 m ρ D0 c).trans ((agree1 m ρ m' c h1).trans (arg_RA (refLaunch m' c) Cert.ReferenceIdeal.main_arg1 (by decide)).symm))
    ((keep_v56_4_10 m ρ D0 c).trans k56)
    ((keep_v60_4_10 m ρ D0 c).trans k60)

theorem stage_rw (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W12 m ρ D0 c (Proc.devRef .tc Cert.KernelIdeal.main_v154) : RowC Ideal) = RB (refLaunch m' c) (Proc.devRef .tc Cert.ReferenceIdeal.main_v126) :=
  stage_rw_of m ρ m' c h1 h3 (ctrl_v38 m ρ m' c h0 h5 h6 h7 h8 h9 h10) (ctrl_v44 m ρ m' c h0 h5 h6 h7 h8 h9 h10) (ctrl_v56 m ρ m' c h0 h5 h6 h7 h8 h9 h10)
    (ctrl_v60 m ρ m' c h0 h5 h6 h7 h8 h9 h10) (ctrl_v63 m ρ m' c h0 h5 h6 h7 h8 h9 h10)

theorem stage_ww_of (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (k67 : (W8 m ρ c (Proc.devRef .tc Cert.KernelIdeal.main_v67) : (⟨Cert.KernelIdeal.S1x20, .f32⟩ : BufTy).Contents (Elt Ideal)) = RC (refLaunch m' c) (Proc.devRef .tc Cert.ReferenceIdeal.main_v130))
    (k73 : (W8 m ρ c (Proc.devRef .tc Cert.KernelIdeal.main_v73) : (⟨Cert.KernelIdeal.S_, .f32⟩ : BufTy).Contents (Elt Ideal)) = RC (refLaunch m' c) (Proc.devRef .tc Cert.ReferenceIdeal.main_v136))
    (k85 : (W8 m ρ c (Proc.devRef .tc Cert.KernelIdeal.main_v85) : (⟨Cert.KernelIdeal.S3, .f32⟩ : BufTy).Contents (Elt Ideal)) = RC (refLaunch m' c) (Proc.devRef .tc Cert.ReferenceIdeal.main_v148))
    (k89 : (W8 m ρ c (Proc.devRef .tc Cert.KernelIdeal.main_v89) : (⟨Cert.KernelIdeal.S_, .f32⟩ : BufTy).Contents (Elt Ideal)) = RC (refLaunch m' c) (Proc.devRef .tc Cert.ReferenceIdeal.main_v152))
    (k92 : (W8 m ρ c (Proc.devRef .tc Cert.KernelIdeal.main_v92) : (⟨Cert.KernelIdeal.S_, .f32⟩ : BufTy).Contents (Elt Ideal)) = RC (refLaunch m' c) (Proc.devRef .tc Cert.ReferenceIdeal.main_v155)) :
    (W14 m ρ D0 c (Proc.devRef .tc Cert.KernelIdeal.main_v211) : RowC Ideal) = RD (refLaunch m' c) (Proc.devRef .tc Cert.ReferenceIdeal.main_v218) :=
  addressWrite_same (W12 m ρ D0 c) (RC (refLaunch m' c))
    (fun j => (congrFun (keep_v96_9_12 m ρ D0 c) (ix2 (0 : Fin 1) j)).trans
      ((keyW_shift (W8 m ρ c) j).trans
        (congrArg (fun k : KeyC Ideal => keyAt k j + Cert.Passes.eps) k67)))
    (fun i => (congrFun (keep_v97_0_10_12 m ρ D0 c) (ix2 i (0 : Fin 1))).trans (norm_col m ρ c _ (mem_entry_RC m ρ m' c h3) i))
    (fun i => (congrFun (keep_v97_2_10_12 m ρ D0 c) (ix2 i (0 : Fin 1))).trans
      (dotW_col m ρ c _ (mem_entry_RC m ρ m' c h3) _ (keep_v96_9_12 m ρ D0 c).symm i))
    ((keep_v92_8_12 m ρ D0 c).trans k92)
    ((keep_v73_8_12 m ρ D0 c).trans k73)
    ((keep_arg2_0_12 m ρ D0 c).trans ((agree2 m ρ m' c h2).trans (arg_RC (refLaunch m' c) Cert.ReferenceIdeal.main_arg2 (by decide)).symm))
    ((keep_v85_8_12 m ρ D0 c).trans k85)
    ((keep_v89_8_12 m ρ D0 c).trans k89)

theorem stage_ww (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W14 m ρ D0 c (Proc.devRef .tc Cert.KernelIdeal.main_v211) : RowC Ideal) = RD (refLaunch m' c) (Proc.devRef .tc Cert.ReferenceIdeal.main_v218) :=
  stage_ww_of m ρ m' c h2 h3 (wh_k m ρ m' c h0 h5 h6 h7 h8 h9 h10) (wh_g m ρ m' c h0 h5 h6 h7 h8 h9 h10) (wh_s m ρ m' c h0 h5 h6 h7 h8 h9 h10)
    (wh_gamma m ρ m' c h0 h5 h6 h7 h8 h9 h10) (wh_beta m ρ m' c h0 h5 h6 h7 h8 h9 h10)

end Cert.Asm

end
-- ==== Proof.KI.ReadValue.lean ====
/- The value of the second pass over the extended reals: the weighted sum of the memory's rows. -/
import proofs.«147285_j27152783245914_1_alg».proof.Proof.KI.ReadBody
import proofs.«147285_j27152783245914_1_alg».proof.Proof.Passes
import Idealize.ShloMosaic.Lib.ValueLayout
import Idealize.ShloMosaic.PureOps.Ideal.Laws
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
theorem broadcastTo_a1_ab_apply1 {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem pay2_apply1 (x0 : FVec Ideal S5000x20 .f32) (x1 : FVec Ideal S5000x1 .f32) (p : FVec Ideal S1x20 .f32) (j : Fin 20) :
    k1_pay2 (F := Ideal) x0 x1 p (ix2 (0 : Fin 1) j) = p (ix2 (0 : Fin 1) j) + ∑ r : Fin 5000, x0 (ix2 r j) * x1 (ix2 r (0 : Fin 1)) := by
  unfold k1_pay2
  simp only [shapeCast_self]
  rw [addf_apply, shapeCast_a_1a_apply]
  congr 1
  refine (Ideal.multiReduction_add_single _ _ reduces_S5000x20_S20 _ _ (ix1 j)).trans ?_
  show (∑ r : Fin 5000, mulf x0 (broadcastTo S5000x20 x1 broadcasts_S5000x1_S5000x20) (reduces_S5000x20_S20.lift (ix1 j) r)) = _
  refine Finset.sum_congr rfl fun r _ => ?_
  rw [show reduces_S5000x20_S20.lift (ix1 j) r = ix2 r j from funext fun a => Fin.ext (match a with | ⟨0, _⟩ => rfl | ⟨1, _⟩ => rfl)]
  rw [mulf_apply, broadcastTo_a1_ab_apply1]

theorem pay1_apply1 (i : S1x20.Idx) : k1_pay1 (F := Ideal) i = 0 := by
  show Ideal.ofBits .f32 0x00000000#32 = 0
  exact Ideal.ofBits_zero_f32

theorem sum_tiles1 (g : ℕ → EReal) :
    ∑ s ∈ Finset.range 200, ∑ r : Fin 5000, g (r.val + 5000 * s) = ∑ i : Fin 1000000, g i.val := by
  have e := Equiv.sum_comp (finProdFinEquiv (m := 200) (n := 5000)) (fun i : Fin (200 * 5000) => g i.val)
  rw [Fintype.sum_prod_type] at e
  simp only [finProdFinEquiv_apply_val] at e
  rw [← Fin.sum_univ_eq_sum_range (fun s => ∑ r : Fin 5000, g (r.val + 5000 * s)) 200]
  exact e

section ReadHeadValue

variable (V : (c : Dev nD) → (b : Ref sig .tc) → Buf (Elt Ideal) ((c : Thread nD τ).loc b))

abbrev memAt1 (c : Dev nD) (i : Fin 1000000) (j : Fin 20) : EReal := V c main_arg3 (ix2 i j)
abbrev wAt1 (c : Dev nD) (i : Fin 1000000) : EReal := V c main_v212 (ix2 i (0 : Fin 1))

def rowProd1 (c : Dev nD) (j : Fin 20) (n : ℕ) : EReal :=
  if h : n < 1000000 then memAt1 V c ⟨n, h⟩ j * wAt1 V c ⟨n, h⟩ else 0

abbrev memTile1 (c : Dev nD) (t : Fin cfg1.N) : FVec Ideal S5000x20 .f32 := iblk1 V c 0 t
abbrev wTile1 (c : Dev nD) (t : Fin cfg1.N) : FVec Ideal S5000x1 .f32 := iblk1 V c 1 t

theorem index1 : ∀ t : Fin cfg1.N, (win1_0.index t 0 = t.val ∧ win1_0.index t 1 = 0) ∧ (win1_1.index t 0 = t.val ∧ win1_1.index t 1 = 0) :=
  (by decide +kernel : ∀ t : Fin grid1.N, (win1_0.index t 0 = t.val ∧ win1_0.index t 1 = 0) ∧ (win1_1.index t 0 = t.val ∧ win1_1.index t 1 = 0))

theorem iblk1_0_apply (c : Dev nD) (t : Fin cfg1.N) (r : Fin 5000) (j : Fin 20) (h : r.val + 5000 * t.val < 1000000) :
    memTile1 V c t (ix2 r j) = memAt1 V c ⟨r.val + 5000 * t.val, h⟩ j := by
  have hi := (index1 t).1
  unfold memTile1 memAt1 iblk1
  rw [View.read_apply]
  show V c main_arg3 _ = V c main_arg3 _
  congr 1
  funext a
  apply Fin.ext
  match a with
  | ⟨0, _⟩ => show win1_0.index t 0 * 5000 + 1 * r.val = r.val + 5000 * t.val; rw [hi.1]; omega
  | ⟨1, _⟩ => show win1_0.index t 1 * 20 + 1 * j.val = j.val; rw [hi.2]; omega

theorem iblk1_1_apply (c : Dev nD) (t : Fin cfg1.N) (r : Fin 5000) (h : r.val + 5000 * t.val < 1000000) :
    wTile1 V c t (ix2 r (0 : Fin 1)) = wAt1 V c ⟨r.val + 5000 * t.val, h⟩ := by
  have hi := (index1 t).2
  unfold wTile1 wAt1 iblk1
  rw [View.read_apply]
  show V c main_v212 _ = V c main_v212 _
  congr 1
  funext a
  apply Fin.ext
  match a with
  | ⟨0, _⟩ => show win1_1.index t 0 * 5000 + 1 * r.val = r.val + 5000 * t.val; rw [hi.1]; omega
  | ⟨1, _⟩ => show win1_1.index t 1 * 1 + 1 * (0 : Fin 1).val = (0 : Fin 1).val; rw [hi.2]; rfl

theorem tile1_apply (c : Dev nD) (t : Fin cfg1.N) (j : Fin 20) :
    (∑ r : Fin 5000, memTile1 V c t (ix2 r j) * wTile1 V c t (ix2 r (0 : Fin 1)))
      = ∑ r : Fin 5000, rowProd1 V c j (r.val + 5000 * t.val) := by
  have hN : t.val < 200 := lt_of_lt_of_eq t.isLt (show cfg1.N = 200 from N_1)
  refine Finset.sum_congr rfl fun r _ => ?_
  have h : r.val + 5000 * t.val < 1000000 := by have := r.isLt; omega
  rw [iblk1_0_apply V c t r j h, iblk1_1_apply V c t r h]
  unfold rowProd1
  rw [dif_pos h]

theorem acc1_apply (c : Dev nD) (j : Fin 20) : ∀ (n : ℕ) (h : n < cfg1.N),
    acc1 V c n h (ix2 (0 : Fin 1) j) = ∑ s ∈ Finset.range (n + 1), ∑ r : Fin 5000, rowProd1 V c j (r.val + 5000 * s)
  | 0, h => by
    show k1_pay2 (F := Ideal) (memTile1 V c ⟨0, h⟩) (wTile1 V c ⟨0, h⟩) (k1_pay1 (F := Ideal)) (ix2 (0 : Fin 1) j) = _
    rw [pay2_apply1, pay1_apply1, zero_add, tile1_apply V c ⟨0, h⟩ j, Finset.sum_range_one]
  | n + 1, h => by
    show k1_pay2 (F := Ideal) (memTile1 V c ⟨n + 1, h⟩) (wTile1 V c ⟨n + 1, h⟩) (acc1 V c n (Nat.lt_of_succ_lt h)) (ix2 (0 : Fin 1) j) = _
    rw [pay2_apply1, acc1_apply c j n (Nat.lt_of_succ_lt h), tile1_apply V c ⟨n + 1, h⟩ j, Finset.sum_range_succ _ (n + 1)]

theorem last1 : 199 < cfg1.N := by rw [show cfg1.N = 200 from N_1]; decide

theorem flushed1_eq (c : Dev nD) (t : Fin cfg1.N) (hf : (cfg1.win 2).flush t = true) :
    (dat1 V c).flushed 2 t = ((cfg1.win 2).blk t).view.read (Elt Ideal) (acc1 V c 199 last1 : Buf (Elt Ideal) ((c : Thread nD τ).loc main_v213)) := by
  have hN : cfg1.N = 200 := N_1
  have h3 : t.val = 199 := by have := (flush1_2 t).mp hf; have := t.isLt; omega
  obtain rfl : t = ⟨199, last1⟩ := Fin.ext h3
  show (cfg1.win 2).cut (grid1.coords ⟨199, last1⟩) ((dat1 V c).after 2 ⟨199, last1⟩) = _
  rw [after1_2]
  have hz' : (fun a => win1_2.index ⟨199, last1⟩ a * main_v213.ty.shape.size a) = fun _ => 0 := funext fun a => by fin_cases a <;> decide +kernel
  exact (Memref.read_access_unit_zero (Elt Ideal) main_v213 hz' (fun a => by rw [congrFun hz' a]; simp) _).symm

theorem final1 (c : Dev nD) : (dat1 V c).arrAt 2 cfg1.N = (acc1 V c 199 last1 : Buf (Elt Ideal) ((c : Thread nD τ).loc main_v213)) :=
  (dat1 V c).arrAt_eq_of_cover 2 _ (flushed1_eq V c) fun i =>
    ⟨⟨199, last1⟩, (flush1_2 ⟨199, last1⟩).mpr rfl, by
      show i ∈ ((View.whole main_v213).slice (win1_2.rect ⟨199, last1⟩)).set
      rw [View.set_slice_whole, Rect.mem_set_unit]
      intro a
      have h0 : (i 0 : Nat) < 1 := (i 0).isLt
      have h1 : (i 1 : Nat) < 20 := (i 1).isLt
      match a with
      | ⟨0, _⟩ => show win1_2.index ⟨199, last1⟩ 0 * win1_2.size 0 ≤ (i 0 : Nat) ∧ (i 0 : Nat) < win1_2.index ⟨199, last1⟩ 0 * win1_2.size 0 + win1_2.xsize (grid1.coords ⟨199, last1⟩) 0
                  rw [show win1_2.index ⟨199, last1⟩ 0 * win1_2.size 0 = 0 from by decide +kernel, show win1_2.xsize (grid1.coords ⟨199, last1⟩) 0 = 1 from by decide +kernel]; omega
      | ⟨1, _⟩ => show win1_2.index ⟨199, last1⟩ 1 * win1_2.size 1 ≤ (i 1 : Nat) ∧ (i 1 : Nat) < win1_2.index ⟨199, last1⟩ 1 * win1_2.size 1 + win1_2.xsize (grid1.coords ⟨199, last1⟩) 1
                  rw [show win1_2.index ⟨199, last1⟩ 1 * win1_2.size 1 = 0 from by decide +kernel, show win1_2.xsize (grid1.coords ⟨199, last1⟩) 1 = 20 from by decide +kernel]; omega⟩

theorem weightedSum_value (c : Dev nD) (j : Fin 20) : (dat1 V c).arrAt 2 cfg1.N (ValueIdx.ix2 0 j) = Cert.Passes.weightedSum (fun i j => V c main_arg3 (ValueIdx.ix2 i j)) (fun i => V c main_v212 (ValueIdx.ix2 i 0)) j := by
  rw [final1 V c]
  refine (acc1_apply V c j 199 last1).trans ?_
  refine (sum_tiles1 (rowProd1 V c j)).trans ?_
  unfold Cert.Passes.weightedSum
  refine Finset.sum_congr rfl fun i _ => ?_
  unfold rowProd1
  rw [dif_pos i.isLt]

end ReadHeadValue

end Cert.KernelIdeal.Hand

end
-- ==== Proof.KI.UpdValue.lean ====
/- The value of the update over the extended reals, entry by entry. -/
import proofs.«147285_j27152783245914_1_alg».proof.Proof.KI.UpdBody
import proofs.«147285_j27152783245914_1_alg».proof.Proof.Passes
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem zeroOff2 : (![0, 0] : Fin 2 → Nat) = fun _ => 0 := funext fun a => by fin_cases a <;> rfl

theorem spreadCol2 {α : Type} (v : S5000x1.Idx → α) (r : Fin 5000) (q : Fin 20) :
    broadcastTo S5000x20 v broadcasts_S5000x1_S5000x20 (ix2 r q) = v (ix2 r 0) :=
  broadcastTo_apply v broadcasts_S5000x1_S5000x20 (ix2 r q) (ix2 r 0) fun a => by
    match a with
    | ⟨0, _⟩ => rfl
    | ⟨1, _⟩ => rfl

theorem spreadRow2 {α : Type} (v : S1x20.Idx → α) (r : Fin 5000) (q : Fin 20) :
    broadcastTo S5000x20 v broadcasts_S1x20_S5000x20 (ix2 r q) = v (ix2 0 q) :=
  broadcastTo_apply v broadcasts_S1x20_S5000x20 (ix2 r q) (ix2 0 q) fun a => by
    match a with
    | ⟨0, _⟩ => rfl
    | ⟨1, _⟩ => rfl

theorem payApply2 (x0 : S5000x20.Idx → EReal) (x1 : S5000x1.Idx → EReal) (x2 x3 : S1x20.Idx → EReal) (r : Fin 5000) (q : Fin 20) :
    k2_pay1 (F := Ideal) x0 x1 x2 x3 (ix2 r q)
      = x0 (ix2 r q) * (Cert.Passes.one - x1 (ix2 r 0) * x2 (ix2 0 q)) + x1 (ix2 r 0) * x3 (ix2 0 q) := by
  unfold k2_pay1
  simp only [shapeCast_self]
  show x0 (ix2 r q) * (Cert.Passes.one - broadcastTo S5000x20 x1 broadcasts_S5000x1_S5000x20 (ix2 r q) * broadcastTo S5000x20 x2 broadcasts_S1x20_S5000x20 (ix2 r q))
      + broadcastTo S5000x20 x1 broadcasts_S5000x1_S5000x20 (ix2 r q) * broadcastTo S5000x20 x3 broadcasts_S1x20_S5000x20 (ix2 r q) = _
  rw [spreadCol2, spreadRow2, spreadRow2]

section
variable (V : (c : Dev nD) → (b : Ref sig .tc) → Buf (Elt Ideal) ((c : Thread nD τ).loc b))

abbrev memArr2 (c : Dev nD) : S1000000x20.Idx → EReal := V c main_arg3
abbrev wgtArr2 (c : Dev nD) : S1000000x1.Idx → EReal := V c main_v312
abbrev eraseArr2 (c : Dev nD) : S1x20.Idx → EReal := V c main_v30
abbrev addArr2 (c : Dev nD) : S1x20.Idx → EReal := V c main_v311

def updated2 (c : Dev nD) : S1000000x20.Idx → EReal := fun i =>
  memArr2 V c (ix2 (i 0) (i 1)) * (Cert.Passes.one - wgtArr2 V c (ix2 (i 0) 0) * eraseArr2 V c (ix2 0 (i 1)))
    + wgtArr2 V c (ix2 (i 0) 0) * addArr2 V c (ix2 0 (i 1))

theorem idxFacts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem memBlk2 (c : Dev nD) (t : Fin cfg2.N) (r : Fin 5000) (q : Fin 20) (k : Fin 1000000) (hk : k.val = 5000 * t.val + r.val) :
    (iblk2 V c 0 t : S5000x20.Idx → EReal) (ix2 r q) = memArr2 V c (ix2 k q) := by
  obtain ⟨e0, e1, -⟩ := idxFacts2 t
  unfold iblk2
  rw [View.read_apply]
  show V c main_arg3 _ = V c main_arg3 _
  congr 1
  funext a
  apply Fin.ext
  match a with
  | ⟨0, _⟩ => show win2_0.index t 0 * 5000 + 1 * r.val = k.val; rw [e0, hk]; omega
  | ⟨1, _⟩ => show win2_0.index t 1 * 20 + 1 * q.val = q.val; rw [e1]; omega

theorem wgtBlk2 (c : Dev nD) (t : Fin cfg2.N) (r : Fin 5000) (k : Fin 1000000) (hk : k.val = 5000 * t.val + r.val) :
    (iblk2 V c 1 t : S5000x1.Idx → EReal) (ix2 r 0) = wgtArr2 V c (ix2 k 0) := by
  obtain ⟨-, -, e0, e1, -⟩ := idxFacts2 t
  unfold iblk2
  rw [View.read_apply]
  show V c main_v312 _ = V c main_v312 _
  congr 1
  funext a
  apply Fin.ext
  match a with
  | ⟨0, _⟩ => show win2_1.index t 0 * 5000 + 1 * r.val = k.val; rw [e0, hk]; omega
  | ⟨1, _⟩ => show win2_1.index t 1 * 1 + 1 * 0 = 0; rw [e1]

theorem eraseBlk2 (c : Dev nD) (t : Fin cfg2.N) (q : Fin 20) :
    (iblk2 V c 2 t : S1x20.Idx → EReal) (ix2 0 q) = eraseArr2 V c (ix2 0 q) := by
  obtain ⟨-, -, -, -, e0, e1, -⟩ := idxFacts2 t
  unfold iblk2
  rw [View.read_apply]
  show V c main_v30 _ = V c main_v30 _
  congr 1
  funext a
  apply Fin.ext
  match a with
  | ⟨0, _⟩ => show win2_2.index t 0 * 1 + 1 * 0 = 0; rw [e0]
  | ⟨1, _⟩ => show win2_2.index t 1 * 20 + 1 * q.val = q.val; rw [e1]; omega

theorem addBlk2 (c : Dev nD) (t : Fin cfg2.N) (q : Fin 20) :
    (iblk2 V c 3 t : S1x20.Idx → EReal) (ix2 0 q) = addArr2 V c (ix2 0 q) := by
  obtain ⟨-, -, -, -, -, -, e0, e1, -⟩ := idxFacts2 t
  unfold iblk2
  rw [View.read_apply]
  show V c main_v311 _ = V c main_v311 _
  congr 1
  funext a
  apply Fin.ext
  match a with
  | ⟨0, _⟩ => show win2_3.index t 0 * 1 + 1 * 0 = 0; rw [e0]
  | ⟨1, _⟩ => show win2_3.index t 1 * 20 + 1 * q.val = q.val; rw [e1]; omega

theorem flushedEq2 (c : Dev nD) (t : Fin cfg2.N) :
    (dat2 V c).flushed 4 t = ((cfg2.win 4).blk t).view.read (Elt Ideal) (updated2 V c) := by
  show (cfg2.win 4).cut (grid2.coords t) ((dat2 V c).after 4 t) = _
  rw [after2_4]
  unfold newTile2
  rw [View.canon_unit_zero zeroOff2]
  simp only [View.ld_unit_zero (S := S5000x20) zeroOff2, View.ld_unit_zero (S := S5000x1) zeroOff2, View.ld_unit_zero (S := S1x20) zeroOff2]
  funext y
  revert y
  show ∀ y : S5000x20.Idx, k2_pay1 (F := Ideal) (iblk2 V c 0 t) (iblk2 V c 1 t) (iblk2 V c 2 t) (iblk2 V c 3 t) y
      = updated2 V c (((cfg2.win 4).blk t).view.emb y)
  intro y
  obtain ⟨r, q, rfl⟩ : ∃ (r : Fin 5000) (q : Fin 20), y = ix2 r q := ⟨y 0, y 1, eq_ix2 y⟩
  obtain ⟨-, -, -, -, -, -, -, -, e0, e1⟩ := idxFacts2 t
  have hN : grid2.N = 200 := N_2
  have ht : t.val < 200 := hN ▸ t.isLt
  have hr : r.val < 5000 := r.isLt
  let k : Fin 1000000 := ⟨5000 * t.val + r.val, by omega⟩
  have hemb : ((cfg2.win 4).blk t).view.emb (ix2 r q) = (ix2 k q : S1000000x20.Idx) := by
    funext a; apply Fin.ext
    match a with
    | ⟨0, _⟩ => show win2_4.index t 0 * 5000 + 1 * r.val = 5000 * t.val + r.val; rw [e0]; omega
    | ⟨1, _⟩ => show win2_4.index t 1 * 20 + 1 * q.val = q.val; rw [e1]; omega
  rw [hemb]
  refine (payApply2 _ _ _ _ r q).trans ?_
  rw [memBlk2 V c t r q k rfl, wgtBlk2 V c t r k rfl, eraseBlk2 V c t q, addBlk2 V c t q]
  rfl

theorem inBlk2 (t : Fin cfg2.N) (i : S1000000x20.Idx) :
    i ∈ ((cfg2.win 4).blk t).view.set ↔ ∀ a : Fin 2, win2_4.index t a * S5000x20.size a ≤ (i a).val ∧ (i a).val < win2_4.index t a * S5000x20.size a + S5000x20.size a := by
  show i ∈ ((View.whole main_v313).slice (win2_4.rect t)).set ↔ _
  rw [View.set_slice_whole, Rect.mem_set_unit]
  exact Iff.rfl

theorem cover2 (i : S1000000x20.Idx) : ∃ t : Fin cfg2.N, (cfg2.win 4).flush t = true ∧ i ∈ ((cfg2.win 4).blk t).view.set := by
  have hi0 : (i 0).val < 1000000 := (i 0).isLt
  have hi1 : (i 1).val < 20 := (i 1).isLt
  have hN : grid2.N = 200 := N_2
  have hlt : (i 0).val / 5000 < grid2.N := by omega
  obtain ⟨-, -, -, -, -, -, -, -, e0, e1⟩ := idxFacts2 ⟨(i 0).val / 5000, hlt⟩
  refine ⟨⟨(i 0).val / 5000, hlt⟩, flush2_4 _, ?_⟩
  rw [inBlk2]
  intro a
  match a with
  | ⟨0, _⟩ =>
    show win2_4.index ⟨(i 0).val / 5000, hlt⟩ 0 * 5000 ≤ (i 0).val ∧ (i 0).val < win2_4.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win2_4.index ⟨(i 0).val / 5000, hlt⟩ 1 * 20 ≤ (i 1).val ∧ (i 1).val < win2_4.index ⟨(i 0).val / 5000, hlt⟩ 1 * 20 + 20
    rw [e1]; omega

theorem final2 (c : Dev nD) : (dat2 V c).arrAt 4 cfg2.N = updated2 V c :=
  (dat2 V c).arrAt_eq_of_cover 4 (updated2 V c) (fun t _ => flushedEq2 V c t) cover2

theorem eraseAdd_value (c : Dev nD) (i : Fin 1000000) (j : Fin 20) :
    (dat2 V c).arrAt 4 cfg2.N (ValueIdx.ix2 i j)
      = Cert.Passes.eraseAdd (fun i j => V c main_arg3 (ValueIdx.ix2 i j)) (fun i => V c main_v312 (ValueIdx.ix2 i 0))
          (fun j => V c main_v30 (ValueIdx.ix2 0 j)) (fun j => V c main_v311 (ValueIdx.ix2 0 j)) i j := by
  rw [final2]
  rfl

end

end Cert.KernelIdeal.Hand

end
-- ==== Proof.Bridge.ReadHeadRef.lean ====
/- The reference's read vector is one matrix product: the weighted sum of the memory's rows. -/
import proofs.«147285_j27152783245914_1_alg».proof.Proof.RefOps
import proofs.«147285_j27152783245914_1_alg».proof.Proof.Passes
import Idealize.ShloMosaic.Lib.StableHlo.Run
import Idealize.ShloMosaic.PureOps.Ideal.Laws
import Idealize.ShloMosaic.Lib.ValueIdx
import Idealize.ShloMosaic.Lib.StackMember

noncomputable section

namespace Cert.Bridge

open Cert.ReferenceIdeal Cert.ReferenceIdeal.Gen Cert.ReferenceIdeal.Blocks Idealize.ShloMosaic Idealize.ShloMosaic.TcCoe Idealize.SL.Sem
  Idealize.ShloMosaic.StableHlo Idealize.ShloMosaic.ValueIdx

theorem dot_row_eq_plain : dot_S1x1000000_S1000000x20_S1x20_1_0_0_1_n_n = DotDims.plain 1 1000000 20 := rfl

theorem readHead_after (V' : Valuation τ sig (Elt Ideal)) :
    after (rE (F := Ideal)) V' (Proc.devRef .tc main_v219)
      = Host.dotGeneral (F := Ideal) (φ₁ := .f32) (φ₂ := .f32) dot_S1x1000000_S1000000x20_S1x20_1_0_0_1_n_n none
          (V' (Proc.devRef .tc main_v126)) (V' (Proc.devRef .tc main_arg3)) := by
  after_results

theorem readHead_ref (V' : Valuation τ sig (Elt Ideal)) (j : Fin 20) :
    (after (rE (F := Ideal)) V' (Proc.devRef .tc main_v219) : FVec Ideal S1x20 .f32) (ix2 0 j)
      = Cert.Passes.weightedSum (fun i j => (V' (Proc.devRef .tc main_arg3) : FVec Ideal S1000000x20 .f32) (ix2 i j))
          (fun i => (V' (Proc.devRef .tc main_v126) : FVec Ideal S1x1000000 .f32) (ix2 0 i)) j := by
  rw [readHead_after, dot_row_eq_plain]
  refine (StackMember.dotGeneral_plain_apply none _ _ 0 j).trans ?_
  unfold Cert.Passes.weightedSum
  exact Finset.sum_congr rfl fun i _ => mul_comm _ _

end Cert.Bridge

end
-- ==== Proof.Bridge.UpdateRef.lean ====
/- The reference's memory update, erase then add, entry by entry. -/
import proofs.«147285_j27152783245914_1_alg».proof.Proof.RefOps
import proofs.«147285_j27152783245914_1_alg».proof.Proof.Passes
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Bridge

open Cert.ReferenceIdeal Cert.ReferenceIdeal.Gen Cert.ReferenceIdeal.Blocks Idealize.ShloMosaic Idealize.ShloMosaic.TcCoe Idealize.SL.Sem
  Idealize.ShloMosaic.StableHlo Idealize.ShloMosaic.ValueIdx

theorem dot_col_eq_plain : dot_S1000000x1_S1x20_S1000000x20_1_0_0_1_n_n = DotDims.plain 1000000 1 20 := rfl

theorem colRow_apply (A : FVec Ideal S1000000x1 .f32) (B : FVec Ideal S1x20 .f32) (i : Fin 1000000) (j : Fin 20) :
    Host.dotGeneral (F := Ideal) dot_S1000000x1_S1x20_S1000000x20_1_0_0_1_n_n none A B (ix2 i j) = A (ix2 i 0) * B (ix2 0 j) := by
  rw [dot_col_eq_plain]
  refine (StackMember.dotGeneral_plain_apply none A B i j).trans ?_
  exact Fin.sum_univ_one _

theorem column_apply (w : FVec Ideal S1x1000000 .f32) (i : Fin 1000000) :
    transpose S1000000x1 [1, 0] w transposes_S1x1000000_S1000000x1_1_0 (ix2 i 0) = w (ix2 0 i) :=
  transpose_ix2_apply w transposes_S1x1000000_S1000000x1_1_0 i 0

theorem ones_apply (i : Fin 1000000) (j : Fin 20) :
    broadcastInDim S1000000x20 ![] bcast_S_S1000000x20 (constant (F := Ideal) S_ .f32 0x3F800000#32) (ix2 i j) = Cert.Passes.one :=
  (broadcastInDim_apply _ bcast_S_S1000000x20 _ (ix2 i j) ix0 fun a => a.elim0).trans rfl

theorem update_after (V' : Valuation τ sig (Elt Ideal)) :
    after (rG (F := Ideal)) V' (Proc.devRef .tc main_v325)
      = addf (φ := .f32)
          (mulf (V' (Proc.devRef .tc main_arg3) : FVec Ideal S1000000x20 .f32)
            (subf (broadcastInDim S1000000x20 ![] bcast_S_S1000000x20 (constant (F := Ideal) S_ .f32 0x3F800000#32))
              (Host.dotGeneral (F := Ideal) (φ₁ := .f32) (φ₂ := .f32) dot_S1000000x1_S1x20_S1000000x20_1_0_0_1_n_n none
                (transpose S1000000x1 [1, 0] (V' (Proc.devRef .tc main_v218) : FVec Ideal S1x1000000 .f32) transposes_S1x1000000_S1000000x1_1_0)
                (V' (Proc.devRef .tc main_v30)))))
          (Host.dotGeneral (F := Ideal) (φ₁ := .f32) (φ₂ := .f32) dot_S1000000x1_S1x20_S1000000x20_1_0_0_1_n_n none
            (transpose S1000000x1 [1, 0] (V' (Proc.devRef .tc main_v218) : FVec Ideal S1x1000000 .f32) transposes_S1x1000000_S1000000x1_1_0)
            (V' (Proc.devRef .tc main_v317))) := by
  after_results

theorem update_ref (V' : Valuation τ sig (Elt Ideal)) (i : Fin 1000000) (j : Fin 20) :
    (after (rG (F := Ideal)) V' (Proc.devRef .tc main_v325) : FVec Ideal S1000000x20 .f32) (ix2 i j)
      = Cert.Passes.eraseAdd (fun i j => (V' (Proc.devRef .tc main_arg3) : FVec Ideal S1000000x20 .f32) (ix2 i j))
          (fun i => (V' (Proc.devRef .tc main_v218) : FVec Ideal S1x1000000 .f32) (ix2 0 i))
          (fun j => (V' (Proc.devRef .tc main_v30) : FVec Ideal S1x20 .f32) (ix2 0 j))
          (fun j => (V' (Proc.devRef .tc main_v317) : FVec Ideal S1x20 .f32) (ix2 0 j)) i j := by
  rw [update_after, addf_apply, mulf_apply, subf_apply, ones_apply, colRow_apply, colRow_apply, column_apply]
  rfl

end Cert.Bridge

end
-- ==== Proof.Bridge.Alu.lean ====
/- The host code between the read pass and the update pass is the same computation on both sides. -/
import proofs.«147285_j27152783245914_1_alg».proof.Proof.Gen.KernelIdeal.Launch
import proofs.«147285_j27152783245914_1_alg».proof.Proof.RefOps
import Idealize.ShloMosaic.Lib.StableHlo.Run
import Idealize.ShloMosaic.Lib.Pipeline.Frame
import Idealize.ShloMosaic.Lib.Pipeline.Value
import Idealize.ShloMosaic.Lib.ValueIdx

set_option maxRecDepth 4000

noncomputable section

namespace Cert.Bridge

open Idealize.ShloMosaic Idealize.ShloMosaic.TcCoe Idealize.SL.Sem Idealize.ShloMosaic.StableHlo

variable {F : FTy → Type} [FloatOps F]

abbrev kW0 : List (Ref Cert.KernelIdeal.sig .tc) :=
  [Cert.KernelIdeal.main_v214, Cert.KernelIdeal.main_v215, Cert.KernelIdeal.main_v216, Cert.KernelIdeal.main_v217, Cert.KernelIdeal.main_v218, Cert.KernelIdeal.main_cst_31, Cert.KernelIdeal.main_v219, Cert.KernelIdeal.main_cst_32, Cert.KernelIdeal.main_v220, Cert.KernelIdeal.main_v221, Cert.KernelIdeal.main_cst_33, Cert.KernelIdeal.main_v222, Cert.KernelIdeal.main_cst_34, Cert.KernelIdeal.main_v223, Cert.KernelIdeal.main_v224, Cert.KernelIdeal.main_v225, Cert.KernelIdeal.main_v226, Cert.KernelIdeal.main_v227, Cert.KernelIdeal.main_v228, Cert.KernelIdeal.main_cst_35, Cert.KernelIdeal.main_v229, Cert.KernelIdeal.main_v230, Cert.KernelIdeal.main_v231, Cert.KernelIdeal.main_v232, Cert.KernelIdeal.main_v233, Cert.KernelIdeal.main_v234, Cert.KernelIdeal.main_v235, Cert.KernelIdeal.main_v236]
theorem kW0_writes : (Cert.KernelIdeal.Gen.hostOps2 : List (HloOp Cert.KernelIdeal.τ Cert.KernelIdeal.sig (Elt F))).Forall fun op =>
    op.writes ⊆ (kW0.map (Proc.devRef (τ := Cert.KernelIdeal.τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))
theorem kKeep0 (W : Valuation Cert.KernelIdeal.τ Cert.KernelIdeal.sig (Elt F)) (r : Ref Cert.KernelIdeal.sig .tc) (h : r ∉ kW0) :
    after Cert.KernelIdeal.Gen.hostOps2 W (no_index (Proc.devRef .tc r)) = W (Proc.devRef .tc r) :=
  after_of_writes_sub _ W kW0_writes h

abbrev kW1 : List (Ref Cert.KernelIdeal.sig .tc) :=
  [Cert.KernelIdeal.main_call6_cst, Cert.KernelIdeal.main_call6_v0, Cert.KernelIdeal.main_v237]
theorem kW1_writes : (Cert.KernelIdeal.Gen.hostOps2_1 : List (HloOp Cert.KernelIdeal.τ Cert.KernelIdeal.sig (Elt F))).Forall fun op =>
    op.writes ⊆ (kW1.map (Proc.devRef (τ := Cert.KernelIdeal.τ) .tc)).toFinset := by
  simp only [List.Forall]
  refine ⟨?_, ?_, ?_⟩ <;>
    (simp only [nullary_writes, unary_writes, binary_writes, reshape_writes, Finset.singleton_subset_iff, List.mem_toFinset]; exact List.mem_map_of_mem (by decide))
theorem kKeep1 (W : Valuation Cert.KernelIdeal.τ Cert.KernelIdeal.sig (Elt F)) (r : Ref Cert.KernelIdeal.sig .tc) (h : r ∉ kW1) :
    after Cert.KernelIdeal.Gen.hostOps2_1 W (no_index (Proc.devRef .tc r)) = W (Proc.devRef .tc r) :=
  after_of_writes_sub _ W kW1_writes h

abbrev kW2 : List (Ref Cert.KernelIdeal.sig .tc) :=
  [Cert.KernelIdeal.main_v238, Cert.KernelIdeal.main_v239, Cert.KernelIdeal.main_v240, Cert.KernelIdeal.main_v241]
theorem kW2_writes : (Cert.KernelIdeal.Gen.hostOps2_2 : List (HloOp Cert.KernelIdeal.τ Cert.KernelIdeal.sig (Elt F))).Forall fun op =>
    op.writes ⊆ (kW2.map (Proc.devRef (τ := Cert.KernelIdeal.τ) .tc)).toFinset := by
  simp only [List.Forall]
  refine ⟨?_, ?_, ?_, ?_⟩ <;>
    (simp only [nullary_writes, unary_writes, binary_writes, reshape_writes, Finset.singleton_subset_iff, List.mem_toFinset]; exact List.mem_map_of_mem (by decide))
theorem kKeep2 (W : Valuation Cert.KernelIdeal.τ Cert.KernelIdeal.sig (Elt F)) (r : Ref Cert.KernelIdeal.sig .tc) (h : r ∉ kW2) :
    after Cert.KernelIdeal.Gen.hostOps2_2 W (no_index (Proc.devRef .tc r)) = W (Proc.devRef .tc r) :=
  after_of_writes_sub _ W kW2_writes h

abbrev kW3 : List (Ref Cert.KernelIdeal.sig .tc) :=
  [Cert.KernelIdeal.main_call7_cst, Cert.KernelIdeal.main_call7_v0, Cert.KernelIdeal.main_v242]
theorem kW3_writes : (Cert.KernelIdeal.Gen.hostOps2_3 : List (HloOp Cert.KernelIdeal.τ Cert.KernelIdeal.sig (Elt F))).Forall fun op =>
    op.writes ⊆ (kW3.map (Proc.devRef (τ := Cert.KernelIdeal.τ) .tc)).toFinset := by
  simp only [List.Forall]
  refine ⟨?_, ?_, ?_⟩ <;>
    (simp only [nullary_writes, unary_writes, binary_writes, reshape_writes, Finset.singleton_subset_iff, List.mem_toFinset]; exact List.mem_map_of_mem (by decide))
theorem kKeep3 (W : Valuation Cert.KernelIdeal.τ Cert.KernelIdeal.sig (Elt F)) (r : Ref Cert.KernelIdeal.sig .tc) (h : r ∉ kW3) :
    after Cert.KernelIdeal.Gen.hostOps2_3 W (no_index (Proc.devRef .tc r)) = W (Proc.devRef .tc r) :=
  after_of_writes_sub _ W kW3_writes h

abbrev kW4 : List (Ref Cert.KernelIdeal.sig .tc) :=
  [Cert.KernelIdeal.main_v243, Cert.KernelIdeal.main_v244, Cert.KernelIdeal.main_v245, Cert.KernelIdeal.main_v246]
theorem kW4_writes : (Cert.KernelIdeal.Gen.hostOps2_4 : List (HloOp Cert.KernelIdeal.τ Cert.KernelIdeal.sig (Elt F))).Forall fun op =>
    op.writes ⊆ (kW4.map (Proc.devRef (τ := Cert.KernelIdeal.τ) .tc)).toFinset := by
  simp only [List.Forall]
  refine ⟨?_, ?_, ?_, ?_⟩ <;>
    (simp only [nullary_writes, unary_writes, binary_writes, reshape_writes, Finset.singleton_subset_iff, List.mem_toFinset]; exact List.mem_map_of_mem (by decide))
theorem kKeep4 (W : Valuation Cert.KernelIdeal.τ Cert.KernelIdeal.sig (Elt F)) (r : Ref Cert.KernelIdeal.sig .tc) (h : r ∉ kW4) :
    after Cert.KernelIdeal.Gen.hostOps2_4 W (no_index (Proc.devRef .tc r)) = W (Proc.devRef .tc r) :=
  after_of_writes_sub _ W kW4_writes h

abbrev kW5 : List (Ref Cert.KernelIdeal.sig .tc) :=
  [Cert.KernelIdeal.main_call8_cst, Cert.KernelIdeal.main_call8_v0, Cert.KernelIdeal.main_v247]
theorem kW5_writes : (Cert.KernelIdeal.Gen.hostOps2_5 : List (HloOp Cert.KernelIdeal.τ Cert.KernelIdeal.sig (Elt F))).Forall fun op =>
    op.writes ⊆ (kW5.map (Proc.devRef (τ := Cert.KernelIdeal.τ) .tc)).toFinset := by
  simp only [List.Forall]
  refine ⟨?_, ?_, ?_⟩ <;>
    (simp only [nullary_writes, unary_writes, binary_writes, reshape_writes, Finset.singleton_subset_iff, List.mem_toFinset]; exact List.mem_map_of_mem (by decide))
theorem kKeep5 (W : Valuation Cert.KernelIdeal.τ Cert.KernelIdeal.sig (Elt F)) (r : Ref Cert.KernelIdeal.sig .tc) (h : r ∉ kW5) :
    after Cert.KernelIdeal.Gen.hostOps2_5 W (no_index (Proc.devRef .tc r)) = W (Proc.devRef .tc r) :=
  after_of_writes_sub _ W kW5_writes h

abbrev kW6 : List (Ref Cert.KernelIdeal.sig .tc) :=
  [Cert.KernelIdeal.main_v248, Cert.KernelIdeal.main_v249, Cert.KernelIdeal.main_v250, Cert.KernelIdeal.main_v251, Cert.KernelIdeal.main_cst_36, Cert.KernelIdeal.main_v252, Cert.KernelIdeal.main_cst_37, Cert.KernelIdeal.main_v253, Cert.KernelIdeal.main_v254, Cert.KernelIdeal.main_v255, Cert.KernelIdeal.main_v256, Cert.KernelIdeal.main_v257, Cert.KernelIdeal.main_v258, Cert.KernelIdeal.main_cst_38, Cert.KernelIdeal.main_v259, Cert.KernelIdeal.main_v260, Cert.KernelIdeal.main_v261, Cert.KernelIdeal.main_v262, Cert.KernelIdeal.main_v263, Cert.KernelIdeal.main_v264, Cert.KernelIdeal.main_v265, Cert.KernelIdeal.main_v266]
theorem kW6_writes : (Cert.KernelIdeal.Gen.hostOps2_6 : List (HloOp Cert.KernelIdeal.τ Cert.KernelIdeal.sig (Elt F))).Forall fun op =>
    op.writes ⊆ (kW6.map (Proc.devRef (τ := Cert.KernelIdeal.τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))
theorem kKeep6 (W : Valuation Cert.KernelIdeal.τ Cert.KernelIdeal.sig (Elt F)) (r : Ref Cert.KernelIdeal.sig .tc) (h : r ∉ kW6) :
    after Cert.KernelIdeal.Gen.hostOps2_6 W (no_index (Proc.devRef .tc r)) = W (Proc.devRef .tc r) :=
  after_of_writes_sub _ W kW6_writes h

abbrev kW7 : List (Ref Cert.KernelIdeal.sig .tc) :=
  [Cert.KernelIdeal.main_call9_cst, Cert.KernelIdeal.main_call9_v0, Cert.KernelIdeal.main_v267]
theorem kW7_writes : (Cert.KernelIdeal.Gen.hostOps2_7 : List (HloOp Cert.KernelIdeal.τ Cert.KernelIdeal.sig (Elt F))).Forall fun op =>
    op.writes ⊆ (kW7.map (Proc.devRef (τ := Cert.KernelIdeal.τ) .tc)).toFinset := by
  simp only [List.Forall]
  refine ⟨?_, ?_, ?_⟩ <;>
    (simp only [nullary_writes, unary_writes, binary_writes, reshape_writes, Finset.singleton_subset_iff, List.mem_toFinset]; exact List.mem_map_of_mem (by decide))
theorem kKeep7 (W : Valuation Cert.KernelIdeal.τ Cert.KernelIdeal.sig (Elt F)) (r : Ref Cert.KernelIdeal.sig .tc) (h : r ∉ kW7) :
    after Cert.KernelIdeal.Gen.hostOps2_7 W (no_index (Proc.devRef .tc r)) = W (Proc.devRef .tc r) :=
  after_of_writes_sub _ W kW7_writes h

abbrev kW8 : List (Ref Cert.KernelIdeal.sig .tc) :=
  [Cert.KernelIdeal.main_v268, Cert.KernelIdeal.main_v269, Cert.KernelIdeal.main_v270, Cert.KernelIdeal.main_v271]
theorem kW8_writes : (Cert.KernelIdeal.Gen.hostOps2_8 : List (HloOp Cert.KernelIdeal.τ Cert.KernelIdeal.sig (Elt F))).Forall fun op =>
    op.writes ⊆ (kW8.map (Proc.devRef (τ := Cert.KernelIdeal.τ) .tc)).toFinset := by
  simp only [List.Forall]
  refine ⟨?_, ?_, ?_, ?_⟩ <;>
    (simp only [nullary_writes, unary_writes, binary_writes, reshape_writes, Finset.singleton_subset_iff, List.mem_toFinset]; exact List.mem_map_of_mem (by decide))
theorem kKeep8 (W : Valuation Cert.KernelIdeal.τ Cert.KernelIdeal.sig (Elt F)) (r : Ref Cert.KernelIdeal.sig .tc) (h : r ∉ kW8) :
    after Cert.KernelIdeal.Gen.hostOps2_8 W (no_index (Proc.devRef .tc r)) = W (Proc.devRef .tc r) :=
  after_of_writes_sub _ W kW8_writes h

abbrev kW9 : List (Ref Cert.KernelIdeal.sig .tc) :=
  [Cert.KernelIdeal.main_call10_cst, Cert.KernelIdeal.main_call10_v0, Cert.KernelIdeal.main_v272]
theorem kW9_writes : (Cert.KernelIdeal.Gen.hostOps2_9 : List (HloOp Cert.KernelIdeal.τ Cert.KernelIdeal.sig (Elt F))).Forall fun op =>
    op.writes ⊆ (kW9.map (Proc.devRef (τ := Cert.KernelIdeal.τ) .tc)).toFinset := by
  simp only [List.Forall]
  refine ⟨?_, ?_, ?_⟩ <;>
    (simp only [nullary_writes, unary_writes, binary_writes, reshape_writes, Finset.singleton_subset_iff, List.mem_toFinset]; exact List.mem_map_of_mem (by decide))
theorem kKeep9 (W : Valuation Cert.KernelIdeal.τ Cert.KernelIdeal.sig (Elt F)) (r : Ref Cert.KernelIdeal.sig .tc) (h : r ∉ kW9) :
    after Cert.KernelIdeal.Gen.hostOps2_9 W (no_index (Proc.devRef .tc r)) = W (Proc.devRef .tc r) :=
  after_of_writes_sub _ W kW9_writes h

abbrev kW10 : List (Ref Cert.KernelIdeal.sig .tc) :=
  [Cert.KernelIdeal.main_v273, Cert.KernelIdeal.main_v274, Cert.KernelIdeal.main_v275, Cert.KernelIdeal.main_v276]
theorem kW10_writes : (Cert.KernelIdeal.Gen.hostOps2_10 : List (HloOp Cert.KernelIdeal.τ Cert.KernelIdeal.sig (Elt F))).Forall fun op =>
    op.writes ⊆ (kW10.map (Proc.devRef (τ := Cert.KernelIdeal.τ) .tc)).toFinset := by
  simp only [List.Forall]
  refine ⟨?_, ?_, ?_, ?_⟩ <;>
    (simp only [nullary_writes, unary_writes, binary_writes, reshape_writes, Finset.singleton_subset_iff, List.mem_toFinset]; exact List.mem_map_of_mem (by decide))
theorem kKeep10 (W : Valuation Cert.KernelIdeal.τ Cert.KernelIdeal.sig (Elt F)) (r : Ref Cert.KernelIdeal.sig .tc) (h : r ∉ kW10) :
    after Cert.KernelIdeal.Gen.hostOps2_10 W (no_index (Proc.devRef .tc r)) = W (Proc.devRef .tc r) :=
  after_of_writes_sub _ W kW10_writes h

abbrev kW11 : List (Ref Cert.KernelIdeal.sig .tc) :=
  [Cert.KernelIdeal.main_call11_cst, Cert.KernelIdeal.main_call11_v0, Cert.KernelIdeal.main_v277]
theorem kW11_writes : (Cert.KernelIdeal.Gen.hostOps2_11 : List (HloOp Cert.KernelIdeal.τ Cert.KernelIdeal.sig (Elt F))).Forall fun op =>
    op.writes ⊆ (kW11.map (Proc.devRef (τ := Cert.KernelIdeal.τ) .tc)).toFinset := by
  simp only [List.Forall]
  refine ⟨?_, ?_, ?_⟩ <;>
    (simp only [nullary_writes, unary_writes, binary_writes, reshape_writes, Finset.singleton_subset_iff, List.mem_toFinset]; exact List.mem_map_of_mem (by decide))
theorem kKeep11 (W : Valuation Cert.KernelIdeal.τ Cert.KernelIdeal.sig (Elt F)) (r : Ref Cert.KernelIdeal.sig .tc) (h : r ∉ kW11) :
    after Cert.KernelIdeal.Gen.hostOps2_11 W (no_index (Proc.devRef .tc r)) = W (Proc.devRef .tc r) :=
  after_of_writes_sub _ W kW11_writes h

abbrev kW12 : List (Ref Cert.KernelIdeal.sig .tc) :=
  [Cert.KernelIdeal.main_v278, Cert.KernelIdeal.main_v279, Cert.KernelIdeal.main_v280, Cert.KernelIdeal.main_v281, Cert.KernelIdeal.main_cst_39, Cert.KernelIdeal.main_v282, Cert.KernelIdeal.main_cst_40, Cert.KernelIdeal.main_v283, Cert.KernelIdeal.main_v284, Cert.KernelIdeal.main_v285, Cert.KernelIdeal.main_v286, Cert.KernelIdeal.main_v287, Cert.KernelIdeal.main_v288, Cert.KernelIdeal.main_cst_41, Cert.KernelIdeal.main_v289, Cert.KernelIdeal.main_v290, Cert.KernelIdeal.main_v291, Cert.KernelIdeal.main_v292, Cert.KernelIdeal.main_v293, Cert.KernelIdeal.main_v294, Cert.KernelIdeal.main_v295, Cert.KernelIdeal.main_v296, Cert.KernelIdeal.main_v297, Cert.KernelIdeal.main_v298, Cert.KernelIdeal.main_v299, Cert.KernelIdeal.main_v300, Cert.KernelIdeal.main_v301, Cert.KernelIdeal.main_v302, Cert.KernelIdeal.main_v303, Cert.KernelIdeal.main_v304, Cert.KernelIdeal.main_v305, Cert.KernelIdeal.main_v306, Cert.KernelIdeal.main_v307, Cert.KernelIdeal.main_cst_42, Cert.KernelIdeal.main_v308, Cert.KernelIdeal.main_v309, Cert.KernelIdeal.main_v310, Cert.KernelIdeal.main_v311, Cert.KernelIdeal.main_v312]
theorem kW12_writes : (Cert.KernelIdeal.Gen.hostOps2_12 : List (HloOp Cert.KernelIdeal.τ Cert.KernelIdeal.sig (Elt F))).Forall fun op =>
    op.writes ⊆ (kW12.map (Proc.devRef (τ := Cert.KernelIdeal.τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))
theorem kKeep12 (W : Valuation Cert.KernelIdeal.τ Cert.KernelIdeal.sig (Elt F)) (r : Ref Cert.KernelIdeal.sig .tc) (h : r ∉ kW12) :
    after Cert.KernelIdeal.Gen.hostOps2_12 W (no_index (Proc.devRef .tc r)) = W (Proc.devRef .tc r) :=
  after_of_writes_sub _ W kW12_writes h

abbrev rW0 : List (Ref Cert.ReferenceIdeal.sig .tc) :=
  [Cert.ReferenceIdeal.main_v220, Cert.ReferenceIdeal.main_v221, Cert.ReferenceIdeal.main_v222, Cert.ReferenceIdeal.main_v223, Cert.ReferenceIdeal.main_v224, Cert.ReferenceIdeal.main_cst_33, Cert.ReferenceIdeal.main_v225, Cert.ReferenceIdeal.main_cst_34, Cert.ReferenceIdeal.main_v226, Cert.ReferenceIdeal.main_v227, Cert.ReferenceIdeal.main_cst_35, Cert.ReferenceIdeal.main_v228, Cert.ReferenceIdeal.main_cst_36, Cert.ReferenceIdeal.main_v229, Cert.ReferenceIdeal.main_v230, Cert.ReferenceIdeal.main_v231, Cert.ReferenceIdeal.main_v232, Cert.ReferenceIdeal.main_v233, Cert.ReferenceIdeal.main_v234, Cert.ReferenceIdeal.main_cst_37, Cert.ReferenceIdeal.main_v235, Cert.ReferenceIdeal.main_v236, Cert.ReferenceIdeal.main_v237, Cert.ReferenceIdeal.main_v238, Cert.ReferenceIdeal.main_v239, Cert.ReferenceIdeal.main_v240, Cert.ReferenceIdeal.main_v241, Cert.ReferenceIdeal.main_v242, Cert.ReferenceIdeal.main_call8_cst, Cert.ReferenceIdeal.main_call8_v0, Cert.ReferenceIdeal.main_v243, Cert.ReferenceIdeal.main_v244, Cert.ReferenceIdeal.main_v245, Cert.ReferenceIdeal.main_v246, Cert.ReferenceIdeal.main_v247, Cert.ReferenceIdeal.main_call9_cst, Cert.ReferenceIdeal.main_call9_v0, Cert.ReferenceIdeal.main_v248, Cert.ReferenceIdeal.main_v249, Cert.ReferenceIdeal.main_v250, Cert.ReferenceIdeal.main_v251]
theorem rW0_writes : (Cert.ReferenceIdeal.Blocks.rF1 : List (HloOp Cert.ReferenceIdeal.τ Cert.ReferenceIdeal.sig (Elt F))).Forall fun op =>
    op.writes ⊆ (rW0.map (Proc.devRef (τ := Cert.ReferenceIdeal.τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))
theorem rKeep0 (W : Valuation Cert.ReferenceIdeal.τ Cert.ReferenceIdeal.sig (Elt F)) (r : Ref Cert.ReferenceIdeal.sig .tc) (h : r ∉ rW0) :
    after Cert.ReferenceIdeal.Blocks.rF1 W (no_index (Proc.devRef .tc r)) = W (Proc.devRef .tc r) :=
  after_of_writes_sub _ W rW0_writes h

abbrev rW1 : List (Ref Cert.ReferenceIdeal.sig .tc) :=
  [Cert.ReferenceIdeal.main_v252, Cert.ReferenceIdeal.main_call10_cst, Cert.ReferenceIdeal.main_call10_v0, Cert.ReferenceIdeal.main_v253, Cert.ReferenceIdeal.main_v254, Cert.ReferenceIdeal.main_v255, Cert.ReferenceIdeal.main_v256, Cert.ReferenceIdeal.main_v257, Cert.ReferenceIdeal.main_cst_38, Cert.ReferenceIdeal.main_v258, Cert.ReferenceIdeal.main_cst_39, Cert.ReferenceIdeal.main_v259, Cert.ReferenceIdeal.main_v260, Cert.ReferenceIdeal.main_v261, Cert.ReferenceIdeal.main_v262, Cert.ReferenceIdeal.main_v263, Cert.ReferenceIdeal.main_v264, Cert.ReferenceIdeal.main_cst_40, Cert.ReferenceIdeal.main_v265, Cert.ReferenceIdeal.main_v266, Cert.ReferenceIdeal.main_v267, Cert.ReferenceIdeal.main_v268, Cert.ReferenceIdeal.main_v269, Cert.ReferenceIdeal.main_v270, Cert.ReferenceIdeal.main_v271, Cert.ReferenceIdeal.main_v272, Cert.ReferenceIdeal.main_call11_cst, Cert.ReferenceIdeal.main_call11_v0, Cert.ReferenceIdeal.main_v273, Cert.ReferenceIdeal.main_v274, Cert.ReferenceIdeal.main_v275, Cert.ReferenceIdeal.main_v276, Cert.ReferenceIdeal.main_v277, Cert.ReferenceIdeal.main_call12_cst, Cert.ReferenceIdeal.main_call12_v0, Cert.ReferenceIdeal.main_v278, Cert.ReferenceIdeal.main_v279, Cert.ReferenceIdeal.main_v280, Cert.ReferenceIdeal.main_v281, Cert.ReferenceIdeal.main_v282, Cert.ReferenceIdeal.main_call13_cst]
theorem rW1_writes : (Cert.ReferenceIdeal.Blocks.rF2 : List (HloOp Cert.ReferenceIdeal.τ Cert.ReferenceIdeal.sig (Elt F))).Forall fun op =>
    op.writes ⊆ (rW1.map (Proc.devRef (τ := Cert.ReferenceIdeal.τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))
theorem rKeep1 (W : Valuation Cert.ReferenceIdeal.τ Cert.ReferenceIdeal.sig (Elt F)) (r : Ref Cert.ReferenceIdeal.sig .tc) (h : r ∉ rW1) :
    after Cert.ReferenceIdeal.Blocks.rF2 W (no_index (Proc.devRef .tc r)) = W (Proc.devRef .tc r) :=
  after_of_writes_sub _ W rW1_writes h

abbrev rW2 : List (Ref Cert.ReferenceIdeal.sig .tc) :=
  [Cert.ReferenceIdeal.main_call13_v0, Cert.ReferenceIdeal.main_v283, Cert.ReferenceIdeal.main_v284, Cert.ReferenceIdeal.main_v285, Cert.ReferenceIdeal.main_v286, Cert.ReferenceIdeal.main_v287, Cert.ReferenceIdeal.main_cst_41, Cert.ReferenceIdeal.main_v288, Cert.ReferenceIdeal.main_cst_42, Cert.ReferenceIdeal.main_v289, Cert.ReferenceIdeal.main_v290, Cert.ReferenceIdeal.main_v291, Cert.ReferenceIdeal.main_v292, Cert.ReferenceIdeal.main_v293, Cert.ReferenceIdeal.main_v294, Cert.ReferenceIdeal.main_cst_43, Cert.ReferenceIdeal.main_v295, Cert.ReferenceIdeal.main_v296, Cert.ReferenceIdeal.main_v297, Cert.ReferenceIdeal.main_v298, Cert.ReferenceIdeal.main_v299, Cert.ReferenceIdeal.main_v300, Cert.ReferenceIdeal.main_v301, Cert.ReferenceIdeal.main_v302, Cert.ReferenceIdeal.main_v303, Cert.ReferenceIdeal.main_v304, Cert.ReferenceIdeal.main_v305, Cert.ReferenceIdeal.main_v306, Cert.ReferenceIdeal.main_v307, Cert.ReferenceIdeal.main_v308, Cert.ReferenceIdeal.main_v309, Cert.ReferenceIdeal.main_v310, Cert.ReferenceIdeal.main_v311, Cert.ReferenceIdeal.main_v312, Cert.ReferenceIdeal.main_v313, Cert.ReferenceIdeal.main_cst_44, Cert.ReferenceIdeal.main_v314, Cert.ReferenceIdeal.main_v315, Cert.ReferenceIdeal.main_v316, Cert.ReferenceIdeal.main_v317]
theorem rW2_writes : (Cert.ReferenceIdeal.Blocks.rF3 : List (HloOp Cert.ReferenceIdeal.τ Cert.ReferenceIdeal.sig (Elt F))).Forall fun op =>
    op.writes ⊆ (rW2.map (Proc.devRef (τ := Cert.ReferenceIdeal.τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))
theorem rKeep2 (W : Valuation Cert.ReferenceIdeal.τ Cert.ReferenceIdeal.sig (Elt F)) (r : Ref Cert.ReferenceIdeal.sig .tc) (h : r ∉ rW2) :
    after Cert.ReferenceIdeal.Blocks.rF3 W (no_index (Proc.devRef .tc r)) = W (Proc.devRef .tc r) :=
  after_of_writes_sub _ W rW2_writes h

local macro "read_back" : tactic =>
  `(tactic| simp (disch := decide) only [↓kKeep0, ↓kKeep1, ↓kKeep2, ↓kKeep3, ↓kKeep4, ↓kKeep5, ↓kKeep6, ↓kKeep7, ↓kKeep8, ↓kKeep9, ↓kKeep10, ↓kKeep11, ↓kKeep12, ↓rKeep0, ↓rKeep1, ↓rKeep2, after_cons, after_nil, nullary_result', unary_result', binary_result', reshape_result', nullary_result_ne', unary_result_ne', binary_result_ne', reshape_result_ne'])

set_option maxHeartbeats 4000000 in
theorem alu_same_named (V : Valuation Cert.KernelIdeal.τ Cert.KernelIdeal.sig (Elt F)) (V' : Valuation Cert.ReferenceIdeal.τ Cert.ReferenceIdeal.sig (Elt F))
    (W0 W1 W2 W3 W4 W5 W6 W7 W8 W9 W10 W11 : Valuation Cert.KernelIdeal.τ Cert.KernelIdeal.sig (Elt F)) (X0 X1 : Valuation Cert.ReferenceIdeal.τ Cert.ReferenceIdeal.sig (Elt F))
    (hW0 : W0 = after Cert.KernelIdeal.Gen.hostOps2 V)
    (hW1 : W1 = after Cert.KernelIdeal.Gen.hostOps2_1 W0)
    (hW2 : W2 = after Cert.KernelIdeal.Gen.hostOps2_2 W1)
    (hW3 : W3 = after Cert.KernelIdeal.Gen.hostOps2_3 W2)
    (hW4 : W4 = after Cert.KernelIdeal.Gen.hostOps2_4 W3)
    (hW5 : W5 = after Cert.KernelIdeal.Gen.hostOps2_5 W4)
    (hW6 : W6 = after Cert.KernelIdeal.Gen.hostOps2_6 W5)
    (hW7 : W7 = after Cert.KernelIdeal.Gen.hostOps2_7 W6)
    (hW8 : W8 = after Cert.KernelIdeal.Gen.hostOps2_8 W7)
    (hW9 : W9 = after Cert.KernelIdeal.Gen.hostOps2_9 W8)
    (hW10 : W10 = after Cert.KernelIdeal.Gen.hostOps2_10 W9)
    (hW11 : W11 = after Cert.KernelIdeal.Gen.hostOps2_11 W10)
    (hX0 : X0 = after Cert.ReferenceIdeal.Blocks.rF1 V') (hX1 : X1 = after Cert.ReferenceIdeal.Blocks.rF2 X0)
    (h_readHead : (V (Proc.devRef .tc Cert.KernelIdeal.main_arg4) : (⟨Cert.KernelIdeal.S1x20, .f32⟩ : BufTy).Contents (Elt F)) = V' (Proc.devRef .tc Cert.ReferenceIdeal.main_arg4))
    (h_newReadHead : (V (Proc.devRef .tc Cert.KernelIdeal.main_v213) : (⟨Cert.KernelIdeal.S1x20, .f32⟩ : BufTy).Contents (Elt F)) = V' (Proc.devRef .tc Cert.ReferenceIdeal.main_v219))
    (h_zeta : (V (Proc.devRef .tc Cert.KernelIdeal.main_v15) : (⟨Cert.KernelIdeal.S1x3, .f32⟩ : BufTy).Contents (Elt F)) = V' (Proc.devRef .tc Cert.ReferenceIdeal.main_v15))
    (h_W15 : (V (Proc.devRef .tc Cert.KernelIdeal.main_arg15) : (⟨Cert.KernelIdeal.S110x40, .f32⟩ : BufTy).Contents (Elt F)) = V' (Proc.devRef .tc Cert.ReferenceIdeal.main_arg15))
    (h_b16 : (V (Proc.devRef .tc Cert.KernelIdeal.main_arg16) : (⟨Cert.KernelIdeal.S110, .f32⟩ : BufTy).Contents (Elt F)) = V' (Proc.devRef .tc Cert.ReferenceIdeal.main_arg16))
    (h_W17 : (V (Proc.devRef .tc Cert.KernelIdeal.main_arg17) : (⟨Cert.KernelIdeal.S190x110, .f32⟩ : BufTy).Contents (Elt F)) = V' (Proc.devRef .tc Cert.ReferenceIdeal.main_arg17))
    (h_b18 : (V (Proc.devRef .tc Cert.KernelIdeal.main_arg18) : (⟨Cert.KernelIdeal.S190, .f32⟩ : BufTy).Contents (Elt F)) = V' (Proc.devRef .tc Cert.ReferenceIdeal.main_arg18))
    (h_W19 : (V (Proc.devRef .tc Cert.KernelIdeal.main_arg19) : (⟨Cert.KernelIdeal.S270x190, .f32⟩ : BufTy).Contents (Elt F)) = V' (Proc.devRef .tc Cert.ReferenceIdeal.main_arg19))
    (h_b20 : (V (Proc.devRef .tc Cert.KernelIdeal.main_arg20) : (⟨Cert.KernelIdeal.S270, .f32⟩ : BufTy).Contents (Elt F)) = V' (Proc.devRef .tc Cert.ReferenceIdeal.main_arg20))
    (h_W21 : (V (Proc.devRef .tc Cert.KernelIdeal.main_arg21) : (⟨Cert.KernelIdeal.S325x270, .f32⟩ : BufTy).Contents (Elt F)) = V' (Proc.devRef .tc Cert.ReferenceIdeal.main_arg21))
    (h_b22 : (V (Proc.devRef .tc Cert.KernelIdeal.main_arg22) : (⟨Cert.KernelIdeal.S325, .f32⟩ : BufTy).Contents (Elt F)) = V' (Proc.devRef .tc Cert.ReferenceIdeal.main_arg22))
    (h_W23 : (V (Proc.devRef .tc Cert.KernelIdeal.main_arg23) : (⟨Cert.KernelIdeal.S110x40, .f32⟩ : BufTy).Contents (Elt F)) = V' (Proc.devRef .tc Cert.ReferenceIdeal.main_arg23))
    (h_b24 : (V (Proc.devRef .tc Cert.KernelIdeal.main_arg24) : (⟨Cert.KernelIdeal.S110, .f32⟩ : BufTy).Contents (Elt F)) = V' (Proc.devRef .tc Cert.ReferenceIdeal.main_arg24))
    (h_W25 : (V (Proc.devRef .tc Cert.KernelIdeal.main_arg25) : (⟨Cert.KernelIdeal.S190x110, .f32⟩ : BufTy).Contents (Elt F)) = V' (Proc.devRef .tc Cert.ReferenceIdeal.main_arg25))
    (h_b26 : (V (Proc.devRef .tc Cert.KernelIdeal.main_arg26) : (⟨Cert.KernelIdeal.S190, .f32⟩ : BufTy).Contents (Elt F)) = V' (Proc.devRef .tc Cert.ReferenceIdeal.main_arg26))
    (h_W27 : (V (Proc.devRef .tc Cert.KernelIdeal.main_arg27) : (⟨Cert.KernelIdeal.S270x190, .f32⟩ : BufTy).Contents (Elt F)) = V' (Proc.devRef .tc Cert.ReferenceIdeal.main_arg27))
    (h_b28 : (V (Proc.devRef .tc Cert.KernelIdeal.main_arg28) : (⟨Cert.KernelIdeal.S270, .f32⟩ : BufTy).Contents (Elt F)) = V' (Proc.devRef .tc Cert.ReferenceIdeal.main_arg28))
    (h_W29 : (V (Proc.devRef .tc Cert.KernelIdeal.main_arg29) : (⟨Cert.KernelIdeal.S325x270, .f32⟩ : BufTy).Contents (Elt F)) = V' (Proc.devRef .tc Cert.ReferenceIdeal.main_arg29))
    (h_b30 : (V (Proc.devRef .tc Cert.KernelIdeal.main_arg30) : (⟨Cert.KernelIdeal.S325, .f32⟩ : BufTy).Contents (Elt F)) = V' (Proc.devRef .tc Cert.ReferenceIdeal.main_arg30))
    (h_Wv : (V (Proc.devRef .tc Cert.KernelIdeal.main_arg13) : (⟨Cert.KernelIdeal.S20x325, .f32⟩ : BufTy).Contents (Elt F)) = V' (Proc.devRef .tc Cert.ReferenceIdeal.main_arg13))
    (h_bv : (V (Proc.devRef .tc Cert.KernelIdeal.main_arg14) : (⟨Cert.KernelIdeal.S20, .f32⟩ : BufTy).Contents (Elt F)) = V' (Proc.devRef .tc Cert.ReferenceIdeal.main_arg14))
    (h_add0 : (V (Proc.devRef .tc Cert.KernelIdeal.main_v34) : (⟨Cert.KernelIdeal.S1x20, .f32⟩ : BufTy).Contents (Elt F)) = V' (Proc.devRef .tc Cert.ReferenceIdeal.main_v34)) :
    ((after Cert.KernelIdeal.Gen.hostOps2_12 W11 (Proc.devRef .tc Cert.KernelIdeal.main_v301) : (⟨Cert.KernelIdeal.S1x325, .f32⟩ : BufTy).Contents (Elt F))
        = after Cert.ReferenceIdeal.Blocks.rF3 X1 (Proc.devRef .tc Cert.ReferenceIdeal.main_v307))
    ∧ ((after Cert.KernelIdeal.Gen.hostOps2_12 W11 (Proc.devRef .tc Cert.KernelIdeal.main_v311) : (⟨Cert.KernelIdeal.S1x20, .f32⟩ : BufTy).Contents (Elt F))
        = after Cert.ReferenceIdeal.Blocks.rF3 X1 (Proc.devRef .tc Cert.ReferenceIdeal.main_v317)) := by
  read_back
  subst hW11
  read_back
  subst hW10
  read_back
  subst hW9
  read_back
  subst hW8
  read_back
  subst hW7
  read_back
  subst hW6
  read_back
  subst hW5
  read_back
  subst hW4
  read_back
  subst hW3
  read_back
  subst hW2
  read_back
  subst hW1
  read_back
  subst hW0
  read_back
  subst hX1
  read_back
  subst hX0
  read_back
  rw [h_readHead, h_newReadHead, h_zeta, h_W15, h_b16, h_W17, h_b18, h_W19, h_b20, h_W21, h_b22, h_W23, h_b24, h_W25, h_b26, h_W27, h_b28, h_W29, h_b30, h_Wv, h_bv, h_add0]
  exact ⟨rfl, rfl⟩

theorem alu_same (V : Valuation Cert.KernelIdeal.τ Cert.KernelIdeal.sig (Elt F)) (V' : Valuation Cert.ReferenceIdeal.τ Cert.ReferenceIdeal.sig (Elt F))
    (h_readHead : (V (Proc.devRef .tc Cert.KernelIdeal.main_arg4) : (⟨Cert.KernelIdeal.S1x20, .f32⟩ : BufTy).Contents (Elt F)) = V' (Proc.devRef .tc Cert.ReferenceIdeal.main_arg4))
    (h_newReadHead : (V (Proc.devRef .tc Cert.KernelIdeal.main_v213) : (⟨Cert.KernelIdeal.S1x20, .f32⟩ : BufTy).Contents (Elt F)) = V' (Proc.devRef .tc Cert.ReferenceIdeal.main_v219))
    (h_zeta : (V (Proc.devRef .tc Cert.KernelIdeal.main_v15) : (⟨Cert.KernelIdeal.S1x3, .f32⟩ : BufTy).Contents (Elt F)) = V' (Proc.devRef .tc Cert.ReferenceIdeal.main_v15))
    (h_W15 : (V (Proc.devRef .tc Cert.KernelIdeal.main_arg15) : (⟨Cert.KernelIdeal.S110x40, .f32⟩ : BufTy).Contents (Elt F)) = V' (Proc.devRef .tc Cert.ReferenceIdeal.main_arg15))
    (h_b16 : (V (Proc.devRef .tc Cert.KernelIdeal.main_arg16) : (⟨Cert.KernelIdeal.S110, .f32⟩ : BufTy).Contents (Elt F)) = V' (Proc.devRef .tc Cert.ReferenceIdeal.main_arg16))
    (h_W17 : (V (Proc.devRef .tc Cert.KernelIdeal.main_arg17) : (⟨Cert.KernelIdeal.S190x110, .f32⟩ : BufTy).Contents (Elt F)) = V' (Proc.devRef .tc Cert.ReferenceIdeal.main_arg17))
    (h_b18 : (V (Proc.devRef .tc Cert.KernelIdeal.main_arg18) : (⟨Cert.KernelIdeal.S190, .f32⟩ : BufTy).Contents (Elt F)) = V' (Proc.devRef .tc Cert.ReferenceIdeal.main_arg18))
    (h_W19 : (V (Proc.devRef .tc Cert.KernelIdeal.main_arg19) : (⟨Cert.KernelIdeal.S270x190, .f32⟩ : BufTy).Contents (Elt F)) = V' (Proc.devRef .tc Cert.ReferenceIdeal.main_arg19))
    (h_b20 : (V (Proc.devRef .tc Cert.KernelIdeal.main_arg20) : (⟨Cert.KernelIdeal.S270, .f32⟩ : BufTy).Contents (Elt F)) = V' (Proc.devRef .tc Cert.ReferenceIdeal.main_arg20))
    (h_W21 : (V (Proc.devRef .tc Cert.KernelIdeal.main_arg21) : (⟨Cert.KernelIdeal.S325x270, .f32⟩ : BufTy).Contents (Elt F)) = V' (Proc.devRef .tc Cert.ReferenceIdeal.main_arg21))
    (h_b22 : (V (Proc.devRef .tc Cert.KernelIdeal.main_arg22) : (⟨Cert.KernelIdeal.S325, .f32⟩ : BufTy).Contents (Elt F)) = V' (Proc.devRef .tc Cert.ReferenceIdeal.main_arg22))
    (h_W23 : (V (Proc.devRef .tc Cert.KernelIdeal.main_arg23) : (⟨Cert.KernelIdeal.S110x40, .f32⟩ : BufTy).Contents (Elt F)) = V' (Proc.devRef .tc Cert.ReferenceIdeal.main_arg23))
    (h_b24 : (V (Proc.devRef .tc Cert.KernelIdeal.main_arg24) : (⟨Cert.KernelIdeal.S110, .f32⟩ : BufTy).Contents (Elt F)) = V' (Proc.devRef .tc Cert.ReferenceIdeal.main_arg24))
    (h_W25 : (V (Proc.devRef .tc Cert.KernelIdeal.main_arg25) : (⟨Cert.KernelIdeal.S190x110, .f32⟩ : BufTy).Contents (Elt F)) = V' (Proc.devRef .tc Cert.ReferenceIdeal.main_arg25))
    (h_b26 : (V (Proc.devRef .tc Cert.KernelIdeal.main_arg26) : (⟨Cert.KernelIdeal.S190, .f32⟩ : BufTy).Contents (Elt F)) = V' (Proc.devRef .tc Cert.ReferenceIdeal.main_arg26))
    (h_W27 : (V (Proc.devRef .tc Cert.KernelIdeal.main_arg27) : (⟨Cert.KernelIdeal.S270x190, .f32⟩ : BufTy).Contents (Elt F)) = V' (Proc.devRef .tc Cert.ReferenceIdeal.main_arg27))
    (h_b28 : (V (Proc.devRef .tc Cert.KernelIdeal.main_arg28) : (⟨Cert.KernelIdeal.S270, .f32⟩ : BufTy).Contents (Elt F)) = V' (Proc.devRef .tc Cert.ReferenceIdeal.main_arg28))
    (h_W29 : (V (Proc.devRef .tc Cert.KernelIdeal.main_arg29) : (⟨Cert.KernelIdeal.S325x270, .f32⟩ : BufTy).Contents (Elt F)) = V' (Proc.devRef .tc Cert.ReferenceIdeal.main_arg29))
    (h_b30 : (V (Proc.devRef .tc Cert.KernelIdeal.main_arg30) : (⟨Cert.KernelIdeal.S325, .f32⟩ : BufTy).Contents (Elt F)) = V' (Proc.devRef .tc Cert.ReferenceIdeal.main_arg30))
    (h_Wv : (V (Proc.devRef .tc Cert.KernelIdeal.main_arg13) : (⟨Cert.KernelIdeal.S20x325, .f32⟩ : BufTy).Contents (Elt F)) = V' (Proc.devRef .tc Cert.ReferenceIdeal.main_arg13))
    (h_bv : (V (Proc.devRef .tc Cert.KernelIdeal.main_arg14) : (⟨Cert.KernelIdeal.S20, .f32⟩ : BufTy).Contents (Elt F)) = V' (Proc.devRef .tc Cert.ReferenceIdeal.main_arg14))
    (h_add0 : (V (Proc.devRef .tc Cert.KernelIdeal.main_v34) : (⟨Cert.KernelIdeal.S1x20, .f32⟩ : BufTy).Contents (Elt F)) = V' (Proc.devRef .tc Cert.ReferenceIdeal.main_v34)) :
    ((after Cert.KernelIdeal.Gen.hostOps2_12 (after Cert.KernelIdeal.Gen.hostOps2_11 (after Cert.KernelIdeal.Gen.hostOps2_10 (after Cert.KernelIdeal.Gen.hostOps2_9 (after Cert.KernelIdeal.Gen.hostOps2_8 (after Cert.KernelIdeal.Gen.hostOps2_7 (after Cert.KernelIdeal.Gen.hostOps2_6 (after Cert.KernelIdeal.Gen.hostOps2_5 (after Cert.KernelIdeal.Gen.hostOps2_4 (after Cert.KernelIdeal.Gen.hostOps2_3 (after Cert.KernelIdeal.Gen.hostOps2_2 (after Cert.KernelIdeal.Gen.hostOps2_1 (after Cert.KernelIdeal.Gen.hostOps2 V)))))))))))) (Proc.devRef .tc Cert.KernelIdeal.main_v301) : (⟨Cert.KernelIdeal.S1x325, .f32⟩ : BufTy).Contents (Elt F))
        = after Cert.ReferenceIdeal.Blocks.rF3 (after Cert.ReferenceIdeal.Blocks.rF2 (after Cert.ReferenceIdeal.Blocks.rF1 V')) (Proc.devRef .tc Cert.ReferenceIdeal.main_v307))
    ∧ ((after Cert.KernelIdeal.Gen.hostOps2_12 (after Cert.KernelIdeal.Gen.hostOps2_11 (after Cert.KernelIdeal.Gen.hostOps2_10 (after Cert.KernelIdeal.Gen.hostOps2_9 (after Cert.KernelIdeal.Gen.hostOps2_8 (after Cert.KernelIdeal.Gen.hostOps2_7 (after Cert.KernelIdeal.Gen.hostOps2_6 (after Cert.KernelIdeal.Gen.hostOps2_5 (after Cert.KernelIdeal.Gen.hostOps2_4 (after Cert.KernelIdeal.Gen.hostOps2_3 (after Cert.KernelIdeal.Gen.hostOps2_2 (after Cert.KernelIdeal.Gen.hostOps2_1 (after Cert.KernelIdeal.Gen.hostOps2 V)))))))))))) (Proc.devRef .tc Cert.KernelIdeal.main_v311) : (⟨Cert.KernelIdeal.S1x20, .f32⟩ : BufTy).Contents (Elt F))
        = after Cert.ReferenceIdeal.Blocks.rF3 (after Cert.ReferenceIdeal.Blocks.rF2 (after Cert.ReferenceIdeal.Blocks.rF1 V')) (Proc.devRef .tc Cert.ReferenceIdeal.main_v317)) :=
  alu_same_named V V' _ _ _ _ _ _ _ _ _ _ _ _ _ _ rfl rfl rfl rfl rfl rfl rfl rfl rfl rfl rfl rfl rfl rfl
    h_readHead h_newReadHead h_zeta h_W15 h_b16 h_W17 h_b18 h_W19 h_b20 h_W21 h_b22 h_W23 h_b24 h_W25 h_b26 h_W27 h_b28 h_W29 h_b30 h_Wv h_bv h_add0

theorem wwCol_last (W : Valuation Cert.KernelIdeal.τ Cert.KernelIdeal.sig (Elt F)) :
    (after Cert.KernelIdeal.Gen.hostOps2_12 W (Proc.devRef .tc Cert.KernelIdeal.main_v312) : (⟨Cert.KernelIdeal.S1000000x1, .f32⟩ : BufTy).Contents (Elt F))
      = fun j => shapeCast Cert.KernelIdeal.S1000000x1 (W (Proc.devRef .tc Cert.KernelIdeal.main_v211) : (⟨Cert.KernelIdeal.S1x1000000, .f32⟩ : BufTy).Contents (Elt F))
          Cert.KernelIdeal.Gen.shapeCasts_S1x1000000_S1000000x1 j := by
  after_results_simp
  rfl

theorem wwCol_read (V : Valuation Cert.KernelIdeal.τ Cert.KernelIdeal.sig (Elt F)) (i : Fin 1000000) :
    (after Cert.KernelIdeal.Gen.hostOps2_12 (after Cert.KernelIdeal.Gen.hostOps2_11 (after Cert.KernelIdeal.Gen.hostOps2_10 (after Cert.KernelIdeal.Gen.hostOps2_9 (after Cert.KernelIdeal.Gen.hostOps2_8 (after Cert.KernelIdeal.Gen.hostOps2_7 (after Cert.KernelIdeal.Gen.hostOps2_6 (after Cert.KernelIdeal.Gen.hostOps2_5 (after Cert.KernelIdeal.Gen.hostOps2_4 (after Cert.KernelIdeal.Gen.hostOps2_3 (after Cert.KernelIdeal.Gen.hostOps2_2 (after Cert.KernelIdeal.Gen.hostOps2_1 (after Cert.KernelIdeal.Gen.hostOps2 V)))))))))))) (Proc.devRef .tc Cert.KernelIdeal.main_v312) : (⟨Cert.KernelIdeal.S1000000x1, .f32⟩ : BufTy).Contents (Elt F)) (ValueIdx.ix2 i (0 : Fin 1))
      = (V (Proc.devRef .tc Cert.KernelIdeal.main_v211) : (⟨Cert.KernelIdeal.S1x1000000, .f32⟩ : BufTy).Contents (Elt F)) (ValueIdx.ix2 (0 : Fin 1) i) := by
  refine (congrFun (wwCol_last _) _).trans ?_
  rw [kKeep11 _ Cert.KernelIdeal.main_v211 (by decide), kKeep10 _ Cert.KernelIdeal.main_v211 (by decide), kKeep9 _ Cert.KernelIdeal.main_v211 (by decide), kKeep8 _ Cert.KernelIdeal.main_v211 (by decide), kKeep7 _ Cert.KernelIdeal.main_v211 (by decide), kKeep6 _ Cert.KernelIdeal.main_v211 (by decide), kKeep5 _ Cert.KernelIdeal.main_v211 (by decide), kKeep4 _ Cert.KernelIdeal.main_v211 (by decide), kKeep3 _ Cert.KernelIdeal.main_v211 (by decide), kKeep2 _ Cert.KernelIdeal.main_v211 (by decide), kKeep1 _ Cert.KernelIdeal.main_v211 (by decide), kKeep0 _ Cert.KernelIdeal.main_v211 (by decide)]
  exact shapeCast_apply (s := Cert.KernelIdeal.S1x1000000) (t := Cert.KernelIdeal.S1000000x1) _ _ _ _ (by
    show ((⟨2, ![1, 1000000]⟩ : Shape).rowMajor (ValueIdx.ix2 (0 : Fin 1) i)).val
      = ((⟨2, ![1000000, 1]⟩ : Shape).rowMajor (ValueIdx.ix2 i (0 : Fin 1))).val
    rw [Shape.rowMajor_val_two, Shape.rowMajor_val_two]
    show (0 : Fin 1).val * 1000000 + i.val = i.val * 1 + (0 : Fin 1).val
    simp)

end Cert.Bridge

end
-- ==== Proof.Asm.Results.lean ====
/- From the second pass on, stage by stage, the two idealized programs hold the same arrays. -/
import proofs.«147285_j27152783245914_1_alg».proof.Proof.Asm.Setup
import proofs.«147285_j27152783245914_1_alg».proof.Proof.KI.Kept
import proofs.«147285_j27152783245914_1_alg».proof.Proof.KI.ReadValue
import proofs.«147285_j27152783245914_1_alg».proof.Proof.KI.UpdValue
import proofs.«147285_j27152783245914_1_alg».proof.Proof.Bridge.KeyShift
import proofs.«147285_j27152783245914_1_alg».proof.Proof.Bridge.RefFold
import proofs.«147285_j27152783245914_1_alg».proof.Proof.Bridge.ReadHeadRef
import proofs.«147285_j27152783245914_1_alg».proof.Proof.Bridge.UpdateRef
import proofs.«147285_j27152783245914_1_alg».proof.Proof.Bridge.AddressWrite
import proofs.«147285_j27152783245914_1_alg».proof.Proof.Bridge.Alu

set_option maxRecDepth 16384

noncomputable section

namespace Cert.Asm

open Idealize.ShloMosaic Idealize.ShloMosaic.TcCoe Idealize.SL.Sem Idealize.ShloMosaic.StableHlo Idealize.ShloMosaic.ValueIdx
open Cert.KernelIdeal.Hand Cert.Bridge

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

theorem weightedSum_congr {M M' : Fin 1000000 → Fin 20 → EReal} {w w' : Fin 1000000 → EReal}
    (hM : ∀ i j, M i j = M' i j) (hw : ∀ i, w i = w' i) (j : Fin 20) :
    Cert.Passes.weightedSum M w j = Cert.Passes.weightedSum M' w' j := by
  unfold Cert.Passes.weightedSum
  exact Finset.sum_congr rfl fun i _ => by rw [hM, hw]

theorem eraseAdd_congr {M M' : Fin 1000000 → Fin 20 → EReal} {w w' : Fin 1000000 → EReal} {e e' a a' : Fin 20 → EReal}
    (hM : ∀ i j, M i j = M' i j) (hw : ∀ i, w i = w' i) (he : ∀ j, e j = e' j) (ha : ∀ j, a j = a' j) (i : Fin 1000000) (j : Fin 20) :
    Cert.Passes.eraseAdd M w e a i j = Cert.Passes.eraseAdd M' w' e' a' i j := by
  unfold Cert.Passes.eraseAdd
  rw [hM, hw, he, ha]

theorem mem_at_read (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (W14 m ρ D0 c (Proc.devRef .tc Cert.KernelIdeal.main_arg3) : (⟨Cert.KernelIdeal.S1000000x20, .f32⟩ : BufTy).Contents (Elt Ideal)) = RD (refLaunch m' c) (Proc.devRef .tc Cert.ReferenceIdeal.main_arg3) :=
  (keep_arg3_0_14 m ρ D0 c).trans (h3.symm.trans (arg_RD (refLaunch m' c) Cert.ReferenceIdeal.main_arg3 (by decide)).symm)

theorem rw_at_read
    (hrw : (W12 m ρ D0 c (Proc.devRef .tc Cert.KernelIdeal.main_v154) : (⟨Cert.KernelIdeal.S1x1000000, .f32⟩ : BufTy).Contents (Elt Ideal)) = RB (refLaunch m' c) (Proc.devRef .tc Cert.ReferenceIdeal.main_v126))
    (i : Fin 1000000) :
    (W14 m ρ D0 c (Proc.devRef .tc Cert.KernelIdeal.main_v212) : (⟨Cert.KernelIdeal.S1000000x1, .f32⟩ : BufTy).Contents (Elt Ideal)) (ix2 i (0 : Fin 1))
      = (RD (refLaunch m' c) (Proc.devRef .tc Cert.ReferenceIdeal.main_v126) : (⟨Cert.ReferenceIdeal.S1x1000000, .f32⟩ : BufTy).Contents (Elt Ideal)) (ix2 (0 : Fin 1) i) :=
  ((rwCol_read (W12 m ρ D0 c) i).trans (congrFun hrw (ix2 (0 : Fin 1) i))).trans (congrFun (kept_v126_D (refLaunch m' c)).symm (ix2 (0 : Fin 1) i))

theorem stage_readHead (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hrw : (W12 m ρ D0 c (Proc.devRef .tc Cert.KernelIdeal.main_v154) : (⟨Cert.KernelIdeal.S1x1000000, .f32⟩ : BufTy).Contents (Elt Ideal)) = RB (refLaunch m' c) (Proc.devRef .tc Cert.ReferenceIdeal.main_v126)) :
    (W15 m ρ D0 D1 c (Proc.devRef .tc Cert.KernelIdeal.main_v213) : (⟨Cert.KernelIdeal.S1x20, .f32⟩ : BufTy).Contents (Elt Ideal)) = RE (refLaunch m' c) (Proc.devRef .tc Cert.ReferenceIdeal.main_v219) := by
  refine ext_row20 fun j => ?_
  have e1 : W15 m ρ D0 D1 c (Proc.devRef .tc Cert.KernelIdeal.main_v213) = (dat1 (V14 m ρ D0) c).arrAt 2 Cert.KernelIdeal.cfg1.N := W15_arr m ρ D0 D1 c 2
  rw [e1]
  refine (weightedSum_value (V14 m ρ D0) c j).trans ?_
  refine Eq.trans ?_ (readHead_ref (RD (refLaunch m' c)) j).symm
  exact weightedSum_congr (fun i j => congrFun (mem_at_read m ρ m' c h3) (ix2 i j)) (fun i => rw_at_read m ρ m' c hrw i) j

theorem arg4_at_out (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (W15 m ρ D0 D1 c (Proc.devRef .tc Cert.KernelIdeal.main_arg4) : (⟨Cert.KernelIdeal.S1x20, .f32⟩ : BufTy).Contents (Elt Ideal)) = RE (refLaunch m' c) (Proc.devRef .tc Cert.ReferenceIdeal.main_arg4) :=
  (keep_arg4_0_15 m ρ D0 D1 c).trans (h4.symm.trans (arg_RE (refLaunch m' c) Cert.ReferenceIdeal.main_arg4 (by decide)).symm)

theorem arg15_at_out (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    (W15 m ρ D0 D1 c (Proc.devRef .tc Cert.KernelIdeal.main_arg15) : (⟨Cert.KernelIdeal.S110x40, .f32⟩ : BufTy).Contents (Elt Ideal)) = RE (refLaunch m' c) (Proc.devRef .tc Cert.ReferenceIdeal.main_arg15) :=
  (keep_arg15_0_15 m ρ D0 D1 c).trans (h15.symm.trans (arg_RE (refLaunch m' c) Cert.ReferenceIdeal.main_arg15 (by decide)).symm)

theorem arg16_at_out (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    (W15 m ρ D0 D1 c (Proc.devRef .tc Cert.KernelIdeal.main_arg16) : (⟨Cert.KernelIdeal.S110, .f32⟩ : BufTy).Contents (Elt Ideal)) = RE (refLaunch m' c) (Proc.devRef .tc Cert.ReferenceIdeal.main_arg16) :=
  (keep_arg16_0_15 m ρ D0 D1 c).trans (h16.symm.trans (arg_RE (refLaunch m' c) Cert.ReferenceIdeal.main_arg16 (by decide)).symm)

theorem arg17_at_out (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (W15 m ρ D0 D1 c (Proc.devRef .tc Cert.KernelIdeal.main_arg17) : (⟨Cert.KernelIdeal.S190x110, .f32⟩ : BufTy).Contents (Elt Ideal)) = RE (refLaunch m' c) (Proc.devRef .tc Cert.ReferenceIdeal.main_arg17) :=
  (keep_arg17_0_15 m ρ D0 D1 c).trans (h17.symm.trans (arg_RE (refLaunch m' c) Cert.ReferenceIdeal.main_arg17 (by decide)).symm)

theorem arg18_at_out (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    (W15 m ρ D0 D1 c (Proc.devRef .tc Cert.KernelIdeal.main_arg18) : (⟨Cert.KernelIdeal.S190, .f32⟩ : BufTy).Contents (Elt Ideal)) = RE (refLaunch m' c) (Proc.devRef .tc Cert.ReferenceIdeal.main_arg18) :=
  (keep_arg18_0_15 m ρ D0 D1 c).trans (h18.symm.trans (arg_RE (refLaunch m' c) Cert.ReferenceIdeal.main_arg18 (by decide)).symm)

theorem arg19_at_out (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    (W15 m ρ D0 D1 c (Proc.devRef .tc Cert.KernelIdeal.main_arg19) : (⟨Cert.KernelIdeal.S270x190, .f32⟩ : BufTy).Contents (Elt Ideal)) = RE (refLaunch m' c) (Proc.devRef .tc Cert.ReferenceIdeal.main_arg19) :=
  (keep_arg19_0_15 m ρ D0 D1 c).trans (h19.symm.trans (arg_RE (refLaunch m' c) Cert.ReferenceIdeal.main_arg19 (by decide)).symm)

theorem arg20_at_out (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    (W15 m ρ D0 D1 c (Proc.devRef .tc Cert.KernelIdeal.main_arg20) : (⟨Cert.KernelIdeal.S270, .f32⟩ : BufTy).Contents (Elt Ideal)) = RE (refLaunch m' c) (Proc.devRef .tc Cert.ReferenceIdeal.main_arg20) :=
  (keep_arg20_0_15 m ρ D0 D1 c).trans (h20.symm.trans (arg_RE (refLaunch m' c) Cert.ReferenceIdeal.main_arg20 (by decide)).symm)

theorem arg21_at_out (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    (W15 m ρ D0 D1 c (Proc.devRef .tc Cert.KernelIdeal.main_arg21) : (⟨Cert.KernelIdeal.S325x270, .f32⟩ : BufTy).Contents (Elt Ideal)) = RE (refLaunch m' c) (Proc.devRef .tc Cert.ReferenceIdeal.main_arg21) :=
  (keep_arg21_0_15 m ρ D0 D1 c).trans (h21.symm.trans (arg_RE (refLaunch m' c) Cert.ReferenceIdeal.main_arg21 (by decide)).symm)

theorem arg22_at_out (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    (W15 m ρ D0 D1 c (Proc.devRef .tc Cert.KernelIdeal.main_arg22) : (⟨Cert.KernelIdeal.S325, .f32⟩ : BufTy).Contents (Elt Ideal)) = RE (refLaunch m' c) (Proc.devRef .tc Cert.ReferenceIdeal.main_arg22) :=
  (keep_arg22_0_15 m ρ D0 D1 c).trans (h22.symm.trans (arg_RE (refLaunch m' c) Cert.ReferenceIdeal.main_arg22 (by decide)).symm)

theorem arg23_at_out (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    (W15 m ρ D0 D1 c (Proc.devRef .tc Cert.KernelIdeal.main_arg23) : (⟨Cert.KernelIdeal.S110x40, .f32⟩ : BufTy).Contents (Elt Ideal)) = RE (refLaunch m' c) (Proc.devRef .tc Cert.ReferenceIdeal.main_arg23) :=
  (keep_arg23_0_15 m ρ D0 D1 c).trans (h23.symm.trans (arg_RE (refLaunch m' c) Cert.ReferenceIdeal.main_arg23 (by decide)).symm)

theorem arg24_at_out (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    (W15 m ρ D0 D1 c (Proc.devRef .tc Cert.KernelIdeal.main_arg24) : (⟨Cert.KernelIdeal.S110, .f32⟩ : BufTy).Contents (Elt Ideal)) = RE (refLaunch m' c) (Proc.devRef .tc Cert.ReferenceIdeal.main_arg24) :=
  (keep_arg24_0_15 m ρ D0 D1 c).trans (h24.symm.trans (arg_RE (refLaunch m' c) Cert.ReferenceIdeal.main_arg24 (by decide)).symm)

theorem arg25_at_out (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    (W15 m ρ D0 D1 c (Proc.devRef .tc Cert.KernelIdeal.main_arg25) : (⟨Cert.KernelIdeal.S190x110, .f32⟩ : BufTy).Contents (Elt Ideal)) = RE (refLaunch m' c) (Proc.devRef .tc Cert.ReferenceIdeal.main_arg25) :=
  (keep_arg25_0_15 m ρ D0 D1 c).trans (h25.symm.trans (arg_RE (refLaunch m' c) Cert.ReferenceIdeal.main_arg25 (by decide)).symm)

theorem arg26_at_out (h26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    (W15 m ρ D0 D1 c (Proc.devRef .tc Cert.KernelIdeal.main_arg26) : (⟨Cert.KernelIdeal.S190, .f32⟩ : BufTy).Contents (Elt Ideal)) = RE (refLaunch m' c) (Proc.devRef .tc Cert.ReferenceIdeal.main_arg26) :=
  (keep_arg26_0_15 m ρ D0 D1 c).trans (h26.symm.trans (arg_RE (refLaunch m' c) Cert.ReferenceIdeal.main_arg26 (by decide)).symm)

theorem arg27_at_out (h27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) :
    (W15 m ρ D0 D1 c (Proc.devRef .tc Cert.KernelIdeal.main_arg27) : (⟨Cert.KernelIdeal.S270x190, .f32⟩ : BufTy).Contents (Elt Ideal)) = RE (refLaunch m' c) (Proc.devRef .tc Cert.ReferenceIdeal.main_arg27) :=
  (keep_arg27_0_15 m ρ D0 D1 c).trans (h27.symm.trans (arg_RE (refLaunch m' c) Cert.ReferenceIdeal.main_arg27 (by decide)).symm)

theorem arg28_at_out (h28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) :
    (W15 m ρ D0 D1 c (Proc.devRef .tc Cert.KernelIdeal.main_arg28) : (⟨Cert.KernelIdeal.S270, .f32⟩ : BufTy).Contents (Elt Ideal)) = RE (refLaunch m' c) (Proc.devRef .tc Cert.ReferenceIdeal.main_arg28) :=
  (keep_arg28_0_15 m ρ D0 D1 c).trans (h28.symm.trans (arg_RE (refLaunch m' c) Cert.ReferenceIdeal.main_arg28 (by decide)).symm)

theorem arg29_at_out (h29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) :
    (W15 m ρ D0 D1 c (Proc.devRef .tc Cert.KernelIdeal.main_arg29) : (⟨Cert.KernelIdeal.S325x270, .f32⟩ : BufTy).Contents (Elt Ideal)) = RE (refLaunch m' c) (Proc.devRef .tc Cert.ReferenceIdeal.main_arg29) :=
  (keep_arg29_0_15 m ρ D0 D1 c).trans (h29.symm.trans (arg_RE (refLaunch m' c) Cert.ReferenceIdeal.main_arg29 (by decide)).symm)

theorem arg30_at_out (h30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    (W15 m ρ D0 D1 c (Proc.devRef .tc Cert.KernelIdeal.main_arg30) : (⟨Cert.KernelIdeal.S325, .f32⟩ : BufTy).Contents (Elt Ideal)) = RE (refLaunch m' c) (Proc.devRef .tc Cert.ReferenceIdeal.main_arg30) :=
  (keep_arg30_0_15 m ρ D0 D1 c).trans (h30.symm.trans (arg_RE (refLaunch m' c) Cert.ReferenceIdeal.main_arg30 (by decide)).symm)

theorem arg13_at_out (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    (W15 m ρ D0 D1 c (Proc.devRef .tc Cert.KernelIdeal.main_arg13) : (⟨Cert.KernelIdeal.S20x325, .f32⟩ : BufTy).Contents (Elt Ideal)) = RE (refLaunch m' c) (Proc.devRef .tc Cert.ReferenceIdeal.main_arg13) :=
  (keep_arg13_0_15 m ρ D0 D1 c).trans (h13.symm.trans (arg_RE (refLaunch m' c) Cert.ReferenceIdeal.main_arg13 (by decide)).symm)

theorem arg14_at_out (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    (W15 m ρ D0 D1 c (Proc.devRef .tc Cert.KernelIdeal.main_arg14) : (⟨Cert.KernelIdeal.S20, .f32⟩ : BufTy).Contents (Elt Ideal)) = RE (refLaunch m' c) (Proc.devRef .tc Cert.ReferenceIdeal.main_arg14) :=
  (keep_arg14_0_15 m ρ D0 D1 c).trans (h14.symm.trans (arg_RE (refLaunch m' c) Cert.ReferenceIdeal.main_arg14 (by decide)).symm)

theorem stage_out (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (h27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (h28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (h29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (h30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30))
    (hzeta : (W4 m ρ c (Proc.devRef .tc Cert.KernelIdeal.main_v15) : (⟨Cert.KernelIdeal.S1x3, .f32⟩ : BufTy).Contents (Elt Ideal)) = RA (refLaunch m' c) (Proc.devRef .tc Cert.ReferenceIdeal.main_v15))
    (hadd0 : (W4 m ρ c (Proc.devRef .tc Cert.KernelIdeal.main_v34) : (⟨Cert.KernelIdeal.S1x20, .f32⟩ : BufTy).Contents (Elt Ideal)) = RA (refLaunch m' c) (Proc.devRef .tc Cert.ReferenceIdeal.main_v34))
    (hrh : (W15 m ρ D0 D1 c (Proc.devRef .tc Cert.KernelIdeal.main_v213) : (⟨Cert.KernelIdeal.S1x20, .f32⟩ : BufTy).Contents (Elt Ideal)) = RE (refLaunch m' c) (Proc.devRef .tc Cert.ReferenceIdeal.main_v219)) :
    ((W28 m ρ D0 D1 c (Proc.devRef .tc Cert.KernelIdeal.main_v301) : (⟨Cert.KernelIdeal.S1x325, .f32⟩ : BufTy).Contents (Elt Ideal)) = RF (refLaunch m' c) (Proc.devRef .tc Cert.ReferenceIdeal.main_v307))
    ∧ ((W28 m ρ D0 D1 c (Proc.devRef .tc Cert.KernelIdeal.main_v311) : (⟨Cert.KernelIdeal.S1x20, .f32⟩ : BufTy).Contents (Elt Ideal)) = RF (refLaunch m' c) (Proc.devRef .tc Cert.ReferenceIdeal.main_v317)) :=
  alu_same (W15 m ρ D0 D1 c) (RE (refLaunch m' c))
    (arg4_at_out m ρ m' c h4) hrh
    ((keep_v15_4_15 m ρ D0 D1 c).trans (hzeta.trans (kept_v15_E (refLaunch m' c)).symm))
    (arg15_at_out m ρ m' c h15) (arg16_at_out m ρ m' c h16) (arg17_at_out m ρ m' c h17) (arg18_at_out m ρ m' c h18) (arg19_at_out m ρ m' c h19) (arg20_at_out m ρ m' c h20) (arg21_at_out m ρ m' c h21) (arg22_at_out m ρ m' c h22) (arg23_at_out m ρ m' c h23) (arg24_at_out m ρ m' c h24) (arg25_at_out m ρ m' c h25) (arg26_at_out m ρ m' c h26) (arg27_at_out m ρ m' c h27) (arg28_at_out m ρ m' c h28) (arg29_at_out m ρ m' c h29) (arg30_at_out m ρ m' c h30) (arg13_at_out m ρ m' c h13) (arg14_at_out m ρ m' c h14)
    ((keep_v34_4_15 m ρ D0 D1 c).trans (hadd0.trans (kept_v34_E (refLaunch m' c)).symm))

theorem mem_at_update (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (W28 m ρ D0 D1 c (Proc.devRef .tc Cert.KernelIdeal.main_arg3) : (⟨Cert.KernelIdeal.S1000000x20, .f32⟩ : BufTy).Contents (Elt Ideal)) = RF (refLaunch m' c) (Proc.devRef .tc Cert.ReferenceIdeal.main_arg3) :=
  (keep_arg3_0_28 m ρ D0 D1 c).trans (h3.symm.trans (arg_RF (refLaunch m' c) Cert.ReferenceIdeal.main_arg3 (by decide)).symm)

theorem ww_at_update
    (hww : (W14 m ρ D0 c (Proc.devRef .tc Cert.KernelIdeal.main_v211) : (⟨Cert.KernelIdeal.S1x1000000, .f32⟩ : BufTy).Contents (Elt Ideal)) = RD (refLaunch m' c) (Proc.devRef .tc Cert.ReferenceIdeal.main_v218))
    (i : Fin 1000000) :
    (W28 m ρ D0 D1 c (Proc.devRef .tc Cert.KernelIdeal.main_v312) : (⟨Cert.KernelIdeal.S1000000x1, .f32⟩ : BufTy).Contents (Elt Ideal)) (ix2 i (0 : Fin 1))
      = (RF (refLaunch m' c) (Proc.devRef .tc Cert.ReferenceIdeal.main_v218) : (⟨Cert.ReferenceIdeal.S1x1000000, .f32⟩ : BufTy).Contents (Elt Ideal)) (ix2 (0 : Fin 1) i) :=
  ((wwCol_read (W15 m ρ D0 D1 c) i).trans (congrFun ((keep_v211_14_15 m ρ D0 D1 c).trans hww) (ix2 (0 : Fin 1) i))).trans
    (congrFun (kept_v218_F (refLaunch m' c)).symm (ix2 (0 : Fin 1) i))

theorem stage_memory (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hww : (W14 m ρ D0 c (Proc.devRef .tc Cert.KernelIdeal.main_v211) : (⟨Cert.KernelIdeal.S1x1000000, .f32⟩ : BufTy).Contents (Elt Ideal)) = RD (refLaunch m' c) (Proc.devRef .tc Cert.ReferenceIdeal.main_v218))
    (herase : (W4 m ρ c (Proc.devRef .tc Cert.KernelIdeal.main_v30) : (⟨Cert.KernelIdeal.S1x20, .f32⟩ : BufTy).Contents (Elt Ideal)) = RA (refLaunch m' c) (Proc.devRef .tc Cert.ReferenceIdeal.main_v30))
    (hadd : (W28 m ρ D0 D1 c (Proc.devRef .tc Cert.KernelIdeal.main_v311) : (⟨Cert.KernelIdeal.S1x20, .f32⟩ : BufTy).Contents (Elt Ideal)) = RF (refLaunch m' c) (Proc.devRef .tc Cert.ReferenceIdeal.main_v317)) :
    (W29 m ρ D0 D1 D2 c (Proc.devRef .tc Cert.KernelIdeal.main_v313) : (⟨Cert.KernelIdeal.S1000000x20, .f32⟩ : BufTy).Contents (Elt Ideal)) = RG (refLaunch m' c) (Proc.devRef .tc Cert.ReferenceIdeal.main_v325) := by
  refine ext_matrix fun i j => ?_
  have e1 : W29 m ρ D0 D1 D2 c (Proc.devRef .tc Cert.KernelIdeal.main_v313) = (dat2 (V28 m ρ D0 D1) c).arrAt 4 Cert.KernelIdeal.cfg2.N := W29_arr m ρ D0 D1 D2 c 4
  rw [e1]
  refine (eraseAdd_value (V28 m ρ D0 D1) c i j).trans ?_
  refine Eq.trans ?_ (update_ref (RF (refLaunch m' c)) i j).symm
  exact eraseAdd_congr (fun i j => congrFun (mem_at_update m ρ m' c h3) (ix2 i j)) (fun i => ww_at_update m ρ m' c hww i)
    (fun j => congrFun ((keep_v30_4_28 m ρ D0 D1 c).trans (herase.trans (kept_v30_F (refLaunch m' c)).symm)) (ix2 (0 : Fin 1) j))
    (fun j => congrFun hadd (ix2 (0 : Fin 1) j)) i j

theorem result_out
    (h : (W28 m ρ D0 D1 c (Proc.devRef .tc Cert.KernelIdeal.main_v301) : (⟨Cert.KernelIdeal.S1x325, .f32⟩ : BufTy).Contents (Elt Ideal)) = RF (refLaunch m' c) (Proc.devRef .tc Cert.ReferenceIdeal.main_v307)) :
    (W29 m ρ D0 D1 D2 c (Proc.devRef .tc Cert.KernelIdeal.main_v301) : (⟨Cert.KernelIdeal.S1x325, .f32⟩ : BufTy).Contents (Elt Ideal)) = RG (refLaunch m' c) (Proc.devRef .tc Cert.ReferenceIdeal.main_v307) :=
  (keep_v301_28_29 m ρ D0 D1 D2 c).trans (h.trans (kept_v307_G (refLaunch m' c)).symm)

theorem result_rw
    (hrw : (W12 m ρ D0 c (Proc.devRef .tc Cert.KernelIdeal.main_v154) : (⟨Cert.KernelIdeal.S1x1000000, .f32⟩ : BufTy).Contents (Elt Ideal)) = RB (refLaunch m' c) (Proc.devRef .tc Cert.ReferenceIdeal.main_v126)) :
    (W29 m ρ D0 D1 D2 c (Proc.devRef .tc Cert.KernelIdeal.main_v154) : (⟨Cert.KernelIdeal.S1x1000000, .f32⟩ : BufTy).Contents (Elt Ideal)) = RG (refLaunch m' c) (Proc.devRef .tc Cert.ReferenceIdeal.main_v126) :=
  (keep_v154_12_29 m ρ D0 D1 D2 c).trans (hrw.trans (kept_v126_G (refLaunch m' c)).symm)

theorem result_ww
    (hww : (W14 m ρ D0 c (Proc.devRef .tc Cert.KernelIdeal.main_v211) : (⟨Cert.KernelIdeal.S1x1000000, .f32⟩ : BufTy).Contents (Elt Ideal)) = RD (refLaunch m' c) (Proc.devRef .tc Cert.ReferenceIdeal.main_v218)) :
    (W29 m ρ D0 D1 D2 c (Proc.devRef .tc Cert.KernelIdeal.main_v211) : (⟨Cert.KernelIdeal.S1x1000000, .f32⟩ : BufTy).Contents (Elt Ideal)) = RG (refLaunch m' c) (Proc.devRef .tc Cert.ReferenceIdeal.main_v218) :=
  (keep_v211_14_29 m ρ D0 D1 D2 c).trans (hww.trans (kept_v218_G (refLaunch m' c)).symm)

theorem result_head
    (hrh : (W15 m ρ D0 D1 c (Proc.devRef .tc Cert.KernelIdeal.main_v213) : (⟨Cert.KernelIdeal.S1x20, .f32⟩ : BufTy).Contents (Elt Ideal)) = RE (refLaunch m' c) (Proc.devRef .tc Cert.ReferenceIdeal.main_v219)) :
    (W29 m ρ D0 D1 D2 c (Proc.devRef .tc Cert.KernelIdeal.main_v213) : (⟨Cert.KernelIdeal.S1x20, .f32⟩ : BufTy).Contents (Elt Ideal)) = RG (refLaunch m' c) (Proc.devRef .tc Cert.ReferenceIdeal.main_v219) :=
  (keep_v213_15_29 m ρ D0 D1 D2 c).trans (hrh.trans (kept_v219_G (refLaunch m' c)).symm)

end Cert.Asm

end
-- ==== Proof.lean ====
/- The five conjuncts. The frames: @main is a chain of host stretches and kernel regions over a fold of buffer valuations, and
   no item writes an argument; the reference is a straight line of host operations. The idealization's ledger is empty. Over the
   extended reals the two programs compute the same five results: the kernels' arrays are sums regrouped by tiles, the host code
   is the same operations up to the columns the kernel program uses where the reference uses vectors. -/
import proofs.«147285_j27152783245914_1_alg».proof.Defs
import proofs.«147285_j27152783245914_1_alg».proof.Proof.Gen.Kernel
import proofs.«147285_j27152783245914_1_alg».proof.Proof.Gen.KernelIdeal
import proofs.«147285_j27152783245914_1_alg».proof.Proof.Gen.ReferenceIdeal
import proofs.«147285_j27152783245914_1_alg».proof.Proof.Gen.Pre_finite_inputs
import proofs.«147285_j27152783245914_1_alg».proof.Proof.K.Frame
import proofs.«147285_j27152783245914_1_alg».proof.Proof.KI.Frame
import proofs.«147285_j27152783245914_1_alg».proof.Proof.Ref.Run
import proofs.«147285_j27152783245914_1_alg».proof.Proof.Asm.Weights
import proofs.«147285_j27152783245914_1_alg».proof.Proof.Asm.Results
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo
theorem frame_kernel : Cert.frame_Kernel := fun m ρ _ => (θ_run _ _ _).mono
  (fun r h c => by and_intros <;> exact h c _ (by decide)) (Cert.Kernel.Hand.frame m ρ)
theorem frame_kernelIdeal : Cert.frame_KernelIdeal := fun m ρ _ => (θ_run _ _ _).mono
  (fun r h c => by and_intros <;> exact h c _ (by decide)) (Cert.KernelIdeal.Hand.frame m ρ)
theorem frame_reference : Cert.frame_ReferenceIdeal := fun m ρ _ => Cert.ReferenceIdeal.Hand.frame m ρ

set_option maxHeartbeats 4000000 in
theorem algebraic : Cert.algebraic_KernelIdeal_ReferenceIdeal := by
  intro m g m' g' _ hagree
  refine ⟨fun c => Cert.KernelIdeal.Hand.W29 m g Cert.Asm.D0 Cert.Asm.D1 Cert.Asm.D2 c (Proc.devRef .tc Cert.KernelIdeal.main_v301),
    fun c => Cert.KernelIdeal.Hand.W29 m g Cert.Asm.D0 Cert.Asm.D1 Cert.Asm.D2 c (Proc.devRef .tc Cert.KernelIdeal.main_v154),
    fun c => Cert.KernelIdeal.Hand.W29 m g Cert.Asm.D0 Cert.Asm.D1 Cert.Asm.D2 c (Proc.devRef .tc Cert.KernelIdeal.main_v211),
    fun c => Cert.KernelIdeal.Hand.W29 m g Cert.Asm.D0 Cert.Asm.D1 Cert.Asm.D2 c (Proc.devRef .tc Cert.KernelIdeal.main_v313),
    fun c => Cert.KernelIdeal.Hand.W29 m g Cert.Asm.D0 Cert.Asm.D1 Cert.Asm.D2 c (Proc.devRef .tc Cert.KernelIdeal.main_v213), ?_, ?_⟩
  · exact (θ_run _ _ _).mono (fun r h c =>
      ⟨h c _ (Cert.KernelIdeal.Hand.mem_uc Cert.KernelIdeal.main_v301 (by decide)),
       h c _ (Cert.KernelIdeal.Hand.mem_uc Cert.KernelIdeal.main_v154 (by decide)),
       h c _ (Cert.KernelIdeal.Hand.mem_uc Cert.KernelIdeal.main_v211 (by decide)),
       h c _ (Cert.KernelIdeal.Hand.mem_uc Cert.KernelIdeal.main_v313 (by decide)),
       h c _ (Cert.KernelIdeal.Hand.mem_uc Cert.KernelIdeal.main_v213 (by decide)),
       by and_intros <;> exact (h c _ (Cert.KernelIdeal.Hand.mem_uc _ (by decide))).trans (Cert.KernelIdeal.Hand.W29_arg m g Cert.Asm.D0 Cert.Asm.D1 Cert.Asm.D2 c _ (by decide))⟩)
      (Cert.KernelIdeal.Hand.run_main m g Cert.Asm.D0 Cert.Asm.D1 Cert.Asm.D2)
  · refine (θ_run _ _ _).mono (fun r h c => ?_) (Cert.ReferenceIdeal.Hand.run m' g')
    obtain ⟨h0, h1, h2, h3, h4, h5, h6, h7, h8, h9, h10, h11, h12, h13, h14, h15, h16, h17, h18, h19, h20, h21, h22, h23, h24, h25, h26, h27, h28, h29, h30⟩ := hagree c
    have fin : ∀ b : Ref Cert.ReferenceIdeal.sig .tc, r.2.mem ((c.tc : Thread Cert.ReferenceIdeal.nD Cert.ReferenceIdeal.τ).loc b) = Cert.Bridge.RG (Cert.Asm.refLaunch m' c) (Proc.devRef .tc b) :=
      fun b => (h c b).trans (congrFun (Cert.Bridge.ops_fold _) _)
    have e15 := Cert.Asm.ctrl_v15 m g m' c h0 h5 h6 h7 h8 h11 h12
    have e30 := Cert.Asm.ctrl_v30 m g m' c h0 h5 h6 h7 h8 h9 h10
    have e34 := Cert.Asm.ctrl_v34 m g m' c h0 h5 h6 h7 h8 h9 h10
    have erw := Cert.Asm.stage_rw m g m' c h0 h1 h3 h5 h6 h7 h8 h9 h10
    have eww := Cert.Asm.stage_ww m g m' c h0 h2 h3 h5 h6 h7 h8 h9 h10
    have erh := Cert.Asm.stage_readHead m g m' c h3 erw
    have eoa := Cert.Asm.stage_out m g m' c h4 h13 h14 h15 h16 h17 h18 h19 h20 h21 h22 h23 h24 h25 h26 h27 h28 h29 h30 e15 e34 erh
    have emem := Cert.Asm.stage_memory m g m' c h3 eww e30 eoa.2
    exact ⟨(fin _).trans (Cert.Asm.result_out m g m' c eoa.1).symm,
      (fin _).trans (Cert.Asm.result_rw m g m' c erw).symm,
      (fin _).trans (Cert.Asm.result_ww m g m' c eww).symm,
      (fin _).trans emem.symm,
      (fin _).trans (Cert.Asm.result_head m g m' c erh).symm,
      by and_intros <;> exact (h c _).trans (Cert.ReferenceIdeal.Hand.arg_kept _ _ (by decide))⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
